-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v174)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v174) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg27 : FVec F S1 .f32) (main_v118 : IVec S_ 1) (main_v119 : FVec F S64x1 .f32) : IVec S_ 1 :=
  let main_cst_46 : FVec F S_ .f32 := constant S_ .f32 0x7F800000#32
  let main_v120 : FVec F S64x1 .f32 := broadcastInDim S64x1 ![] bcast_S_S64x1 main_cst_46
  let main_v121 : IVec S64x1 1 := cmpf .olt main_v119 main_v120
  let main_c_47 : IVec S_ 1 := constantI S_ 1 1#1
  let main_v122 : IVec S_ 1 := (fun x v => Host.reduce IntOp.andi x v reducesTo_S64x1_S_d0_1 h_S_) main_v121 main_c_47
  let main_v123 : IVec S_ 1 := andi main_v118 main_v122
  let main_v124 : FVec F S1 .f32 := Host.absf main_arg27
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  main_v128

def fn_part6 {F : FTy → Type} [FloatOps F] (main_arg23 : FVec F S128 .f32) (main_arg24 : FVec F S128x64 .f32) (main_arg25 : FVec F S64 .f32) (main_arg26 : FVec F S64x1 .f32) (main_arg27 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x64 .f32 := Host.absf main_arg24
  let main_cst_42 : FVec F S_ .f32 := constant S_ .f32 0x7F800000#32
  let main_v110 : FVec F S128x64 .f32 := broadcastInDim S128x64 ![] bcast_S_S128x64 main_cst_42
  let main_v111 : IVec S128x64 1 := cmpf .olt main_v109 main_v110
  let main_c_43 : IVec S_ 1 := constantI S_ 1 1#1
  let main_v112 : IVec S_ 1 := (fun x v => Host.reduce IntOp.andi x v reducesTo_S128x64_S_d0_1 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x1 .f32 := Host.absf main_arg26
  fn_part7 (F := F) main_arg27 main_v118 main_v119

def fn_part5 {F : FTy → Type} [FloatOps F] (main_arg20 : FVec F S64x128 .f32) (main_arg21 : FVec F S128 .f32) (main_arg22 : FVec F S128 .f32) (main_arg23 : FVec F S128 .f32) (main_arg24 : FVec F S128x64 .f32) (main_arg25 : FVec F S64 .f32) (main_arg26 : FVec F S64x1 .f32) (main_arg27 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x128 .f32 := Host.absf main_arg20
  let main_cst_34 : FVec F S_ .f32 := constant S_ .f32 0x7F800000#32
  let main_v90 : FVec F S64x128 .f32 := broadcastInDim S64x128 ![] bcast_S_S64x128 main_cst_34
  let main_v91 : IVec S64x128 1 := cmpf .olt main_v89 main_v90
  let main_c_35 : IVec S_ 1 := constantI S_ 1 1#1
  let main_v92 : IVec S_ 1 := (fun x v => Host.reduce IntOp.andi x v reducesTo_S64x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_v98 main_v101 main_c_39

def fn_part4 {F : FTy → Type} [FloatOps F] (main_arg16 : FVec F S64x64 .f32) (main_arg17 : FVec F S64 .f32) (main_arg18 : FVec F S64 .f32) (main_arg19 : FVec F S64 .f32) (main_arg20 : FVec F S64x128 .f32) (main_arg21 : FVec F S128 .f32) (main_arg22 : FVec F S128 .f32) (main_arg23 : FVec F S128 .f32) (main_arg24 : FVec F S128x64 .f32) (main_arg25 : FVec F S64 .f32) (main_arg26 : FVec F S64x1 .f32) (main_arg27 : FVec F S1 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_arg25 main_arg26 main_arg27 main_v83 main_v84 main_cst_32

def fn_part3 {F : FTy → Type} [FloatOps F] (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64x128 .f32) (main_arg21 : FVec F S128 .f32) (main_arg22 : FVec F S128 .f32) (main_arg23 : FVec F S128 .f32) (main_arg24 : FVec F S128x64 .f32) (main_arg25 : FVec F S64 .f32) (main_arg26 : FVec F S64x1 .f32) (main_arg27 : FVec F S1 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_arg24 main_arg25 main_arg26 main_arg27 main_v63 main_v67

def fn_part2 {F : FTy → Type} [FloatOps F] (main_arg9 : FVec F S32 .f32) (main_arg10 : FVec F S32 .f32) (main_arg11 : FVec F S32 .f32) (main_arg12 : FVec F S32x64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64x128 .f32) (main_arg21 : FVec F S128 .f32) (main_arg22 : FVec F S128 .f32) (main_arg23 : FVec F S128 .f32) (main_arg24 : FVec F S128x64 .f32) (main_arg25 : FVec F S64 .f32) (main_arg26 : FVec F S64x1 .f32) (main_arg27 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x64 .f32 := Host.absf main_arg12
  let main_cst_18 : FVec F S_ .f32 := constant S_ .f32 0x7F800000#32
  let main_v50 : FVec F S32x64 .f32 := broadcastInDim S32x64 ![] bcast_S_S32x64 main_cst_18
  fn_part3 (F := F) main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg6 : FVec F S16 .f32) (main_arg7 : FVec F S16 .f32) (main_arg8 : FVec F S16x32 .f32) (main_arg9 : FVec F S32 .f32) (main_arg10 : FVec F S32 .f32) (main_arg11 : FVec F S32 .f32) (main_arg12 : FVec F S32x64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64x128 .f32) (main_arg21 : FVec F S128 .f32) (main_arg22 : FVec F S128 .f32) (main_arg23 : FVec F S128 .f32) (main_arg24 : FVec F S128x64 .f32) (main_arg25 : FVec F S64 .f32) (main_arg26 : FVec F S64x1 .f32) (main_arg27 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x32 .f32 := Host.absf main_arg8
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S50000x128 .f32) (main_arg1 : IVec S2x800000 32) (main_arg2 : FVec F S800000 .f32) (main_arg3 : IVec S50000 32) (main_arg4 : FVec F S128x16 .f32) (main_arg5 : FVec F S16 .f32) (main_arg6 : FVec F S16 .f32) (main_arg7 : FVec F S16 .f32) (main_arg8 : FVec F S16x32 .f32) (main_arg9 : FVec F S32 .f32) (main_arg10 : FVec F S32 .f32) (main_arg11 : FVec F S32 .f32) (main_arg12 : FVec F S32x64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64x128 .f32) (main_arg21 : FVec F S128 .f32) (main_arg22 : FVec F S128 .f32) (main_arg23 : FVec F S128 .f32) (main_arg24 : FVec F S128x64 .f32) (main_arg25 : FVec F S64 .f32) (main_arg26 : FVec F S64x1 .f32) (main_arg27 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x16 : Shape := ⟨2, ![50000, 16]⟩
abbrev S10000x128 : Shape := ⟨2, ![10000, 128]⟩
abbrev S10000x16 : Shape := ⟨2, ![10000, 16]⟩
abbrev S850000x16 : Shape := ⟨2, ![850000, 16]⟩
abbrev S1x16 : Shape := ⟨2, ![1, 16]⟩
abbrev S50000x32 : Shape := ⟨2, ![50000, 32]⟩
abbrev S10000x32 : Shape := ⟨2, ![10000, 32]⟩
abbrev S850000x32 : Shape := ⟨2, ![850000, 32]⟩
abbrev S1x32 : Shape := ⟨2, ![1, 32]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩
abbrev S1x50000 : Shape := ⟨2, ![1, 50000]⟩
abbrev S256x128 : Shape := ⟨2, ![256, 128]⟩
abbrev S1x10000 : Shape := ⟨2, ![1, 10000]⟩
abbrev S256x1 : Shape := ⟨2, ![256, 1]⟩
abbrev S256x10000 : Shape := ⟨2, ![256, 10000]⟩
abbrev S1x1 : Shape := ⟨2, ![1, 1]⟩
abbrev S256x64 : Shape := ⟨2, ![256, 64]⟩
abbrev S256 : Shape := ⟨1, ![256]⟩

abbrev nBuf : Space → Nat
  | .hbm => 244
  | .vmem => 95
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x16, .f32⟩
  | 5 => ⟨S16, .f32⟩
  | 6 => ⟨S16, .f32⟩
  | 7 => ⟨S16, .f32⟩
  | 8 => ⟨S16x32, .f32⟩
  | 9 => ⟨S32, .f32⟩
  | 10 => ⟨S32, .f32⟩
  | 11 => ⟨S32, .f32⟩
  | 12 => ⟨S32x64, .f32⟩
  | 13 => ⟨S64, .f32⟩
  | 14 => ⟨S64, .f32⟩
  | 15 => ⟨S64, .f32⟩
  | 16 => ⟨S64x64, .f32⟩
  | 17 => ⟨S64, .f32⟩
  | 18 => ⟨S64, .f32⟩
  | 19 => ⟨S64, .f32⟩
  | 20 => ⟨S64x128, .f32⟩
  | 21 => ⟨S128, .f32⟩
  | 22 => ⟨S128, .f32⟩
  | 23 => ⟨S128, .f32⟩
  | 24 => ⟨S128x64, .f32⟩
  | 25 => ⟨S64, .f32⟩
  | 26 => ⟨S64x1, .f32⟩
  | 27 => ⟨S1, .f32⟩
  | 28 => ⟨S50000, .i32⟩
  | 29 => ⟨S1x800000, .i32⟩
  | 30 => ⟨S800000, .i32⟩
  | 31 => ⟨S850000, .i32⟩
  | 32 => ⟨S1x800000, .i32⟩
  | 33 => ⟨S800000, .i32⟩
  | 34 => ⟨S850000, .i32⟩
  | 35 => ⟨S_, .f32⟩
  | 36 => ⟨S50000, .f32⟩
  | 37 => ⟨S850000, .f32⟩
  | 38 => ⟨S_, .f32⟩
  | 39 => ⟨S50000, .f32⟩
  | 40 => ⟨S850000x1, .i32⟩
  | 41 => ⟨S50000, .f32⟩
  | 42 => ⟨S_, .f32⟩
  | 43 => ⟨S50000, .f32⟩
  | 44 => ⟨S50000, .i1⟩
  | 45 => ⟨S_, .f32⟩
  | 46 => ⟨S50000, .f32⟩
  | 47 => ⟨S50000, .f32⟩
  | 48 => ⟨S50000, .f32⟩
  | 49 => ⟨S_, .f32⟩
  | 50 => ⟨S_, .f32⟩
  | 51 => ⟨S50000, .f32⟩
  | 52 => ⟨S50000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S850000, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000, .f32⟩
  | 72 => ⟨S850000, .f32⟩
  | 73 => ⟨S50000x16, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x16, .f32⟩
  | 83 => ⟨S850000x1, .f32⟩
  | 84 => ⟨S850000x16, .f32⟩
  | 85 => ⟨S850000x16, .f32⟩
  | 86 => ⟨S_, .f32⟩
  | 87 => ⟨S50000x16, .f32⟩
  | 88 => ⟨S850000x1, .i32⟩
  | 89 => ⟨S50000x16, .f32⟩
  | 90 => ⟨S1x16, .f32⟩
  | 91 => ⟨S50000x16, .f32⟩
  | 92 => ⟨S50000x16, .f32⟩
  | 93 => ⟨S1x16, .f32⟩
  | 94 => ⟨S1x16, .f32⟩
  | 95 => ⟨S_, .f32⟩
  | 96 => ⟨S1x16, .f32⟩
  | 97 => ⟨S1x16, .f32⟩
  | 98 => ⟨S_, .f32⟩
  | 99 => ⟨S1x16, .f32⟩
  | 100 => ⟨S1x16, .f32⟩
  | 101 => ⟨S1x16, .f32⟩
  | 102 => ⟨S1x16, .f32⟩
  | 103 => ⟨S1x16, .f32⟩
  | 104 => ⟨S1x16, .f32⟩
  | 105 => ⟨S50000x16, .f32⟩
  | 106 => ⟨S50000x32, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x32, .f32⟩
  | 116 => ⟨S850000x1, .f32⟩
  | 117 => ⟨S850000x32, .f32⟩
  | 118 => ⟨S850000x32, .f32⟩
  | 119 => ⟨S_, .f32⟩
  | 120 => ⟨S50000x32, .f32⟩
  | 121 => ⟨S850000x1, .i32⟩
  | 122 => ⟨S50000x32, .f32⟩
  | 123 => ⟨S1x32, .f32⟩
  | 124 => ⟨S50000x32, .f32⟩
  | 125 => ⟨S50000x32, .f32⟩
  | 126 => ⟨S1x32, .f32⟩
  | 127 => ⟨S1x32, .f32⟩
  | _ => ⟨S50000x128, .f32⟩

abbrev hbmTy0_1 (i : Nat) : BufTy := match i % 128 with
  | 0 => ⟨S_, .f32⟩
  | 1 => ⟨S1x32, .f32⟩
  | 2 => ⟨S1x32, .f32⟩
  | 3 => ⟨S_, .f32⟩
  | 4 => ⟨S1x32, .f32⟩
  | 5 => ⟨S1x32, .f32⟩
  | 6 => ⟨S1x32, .f32⟩
  | 7 => ⟨S1x32, .f32⟩
  | 8 => ⟨S1x32, .f32⟩
  | 9 => ⟨S1x32, .f32⟩
  | 10 => ⟨S50000x32, .f32⟩
  | 11 => ⟨S50000x64, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000x64, .f32⟩
  | 21 => ⟨S850000x1, .f32⟩
  | 22 => ⟨S850000x64, .f32⟩
  | 23 => ⟨S850000x64, .f32⟩
  | 24 => ⟨S_, .f32⟩
  | 25 => ⟨S50000x64, .f32⟩
  | 26 => ⟨S850000x1, .i32⟩
  | 27 => ⟨S50000x64, .f32⟩
  | 28 => ⟨S1x64, .f32⟩
  | 29 => ⟨S50000x64, .f32⟩
  | 30 => ⟨S50000x64, .f32⟩
  | 31 => ⟨S1x64, .f32⟩
  | 32 => ⟨S1x64, .f32⟩
  | 33 => ⟨S_, .f32⟩
  | 34 => ⟨S1x64, .f32⟩
  | 35 => ⟨S1x64, .f32⟩
  | 36 => ⟨S_, .f32⟩
  | 37 => ⟨S1x64, .f32⟩
  | 38 => ⟨S1x64, .f32⟩
  | 39 => ⟨S1x64, .f32⟩
  | 40 => ⟨S1x64, .f32⟩
  | 41 => ⟨S1x64, .f32⟩
  | 42 => ⟨S1x64, .f32⟩
  | 43 => ⟨S50000x64, .f32⟩
  | 44 => ⟨S50000x64, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x64, .f32⟩
  | 54 => ⟨S850000x1, .f32⟩
  | 55 => ⟨S850000x64, .f32⟩
  | 56 => ⟨S850000x64, .f32⟩
  | 57 => ⟨S_, .f32⟩
  | 58 => ⟨S50000x64, .f32⟩
  | 59 => ⟨S850000x1, .i32⟩
  | 60 => ⟨S50000x64, .f32⟩
  | 61 => ⟨S1x64, .f32⟩
  | 62 => ⟨S50000x64, .f32⟩
  | 63 => ⟨S50000x64, .f32⟩
  | 64 => ⟨S1x64, .f32⟩
  | 65 => ⟨S1x64, .f32⟩
  | 66 => ⟨S_, .f32⟩
  | 67 => ⟨S1x64, .f32⟩
  | 68 => ⟨S1x64, .f32⟩
  | 69 => ⟨S_, .f32⟩
  | 70 => ⟨S1x64, .f32⟩
  | 71 => ⟨S1x64, .f32⟩
  | 72 => ⟨S1x64, .f32⟩
  | 73 => ⟨S1x64, .f32⟩
  | 74 => ⟨S1x64, .f32⟩
  | 75 => ⟨S1x64, .f32⟩
  | 76 => ⟨S50000x64, .f32⟩
  | 77 => ⟨S50000x128, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x128, .f32⟩
  | 87 => ⟨S850000x1, .f32⟩
  | 88 => ⟨S850000x128, .f32⟩
  | 89 => ⟨S850000x128, .f32⟩
  | 90 => ⟨S_, .f32⟩
  | 91 => ⟨S50000x128, .f32⟩
  | 92 => ⟨S850000x1, .i32⟩
  | 93 => ⟨S50000x128, .f32⟩
  | 94 => ⟨S1x128, .f32⟩
  | 95 => ⟨S50000x128, .f32⟩
  | 96 => ⟨S50000x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S50000x128, .f32⟩
  | 110 => ⟨S1x50000, .i32⟩
  | 111 => ⟨S256x128, .f32⟩
  | 112 => ⟨S1x64, .f32⟩
  | 113 => ⟨S1x1, .f32⟩
  | 114 => ⟨S256x1, .f32⟩
  | 115 => ⟨S256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S1x16, .f32⟩
  | .local _ .vmem, ⟨9, _⟩ => ⟨S10000x16, .f32⟩
  | .local _ .vmem, ⟨10, _⟩ => ⟨S10000x16, .f32⟩
  | .local _ .vmem, ⟨11, _⟩ => ⟨S1x16, .f32⟩
  | .local _ .vmem, ⟨12, _⟩ => ⟨S1x16, .f32⟩
  | .local _ .vmem, ⟨13, _⟩ => ⟨S1x16, .f32⟩
  | .local _ .vmem, ⟨14, _⟩ => ⟨S1x16, .f32⟩
  | .local _ .vmem, ⟨15, _⟩ => ⟨S10000x16, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S16x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S1x32, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S1x32, .f32⟩
  | .local _ .vmem, ⟨29, _⟩ => ⟨S1x32, .f32⟩
  | .local _ .vmem, ⟨30, _⟩ => ⟨S1x32, .f32⟩
  | .local _ .vmem, ⟨31, _⟩ => ⟨S1x32, .f32⟩
  | .local _ .vmem, ⟨32, _⟩ => ⟨S10000x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S32x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S1x64, .f32⟩
  | .local _ .vmem, ⟨42, _⟩ => ⟨S1x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S64x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S1x64, .f32⟩
  | .local _ .vmem, ⟨59, _⟩ => ⟨S1x64, .f32⟩
  | .local _ .vmem, ⟨60, _⟩ => ⟨S10000x64, .f32⟩
  | .local _ .vmem, ⟨61, _⟩ => ⟨S10000x64, .f32⟩
  | .local _ .vmem, ⟨62, _⟩ => ⟨S1x64, .f32⟩
  | .local _ .vmem, ⟨63, _⟩ => ⟨S1x64, .f32⟩
  | .local _ .vmem, ⟨64, _⟩ => ⟨S1x64, .f32⟩
  | .local _ .vmem, ⟨65, _⟩ => ⟨S1x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S64x128, .f32⟩
  | .local _ .vmem, ⟨71, _⟩ => ⟨S10000x128, .f32⟩
  | .local _ .vmem, ⟨72, _⟩ => ⟨S10000x128, .f32⟩
  | .local _ .vmem, ⟨73, _⟩ => ⟨S10000x128, .f32⟩
  | .local _ .vmem, ⟨74, _⟩ => ⟨S10000x128, .f32⟩
  | .local _ .vmem, ⟨75, _⟩ => ⟨S1x128, .f32⟩
  | .local _ .vmem, ⟨76, _⟩ => ⟨S1x128, .f32⟩
  | .local _ .vmem, ⟨77, _⟩ => ⟨S10000x128, .f32⟩
  | .local _ .vmem, ⟨78, _⟩ => ⟨S10000x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S10000x128, .f32⟩
  | .local _ .vmem, ⟨84, _⟩ => ⟨S10000x128, .f32⟩
  | .local _ .vmem, ⟨85, _⟩ => ⟨S10000x128, .f32⟩
  | .local _ .vmem, ⟨86, _⟩ => ⟨S10000x128, .f32⟩
  | .local _ .vmem, ⟨87, _⟩ => ⟨S1x50000, .i32⟩
  | .local _ .vmem, ⟨88, _⟩ => ⟨S256x128, .f32⟩
  | .local _ .vmem, ⟨89, _⟩ => ⟨S256x128, .f32⟩
  | .local _ .vmem, ⟨90, _⟩ => ⟨S128x64, .f32⟩
  | .local _ .vmem, ⟨91, _⟩ => ⟨S1x64, .f32⟩
  | .local _ .vmem, ⟨92, _⟩ => ⟨S64x1, .f32⟩
  | .local _ .vmem, ⟨93, _⟩ => ⟨S1x1, .f32⟩
  | .local _ .vmem, ⟨94, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_cst_0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_3 : Ref sig .tc := ⟨.hbm, 49, rfl⟩
abbrev main_call0_v0 : Ref sig .tc := ⟨.hbm, 50, rfl⟩
abbrev main_call0_v1 : Ref sig .tc := ⟨.hbm, 51, rfl⟩
abbrev main_v17 : Ref sig .tc := ⟨.hbm, 52, rfl⟩
abbrev main_c : Ref sig .tc := ⟨.hbm, 53, rfl⟩
abbrev main_v18 : Ref sig .tc := ⟨.hbm, 54, rfl⟩
abbrev main_v19 : Ref sig .tc := ⟨.hbm, 55, rfl⟩
abbrev main_c_4 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_5 : Ref sig .tc := ⟨.hbm, 63, rfl⟩
abbrev main_v26 : Ref sig .tc := ⟨.hbm, 64, rfl⟩
abbrev main_v27 : Ref sig .tc := ⟨.hbm, 65, rfl⟩
abbrev main_c_6 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_7 : Ref sig .tc := ⟨.hbm, 74, rfl⟩
abbrev main_v35 : Ref sig .tc := ⟨.hbm, 75, rfl⟩
abbrev main_v36 : Ref sig .tc := ⟨.hbm, 76, rfl⟩
abbrev main_c_8 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_9 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51_0 : Ref sig .tc := ⟨.hbm, 93, rfl⟩
abbrev main_v51_1 : Ref sig .tc := ⟨.hbm, 94, rfl⟩
abbrev main_cst_10 : Ref sig .tc := ⟨.hbm, 95, rfl⟩
abbrev main_v52 : Ref sig .tc := ⟨.hbm, 96, rfl⟩
abbrev main_v53 : Ref sig .tc := ⟨.hbm, 97, rfl⟩
abbrev main_cst_11 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_12 : Ref sig .tc := ⟨.hbm, 107, rfl⟩
abbrev main_v62 : Ref sig .tc := ⟨.hbm, 108, rfl⟩
abbrev main_v63 : Ref sig .tc := ⟨.hbm, 109, rfl⟩
abbrev main_c_13 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_14 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78_0 : Ref sig .tc := ⟨.hbm, 126, rfl⟩
abbrev main_v78_1 : Ref sig .tc := ⟨.hbm, 127, rfl⟩
abbrev main_cst_15 : Ref sig .tc := ⟨.hbm, 128, rfl⟩
abbrev main_v79 : Ref sig .tc := ⟨.hbm, 129, rfl⟩
abbrev main_v80 : Ref sig .tc := ⟨.hbm, 130, rfl⟩
abbrev main_cst_16 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_17 : Ref sig .tc := ⟨.hbm, 140, rfl⟩
abbrev main_v89 : Ref sig .tc := ⟨.hbm, 141, rfl⟩
abbrev main_v90 : Ref sig .tc := ⟨.hbm, 142, rfl⟩
abbrev main_c_18 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_cst_19 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105_0 : Ref sig .tc := ⟨.hbm, 159, rfl⟩
abbrev main_v105_1 : Ref sig .tc := ⟨.hbm, 160, rfl⟩
abbrev main_cst_20 : Ref sig .tc := ⟨.hbm, 161, rfl⟩
abbrev main_v106 : Ref sig .tc := ⟨.hbm, 162, rfl⟩
abbrev main_v107 : Ref sig .tc := ⟨.hbm, 163, rfl⟩
abbrev main_cst_21 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_c_22 : Ref sig .tc := ⟨.hbm, 173, rfl⟩
abbrev main_v116 : Ref sig .tc := ⟨.hbm, 174, rfl⟩
abbrev main_v117 : Ref sig .tc := ⟨.hbm, 175, rfl⟩
abbrev main_c_23 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_cst_24 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132_0 : Ref sig .tc := ⟨.hbm, 192, rfl⟩
abbrev main_v132_1 : Ref sig .tc := ⟨.hbm, 193, rfl⟩
abbrev main_cst_25 : Ref sig .tc := ⟨.hbm, 194, rfl⟩
abbrev main_v133 : Ref sig .tc := ⟨.hbm, 195, rfl⟩
abbrev main_v134 : Ref sig .tc := ⟨.hbm, 196, rfl⟩
abbrev main_cst_26 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_c_27 : Ref sig .tc := ⟨.hbm, 206, rfl⟩
abbrev main_v143 : Ref sig .tc := ⟨.hbm, 207, rfl⟩
abbrev main_v144 : Ref sig .tc := ⟨.hbm, 208, rfl⟩
abbrev main_c_28 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_cst_29 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159_0 : Ref sig .tc := ⟨.hbm, 225, rfl⟩
abbrev main_v159_1 : Ref sig .tc := ⟨.hbm, 226, rfl⟩
abbrev main_cst_30 : Ref sig .tc := ⟨.hbm, 227, rfl⟩
abbrev main_v160 : Ref sig .tc := ⟨.hbm, 228, rfl⟩
abbrev main_v161 : Ref sig .tc := ⟨.hbm, 229, rfl⟩
abbrev main_cst_31 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc8_stg4_0 : Ref sig .tc := ⟨.vmem, 48, rfl⟩
abbrev cc8_stg5_0 : Ref sig .tc := ⟨.vmem, 49, rfl⟩
abbrev cc8_stg5_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg2_1 : Ref sig .tc := ⟨.vmem, 55, rfl⟩
abbrev cc10_stg0_0 : Ref sig .tc := ⟨.vmem, 56, rfl⟩
abbrev cc10_stg0_1 : Ref sig .tc := ⟨.vmem, 57, rfl⟩
abbrev cc10_stg1_0 : Ref sig .tc := ⟨.vmem, 58, rfl⟩
abbrev cc10_stg2_0 : Ref sig .tc := ⟨.vmem, 59, rfl⟩
abbrev cc11_stg0_0 : Ref sig .tc := ⟨.vmem, 60, rfl⟩
abbrev cc11_stg0_1 : Ref sig .tc := ⟨.vmem, 61, rfl⟩
abbrev cc11_stg1_0 : Ref sig .tc := ⟨.vmem, 62, rfl⟩
abbrev cc11_stg2_0 : Ref sig .tc := ⟨.vmem, 63, rfl⟩
abbrev cc11_stg3_0 : Ref sig .tc := ⟨.vmem, 64, rfl⟩
abbrev cc11_stg4_0 : Ref sig .tc := ⟨.vmem, 65, rfl⟩
abbrev cc11_stg5_0 : Ref sig .tc := ⟨.vmem, 66, rfl⟩
abbrev cc11_stg5_1 : Ref sig .tc := ⟨.vmem, 67, rfl⟩
abbrev cc12_stg0_0 : Ref sig .tc := ⟨.vmem, 68, rfl⟩
abbrev cc12_stg0_1 : Ref sig .tc := ⟨.vmem, 69, rfl⟩
abbrev cc12_stg1_0 : Ref sig .tc := ⟨.vmem, 70, rfl⟩
abbrev cc12_stg2_0 : Ref sig .tc := ⟨.vmem, 71, rfl⟩
abbrev cc12_stg2_1 : Ref sig .tc := ⟨.vmem, 72, rfl⟩
abbrev cc13_stg0_0 : Ref sig .tc := ⟨.vmem, 73, rfl⟩
abbrev cc13_stg0_1 : Ref sig .tc := ⟨.vmem, 74, rfl⟩
abbrev cc13_stg1_0 : Ref sig .tc := ⟨.vmem, 75, rfl⟩
abbrev cc13_stg2_0 : Ref sig .tc := ⟨.vmem, 76, rfl⟩
abbrev cc14_stg0_0 : Ref sig .tc := ⟨.vmem, 77, rfl⟩
abbrev cc14_stg0_1 : Ref sig .tc := ⟨.vmem, 78, rfl⟩
abbrev cc14_stg1_0 : Ref sig .tc := ⟨.vmem, 79, rfl⟩
abbrev cc14_stg2_0 : Ref sig .tc := ⟨.vmem, 80, rfl⟩
abbrev cc14_stg3_0 : Ref sig .tc := ⟨.vmem, 81, rfl⟩
abbrev cc14_stg4_0 : Ref sig .tc := ⟨.vmem, 82, rfl⟩
abbrev cc14_stg5_0 : Ref sig .tc := ⟨.vmem, 83, rfl⟩
abbrev cc14_stg5_1 : Ref sig .tc := ⟨.vmem, 84, rfl⟩
abbrev cc15_stg0_0 : Ref sig .tc := ⟨.vmem, 85, rfl⟩
abbrev cc15_stg0_1 : Ref sig .tc := ⟨.vmem, 86, rfl⟩
abbrev cc15_stg1_0 : Ref sig .tc := ⟨.vmem, 87, rfl⟩
abbrev cc15_stg2_0 : Ref sig .tc := ⟨.vmem, 88, rfl⟩
abbrev cc16_stg0_0 : Ref sig .tc := ⟨.vmem, 89, rfl⟩
abbrev cc16_stg1_0 : Ref sig .tc := ⟨.vmem, 90, rfl⟩
abbrev cc16_stg2_0 : Ref sig .tc := ⟨.vmem, 91, rfl⟩
abbrev cc16_stg3_0 : Ref sig .tc := ⟨.vmem, 92, rfl⟩
abbrev cc16_stg4_0 : Ref sig .tc := ⟨.vmem, 93, rfl⟩
abbrev cc16_stg5_0 : Ref sig .tc := ⟨.vmem, 94, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem3_0 : DmaSem sig := 47
abbrev cc8_sem4_0 : DmaSem sig := 48
abbrev cc8_sem5_0 : DmaSem sig := 49
abbrev cc8_sem5_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55
abbrev cc10_sem0_0 : DmaSem sig := 56
abbrev cc10_sem0_1 : DmaSem sig := 57
abbrev cc10_sem1_0 : DmaSem sig := 58
abbrev cc10_sem2_0 : DmaSem sig := 59
abbrev cc11_sem0_0 : DmaSem sig := 60
abbrev cc11_sem0_1 : DmaSem sig := 61
abbrev cc11_sem1_0 : DmaSem sig := 62
abbrev cc11_sem2_0 : DmaSem sig := 63
abbrev cc11_sem3_0 : DmaSem sig := 64
abbrev cc11_sem4_0 : DmaSem sig := 65
abbrev cc11_sem5_0 : DmaSem sig := 66
abbrev cc11_sem5_1 : DmaSem sig := 67
abbrev cc12_sem0_0 : DmaSem sig := 68
abbrev cc12_sem0_1 : DmaSem sig := 69
abbrev cc12_sem1_0 : DmaSem sig := 70
abbrev cc12_sem2_0 : DmaSem sig := 71
abbrev cc12_sem2_1 : DmaSem sig := 72
abbrev cc13_sem0_0 : DmaSem sig := 73
abbrev cc13_sem0_1 : DmaSem sig := 74
abbrev cc13_sem1_0 : DmaSem sig := 75
abbrev cc13_sem2_0 : DmaSem sig := 76
abbrev cc14_sem0_0 : DmaSem sig := 77
abbrev cc14_sem0_1 : DmaSem sig := 78
abbrev cc14_sem1_0 : DmaSem sig := 79
abbrev cc14_sem2_0 : DmaSem sig := 80
abbrev cc14_sem3_0 : DmaSem sig := 81
abbrev cc14_sem4_0 : DmaSem sig := 82
abbrev cc14_sem5_0 : DmaSem sig := 83
abbrev cc14_sem5_1 : DmaSem sig := 84
abbrev cc15_sem0_0 : DmaSem sig := 85
abbrev cc15_sem0_1 : DmaSem sig := 86
abbrev cc15_sem1_0 : DmaSem sig := 87
abbrev cc15_sem2_0 : DmaSem sig := 88
abbrev cc16_sem0_0 : DmaSem sig := 89
abbrev cc16_sem1_0 : DmaSem sig := 90
abbrev cc16_sem2_0 : DmaSem sig := 91
abbrev cc16_sem3_0 : DmaSem sig := 92
abbrev cc16_sem4_0 : DmaSem sig := 93
abbrev cc16_sem5_0 : DmaSem sig := 94

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S10000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![5], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S10000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev grid14 : Pipeline.Grid := ⟨1, ![5], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S10000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![5], ![false]⟩

def k15_mult1 (i : grid15.Coords) : BitVec 32 :=
  let arg0 : BitVec 32 := BitVec.ofNat 32 (i 0).val
  let c10000_i32 : BitVec 32 := 10000#32
  let v5 : BitVec 32 := Scalar.muli arg0 c10000_i32
  v5
def k15_off1 (i : grid15.Coords) : Fin 2 → Nat :=
  let c0_2 : Index := 0#32
  let arg0 : BitVec 32 := BitVec.ofNat 32 (i 0).val
  let c10000_i32 : BitVec 32 := 10000#32
  let v5 : BitVec 32 := Scalar.muli arg0 c10000_i32
  let v6 : BitVec 32 := v5
  let v7 : Index := Scalar.indexCast v6
  ![0, v7.toNat]
def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S10000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x50000 .i32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S256x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 1 → Memref sig .tc .vmem S256x128 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![false]

abbrev stage16_1 : Fin 1 → Memref sig .tc .vmem S128x64 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x64 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S64x1 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x1 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S256x1 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  inb_S1x16_S1x16_0_0 : ∀ a, (![0, 0] : Fin 2 → Nat) a + S1x16.size a ≤ S1x16.size a
  h_S1x16 : 0 < S1x16.numel
  shapeCasts_S10000x16_S10000x16 : S10000x16.ShapeCasts S10000x16
  shapeCasts_S1x16_S1x16 : S1x16.ShapeCasts S1x16
  reduces_S10000x16_S16 : S10000x16.Reduces [0] S16
  shapeCasts_S16_S1x16 : S16.ShapeCasts S1x16
  bcast_S_S1x16 : S_.BroadcastsInDim S1x16 (![] : Fin 0 → Fin S1x16.rank)
  broadcasts_S1x16_S10000x16 : S1x16.Broadcasts S10000x16
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  inb_S1x32_S1x32_0_0 : ∀ a, (![0, 0] : Fin 2 → Nat) a + S1x32.size a ≤ S1x32.size a
  h_S1x32 : 0 < S1x32.numel
  shapeCasts_S10000x32_S10000x32 : S10000x32.ShapeCasts S10000x32
  shapeCasts_S1x32_S1x32 : S1x32.ShapeCasts S1x32
  reduces_S10000x32_S32 : S10000x32.Reduces [0] S32
  shapeCasts_S32_S1x32 : S32.ShapeCasts S1x32
  bcast_S_S1x32 : S_.BroadcastsInDim S1x32 (![] : Fin 0 → Fin S1x32.rank)
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  reduces_S10000x64_S64 : S10000x64.Reduces [0] S64
  shapeCasts_S64_S1x64 : S64.ShapeCasts S1x64
  bcast_S_S1x64 : S_.BroadcastsInDim S1x64 (![] : Fin 0 → Fin S1x64.rank)
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  shapeCasts_S1x128_S1x128 : S1x128.ShapeCasts S1x128
  reduces_S10000x128_S128 : S10000x128.Reduces [0] S128
  shapeCasts_S128_S1x128 : S128.ShapeCasts S1x128
  bcast_S_S1x128 : S_.BroadcastsInDim S1x128 (![] : Fin 0 → Fin S1x128.rank)
  broadcasts_S1x128_S10000x128 : S1x128.Broadcasts S10000x128
  shapeCasts_S50000_S1x50000 : S50000.ShapeCasts S1x50000
  inb_S256x128_S256x128_0_0 : ∀ a, (![0, 0] : Fin 2 → Nat) a + S256x128.size a ≤ S256x128.size a
  h_S256x128 : 0 < S256x128.numel
  h_S1x10000 : 0 < S1x10000.numel
  shapeCasts_S1x10000_S1x10000 : S1x10000.ShapeCasts S1x10000
  iota_S256x1_d0_w32 : S256x1.Iotas .tc 32 [0]
  broadcasts_S256x1_S256x10000 : S256x1.Broadcasts S256x10000
  broadcasts_S1x10000_S256x10000 : S1x10000.Broadcasts S256x10000
  natLt_1_32 : 1 < 32
  shapeCasts_S256x128_S256x128 : S256x128.ShapeCasts S256x128
  shapeCasts_S1_S1x1 : S1.ShapeCasts S1x1
  inb_S128x64_S128x64_0_0 : ∀ a, (![0, 0] : Fin 2 → Nat) a + S128x64.size a ≤ S128x64.size a
  h_S128x64 : 0 < S128x64.numel
  broadcasts_S1x64_S256x64 : S1x64.Broadcasts S256x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  shapeCasts_S256x1_S256 : S256x1.ShapeCasts S256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x16_S10000x16_1_0_0_1_n_n_wf : DotDims.WF S10000x128 S128x16 S10000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  dot_S10000x16_S16x32_S10000x32_1_0_0_1_n_n_wf : DotDims.WF S10000x16 S16x32 S10000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S10000x32_S32x64_S10000x64_1_0_0_1_n_n_wf : DotDims.WF S10000x32 S32x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  dot_S10000x64_S64x128_S10000x128_1_0_0_1_n_n_wf : DotDims.WF S10000x64 S64x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S256x10000_S10000x128_S256x128_1_0_0_1_n_n_wf : DotDims.WF S256x10000 S10000x128 S256x128 [1] [0] [0] [1] [] []
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S50000x16.size a
  hwx0_2 : ∀ i : grid0.Coords, EltTy.bits .f32 = 32 ∨ (Rect.block (s := S50000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S50000x16.size a
  hwx1_0 : ∀ i : grid1.Coords, EltTy.bits .f32 = 32 ∨ (Rect.block (s := S50000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S50000x16.size a
  hwx2_0 : ∀ i : grid2.Coords, EltTy.bits .f32 = 32 ∨ (Rect.block (s := S50000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x16.size a ≤ S50000x16.size a
  hwx2_5 : ∀ i : grid2.Coords, EltTy.bits .f32 = 32 ∨ (Rect.block (s := S50000x16) S10000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S50000x16.size a
  hwx3_0 : ∀ i : grid3.Coords, EltTy.bits .f32 = 32 ∨ (Rect.block (s := S50000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x32.size a ≤ S16x32.size a
  hwx3_1 : ∀ i : grid3.Coords, EltTy.bits .f32 = 32 ∨ (Rect.block (s := S16x32) S16x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S50000x32.size a
  hwx3_2 : ∀ i : grid3.Coords, EltTy.bits .f32 = 32 ∨ (Rect.block (s := S50000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S50000x32.size a
  hwx4_0 : ∀ i : grid4.Coords, EltTy.bits .f32 = 32 ∨ (Rect.block (s := S50000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S50000x32.size a
  hwx5_0 : ∀ i : grid5.Coords, EltTy.bits .f32 = 32 ∨ (Rect.block (s := S50000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x32.size a ≤ S50000x32.size a
  hwx5_5 : ∀ i : grid5.Coords, EltTy.bits .f32 = 32 ∨ (Rect.block (s := S50000x32) S10000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S50000x32.size a
  hwx6_0 : ∀ i : grid6.Coords, EltTy.bits .f32 = 32 ∨ (Rect.block (s := S50000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x64.size a ≤ S32x64.size a
  hwx6_1 : ∀ i : grid6.Coords, EltTy.bits .f32 = 32 ∨ (Rect.block (s := S32x64) S32x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S50000x64.size a
  hwx6_2 : ∀ i : grid6.Coords, EltTy.bits .f32 = 32 ∨ (Rect.block (s := S50000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S50000x64.size a
  hwx8_5 : ∀ i : grid8.Coords, EltTy.bits .f32 = 32 ∨ (Rect.block (s := S50000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S50000x64.size a
  hwx9_0 : ∀ i : grid9.Coords, EltTy.bits .f32 = 32 ∨ (Rect.block (s := S50000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S50000x64.size a
  hwx9_2 : ∀ i : grid9.Coords, EltTy.bits .f32 = 32 ∨ (Rect.block (s := S50000x64) S10000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S50000x64.size a
  hwx10_0 : ∀ i : grid10.Coords, EltTy.bits .f32 = 32 ∨ (Rect.block (s := S50000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S50000x64.size a
  hwx11_0 : ∀ i : grid11.Coords, EltTy.bits .f32 = 32 ∨ (Rect.block (s := S50000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x64.size a ≤ S50000x64.size a
  hwx11_5 : ∀ i : grid11.Coords, EltTy.bits .f32 = 32 ∨ (Rect.block (s := S50000x64) S10000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S50000x64.size a
  hwx12_0 : ∀ i : grid12.Coords, EltTy.bits .f32 = 32 ∨ (Rect.block (s := S50000x64) S10000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x128.size a ≤ S64x128.size a
  hwx12_1 : ∀ i : grid12.Coords, EltTy.bits .f32 = 32 ∨ (Rect.block (s := S64x128) S64x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x128.size a ≤ S50000x128.size a
  hwx12_2 : ∀ i : grid12.Coords, EltTy.bits .f32 = 32 ∨ (Rect.block (s := S50000x128) S10000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x128.size a ≤ S50000x128.size a
  hwx13_0 : ∀ i : grid13.Coords, EltTy.bits .f32 = 32 ∨ (Rect.block (s := S50000x128) S10000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x128.size a ≤ S50000x128.size a
  hwx14_0 : ∀ i : grid14.Coords, EltTy.bits .f32 = 32 ∨ (Rect.block (s := S50000x128) S10000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S10000x128.size a ≤ S50000x128.size a
  hwx14_5 : ∀ i : grid14.Coords, EltTy.bits .f32 = 32 ∨ (Rect.block (s := S50000x128) S10000x128.size (cc14_transform_5 i) (hinb14_5 i)).WholeWords (EltTy.packing .f32)
  hrank15 : 0 < grid15.rank
  k15_mult1_dvd : ∀ i : grid15.Coords, 10000 ∣ (k15_mult1 i).toNat
  k15_off1_inb : ∀ i : grid15.Coords, ∀ a, (k15_off1 i) a + S1x10000.size a ≤ S1x50000.size a
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x128.size a ≤ S50000x128.size a
  hwx15_0 : ∀ i : grid15.Coords, EltTy.bits .f32 = 32 ∨ (Rect.block (s := S50000x128) S10000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x50000.size a ≤ S1x50000.size a
  hwx15_1 : ∀ i : grid15.Coords, EltTy.bits .i32 = 32 ∨ (Rect.block (s := S1x50000) S1x50000.size (cc15_transform_1 i) (hinb15_1 i)).WholeWords (EltTy.packing .i32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S256x128.size a ≤ S256x128.size a
  hwx15_2 : ∀ i : grid15.Coords, EltTy.bits .f32 = 32 ∨ (Rect.block (s := S256x128) S256x128.size (cc15_transform_2 i) (hinb15_2 i)).WholeWords (EltTy.packing .f32)
  hrank16 : 0 < grid16.rank
  hstage16_0 : ∀ j, (stage16_0 j).IsWhole
  nbuf16_0 : grid16.bufCount reads16_0 true = 1
  hreads16_0 : ∀ i i' : grid16.Coords, (∀ a, reads16_0 a = true → i a = i' a) → cc16_transform_0 i = cc16_transform_0 i'
  hinb16_0 : ∀ (i : grid16.Coords) a, (cc16_transform_0 i a + 1) * S256x128.size a ≤ S256x128.size a
  hwx16_0 : ∀ i : grid16.Coords, EltTy.bits .f32 = 32 ∨ (Rect.block (s := S256x128) S256x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x64.size a ≤ S128x64.size a
  hwx16_1 : ∀ i : grid16.Coords, EltTy.bits .f32 = 32 ∨ (Rect.block (s := S128x64) S128x64.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x64.size a ≤ S1x64.size a
  hwx16_2 : ∀ i : grid16.Coords, EltTy.bits .f32 = 32 ∨ (Rect.block (s := S1x64) S1x64.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S64x1.size a ≤ S64x1.size a
  hwx16_3 : ∀ i : grid16.Coords, EltTy.bits .f32 = 32 ∨ (Rect.block (s := S64x1) S64x1.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x1.size a ≤ S1x1.size a
  hwx16_4 : ∀ i : grid16.Coords, EltTy.bits .f32 = 32 ∨ (Rect.block (s := S1x1) S1x1.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S256x1.size a ≤ S256x1.size a
  hwx16_5 : ∀ i : grid16.Coords, EltTy.bits .f32 = 32 ∨ (Rect.block (s := S256x1) S256x1.size (cc16_transform_5 i) (hinb16_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51_0) S1x16.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51_1) S1x16.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S10000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S16x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v77) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78_0) S1x32.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78_1) S1x32.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S10000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v87) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S32x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v104) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v105_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v104) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v107) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v111) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v112) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v113) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v114) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v114) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg16) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v115) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v131) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v132_0) S1x64.size cc10_transform_1 reads10_1 true true 1 stage10_1 sem10_1
    hrank10 hreads10_1 hinb10_1 nbuf10_1 (Memref.isWhole_whole _) hwx10_1 hstage10_1

abbrev win10_2 : Pipeline.Window sig grid10 :=
  Pipeline.Window.ofSpec (Memref.whole main_v132_1) S1x64.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v131) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v134) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v138) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v139) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v140) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v141) S10000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v141) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg20) S64x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v142) S10000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v158) S10000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v159_0) S1x128.size cc13_transform_1 reads13_1 true true 1 stage13_1 sem13_1
    hrank13 hreads13_1 hinb13_1 nbuf13_1 (Memref.isWhole_whole _) hwx13_1 hstage13_1

abbrev win13_2 : Pipeline.Window sig grid13 :=
  Pipeline.Window.ofSpec (Memref.whole main_v159_1) S1x128.size cc13_transform_2 reads13_2 true true 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v158) S10000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v161) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v165) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v166) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v167) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v168) S10000x128.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v168) S10000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v169) S1x50000.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v170) S256x128.size cc15_transform_2 reads15_2 true true 1 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v170) S256x128.size cc16_transform_0 reads16_0 false true 1 stage16_0 sem16_0
    hrank16 hreads16_0 hinb16_0 nbuf16_0 (Memref.isWhole_whole _) hwx16_0 hstage16_0

abbrev win16_1 : Pipeline.Window sig grid16 :=
  Pipeline.Window.ofSpec (Memref.whole main_arg24) S128x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v171) S1x64.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_arg26) S64x1.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v172) S1x1.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v173) S256x1.size cc16_transform_5 reads16_5 true true 1 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x16 : Shape := ⟨2, ![50000, 16]⟩
abbrev S850000x16 : Shape := ⟨2, ![850000, 16]⟩
abbrev S1x16 : Shape := ⟨2, ![1, 16]⟩
abbrev S50000x32 : Shape := ⟨2, ![50000, 32]⟩
abbrev S850000x32 : Shape := ⟨2, ![850000, 32]⟩
abbrev S1x32 : Shape := ⟨2, ![1, 32]⟩
abbrev S50000x64 : Shape := ⟨2, ![50000, 64]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩
abbrev S256x128 : Shape := ⟨2, ![256, 128]⟩
abbrev S50000x1 : Shape := ⟨2, ![50000, 1]⟩
abbrev S256x64 : Shape := ⟨2, ![256, 64]⟩
abbrev S256x1 : Shape := ⟨2, ![256, 1]⟩
abbrev S1x1 : Shape := ⟨2, ![1, 1]⟩
abbrev S256 : Shape := ⟨1, ![256]⟩

abbrev nBuf : Space → Nat
  | .hbm => 424
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x16, .f32⟩
  | 5 => ⟨S16, .f32⟩
  | 6 => ⟨S16, .f32⟩
  | 7 => ⟨S16, .f32⟩
  | 8 => ⟨S16x32, .f32⟩
  | 9 => ⟨S32, .f32⟩
  | 10 => ⟨S32, .f32⟩
  | 11 => ⟨S32, .f32⟩
  | 12 => ⟨S32x64, .f32⟩
  | 13 => ⟨S64, .f32⟩
  | 14 => ⟨S64, .f32⟩
  | 15 => ⟨S64, .f32⟩
  | 16 => ⟨S64x64, .f32⟩
  | 17 => ⟨S64, .f32⟩
  | 18 => ⟨S64, .f32⟩
  | 19 => ⟨S64, .f32⟩
  | 20 => ⟨S64x128, .f32⟩
  | 21 => ⟨S128, .f32⟩
  | 22 => ⟨S128, .f32⟩
  | 23 => ⟨S128, .f32⟩
  | 24 => ⟨S128x64, .f32⟩
  | 25 => ⟨S64, .f32⟩
  | 26 => ⟨S64x1, .f32⟩
  | 27 => ⟨S1, .f32⟩
  | 28 => ⟨S50000, .i32⟩
  | 29 => ⟨S1x800000, .i32⟩
  | 30 => ⟨S800000, .i32⟩
  | 31 => ⟨S850000, .i32⟩
  | 32 => ⟨S1x800000, .i32⟩
  | 33 => ⟨S800000, .i32⟩
  | 34 => ⟨S850000, .i32⟩
  | 35 => ⟨S_, .f32⟩
  | 36 => ⟨S50000, .f32⟩
  | 37 => ⟨S850000, .f32⟩
  | 38 => ⟨S_, .f32⟩
  | 39 => ⟨S50000, .f32⟩
  | 40 => ⟨S850000x1, .i32⟩
  | 41 => ⟨S50000, .f32⟩
  | 42 => ⟨S_, .f32⟩
  | 43 => ⟨S50000, .f32⟩
  | 44 => ⟨S50000, .i1⟩
  | 45 => ⟨S_, .f32⟩
  | 46 => ⟨S50000, .f32⟩
  | 47 => ⟨S50000, .f32⟩
  | 48 => ⟨S50000, .f32⟩
  | 49 => ⟨S_, .f32⟩
  | 50 => ⟨S_, .f32⟩
  | 51 => ⟨S50000, .f32⟩
  | 52 => ⟨S50000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S850000, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000, .f32⟩
  | 72 => ⟨S850000, .f32⟩
  | 73 => ⟨S50000x16, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x16, .f32⟩
  | 83 => ⟨S850000x1, .f32⟩
  | 84 => ⟨S850000x16, .f32⟩
  | 85 => ⟨S850000x16, .f32⟩
  | 86 => ⟨S_, .f32⟩
  | 87 => ⟨S50000x16, .f32⟩
  | 88 => ⟨S850000x1, .i32⟩
  | 89 => ⟨S50000x16, .f32⟩
  | 90 => ⟨S1x16, .f32⟩
  | 91 => ⟨S50000x16, .f32⟩
  | 92 => ⟨S50000x16, .f32⟩
  | 93 => ⟨S_, .f32⟩
  | 94 => ⟨S50000x16, .f32⟩
  | 95 => ⟨S50000x16, .f32⟩
  | 96 => ⟨S_, .f32⟩
  | 97 => ⟨S16, .f32⟩
  | 98 => ⟨S_, .f32⟩
  | 99 => ⟨S16, .f32⟩
  | 100 => ⟨S16, .f32⟩
  | 101 => ⟨S_, .i32⟩
  | 102 => ⟨S_, .f32⟩
  | 103 => ⟨S16, .f32⟩
  | 104 => ⟨S1x16, .f32⟩
  | 105 => ⟨S_, .f32⟩
  | 106 => ⟨S1x16, .f32⟩
  | 107 => ⟨S1x16, .f32⟩
  | 108 => ⟨S50000x16, .f32⟩
  | 109 => ⟨S50000x16, .f32⟩
  | 110 => ⟨S50000x16, .f32⟩
  | 111 => ⟨S_, .f32⟩
  | 112 => ⟨S_, .f32⟩
  | 113 => ⟨S_, .f32⟩
  | 114 => ⟨S_, .f32⟩
  | 115 => ⟨S16, .f32⟩
  | 116 => ⟨S16, .f32⟩
  | 117 => ⟨S16, .f32⟩
  | 118 => ⟨S_, .f32⟩
  | 119 => ⟨S_, .i1⟩
  | 120 => ⟨S_, .f32⟩
  | 121 => ⟨S_, .f32⟩
  | 122 => ⟨S16, .f32⟩
  | 123 => ⟨S16, .f32⟩
  | 124 => ⟨S1x16, .f32⟩
  | 125 => ⟨S50000x16, .f32⟩
  | 126 => ⟨S50000x16, .f32⟩
  | 127 => ⟨S1x16, .f32⟩
  | _ => ⟨S50000x128, .f32⟩

abbrev hbmTy0_1 (i : Nat) : BufTy := match i % 128 with
  | 0 => ⟨S50000x16, .f32⟩
  | 1 => ⟨S50000x16, .f32⟩
  | 2 => ⟨S_, .f32⟩
  | 3 => ⟨S16, .f32⟩
  | 4 => ⟨S16, .f32⟩
  | 5 => ⟨S16, .f32⟩
  | 6 => ⟨S1x16, .f32⟩
  | 7 => ⟨S50000x16, .f32⟩
  | 8 => ⟨S50000x16, .f32⟩
  | 9 => ⟨S1x16, .f32⟩
  | 10 => ⟨S50000x16, .f32⟩
  | 11 => ⟨S50000x16, .f32⟩
  | 12 => ⟨S50000x32, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000x32, .f32⟩
  | 22 => ⟨S850000x1, .f32⟩
  | 23 => ⟨S850000x32, .f32⟩
  | 24 => ⟨S850000x32, .f32⟩
  | 25 => ⟨S_, .f32⟩
  | 26 => ⟨S50000x32, .f32⟩
  | 27 => ⟨S850000x1, .i32⟩
  | 28 => ⟨S50000x32, .f32⟩
  | 29 => ⟨S1x32, .f32⟩
  | 30 => ⟨S50000x32, .f32⟩
  | 31 => ⟨S50000x32, .f32⟩
  | 32 => ⟨S_, .f32⟩
  | 33 => ⟨S50000x32, .f32⟩
  | 34 => ⟨S50000x32, .f32⟩
  | 35 => ⟨S_, .f32⟩
  | 36 => ⟨S32, .f32⟩
  | 37 => ⟨S_, .f32⟩
  | 38 => ⟨S32, .f32⟩
  | 39 => ⟨S32, .f32⟩
  | 40 => ⟨S_, .i32⟩
  | 41 => ⟨S_, .f32⟩
  | 42 => ⟨S32, .f32⟩
  | 43 => ⟨S1x32, .f32⟩
  | 44 => ⟨S_, .f32⟩
  | 45 => ⟨S1x32, .f32⟩
  | 46 => ⟨S1x32, .f32⟩
  | 47 => ⟨S50000x32, .f32⟩
  | 48 => ⟨S50000x32, .f32⟩
  | 49 => ⟨S50000x32, .f32⟩
  | 50 => ⟨S_, .f32⟩
  | 51 => ⟨S_, .f32⟩
  | 52 => ⟨S_, .f32⟩
  | 53 => ⟨S_, .f32⟩
  | 54 => ⟨S32, .f32⟩
  | 55 => ⟨S32, .f32⟩
  | 56 => ⟨S32, .f32⟩
  | 57 => ⟨S_, .f32⟩
  | 58 => ⟨S_, .i1⟩
  | 59 => ⟨S_, .f32⟩
  | 60 => ⟨S_, .f32⟩
  | 61 => ⟨S32, .f32⟩
  | 62 => ⟨S32, .f32⟩
  | 63 => ⟨S1x32, .f32⟩
  | 64 => ⟨S50000x32, .f32⟩
  | 65 => ⟨S50000x32, .f32⟩
  | 66 => ⟨S1x32, .f32⟩
  | 67 => ⟨S50000x32, .f32⟩
  | 68 => ⟨S50000x32, .f32⟩
  | 69 => ⟨S_, .f32⟩
  | 70 => ⟨S32, .f32⟩
  | 71 => ⟨S32, .f32⟩
  | 72 => ⟨S32, .f32⟩
  | 73 => ⟨S1x32, .f32⟩
  | 74 => ⟨S50000x32, .f32⟩
  | 75 => ⟨S50000x32, .f32⟩
  | 76 => ⟨S1x32, .f32⟩
  | 77 => ⟨S50000x32, .f32⟩
  | 78 => ⟨S50000x32, .f32⟩
  | 79 => ⟨S50000x64, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x64, .f32⟩
  | 89 => ⟨S850000x1, .f32⟩
  | 90 => ⟨S850000x64, .f32⟩
  | 91 => ⟨S850000x64, .f32⟩
  | 92 => ⟨S_, .f32⟩
  | 93 => ⟨S50000x64, .f32⟩
  | 94 => ⟨S850000x1, .i32⟩
  | 95 => ⟨S50000x64, .f32⟩
  | 96 => ⟨S1x64, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S_, .f32⟩
  | 103 => ⟨S64, .f32⟩
  | 104 => ⟨S_, .f32⟩
  | 105 => ⟨S64, .f32⟩
  | 106 => ⟨S64, .f32⟩
  | 107 => ⟨S_, .i32⟩
  | 108 => ⟨S_, .f32⟩
  | 109 => ⟨S64, .f32⟩
  | 110 => ⟨S1x64, .f32⟩
  | 111 => ⟨S_, .f32⟩
  | 112 => ⟨S1x64, .f32⟩
  | 113 => ⟨S1x64, .f32⟩
  | 114 => ⟨S50000x64, .f32⟩
  | 115 => ⟨S50000x64, .f32⟩
  | 116 => ⟨S50000x64, .f32⟩
  | 117 => ⟨S_, .f32⟩
  | 118 => ⟨S_, .f32⟩
  | 119 => ⟨S_, .f32⟩
  | 120 => ⟨S_, .f32⟩
  | 121 => ⟨S64, .f32⟩
  | 122 => ⟨S64, .f32⟩
  | 123 => ⟨S64, .f32⟩
  | 124 => ⟨S_, .f32⟩
  | 125 => ⟨S_, .i1⟩
  | 126 => ⟨S_, .f32⟩
  | 127 => ⟨S_, .f32⟩
  | _ => ⟨S50000x128, .f32⟩

abbrev hbmTy0_2 (i : Nat) : BufTy := match i % 128 with
  | 0 => ⟨S64, .f32⟩
  | 1 => ⟨S64, .f32⟩
  | 2 => ⟨S1x64, .f32⟩
  | 3 => ⟨S50000x64, .f32⟩
  | 4 => ⟨S50000x64, .f32⟩
  | 5 => ⟨S1x64, .f32⟩
  | 6 => ⟨S50000x64, .f32⟩
  | 7 => ⟨S50000x64, .f32⟩
  | 8 => ⟨S_, .f32⟩
  | 9 => ⟨S64, .f32⟩
  | 10 => ⟨S64, .f32⟩
  | 11 => ⟨S64, .f32⟩
  | 12 => ⟨S1x64, .f32⟩
  | 13 => ⟨S50000x64, .f32⟩
  | 14 => ⟨S50000x64, .f32⟩
  | 15 => ⟨S1x64, .f32⟩
  | 16 => ⟨S50000x64, .f32⟩
  | 17 => ⟨S50000x64, .f32⟩
  | 18 => ⟨S50000x64, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000x64, .f32⟩
  | 28 => ⟨S850000x1, .f32⟩
  | 29 => ⟨S850000x64, .f32⟩
  | 30 => ⟨S850000x64, .f32⟩
  | 31 => ⟨S_, .f32⟩
  | 32 => ⟨S50000x64, .f32⟩
  | 33 => ⟨S850000x1, .i32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S64, .f32⟩
  | 40 => ⟨S_, .f32⟩
  | 41 => ⟨S64, .f32⟩
  | 42 => ⟨S64, .f32⟩
  | 43 => ⟨S_, .i32⟩
  | 44 => ⟨S_, .f32⟩
  | 45 => ⟨S64, .f32⟩
  | 46 => ⟨S1x64, .f32⟩
  | 47 => ⟨S_, .f32⟩
  | 48 => ⟨S1x64, .f32⟩
  | 49 => ⟨S1x64, .f32⟩
  | 50 => ⟨S50000x64, .f32⟩
  | 51 => ⟨S50000x64, .f32⟩
  | 52 => ⟨S50000x64, .f32⟩
  | 53 => ⟨S_, .f32⟩
  | 54 => ⟨S_, .f32⟩
  | 55 => ⟨S_, .f32⟩
  | 56 => ⟨S_, .f32⟩
  | 57 => ⟨S64, .f32⟩
  | 58 => ⟨S64, .f32⟩
  | 59 => ⟨S64, .f32⟩
  | 60 => ⟨S_, .f32⟩
  | 61 => ⟨S_, .i1⟩
  | 62 => ⟨S_, .f32⟩
  | 63 => ⟨S_, .f32⟩
  | 64 => ⟨S64, .f32⟩
  | 65 => ⟨S64, .f32⟩
  | 66 => ⟨S1x64, .f32⟩
  | 67 => ⟨S50000x64, .f32⟩
  | 68 => ⟨S50000x64, .f32⟩
  | 69 => ⟨S1x64, .f32⟩
  | 70 => ⟨S50000x64, .f32⟩
  | 71 => ⟨S50000x64, .f32⟩
  | 72 => ⟨S_, .f32⟩
  | 73 => ⟨S64, .f32⟩
  | 74 => ⟨S64, .f32⟩
  | 75 => ⟨S64, .f32⟩
  | 76 => ⟨S1x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000x128, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .f32⟩
  | 95 => ⟨S850000x1, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S50000x128, .f32⟩
  | 118 => ⟨S50000x128, .f32⟩
  | 119 => ⟨S50000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S50000x128, .f32⟩

abbrev hbmTy0_3 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S256x128, .f32⟩
  | 23 => ⟨S50000x1, .i32⟩
  | 24 => ⟨S256x128, .f32⟩
  | 25 => ⟨S_, .f32⟩
  | 26 => ⟨S256x128, .f32⟩
  | 27 => ⟨S256x128, .f32⟩
  | 28 => ⟨S256x64, .f32⟩
  | 29 => ⟨S1x64, .f32⟩
  | 30 => ⟨S256x64, .f32⟩
  | 31 => ⟨S256x64, .f32⟩
  | 32 => ⟨S_, .f32⟩
  | 33 => ⟨S256x64, .f32⟩
  | 34 => ⟨S256x64, .f32⟩
  | 35 => ⟨S256x1, .f32⟩
  | 36 => ⟨S1x1, .f32⟩
  | 37 => ⟨S256x1, .f32⟩
  | 38 => ⟨S256x1, .f32⟩
  | 39 => ⟨S256, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_cst_0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_3 : Ref sig .tc := ⟨.hbm, 49, rfl⟩
abbrev main_call0_v0 : Ref sig .tc := ⟨.hbm, 50, rfl⟩
abbrev main_call0_v1 : Ref sig .tc := ⟨.hbm, 51, rfl⟩
abbrev main_v17 : Ref sig .tc := ⟨.hbm, 52, rfl⟩
abbrev main_c : Ref sig .tc := ⟨.hbm, 53, rfl⟩
abbrev main_v18 : Ref sig .tc := ⟨.hbm, 54, rfl⟩
abbrev main_v19 : Ref sig .tc := ⟨.hbm, 55, rfl⟩
abbrev main_c_4 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_5 : Ref sig .tc := ⟨.hbm, 63, rfl⟩
abbrev main_v26 : Ref sig .tc := ⟨.hbm, 64, rfl⟩
abbrev main_v27 : Ref sig .tc := ⟨.hbm, 65, rfl⟩
abbrev main_c_6 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_7 : Ref sig .tc := ⟨.hbm, 74, rfl⟩
abbrev main_v35 : Ref sig .tc := ⟨.hbm, 75, rfl⟩
abbrev main_v36 : Ref sig .tc := ⟨.hbm, 76, rfl⟩
abbrev main_c_8 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_9 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_call1_cst : Ref sig .tc := ⟨.hbm, 93, rfl⟩
abbrev main_call1_v0 : Ref sig .tc := ⟨.hbm, 94, rfl⟩
abbrev main_v51 : Ref sig .tc := ⟨.hbm, 95, rfl⟩
abbrev main_cst_10 : Ref sig .tc := ⟨.hbm, 96, rfl⟩
abbrev main_v52 : Ref sig .tc := ⟨.hbm, 97, rfl⟩
abbrev main_cst_11 : Ref sig .tc := ⟨.hbm, 98, rfl⟩
abbrev main_v53 : Ref sig .tc := ⟨.hbm, 99, rfl⟩
abbrev main_v54 : Ref sig .tc := ⟨.hbm, 100, rfl⟩
abbrev main_c_12 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_cst_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_cst_1 : Ref sig .tc := ⟨.hbm, 112, rfl⟩
abbrev main_call2_v8 : Ref sig .tc := ⟨.hbm, 113, rfl⟩
abbrev main_call2_cst_2 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_cst_3 : Ref sig .tc := ⟨.hbm, 118, rfl⟩
abbrev main_call2_v12 : Ref sig .tc := ⟨.hbm, 119, rfl⟩
abbrev main_call2_cst_4 : Ref sig .tc := ⟨.hbm, 120, rfl⟩
abbrev main_call2_call0_v0 : Ref sig .tc := ⟨.hbm, 121, rfl⟩
abbrev main_call2_call0_v1 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_13 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_c_14 : Ref sig .tc := ⟨.hbm, 141, rfl⟩
abbrev main_v72 : Ref sig .tc := ⟨.hbm, 142, rfl⟩
abbrev main_v73 : Ref sig .tc := ⟨.hbm, 143, rfl⟩
abbrev main_c_15 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_cst_16 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_call3_cst : Ref sig .tc := ⟨.hbm, 160, rfl⟩
abbrev main_call3_v0 : Ref sig .tc := ⟨.hbm, 161, rfl⟩
abbrev main_v88 : Ref sig .tc := ⟨.hbm, 162, rfl⟩
abbrev main_cst_17 : Ref sig .tc := ⟨.hbm, 163, rfl⟩
abbrev main_v89 : Ref sig .tc := ⟨.hbm, 164, rfl⟩
abbrev main_cst_18 : Ref sig .tc := ⟨.hbm, 165, rfl⟩
abbrev main_v90 : Ref sig .tc := ⟨.hbm, 166, rfl⟩
abbrev main_v91 : Ref sig .tc := ⟨.hbm, 167, rfl⟩
abbrev main_c_19 : Ref sig .tc := ⟨.hbm, 168, rfl⟩
abbrev main_call4_cst : Ref sig .tc := ⟨.hbm, 169, rfl⟩
abbrev main_call4_v0 : Ref sig .tc := ⟨.hbm, 170, rfl⟩
abbrev main_call4_v1 : Ref sig .tc := ⟨.hbm, 171, rfl⟩
abbrev main_call4_cst_0 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_call4_v5 : Ref sig .tc := ⟨.hbm, 176, rfl⟩
abbrev main_call4_v6 : Ref sig .tc := ⟨.hbm, 177, rfl⟩
abbrev main_call4_v7 : Ref sig .tc := ⟨.hbm, 178, rfl⟩
abbrev main_call4_cst_1 : Ref sig .tc := ⟨.hbm, 179, rfl⟩
abbrev main_call4_v8 : Ref sig .tc := ⟨.hbm, 180, rfl⟩
abbrev main_call4_cst_2 : Ref sig .tc := ⟨.hbm, 181, rfl⟩
abbrev main_call4_v9 : Ref sig .tc := ⟨.hbm, 182, rfl⟩
abbrev main_call4_v10 : Ref sig .tc := ⟨.hbm, 183, rfl⟩
abbrev main_call4_v11 : Ref sig .tc := ⟨.hbm, 184, rfl⟩
abbrev main_call4_cst_3 : Ref sig .tc := ⟨.hbm, 185, rfl⟩
abbrev main_call4_v12 : Ref sig .tc := ⟨.hbm, 186, rfl⟩
abbrev main_call4_cst_4 : Ref sig .tc := ⟨.hbm, 187, rfl⟩
abbrev main_call4_call0_v0 : Ref sig .tc := ⟨.hbm, 188, rfl⟩
abbrev main_call4_call0_v1 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_cst_20 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_c_21 : Ref sig .tc := ⟨.hbm, 208, rfl⟩
abbrev main_v109 : Ref sig .tc := ⟨.hbm, 209, rfl⟩
abbrev main_v110 : Ref sig .tc := ⟨.hbm, 210, rfl⟩
abbrev main_c_22 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_cst_23 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_call5_cst : Ref sig .tc := ⟨.hbm, 227, rfl⟩
abbrev main_call5_v0 : Ref sig .tc := ⟨.hbm, 228, rfl⟩
abbrev main_v125 : Ref sig .tc := ⟨.hbm, 229, rfl⟩
abbrev main_cst_24 : Ref sig .tc := ⟨.hbm, 230, rfl⟩
abbrev main_v126 : Ref sig .tc := ⟨.hbm, 231, rfl⟩
abbrev main_cst_25 : Ref sig .tc := ⟨.hbm, 232, rfl⟩
abbrev main_v127 : Ref sig .tc := ⟨.hbm, 233, rfl⟩
abbrev main_v128 : Ref sig .tc := ⟨.hbm, 234, rfl⟩
abbrev main_c_26 : Ref sig .tc := ⟨.hbm, 235, rfl⟩
abbrev main_call6_cst : Ref sig .tc := ⟨.hbm, 236, rfl⟩
abbrev main_call6_v0 : Ref sig .tc := ⟨.hbm, 237, rfl⟩
abbrev main_call6_v1 : Ref sig .tc := ⟨.hbm, 238, rfl⟩
abbrev main_call6_cst_0 : Ref sig .tc := ⟨.hbm, 239, rfl⟩
abbrev main_call6_v2 : Ref sig .tc := ⟨.hbm, 240, rfl⟩
abbrev main_call6_v3 : Ref sig .tc := ⟨.hbm, 241, rfl⟩
abbrev main_call6_v4 : Ref sig .tc := ⟨.hbm, 242, rfl⟩
abbrev main_call6_v5 : Ref sig .tc := ⟨.hbm, 243, rfl⟩
abbrev main_call6_v6 : Ref sig .tc := ⟨.hbm, 244, rfl⟩
abbrev main_call6_v7 : Ref sig .tc := ⟨.hbm, 245, rfl⟩
abbrev main_call6_cst_1 : Ref sig .tc := ⟨.hbm, 246, rfl⟩
abbrev main_call6_v8 : Ref sig .tc := ⟨.hbm, 247, rfl⟩
abbrev main_call6_cst_2 : Ref sig .tc := ⟨.hbm, 248, rfl⟩
abbrev main_call6_v9 : Ref sig .tc := ⟨.hbm, 249, rfl⟩
abbrev main_call6_v10 : Ref sig .tc := ⟨.hbm, 250, rfl⟩
abbrev main_call6_v11 : Ref sig .tc := ⟨.hbm, 251, rfl⟩
abbrev main_call6_cst_3 : Ref sig .tc := ⟨.hbm, 252, rfl⟩
abbrev main_call6_v12 : Ref sig .tc := ⟨.hbm, 253, rfl⟩
abbrev main_call6_cst_4 : Ref sig .tc := ⟨.hbm, 254, rfl⟩
abbrev main_call6_call0_v0 : Ref sig .tc := ⟨.hbm, 255, rfl⟩
abbrev main_call6_call0_v1 : Ref sig .tc := ⟨.hbm, 256, rfl⟩
abbrev main_v129 : Ref sig .tc := ⟨.hbm, 257, rfl⟩
abbrev main_v130 : Ref sig .tc := ⟨.hbm, 258, rfl⟩
abbrev main_v131 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_v135 : Ref sig .tc := ⟨.hbm, 263, rfl⟩
abbrev main_cst_27 : Ref sig .tc := ⟨.hbm, 264, rfl⟩
abbrev main_v136 : Ref sig .tc := ⟨.hbm, 265, rfl⟩
abbrev main_v137 : Ref sig .tc := ⟨.hbm, 266, rfl⟩
abbrev main_v138 : Ref sig .tc := ⟨.hbm, 267, rfl⟩
abbrev main_v139 : Ref sig .tc := ⟨.hbm, 268, rfl⟩
abbrev main_v140 : Ref sig .tc := ⟨.hbm, 269, rfl⟩
abbrev main_v141 : Ref sig .tc := ⟨.hbm, 270, rfl⟩
abbrev main_v142 : Ref sig .tc := ⟨.hbm, 271, rfl⟩
abbrev main_v143 : Ref sig .tc := ⟨.hbm, 272, rfl⟩
abbrev main_v144 : Ref sig .tc := ⟨.hbm, 273, rfl⟩
abbrev main_v145 : Ref sig .tc := ⟨.hbm, 274, rfl⟩
abbrev main_c_28 : Ref sig .tc := ⟨.hbm, 275, rfl⟩
abbrev main_v146 : Ref sig .tc := ⟨.hbm, 276, rfl⟩
abbrev main_v147 : Ref sig .tc := ⟨.hbm, 277, rfl⟩
abbrev main_c_29 : Ref sig .tc := ⟨.hbm, 278, rfl⟩
abbrev main_v148 : Ref sig .tc := ⟨.hbm, 279, rfl⟩
abbrev main_v149 : Ref sig .tc := ⟨.hbm, 280, rfl⟩
abbrev main_v150 : Ref sig .tc := ⟨.hbm, 281, rfl⟩
abbrev main_v151 : Ref sig .tc := ⟨.hbm, 282, rfl⟩
abbrev main_v152 : Ref sig .tc := ⟨.hbm, 283, rfl⟩
abbrev main_v153 : Ref sig .tc := ⟨.hbm, 284, rfl⟩
abbrev main_v154 : Ref sig .tc := ⟨.hbm, 285, rfl⟩
abbrev main_v155 : Ref sig .tc := ⟨.hbm, 286, rfl⟩
abbrev main_cst_30 : Ref sig .tc := ⟨.hbm, 287, rfl⟩
abbrev main_v156 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_v160 : Ref sig .tc := ⟨.hbm, 292, rfl⟩
abbrev main_v161 : Ref sig .tc := ⟨.hbm, 293, rfl⟩
abbrev main_cst_31 : Ref sig .tc := ⟨.hbm, 294, rfl⟩
abbrev main_v162 : Ref sig .tc := ⟨.hbm, 295, rfl⟩
abbrev main_cst_32 : Ref sig .tc := ⟨.hbm, 296, rfl⟩
abbrev main_v163 : Ref sig .tc := ⟨.hbm, 297, rfl⟩
abbrev main_v164 : Ref sig .tc := ⟨.hbm, 298, rfl⟩
abbrev main_c_33 : Ref sig .tc := ⟨.hbm, 299, rfl⟩
abbrev main_call7_cst : Ref sig .tc := ⟨.hbm, 300, rfl⟩
abbrev main_call7_v0 : Ref sig .tc := ⟨.hbm, 301, rfl⟩
abbrev main_call7_v1 : Ref sig .tc := ⟨.hbm, 302, rfl⟩
abbrev main_call7_cst_0 : Ref sig .tc := ⟨.hbm, 303, rfl⟩
abbrev main_call7_v2 : Ref sig .tc := ⟨.hbm, 304, rfl⟩
abbrev main_call7_v3 : Ref sig .tc := ⟨.hbm, 305, rfl⟩
abbrev main_call7_v4 : Ref sig .tc := ⟨.hbm, 306, rfl⟩
abbrev main_call7_v5 : Ref sig .tc := ⟨.hbm, 307, rfl⟩
abbrev main_call7_v6 : Ref sig .tc := ⟨.hbm, 308, rfl⟩
abbrev main_call7_v7 : Ref sig .tc := ⟨.hbm, 309, rfl⟩
abbrev main_call7_cst_1 : Ref sig .tc := ⟨.hbm, 310, rfl⟩
abbrev main_call7_v8 : Ref sig .tc := ⟨.hbm, 311, rfl⟩
abbrev main_call7_cst_2 : Ref sig .tc := ⟨.hbm, 312, rfl⟩
abbrev main_call7_v9 : Ref sig .tc := ⟨.hbm, 313, rfl⟩
abbrev main_call7_v10 : Ref sig .tc := ⟨.hbm, 314, rfl⟩
abbrev main_call7_v11 : Ref sig .tc := ⟨.hbm, 315, rfl⟩
abbrev main_call7_cst_3 : Ref sig .tc := ⟨.hbm, 316, rfl⟩
abbrev main_call7_v12 : Ref sig .tc := ⟨.hbm, 317, rfl⟩
abbrev main_call7_cst_4 : Ref sig .tc := ⟨.hbm, 318, rfl⟩
abbrev main_call7_call0_v0 : Ref sig .tc := ⟨.hbm, 319, rfl⟩
abbrev main_call7_call0_v1 : Ref sig .tc := ⟨.hbm, 320, rfl⟩
abbrev main_v165 : Ref sig .tc := ⟨.hbm, 321, rfl⟩
abbrev main_v166 : Ref sig .tc := ⟨.hbm, 322, rfl⟩
abbrev main_v167 : Ref sig .tc := ⟨.hbm, 323, rfl⟩
abbrev main_v168 : Ref sig .tc := ⟨.hbm, 324, rfl⟩
abbrev main_v169 : Ref sig .tc := ⟨.hbm, 325, rfl⟩
abbrev main_v170 : Ref sig .tc := ⟨.hbm, 326, rfl⟩
abbrev main_v171 : Ref sig .tc := ⟨.hbm, 327, rfl⟩
abbrev main_cst_34 : Ref sig .tc := ⟨.hbm, 328, rfl⟩
abbrev main_v172 : Ref sig .tc := ⟨.hbm, 329, rfl⟩
abbrev main_v173 : Ref sig .tc := ⟨.hbm, 330, rfl⟩
abbrev main_v174 : Ref sig .tc := ⟨.hbm, 331, rfl⟩
abbrev main_v175 : Ref sig .tc := ⟨.hbm, 332, rfl⟩
abbrev main_v176 : Ref sig .tc := ⟨.hbm, 333, rfl⟩
abbrev main_v177 : Ref sig .tc := ⟨.hbm, 334, rfl⟩
abbrev main_v178 : Ref sig .tc := ⟨.hbm, 335, rfl⟩
abbrev main_v179 : Ref sig .tc := ⟨.hbm, 336, rfl⟩
abbrev main_v180 : Ref sig .tc := ⟨.hbm, 337, rfl⟩
abbrev main_call8_cst : Ref sig .tc := ⟨.hbm, 338, rfl⟩
abbrev main_call8_v0 : Ref sig .tc := ⟨.hbm, 339, rfl⟩
abbrev main_v181 : Ref sig .tc := ⟨.hbm, 340, rfl⟩
abbrev main_v182 : Ref sig .tc := ⟨.hbm, 341, rfl⟩
abbrev main_c_35 : Ref sig .tc := ⟨.hbm, 342, rfl⟩
abbrev main_v183 : Ref sig .tc := ⟨.hbm, 343, rfl⟩
abbrev main_v184 : Ref sig .tc := ⟨.hbm, 344, rfl⟩
abbrev main_c_36 : Ref sig .tc := ⟨.hbm, 345, rfl⟩
abbrev main_v185 : Ref sig .tc := ⟨.hbm, 346, rfl⟩
abbrev main_v186 : Ref sig .tc := ⟨.hbm, 347, rfl⟩
abbrev main_v187 : Ref sig .tc := ⟨.hbm, 348, rfl⟩
abbrev main_v188 : Ref sig .tc := ⟨.hbm, 349, rfl⟩
abbrev main_v189 : Ref sig .tc := ⟨.hbm, 350, rfl⟩
abbrev main_v190 : Ref sig .tc := ⟨.hbm, 351, rfl⟩
abbrev main_v191 : Ref sig .tc := ⟨.hbm, 352, rfl⟩
abbrev main_v192 : Ref sig .tc := ⟨.hbm, 353, rfl⟩
abbrev main_cst_37 : Ref sig .tc := ⟨.hbm, 354, rfl⟩
abbrev main_v193 : Ref sig .tc := ⟨.hbm, 355, rfl⟩
abbrev main_v194 : Ref sig .tc := ⟨.hbm, 356, rfl⟩
abbrev main_v195 : Ref sig .tc := ⟨.hbm, 357, rfl⟩
abbrev main_v196 : Ref sig .tc := ⟨.hbm, 358, rfl⟩
abbrev main_v197 : Ref sig .tc := ⟨.hbm, 359, rfl⟩
abbrev main_v198 : Ref sig .tc := ⟨.hbm, 360, rfl⟩
abbrev main_cst_38 : Ref sig .tc := ⟨.hbm, 361, rfl⟩
abbrev main_v199 : Ref sig .tc := ⟨.hbm, 362, rfl⟩
abbrev main_cst_39 : Ref sig .tc := ⟨.hbm, 363, rfl⟩
abbrev main_v200 : Ref sig .tc := ⟨.hbm, 364, rfl⟩
abbrev main_v201 : Ref sig .tc := ⟨.hbm, 365, rfl⟩
abbrev main_c_40 : Ref sig .tc := ⟨.hbm, 366, rfl⟩
abbrev main_call9_cst : Ref sig .tc := ⟨.hbm, 367, rfl⟩
abbrev main_call9_v0 : Ref sig .tc := ⟨.hbm, 368, rfl⟩
abbrev main_call9_v1 : Ref sig .tc := ⟨.hbm, 369, rfl⟩
abbrev main_call9_cst_0 : Ref sig .tc := ⟨.hbm, 370, rfl⟩
abbrev main_call9_v2 : Ref sig .tc := ⟨.hbm, 371, rfl⟩
abbrev main_call9_v3 : Ref sig .tc := ⟨.hbm, 372, rfl⟩
abbrev main_call9_v4 : Ref sig .tc := ⟨.hbm, 373, rfl⟩
abbrev main_call9_v5 : Ref sig .tc := ⟨.hbm, 374, rfl⟩
abbrev main_call9_v6 : Ref sig .tc := ⟨.hbm, 375, rfl⟩
abbrev main_call9_v7 : Ref sig .tc := ⟨.hbm, 376, rfl⟩
abbrev main_call9_cst_1 : Ref sig .tc := ⟨.hbm, 377, rfl⟩
abbrev main_call9_v8 : Ref sig .tc := ⟨.hbm, 378, rfl⟩
abbrev main_call9_cst_2 : Ref sig .tc := ⟨.hbm, 379, rfl⟩
abbrev main_call9_v9 : Ref sig .tc := ⟨.hbm, 380, rfl⟩
abbrev main_call9_v10 : Ref sig .tc := ⟨.hbm, 381, rfl⟩
abbrev main_call9_v11 : Ref sig .tc := ⟨.hbm, 382, rfl⟩
abbrev main_call9_cst_3 : Ref sig .tc := ⟨.hbm, 383, rfl⟩
abbrev main_call9_v12 : Ref sig .tc := ⟨.hbm, 384, rfl⟩
abbrev main_call9_cst_4 : Ref sig .tc := ⟨.hbm, 385, rfl⟩
abbrev main_call9_call0_v0 : Ref sig .tc := ⟨.hbm, 386, rfl⟩
abbrev main_call9_call0_v1 : Ref sig .tc := ⟨.hbm, 387, rfl⟩
abbrev main_v202 : Ref sig .tc := ⟨.hbm, 388, rfl⟩
abbrev main_v203 : Ref sig .tc := ⟨.hbm, 389, rfl⟩
abbrev main_v204 : Ref sig .tc := ⟨.hbm, 390, rfl⟩
abbrev main_v205 : Ref sig .tc := ⟨.hbm, 391, rfl⟩
abbrev main_v206 : Ref sig .tc := ⟨.hbm, 392, rfl⟩
abbrev main_v207 : Ref sig .tc := ⟨.hbm, 393, rfl⟩
abbrev main_v208 : Ref sig .tc := ⟨.hbm, 394, rfl⟩
abbrev main_cst_41 : Ref sig .tc := ⟨.hbm, 395, rfl⟩
abbrev main_v209 : Ref sig .tc := ⟨.hbm, 396, rfl⟩
abbrev main_v210 : Ref sig .tc := ⟨.hbm, 397, rfl⟩
abbrev main_v211 : Ref sig .tc := ⟨.hbm, 398, rfl⟩
abbrev main_v212 : Ref sig .tc := ⟨.hbm, 399, rfl⟩
abbrev main_v213 : Ref sig .tc := ⟨.hbm, 400, rfl⟩
abbrev main_v214 : Ref sig .tc := ⟨.hbm, 401, rfl⟩
abbrev main_v215 : Ref sig .tc := ⟨.hbm, 402, rfl⟩
abbrev main_v216 : Ref sig .tc := ⟨.hbm, 403, rfl⟩
abbrev main_v217 : Ref sig .tc := ⟨.hbm, 404, rfl⟩
abbrev main_cst_42 : Ref sig .tc := ⟨.hbm, 405, rfl⟩
abbrev main_v218 : Ref sig .tc := ⟨.hbm, 406, rfl⟩
abbrev main_v219 : Ref sig .tc := ⟨.hbm, 407, rfl⟩
abbrev main_v220 : Ref sig .tc := ⟨.hbm, 408, rfl⟩
abbrev main_call10_cst : Ref sig .tc := ⟨.hbm, 409, rfl⟩
abbrev main_call10_v0 : Ref sig .tc := ⟨.hbm, 410, rfl⟩
abbrev main_v221 : Ref sig .tc := ⟨.hbm, 411, rfl⟩
abbrev main_v222 : Ref sig .tc := ⟨.hbm, 412, rfl⟩
abbrev main_v223 : Ref sig .tc := ⟨.hbm, 413, rfl⟩
abbrev main_v224 : Ref sig .tc := ⟨.hbm, 414, rfl⟩
abbrev main_v225 : Ref sig .tc := ⟨.hbm, 415, rfl⟩
abbrev main_call11_cst : Ref sig .tc := ⟨.hbm, 416, rfl⟩
abbrev main_call11_v0 : Ref sig .tc := ⟨.hbm, 417, rfl⟩
abbrev main_v226 : Ref sig .tc := ⟨.hbm, 418, rfl⟩
abbrev main_v227 : Ref sig .tc := ⟨.hbm, 419, rfl⟩
abbrev main_v228 : Ref sig .tc := ⟨.hbm, 420, rfl⟩
abbrev main_v229 : Ref sig .tc := ⟨.hbm, 421, rfl⟩
abbrev main_v230 : Ref sig .tc := ⟨.hbm, 422, rfl⟩
abbrev main_v231 : Ref sig .tc := ⟨.hbm, 423, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S16_d0 : S50000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S32_d0 : S50000x32.ReducesTo [0] S32
  bcast_S_S32 : S_.BroadcastsInDim S32 (![] : Fin 0 → Fin S32.rank)
  bcast_S_S1x32 : S_.BroadcastsInDim S1x32 (![] : Fin 0 → Fin S1x32.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x16_S50000x16_1_0_0_1_n_n_wf : DotDims.WF S50000x128 S128x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  dot_S50000x16_S16x32_S50000x32_1_0_0_1_n_n_wf : DotDims.WF S50000x16 S16x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x64_S50000x64_1_0_0_1_n_n_wf : DotDims.WF S50000x32 S32x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf
def dot_S50000x16_S16x32_S50000x32_1_0_0_1_n_n : DotDims S50000x16 S16x32 S50000x32 where
  lhsContracting := [1]
  rhsContracting := [0]
  lhsNonContracting := [0]
  rhsNonContracting := [1]
  lhsBatch := []
  rhsBatch := []
  wf := dot_S50000x16_S16x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.SpecGraph.lean ====
import proofs.«424203_j57904749085258_1_alg».proof.ReferenceIdeal
import Idealize.ShloMosaic.PureOps.Ideal

noncomputable section

namespace Cert.Gnn

open Idealize.ShloMosaic Cert.ReferenceIdeal

variable [Cert.ReferenceIdeal.Facts]
open Cert.ReferenceIdeal.Facts₀ Cert.ReferenceIdeal.Facts

def AllReal {S : Shape} (v : S.Idx → EReal) : Prop := ∀ i, ∃ r : ℝ, v i = (r : EReal)

def rowOf (ei : IVec S2x800000 32) : IVec S850000 32 :=
  concatenate S850000 0 [⟨S800000, shapeCast S800000 (extractStridedSlice S1x800000 ![0, 0] ei slices_S2x800000_S1x800000_0_0) shapeCasts_S1x800000_S800000⟩,
    ⟨S50000, iotaInDim S50000 32 0⟩] concatenates_S800000_S50000_S850000_d0

def colOf (ei : IVec S2x800000 32) : IVec S850000 32 :=
  concatenate S850000 0 [⟨S800000, shapeCast S800000 (extractStridedSlice S1x800000 ![1, 0] ei slices_S2x800000_S1x800000_1_0) shapeCasts_S1x800000_S800000⟩,
    ⟨S50000, iotaInDim S50000 32 0⟩] concatenates_S800000_S50000_S850000_d0

def wOf (ew : FVec Ideal S800000 .f32) : FVec Ideal S850000 .f32 :=
  concatenate S850000 0 [⟨S800000, ew⟩,
    ⟨S50000, broadcastInDim S50000 ![] bcast_S_S50000 (constant (F := Ideal) S_ .f32 0x3F800000#32)⟩] concatenates_S800000_S50000_S850000_d0

def degOf (ei : IVec S2x800000 32) (ew : FVec Ideal S800000 .f32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 (colOf ei)) (wOf ew)

def disOf (ei : IVec S2x800000 32) (ew : FVec Ideal S800000 .f32) : FVec Ideal S50000 .f32 :=
  select (cmpf .ogt (degOf ei ew) (broadcastInDim S50000 ![] bcast_S_S50000 (constant (F := Ideal) S_ .f32 0x00000000#32)))
    (Host.rsqrt (maximumf (degOf ei ew) (broadcastInDim S50000 ![] bcast_S_S50000 (constant (F := Ideal) S_ .f32 0x2B8CBCCC#32))))
    (broadcastInDim S50000 ![] bcast_S_S50000 (id (constant (F := Ideal) S_ .f32 0x00000000#32)))

def wrapIdx (r : IVec S850000 32) : IVec S850000 32 :=
  select (cmpi .slt r (broadcastInDim S850000 ![] bcast_S_S850000 (constantI S_ 32 0#32)))
    (addi r (broadcastInDim S850000 ![] bcast_S_S850000 (constantI S_ 32 50000#32))) r

def normOf (ei : IVec S2x800000 32) (ew : FVec Ideal S800000 .f32) : FVec Ideal S850000 .f32 :=
  mulf
    (mulf (Host.gather gather_S50000_S850000x1_S850000_n_0_n_n_0_1_1 (disOf ei ew)
        (broadcastInDim S850000x1 ![0] bcast_S850000_S850000x1_0 (wrapIdx (rowOf ei)))) (wOf ew))
    (Host.gather gather_S50000_S850000x1_S850000_n_0_n_n_0_1_1 (disOf ei ew)
        (broadcastInDim S850000x1 ![0] bcast_S850000_S850000x1_0 (wrapIdx (colOf ei))))

def cnt : FVec Ideal S_ .f32 :=
  subf (constant (F := Ideal) S_ .f32 0x47435000#32) (sitofp .f32 (constantI S_ 32 0#32))

end Cert.Gnn

end
-- ==== Proof.SpecW16.lean ====
import proofs.«424203_j57904749085258_1_alg».proof.Proof.SpecGraph

noncomputable section

namespace Cert.Gnn

open Idealize.ShloMosaic Cert.ReferenceIdeal

variable [Cert.ReferenceIdeal.Facts]
open Cert.ReferenceIdeal.Facts₀ Cert.ReferenceIdeal.Facts

def bcRow16 (v : FVec Ideal S16 .f32) : FVec Ideal S50000x16 .f32 :=
  broadcastInDim S50000x16 ![0, 1] bcast_S1x16_S50000x16_0_1 (broadcastInDim S1x16 ![1] bcast_S16_S1x16_1 v)

def conv16 (row col : IVec S850000 32) (norm : FVec Ideal S850000 .f32) (mm : FVec Ideal S50000x16 .f32)
    (b : FVec Ideal S16 .f32) : FVec Ideal S50000x16 .f32 :=
  addf
    (Host.scatterAdd scatter_S50000x16_S850000x1_S850000x16_1_0_0_1
      (broadcastInDim S50000x16 ![] bcast_S_S50000x16 (constant (F := Ideal) S_ .f32 0x00000000#32))
      (broadcastInDim S850000x1 ![0] bcast_S850000_S850000x1_0 col)
      (mulf (Host.gather gather_S50000x16_S850000x1_S850000x16_1_0_n_n_0_1_116 mm
              (broadcastInDim S850000x1 ![0] bcast_S850000_S850000x1_0 (wrapIdx row)))
            (broadcastInDim S850000x16 ![0, 1] bcast_S850000x1_S850000x16_0_1
              (broadcastInDim S850000x1 ![0] bcast_S850000_S850000x1_0 norm))))
    (bcRow16 b)

def relu16 (x : FVec Ideal S50000x16 .f32) : FVec Ideal S50000x16 .f32 :=
  maximumf x (broadcastInDim S50000x16 ![] bcast_S_S50000x16 (constant (F := Ideal) S_ .f32 0x00000000#32))

def sum16 (x : FVec Ideal S50000x16 .f32) : FVec Ideal S16 .f32 :=
  Host.reduceAdd x (constant (F := Ideal) S_ .f32 0x00000000#32) reducesTo_S50000x16_S16_d0 h_S_

def mean16 (x : FVec Ideal S50000x16 .f32) : FVec Ideal S16 .f32 :=
  Host.divf (sum16 x) (broadcastInDim S16 ![] bcast_S_S16 (constant (F := Ideal) S_ .f32 0x47435000#32))

def sqdev16 (x : FVec Ideal S50000x16 .f32) : FVec Ideal S50000x16 .f32 :=
  mulf
    (subf x (broadcastInDim S50000x16 ![0, 1] bcast_S1x16_S50000x16_0_1
      (Host.divf (broadcastInDim S1x16 ![1] bcast_S16_S1x16_1 (sum16 x))
        (broadcastInDim S1x16 ![] bcast_S_S1x16 (constant (F := Ideal) S_ .f32 0x47435000#32)))))
    (subf x (broadcastInDim S50000x16 ![0, 1] bcast_S1x16_S50000x16_0_1
      (Host.divf (broadcastInDim S1x16 ![1] bcast_S16_S1x16_1 (sum16 x))
        (broadcastInDim S1x16 ![] bcast_S_S1x16 (constant (F := Ideal) S_ .f32 0x47435000#32)))))

def var16 (x : FVec Ideal S50000x16 .f32) : FVec Ideal S16 .f32 :=
  select (broadcastInDim S16 ![] bcast_S_S16 (cmpf .ogt cnt (constant (F := Ideal) S_ .f32 0x00000000#32)))
    (Host.divf (Host.reduceAdd (sqdev16 x) (constant (F := Ideal) S_ .f32 0x00000000#32) reducesTo_S50000x16_S16_d0 h_S_)
      (broadcastInDim S16 ![] bcast_S_S16 cnt))
    (broadcastInDim S16 ![] bcast_S_S16 (id (constant (F := Ideal) S_ .f32 0x7FC00000#32)))

def bn16 (x : FVec Ideal S50000x16 .f32) (g bt : FVec Ideal S16 .f32) : FVec Ideal S50000x16 .f32 :=
  addf
    (mulf (mulf (bcRow16 g) (subf x (bcRow16 (mean16 x))))
      (bcRow16 (Host.rsqrt (addf (var16 x) (broadcastInDim S16 ![] bcast_S_S16 (constant (F := Ideal) S_ .f32 0x3727C5AC#32))))))
    (bcRow16 bt)

end Cert.Gnn

end
-- ==== Proof.SpecW32.lean ====
import proofs.«424203_j57904749085258_1_alg».proof.Proof.SpecGraph

noncomputable section

namespace Cert.Gnn

open Idealize.ShloMosaic Cert.ReferenceIdeal

variable [Cert.ReferenceIdeal.Facts]
open Cert.ReferenceIdeal.Facts₀ Cert.ReferenceIdeal.Facts

def bcRow32 (v : FVec Ideal S32 .f32) : FVec Ideal S50000x32 .f32 :=
  broadcastInDim S50000x32 ![0, 1] bcast_S1x32_S50000x32_0_1 (broadcastInDim S1x32 ![1] bcast_S32_S1x32_1 v)

def conv32 (row col : IVec S850000 32) (norm : FVec Ideal S850000 .f32) (mm : FVec Ideal S50000x32 .f32)
    (b : FVec Ideal S32 .f32) : FVec Ideal S50000x32 .f32 :=
  addf
    (Host.scatterAdd scatter_S50000x32_S850000x1_S850000x32_1_0_0_1
      (broadcastInDim S50000x32 ![] bcast_S_S50000x32 (constant (F := Ideal) S_ .f32 0x00000000#32))
      (broadcastInDim S850000x1 ![0] bcast_S850000_S850000x1_0 col)
      (mulf (Host.gather gather_S50000x32_S850000x1_S850000x32_1_0_n_n_0_1_132 mm
              (broadcastInDim S850000x1 ![0] bcast_S850000_S850000x1_0 (wrapIdx row)))
            (broadcastInDim S850000x32 ![0, 1] bcast_S850000x1_S850000x32_0_1
              (broadcastInDim S850000x1 ![0] bcast_S850000_S850000x1_0 norm))))
    (bcRow32 b)

def relu32 (x : FVec Ideal S50000x32 .f32) : FVec Ideal S50000x32 .f32 :=
  maximumf x (broadcastInDim S50000x32 ![] bcast_S_S50000x32 (constant (F := Ideal) S_ .f32 0x00000000#32))

def sum32 (x : FVec Ideal S50000x32 .f32) : FVec Ideal S32 .f32 :=
  Host.reduceAdd x (constant (F := Ideal) S_ .f32 0x00000000#32) reducesTo_S50000x32_S32_d0 h_S_

def mean32 (x : FVec Ideal S50000x32 .f32) : FVec Ideal S32 .f32 :=
  Host.divf (sum32 x) (broadcastInDim S32 ![] bcast_S_S32 (constant (F := Ideal) S_ .f32 0x47435000#32))

def sqdev32 (x : FVec Ideal S50000x32 .f32) : FVec Ideal S50000x32 .f32 :=
  mulf
    (subf x (broadcastInDim S50000x32 ![0, 1] bcast_S1x32_S50000x32_0_1
      (Host.divf (broadcastInDim S1x32 ![1] bcast_S32_S1x32_1 (sum32 x))
        (broadcastInDim S1x32 ![] bcast_S_S1x32 (constant (F := Ideal) S_ .f32 0x47435000#32)))))
    (subf x (broadcastInDim S50000x32 ![0, 1] bcast_S1x32_S50000x32_0_1
      (Host.divf (broadcastInDim S1x32 ![1] bcast_S32_S1x32_1 (sum32 x))
        (broadcastInDim S1x32 ![] bcast_S_S1x32 (constant (F := Ideal) S_ .f32 0x47435000#32)))))

def var32 (x : FVec Ideal S50000x32 .f32) : FVec Ideal S32 .f32 :=
  select (broadcastInDim S32 ![] bcast_S_S32 (cmpf .ogt cnt (constant (F := Ideal) S_ .f32 0x00000000#32)))
    (Host.divf (Host.reduceAdd (sqdev32 x) (constant (F := Ideal) S_ .f32 0x00000000#32) reducesTo_S50000x32_S32_d0 h_S_)
      (broadcastInDim S32 ![] bcast_S_S32 cnt))
    (broadcastInDim S32 ![] bcast_S_S32 (id (constant (F := Ideal) S_ .f32 0x7FC00000#32)))

def bn32 (x : FVec Ideal S50000x32 .f32) (g bt : FVec Ideal S32 .f32) : FVec Ideal S50000x32 .f32 :=
  addf
    (mulf (mulf (bcRow32 g) (subf x (bcRow32 (mean32 x))))
      (bcRow32 (Host.rsqrt (addf (var32 x) (broadcastInDim S32 ![] bcast_S_S32 (constant (F := Ideal) S_ .f32 0x3727C5AC#32))))))
    (bcRow32 bt)

end Cert.Gnn

end
-- ==== Proof.SpecW64.lean ====
import proofs.«424203_j57904749085258_1_alg».proof.Proof.SpecGraph

noncomputable section

namespace Cert.Gnn

open Idealize.ShloMosaic Cert.ReferenceIdeal

variable [Cert.ReferenceIdeal.Facts]
open Cert.ReferenceIdeal.Facts₀ Cert.ReferenceIdeal.Facts

def bcRow64 (v : FVec Ideal S64 .f32) : FVec Ideal S50000x64 .f32 :=
  broadcastInDim S50000x64 ![0, 1] bcast_S1x64_S50000x64_0_1 (broadcastInDim S1x64 ![1] bcast_S64_S1x64_1 v)

def conv64 (row col : IVec S850000 32) (norm : FVec Ideal S850000 .f32) (mm : FVec Ideal S50000x64 .f32)
    (b : FVec Ideal S64 .f32) : FVec Ideal S50000x64 .f32 :=
  addf
    (Host.scatterAdd scatter_S50000x64_S850000x1_S850000x64_1_0_0_1
      (broadcastInDim S50000x64 ![] bcast_S_S50000x64 (constant (F := Ideal) S_ .f32 0x00000000#32))
      (broadcastInDim S850000x1 ![0] bcast_S850000_S850000x1_0 col)
      (mulf (Host.gather gather_S50000x64_S850000x1_S850000x64_1_0_n_n_0_1_164 mm
              (broadcastInDim S850000x1 ![0] bcast_S850000_S850000x1_0 (wrapIdx row)))
            (broadcastInDim S850000x64 ![0, 1] bcast_S850000x1_S850000x64_0_1
              (broadcastInDim S850000x1 ![0] bcast_S850000_S850000x1_0 norm))))
    (bcRow64 b)

def relu64 (x : FVec Ideal S50000x64 .f32) : FVec Ideal S50000x64 .f32 :=
  maximumf x (broadcastInDim S50000x64 ![] bcast_S_S50000x64 (constant (F := Ideal) S_ .f32 0x00000000#32))

def sum64 (x : FVec Ideal S50000x64 .f32) : FVec Ideal S64 .f32 :=
  Host.reduceAdd x (constant (F := Ideal) S_ .f32 0x00000000#32) reducesTo_S50000x64_S64_d0 h_S_

def mean64 (x : FVec Ideal S50000x64 .f32) : FVec Ideal S64 .f32 :=
  Host.divf (sum64 x) (broadcastInDim S64 ![] bcast_S_S64 (constant (F := Ideal) S_ .f32 0x47435000#32))

def sqdev64 (x : FVec Ideal S50000x64 .f32) : FVec Ideal S50000x64 .f32 :=
  mulf
    (subf x (broadcastInDim S50000x64 ![0, 1] bcast_S1x64_S50000x64_0_1
      (Host.divf (broadcastInDim S1x64 ![1] bcast_S64_S1x64_1 (sum64 x))
        (broadcastInDim S1x64 ![] bcast_S_S1x64 (constant (F := Ideal) S_ .f32 0x47435000#32)))))
    (subf x (broadcastInDim S50000x64 ![0, 1] bcast_S1x64_S50000x64_0_1
      (Host.divf (broadcastInDim S1x64 ![1] bcast_S64_S1x64_1 (sum64 x))
        (broadcastInDim S1x64 ![] bcast_S_S1x64 (constant (F := Ideal) S_ .f32 0x47435000#32)))))

def var64 (x : FVec Ideal S50000x64 .f32) : FVec Ideal S64 .f32 :=
  select (broadcastInDim S64 ![] bcast_S_S64 (cmpf .ogt cnt (constant (F := Ideal) S_ .f32 0x00000000#32)))
    (Host.divf (Host.reduceAdd (sqdev64 x) (constant (F := Ideal) S_ .f32 0x00000000#32) reducesTo_S50000x64_S64_d0 h_S_)
      (broadcastInDim S64 ![] bcast_S_S64 cnt))
    (broadcastInDim S64 ![] bcast_S_S64 (id (constant (F := Ideal) S_ .f32 0x7FC00000#32)))

def bn64 (x : FVec Ideal S50000x64 .f32) (g bt : FVec Ideal S64 .f32) : FVec Ideal S50000x64 .f32 :=
  addf
    (mulf (mulf (bcRow64 g) (subf x (bcRow64 (mean64 x))))
      (bcRow64 (Host.rsqrt (addf (var64 x) (broadcastInDim S64 ![] bcast_S_S64 (constant (F := Ideal) S_ .f32 0x3727C5AC#32))))))
    (bcRow64 bt)

end Cert.Gnn

end
-- ==== Proof.SpecW128.lean ====
import proofs.«424203_j57904749085258_1_alg».proof.Proof.SpecGraph

noncomputable section

namespace Cert.Gnn

open Idealize.ShloMosaic Cert.ReferenceIdeal

variable [Cert.ReferenceIdeal.Facts]
open Cert.ReferenceIdeal.Facts₀ Cert.ReferenceIdeal.Facts

def bcRow128 (v : FVec Ideal S128 .f32) : FVec Ideal S50000x128 .f32 :=
  broadcastInDim S50000x128 ![0, 1] bcast_S1x128_S50000x128_0_1 (broadcastInDim S1x128 ![1] bcast_S128_S1x128_1 v)

def conv128 (row col : IVec S850000 32) (norm : FVec Ideal S850000 .f32) (mm : FVec Ideal S50000x128 .f32)
    (b : FVec Ideal S128 .f32) : FVec Ideal S50000x128 .f32 :=
  addf
    (Host.scatterAdd scatter_S50000x128_S850000x1_S850000x128_1_0_0_1
      (broadcastInDim S50000x128 ![] bcast_S_S50000x128 (constant (F := Ideal) S_ .f32 0x00000000#32))
      (broadcastInDim S850000x1 ![0] bcast_S850000_S850000x1_0 col)
      (mulf (Host.gather gather_S50000x128_S850000x1_S850000x128_1_0_n_n_0_1_1128 mm
              (broadcastInDim S850000x1 ![0] bcast_S850000_S850000x1_0 (wrapIdx row)))
            (broadcastInDim S850000x128 ![0, 1] bcast_S850000x1_S850000x128_0_1
              (broadcastInDim S850000x1 ![0] bcast_S850000_S850000x1_0 norm))))
    (bcRow128 b)

def sum128 (x : FVec Ideal S50000x128 .f32) : FVec Ideal S128 .f32 :=
  Host.reduceAdd x (constant (F := Ideal) S_ .f32 0x00000000#32) reducesTo_S50000x128_S128_d0 h_S_

def mean128 (x : FVec Ideal S50000x128 .f32) : FVec Ideal S128 .f32 :=
  Host.divf (sum128 x) (broadcastInDim S128 ![] bcast_S_S128 (constant (F := Ideal) S_ .f32 0x47435000#32))

def sqdev128 (x : FVec Ideal S50000x128 .f32) : FVec Ideal S50000x128 .f32 :=
  mulf
    (subf x (broadcastInDim S50000x128 ![0, 1] bcast_S1x128_S50000x128_0_1
      (Host.divf (broadcastInDim S1x128 ![1] bcast_S128_S1x128_1 (sum128 x))
        (broadcastInDim S1x128 ![] bcast_S_S1x128 (constant (F := Ideal) S_ .f32 0x47435000#32)))))
    (subf x (broadcastInDim S50000x128 ![0, 1] bcast_S1x128_S50000x128_0_1
      (Host.divf (broadcastInDim S1x128 ![1] bcast_S128_S1x128_1 (sum128 x))
        (broadcastInDim S1x128 ![] bcast_S_S1x128 (constant (F := Ideal) S_ .f32 0x47435000#32)))))

def var128 (x : FVec Ideal S50000x128 .f32) : FVec Ideal S128 .f32 :=
  select (broadcastInDim S128 ![] bcast_S_S128 (cmpf .ogt cnt (constant (F := Ideal) S_ .f32 0x00000000#32)))
    (Host.divf (Host.reduceAdd (sqdev128 x) (constant (F := Ideal) S_ .f32 0x00000000#32) reducesTo_S50000x128_S128_d0 h_S_)
      (broadcastInDim S128 ![] bcast_S_S128 cnt))
    (broadcastInDim S128 ![] bcast_S_S128 (id (constant (F := Ideal) S_ .f32 0x7FC00000#32)))

def bn128 (x : FVec Ideal S50000x128 .f32) (g bt : FVec Ideal S128 .f32) : FVec Ideal S50000x128 .f32 :=
  addf
    (mulf (mulf (bcRow128 g) (subf x (bcRow128 (mean128 x))))
      (bcRow128 (Host.rsqrt (addf (var128 x) (broadcastInDim S128 ![] bcast_S_S128 (constant (F := Ideal) S_ .f32 0x3727C5AC#32))))))
    (bcRow128 bt)

end Cert.Gnn

end
-- ==== Proof.Spec.lean ====
import proofs.«424203_j57904749085258_1_alg».proof.Proof.SpecGraph
import proofs.«424203_j57904749085258_1_alg».proof.Proof.SpecW16
import proofs.«424203_j57904749085258_1_alg».proof.Proof.SpecW32
import proofs.«424203_j57904749085258_1_alg».proof.Proof.SpecW64
import proofs.«424203_j57904749085258_1_alg».proof.Proof.SpecW128

noncomputable section

namespace Cert.Gnn

open Idealize.ShloMosaic Cert.ReferenceIdeal

variable [Cert.ReferenceIdeal.Facts]
open Cert.ReferenceIdeal.Facts₀ Cert.ReferenceIdeal.Facts

def lin1 (h : FVec Ideal S50000x128 .f32) (W : FVec Ideal S128x16 .f32) : FVec Ideal S50000x16 .f32 :=
  Host.dotGeneral dot_S50000x128_S128x16_S50000x16_1_0_0_1_n_n none h W
def lin2 (h : FVec Ideal S50000x16 .f32) (W : FVec Ideal S16x32 .f32) : FVec Ideal S50000x32 .f32 :=
  Host.dotGeneral dot_S50000x16_S16x32_S50000x32_1_0_0_1_n_n none h W
def lin3 (h : FVec Ideal S50000x32 .f32) (W : FVec Ideal S32x64 .f32) : FVec Ideal S50000x64 .f32 :=
  Host.dotGeneral dot_S50000x32_S32x64_S50000x64_1_0_0_1_n_n none h W
def lin4 (h : FVec Ideal S50000x64 .f32) (W : FVec Ideal S64x64 .f32) : FVec Ideal S50000x64 .f32 :=
  Host.dotGeneral dot_S50000x64_S64x64_S50000x64_1_0_0_1_n_n none h W
def lin5 (h : FVec Ideal S50000x64 .f32) (W : FVec Ideal S64x128 .f32) : FVec Ideal S50000x128 .f32 :=
  Host.dotGeneral dot_S50000x64_S64x128_S50000x128_1_0_0_1_n_n none h W

def pool (h : FVec Ideal S50000x128 .f32) (batch : IVec S50000 32) : FVec Ideal S256x128 .f32 :=
  Host.scatterAdd scatter_S256x128_S50000x1_S50000x128_1_0_0_1
    (broadcastInDim S256x128 ![] bcast_S_S256x128 (constant (F := Ideal) S_ .f32 0x00000000#32))
    (broadcastInDim S50000x1 ![0] bcast_S50000_S50000x1_0 batch) h

def head (p : FVec Ideal S256x128 .f32) (fc1w : FVec Ideal S128x64 .f32) (fc1b : FVec Ideal S64 .f32)
    (fc2w : FVec Ideal S64x1 .f32) (fc2b : FVec Ideal S1 .f32) : FVec Ideal S256 .f32 :=
  shapeCast S256
    (addf
      (Host.dotGeneral dot_S256x64_S64x1_S256x1_1_0_0_1_n_n none
        (maximumf
          (addf
            (Host.dotGeneral dot_S256x128_S128x64_S256x64_1_0_0_1_n_n none
              (maximumf p (broadcastInDim S256x128 ![] bcast_S_S256x128 (constant (F := Ideal) S_ .f32 0x00000000#32))) fc1w)
            (broadcastInDim S256x64 ![0, 1] bcast_S1x64_S256x64_0_1 (broadcastInDim S1x64 ![1] bcast_S64_S1x64_1 fc1b)))
          (broadcastInDim S256x64 ![] bcast_S_S256x64 (constant (F := Ideal) S_ .f32 0x00000000#32)))
        fc2w)
      (broadcastInDim S256x1 ![0, 1] bcast_S1x1_S256x1_0_1 (broadcastInDim S1x1 ![1] bcast_S1_S1x1_1 fc2b)))
    shapeCasts_S256x1_S256

def h1 (x : FVec Ideal S50000x128 .f32) (ei : IVec S2x800000 32) (ew : FVec Ideal S800000 .f32)
    (W1 : FVec Ideal S128x16 .f32) (b1 g1 bt1 : FVec Ideal S16 .f32) : FVec Ideal S50000x16 .f32 :=
  bn16 (relu16 (conv16 (rowOf ei) (colOf ei) (normOf ei ew) (lin1 x W1) b1)) g1 bt1
def h2 (ei : IVec S2x800000 32) (ew : FVec Ideal S800000 .f32) (h : FVec Ideal S50000x16 .f32)
    (W2 : FVec Ideal S16x32 .f32) (b2 g2 bt2 : FVec Ideal S32 .f32) : FVec Ideal S50000x32 .f32 :=
  bn32 (relu32 (conv32 (rowOf ei) (colOf ei) (normOf ei ew) (lin2 h W2) b2)) g2 bt2
def h3 (ei : IVec S2x800000 32) (ew : FVec Ideal S800000 .f32) (h : FVec Ideal S50000x32 .f32)
    (W3 : FVec Ideal S32x64 .f32) (b3 g3 bt3 : FVec Ideal S64 .f32) : FVec Ideal S50000x64 .f32 :=
  bn64 (relu64 (conv64 (rowOf ei) (colOf ei) (normOf ei ew) (lin3 h W3) b3)) g3 bt3
def h4 (ei : IVec S2x800000 32) (ew : FVec Ideal S800000 .f32) (h : FVec Ideal S50000x64 .f32)
    (W4 : FVec Ideal S64x64 .f32) (b4 g4 bt4 : FVec Ideal S64 .f32) : FVec Ideal S50000x64 .f32 :=
  relu64 (bn64 (conv64 (rowOf ei) (colOf ei) (normOf ei ew) (lin4 h W4) b4) g4 bt4)
def h5 (ei : IVec S2x800000 32) (ew : FVec Ideal S800000 .f32) (h : FVec Ideal S50000x64 .f32)
    (W5 : FVec Ideal S64x128 .f32) (b5 g5 bt5 : FVec Ideal S128 .f32) : FVec Ideal S50000x128 .f32 :=
  bn128 (conv128 (rowOf ei) (colOf ei) (normOf ei ew) (lin5 h W5) b5) g5 bt5

def net (x : FVec Ideal S50000x128 .f32) (ei : IVec S2x800000 32) (ew : FVec Ideal S800000 .f32) (batch : IVec S50000 32)
    (W1 : FVec Ideal S128x16 .f32) (b1 g1 bt1 : FVec Ideal S16 .f32)
    (W2 : FVec Ideal S16x32 .f32) (b2 g2 bt2 : FVec Ideal S32 .f32)
    (W3 : FVec Ideal S32x64 .f32) (b3 g3 bt3 : FVec Ideal S64 .f32)
    (W4 : FVec Ideal S64x64 .f32) (b4 g4 bt4 : FVec Ideal S64 .f32)
    (W5 : FVec Ideal S64x128 .f32) (b5 g5 bt5 : FVec Ideal S128 .f32)
    (fc1w : FVec Ideal S128x64 .f32) (fc1b : FVec Ideal S64 .f32) (fc2w : FVec Ideal S64x1 .f32) (fc2b : FVec Ideal S1 .f32) :
    FVec Ideal S256 .f32 :=
  head (pool (h5 ei ew (h4 ei ew (h3 ei ew (h2 ei ew (h1 x ei ew W1 b1 g1 bt1) W2 b2 g2 bt2) W3 b3 g3 bt3) W4 b4 g4 bt4) W5 b5 g5 bt5) batch)
    fc1w fc1b fc2w fc2b

end Cert.Gnn

end
-- ==== Proof.KGraph.lean ====
import proofs.«424203_j57904749085258_1_alg».proof.Proof.Gen.KernelIdeal.Frame
import proofs.«424203_j57904749085258_1_alg».proof.Proof.Spec

noncomputable section

namespace Cert.KernelIdeal.KChain

open Idealize.ShloMosaic Idealize.ShloMosaic.TcCoe Idealize.SL.Sem Cert.KernelIdeal Cert.KernelIdeal.Gen

variable [Cert.ReferenceIdeal.Facts]
variable (m : (ℓ : Loc nD τ sig) → Buf (Elt Ideal) ℓ) (ρ : Dev nD → PrngReg)

abbrev eiOf (c : Dev nD) : IVec S2x800000 32 := m ((c : Thread nD τ).loc main_arg1)
abbrev ewOf (c : Dev nD) : FVec Ideal S800000 .f32 := m ((c : Thread nD τ).loc main_arg2)

-- A valuation holds the graph's row, column and normalisation arrays.
def GraphAt (c : Dev nD) (V : Valuation τ sig (Elt Ideal)) : Prop :=
  V (Proc.devRef .tc main_v3) = Cert.Gnn.rowOf (eiOf m c) ∧ V (Proc.devRef .tc main_v6) = Cert.Gnn.colOf (eiOf m c)
    ∧ V (Proc.devRef .tc main_v33) = Cert.Gnn.normOf (eiOf m c) (ewOf m c)

variable {m} in
-- A valuation that agrees on the three arrays with one that holds them holds them too.
theorem GraphAt.carry {c : Dev nD} {V V' : Valuation τ sig (Elt Ideal)} (h : GraphAt m c V)
    (h3 : V' (Proc.devRef .tc main_v3) = V (Proc.devRef .tc main_v3)) (h6 : V' (Proc.devRef .tc main_v6) = V (Proc.devRef .tc main_v6))
    (h33 : V' (Proc.devRef .tc main_v33) = V (Proc.devRef .tc main_v33)) : GraphAt m c V' :=
  ⟨h3.trans h.1, h6.trans h.2.1, h33.trans h.2.2⟩

section Stretches
variable (V : Valuation τ sig (Elt Ideal))

theorem s0_row : StableHlo.after hostOps0 V (Proc.devRef .tc main_v3) = Cert.Gnn.rowOf (V (Proc.devRef .tc main_arg1)) := by
  after_results_simp
  try rfl
theorem s0_col : StableHlo.after hostOps0 V (Proc.devRef .tc main_v6) = Cert.Gnn.colOf (V (Proc.devRef .tc main_arg1)) := by
  after_results_simp
  try rfl
theorem s0_w : StableHlo.after hostOps0 V (Proc.devRef .tc main_v8) = Cert.Gnn.wOf (V (Proc.devRef .tc main_arg2)) := by
  after_results_simp
  try rfl
theorem s0_pos : StableHlo.after hostOps0 V (Proc.devRef .tc main_v13)
    = cmpf .ogt (Cert.Gnn.degOf (V (Proc.devRef .tc main_arg1)) (V (Proc.devRef .tc main_arg2)))
        (broadcastInDim S50000 ![] bcast_S_S50000 (constant (F := Ideal) S_ .f32 0x00000000#32)) := by
  after_results_simp
  try rfl
theorem s0_rs : StableHlo.after hostOps0 V (Proc.devRef .tc main_v16)
    = Host.rsqrt (maximumf (Cert.Gnn.degOf (V (Proc.devRef .tc main_arg1)) (V (Proc.devRef .tc main_arg2)))
        (broadcastInDim S50000 ![] bcast_S_S50000 (constant (F := Ideal) S_ .f32 0x2B8CBCCC#32))) := by
  after_results_simp
  try rfl
theorem s0_zero : StableHlo.after hostOps0 V (Proc.devRef .tc main_cst_3) = constant (F := Ideal) S_ .f32 0x00000000#32 := by
  after_results_simp
  try rfl

theorem s1_dis : StableHlo.after hostOps0_1 V (Proc.devRef .tc main_v17)
    = select (V (Proc.devRef .tc main_v13)) (V (Proc.devRef .tc main_v16))
        (broadcastInDim S50000 ![] bcast_S_S50000 (id (V (Proc.devRef .tc main_cst_3)))) := by
  after_results_simp
  try rfl
theorem s1_row : StableHlo.after hostOps0_1 V (Proc.devRef .tc main_v3) = V (Proc.devRef .tc main_v3) := by
  after_results_simp
theorem s1_col : StableHlo.after hostOps0_1 V (Proc.devRef .tc main_v6) = V (Proc.devRef .tc main_v6) := by
  after_results_simp
theorem s1_w : StableHlo.after hostOps0_1 V (Proc.devRef .tc main_v8) = V (Proc.devRef .tc main_v8) := by
  after_results_simp

theorem s2_norm : StableHlo.after hostOps0_2 V (Proc.devRef .tc main_v33)
    = (mulf (F := Ideal)
        (mulf (F := Ideal) (Host.gather gather_S50000_S850000x1_S850000_n_0_n_n_0_1_1 (V (Proc.devRef .tc main_v17) : FVec Ideal S50000 .f32)
            (broadcastInDim S850000x1 ![0] bcast_S850000_S850000x1_0 (Cert.Gnn.wrapIdx (V (Proc.devRef .tc main_v3)))))
          (V (Proc.devRef .tc main_v8) : FVec Ideal S850000 .f32))
        (Host.gather gather_S50000_S850000x1_S850000_n_0_n_n_0_1_1 (V (Proc.devRef .tc main_v17) : FVec Ideal S50000 .f32)
            (broadcastInDim S850000x1 ![0] bcast_S850000_S850000x1_0 (Cert.Gnn.wrapIdx (V (Proc.devRef .tc main_v6))))) : FVec Ideal S850000 .f32) := by
  after_results_simp
  try rfl
theorem s2_row : StableHlo.after hostOps0_2 V (Proc.devRef .tc main_v3) = V (Proc.devRef .tc main_v3) := by
  after_results_simp
theorem s2_col : StableHlo.after hostOps0_2 V (Proc.devRef .tc main_v6) = V (Proc.devRef .tc main_v6) := by
  after_results_simp

end Stretches

theorem W2_dis (c : Dev nD) : W2 m ρ c (Proc.devRef .tc main_v17) = Cert.Gnn.disOf (eiOf m c) (ewOf m c) := by
  refine (s1_dis (W1 m ρ c)).trans ?_
  rw [show W1 m ρ c (Proc.devRef .tc main_v13) = _ from s0_pos (W0 m ρ c),
    show W1 m ρ c (Proc.devRef .tc main_v16) = _ from s0_rs (W0 m ρ c),
    show W1 m ρ c (Proc.devRef .tc main_cst_3) = _ from s0_zero (W0 m ρ c)]
  rfl

theorem graph_at3 (c : Dev nD) : GraphAt m c (W3 m ρ c) := by
  refine ⟨(s2_row (W2 m ρ c)).trans ((s1_row (W1 m ρ c)).trans (s0_row (W0 m ρ c))),
    (s2_col (W2 m ρ c)).trans ((s1_col (W1 m ρ c)).trans (s0_col (W0 m ρ c))), (s2_norm (W2 m ρ c)).trans ?_⟩
  rw [W2_dis m ρ c,
    show W2 m ρ c (Proc.devRef .tc main_v3) = _ from (s1_row (W1 m ρ c)).trans (s0_row (W0 m ρ c)),
    show W2 m ρ c (Proc.devRef .tc main_v6) = _ from (s1_col (W1 m ρ c)).trans (s0_col (W0 m ρ c)),
    show W2 m ρ c (Proc.devRef .tc main_v8) = _ from (s1_w (W1 m ρ c)).trans (s0_w (W0 m ρ c))]
  rfl

end Cert.KernelIdeal.KChain

end
-- ==== Proof.Carry.lean ====
import proofs.«424203_j57904749085258_1_alg».proof.Proof.Gen.KernelIdeal.Frame

noncomputable section

namespace Cert.KernelIdeal.Carry

open Idealize.ShloMosaic Idealize.ShloMosaic.TcCoe Idealize.SL.Sem Cert.KernelIdeal Cert.KernelIdeal.Gen

-- A stretch whose operations write, one each and in order, the references `W` leaves every reference outside `W` as it was.
theorem after_of_wrote {Val : EltTy → Type} {W : List (Ref sig .tc)} {r : Ref sig .tc} (ops : List (HloOp τ sig Val))
    (V : Valuation τ sig Val) (hr : r ∉ W) (hW : ops.map (·.writes) = W.map fun y => {Proc.devRef .tc y}) :
    StableHlo.after ops V (Proc.devRef .tc r) = V (Proc.devRef .tc r) :=
  StableHlo.after_of_forall_not_mem ops V fun op hop hb => by
    obtain ⟨y, hy, he⟩ := List.mem_map.mp (hW ▸ List.mem_map_of_mem hop)
    rw [← he, Finset.mem_singleton] at hb
    exact hr (Proc.devRef_injective _ hb ▸ hy)

theorem ne_of_not_mem_ofFn {α : Type} {n : ℕ} {f : Fin n → α} {a : α} (h : a ∉ List.ofFn f) (i : Fin n) : f i ≠ a :=
  fun e => h (List.mem_ofFn.mpr ⟨i, e⟩)

variable {F : FTy → Type} [FloatOps F] {m : (ℓ : Loc nD τ sig) → Buf (Elt F) ℓ} {ρ : Dev nD → PrngReg} {c : Dev nD}
  {r : Ref sig .tc}

-- Step `k` of the run, from boundary `k - 1` to boundary `k`, leaves as it was every reference but a stretch's results or a region's arrays.
theorem step1 (h : r ∉ [main_v0, main_v1, main_v2, main_v3, main_v4, main_v5, main_v6, main_cst, main_v7, main_v8, main_cst_0, main_v9, main_v10, main_v11, main_cst_1, main_v12, main_v13, main_cst_2, main_v14, main_v15, main_v16, main_cst_3] := by decide) :
    W1 m ρ c (Proc.devRef .tc r) = W0 m ρ c (Proc.devRef .tc r) :=
  after_of_wrote hostOps0 _ h rfl

theorem step2 (h : r ∉ [main_call0_v0, main_call0_v1, main_v17] := by decide) :
    W2 m ρ c (Proc.devRef .tc r) = W1 m ρ c (Proc.devRef .tc r) :=
  after_of_wrote hostOps0_1 _ h rfl

theorem step3 (h : r ∉ [main_c, main_v18, main_v19, main_c_4, main_v20, main_v21, main_v22, main_v23, main_v24, main_v25, main_c_5, main_v26, main_v27, main_c_6, main_v28, main_v29, main_v30, main_v31, main_v32, main_v33] := by decide) :
    W3 m ρ c (Proc.devRef .tc r) = W2 m ρ c (Proc.devRef .tc r) :=
  after_of_wrote hostOps0_2 _ h rfl

theorem step4 (h : r ∉ List.ofFn (Pipeline.arrRef spec0) := by decide) :
    W4 m ρ c (Proc.devRef .tc r) = W3 m ρ c (Proc.devRef .tc r) :=
  W4_of_ne m ρ c r (ne_of_not_mem_ofFn h)

theorem step5 (h : r ∉ [main_c_7, main_v35, main_v36, main_c_8, main_v37, main_v38, main_v39, main_v40, main_v41, main_v42, main_v43, main_v44, main_cst_9, main_v45, main_v46, main_v47, main_v48, main_v49, main_v50] := by decide) :
    W5 m ρ c (Proc.devRef .tc r) = W4 m ρ c (Proc.devRef .tc r) :=
  after_of_wrote hostOps1 _ h rfl

theorem step6 (h : r ∉ List.ofFn (Pipeline.arrRef spec1) := by decide) :
    W6 m ρ c (Proc.devRef .tc r) = W5 m ρ c (Proc.devRef .tc r) :=
  W6_of_ne m ρ c r (ne_of_not_mem_ofFn h)

theorem step7 (h : r ∉ [main_cst_10, main_v52, main_v53, main_cst_11, main_v54, main_v55, main_v56, main_v57, main_v58, main_v59] := by decide) :
    W7 m ρ c (Proc.devRef .tc r) = W6 m ρ c (Proc.devRef .tc r) :=
  after_of_wrote hostOps2 _ h rfl

theorem step8 (h : r ∉ List.ofFn (Pipeline.arrRef spec2) := by decide) :
    W8 m ρ c (Proc.devRef .tc r) = W7 m ρ c (Proc.devRef .tc r) :=
  W8_of_ne m ρ c r (ne_of_not_mem_ofFn h)

theorem step9 (h : r ∉ List.ofFn (Pipeline.arrRef spec3) := by decide) :
    W9 m ρ c (Proc.devRef .tc r) = W8 m ρ c (Proc.devRef .tc r) :=
  W9_of_ne m ρ c r (ne_of_not_mem_ofFn h)

theorem step10 (h : r ∉ [main_c_12, main_v62, main_v63, main_c_13, main_v64, main_v65, main_v66, main_v67, main_v68, main_v69, main_v70, main_v71, main_cst_14, main_v72, main_v73, main_v74, main_v75, main_v76, main_v77] := by decide) :
    W10 m ρ c (Proc.devRef .tc r) = W9 m ρ c (Proc.devRef .tc r) :=
  after_of_wrote hostOps4 _ h rfl

theorem step11 (h : r ∉ List.ofFn (Pipeline.arrRef spec4) := by decide) :
    W11 m ρ c (Proc.devRef .tc r) = W10 m ρ c (Proc.devRef .tc r) :=
  W11_of_ne m ρ c r (ne_of_not_mem_ofFn h)

theorem step12 (h : r ∉ [main_cst_15, main_v79, main_v80, main_cst_16, main_v81, main_v82, main_v83, main_v84, main_v85, main_v86] := by decide) :
    W12 m ρ c (Proc.devRef .tc r) = W11 m ρ c (Proc.devRef .tc r) :=
  after_of_wrote hostOps5 _ h rfl

theorem step13 (h : r ∉ List.ofFn (Pipeline.arrRef spec5) := by decide) :
    W13 m ρ c (Proc.devRef .tc r) = W12 m ρ c (Proc.devRef .tc r) :=
  W13_of_ne m ρ c r (ne_of_not_mem_ofFn h)

theorem step14 (h : r ∉ List.ofFn (Pipeline.arrRef spec6) := by decide) :
    W14 m ρ c (Proc.devRef .tc r) = W13 m ρ c (Proc.devRef .tc r) :=
  W14_of_ne m ρ c r (ne_of_not_mem_ofFn h)

theorem step15 (h : r ∉ [main_c_17, main_v89, main_v90, main_c_18, main_v91, main_v92, main_v93, main_v94, main_v95, main_v96, main_v97, main_v98, main_cst_19, main_v99, main_v100, main_v101, main_v102, main_v103, main_v104] := by decide) :
    W15 m ρ c (Proc.devRef .tc r) = W14 m ρ c (Proc.devRef .tc r) :=
  after_of_wrote hostOps7 _ h rfl

theorem step16 (h : r ∉ List.ofFn (Pipeline.arrRef spec7) := by decide) :
    W16 m ρ c (Proc.devRef .tc r) = W15 m ρ c (Proc.devRef .tc r) :=
  W16_of_ne m ρ c r (ne_of_not_mem_ofFn h)

theorem step17 (h : r ∉ [main_cst_20, main_v106, main_v107, main_cst_21, main_v108, main_v109, main_v110, main_v111, main_v112, main_v113] := by decide) :
    W17 m ρ c (Proc.devRef .tc r) = W16 m ρ c (Proc.devRef .tc r) :=
  after_of_wrote hostOps8 _ h rfl

theorem step18 (h : r ∉ List.ofFn (Pipeline.arrRef spec8) := by decide) :
    W18 m ρ c (Proc.devRef .tc r) = W17 m ρ c (Proc.devRef .tc r) :=
  W18_of_ne m ρ c r (ne_of_not_mem_ofFn h)

theorem step19 (h : r ∉ List.ofFn (Pipeline.arrRef spec9) := by decide) :
    W19 m ρ c (Proc.devRef .tc r) = W18 m ρ c (Proc.devRef .tc r) :=
  W19_of_ne m ρ c r (ne_of_not_mem_ofFn h)

theorem step20 (h : r ∉ [main_c_22, main_v116, main_v117, main_c_23, main_v118, main_v119, main_v120, main_v121, main_v122, main_v123, main_v124, main_v125, main_cst_24, main_v126, main_v127, main_v128, main_v129, main_v130, main_v131] := by decide) :
    W20 m ρ c (Proc.devRef .tc r) = W19 m ρ c (Proc.devRef .tc r) :=
  after_of_wrote hostOps10 _ h rfl

theorem step21 (h : r ∉ List.ofFn (Pipeline.arrRef spec10) := by decide) :
    W21 m ρ c (Proc.devRef .tc r) = W20 m ρ c (Proc.devRef .tc r) :=
  W21_of_ne m ρ c r (ne_of_not_mem_ofFn h)

theorem step22 (h : r ∉ [main_cst_25, main_v133, main_v134, main_cst_26, main_v135, main_v136, main_v137, main_v138, main_v139, main_v140] := by decide) :
    W22 m ρ c (Proc.devRef .tc r) = W21 m ρ c (Proc.devRef .tc r) :=
  after_of_wrote hostOps11 _ h rfl

theorem step23 (h : r ∉ List.ofFn (Pipeline.arrRef spec11) := by decide) :
    W23 m ρ c (Proc.devRef .tc r) = W22 m ρ c (Proc.devRef .tc r) :=
  W23_of_ne m ρ c r (ne_of_not_mem_ofFn h)

theorem step24 (h : r ∉ List.ofFn (Pipeline.arrRef spec12) := by decide) :
    W24 m ρ c (Proc.devRef .tc r) = W23 m ρ c (Proc.devRef .tc r) :=
  W24_of_ne m ρ c r (ne_of_not_mem_ofFn h)

theorem step25 (h : r ∉ [main_c_27, main_v143, main_v144, main_c_28, main_v145, main_v146, main_v147, main_v148, main_v149, main_v150, main_v151, main_v152, main_cst_29, main_v153, main_v154, main_v155, main_v156, main_v157, main_v158] := by decide) :
    W25 m ρ c (Proc.devRef .tc r) = W24 m ρ c (Proc.devRef .tc r) :=
  after_of_wrote hostOps13 _ h rfl

theorem step26 (h : r ∉ List.ofFn (Pipeline.arrRef spec13) := by decide) :
    W26 m ρ c (Proc.devRef .tc r) = W25 m ρ c (Proc.devRef .tc r) :=
  W26_of_ne m ρ c r (ne_of_not_mem_ofFn h)

theorem step27 (h : r ∉ [main_cst_30, main_v160, main_v161, main_cst_31, main_v162, main_v163, main_v164, main_v165, main_v166, main_v167] := by decide) :
    W27 m ρ c (Proc.devRef .tc r) = W26 m ρ c (Proc.devRef .tc r) :=
  after_of_wrote hostOps14 _ h rfl

theorem step28 (h : r ∉ List.ofFn (Pipeline.arrRef spec14) := by decide) :
    W28 m ρ c (Proc.devRef .tc r) = W27 m ρ c (Proc.devRef .tc r) :=
  W28_of_ne m ρ c r (ne_of_not_mem_ofFn h)

theorem step29 (h : r ∉ [main_v169] := by decide) :
    W29 m ρ c (Proc.devRef .tc r) = W28 m ρ c (Proc.devRef .tc r) :=
  after_of_wrote hostOps15 _ h rfl

theorem step30 (h : r ∉ List.ofFn (Pipeline.arrRef spec15) := by decide) :
    W30 m ρ c (Proc.devRef .tc r) = W29 m ρ c (Proc.devRef .tc r) :=
  W30_of_ne m ρ c r (ne_of_not_mem_ofFn h)

theorem step31 (h : r ∉ [main_v171, main_v172] := by decide) :
    W31 m ρ c (Proc.devRef .tc r) = W30 m ρ c (Proc.devRef .tc r) :=
  after_of_wrote hostOps16 _ h rfl

end Cert.KernelIdeal.Carry

end
-- ==== Proof.CarryGraph.lean ====
import proofs.«424203_j57904749085258_1_alg».proof.Proof.Carry

namespace Cert.KernelIdeal.CarryGraph

open Idealize.ShloMosaic Idealize.ShloMosaic.TcCoe Idealize.SL.Sem Cert.KernelIdeal Cert.KernelIdeal.Gen Cert.KernelIdeal.Carry

variable {F : FTy → Type} [FloatOps F]
variable (m : (ℓ : Loc nD τ sig) → Buf (Elt F) ℓ) (ρ : Dev nD → PrngReg)

theorem carry_v3_3_4 (c : Dev nD) : W4 m ρ c (Proc.devRef .tc main_v3) = W3 m ρ c (Proc.devRef .tc main_v3) :=
  step4

theorem carry_v3_4_9 (c : Dev nD) : W9 m ρ c (Proc.devRef .tc main_v3) = W4 m ρ c (Proc.devRef .tc main_v3) :=
  Eq.trans step9 (Eq.trans step8 (Eq.trans step7 (Eq.trans step6 step5)))

theorem carry_v3_9_14 (c : Dev nD) : W14 m ρ c (Proc.devRef .tc main_v3) = W9 m ρ c (Proc.devRef .tc main_v3) :=
  Eq.trans step14 (Eq.trans step13 (Eq.trans step12 (Eq.trans step11 step10)))

theorem carry_v3_14_19 (c : Dev nD) : W19 m ρ c (Proc.devRef .tc main_v3) = W14 m ρ c (Proc.devRef .tc main_v3) :=
  Eq.trans step19 (Eq.trans step18 (Eq.trans step17 (Eq.trans step16 step15)))

theorem carry_v3_19_24 (c : Dev nD) : W24 m ρ c (Proc.devRef .tc main_v3) = W19 m ρ c (Proc.devRef .tc main_v3) :=
  Eq.trans step24 (Eq.trans step23 (Eq.trans step22 (Eq.trans step21 step20)))

theorem carry_v6_3_4 (c : Dev nD) : W4 m ρ c (Proc.devRef .tc main_v6) = W3 m ρ c (Proc.devRef .tc main_v6) :=
  step4

theorem carry_v6_4_9 (c : Dev nD) : W9 m ρ c (Proc.devRef .tc main_v6) = W4 m ρ c (Proc.devRef .tc main_v6) :=
  Eq.trans step9 (Eq.trans step8 (Eq.trans step7 (Eq.trans step6 step5)))

theorem carry_v6_9_14 (c : Dev nD) : W14 m ρ c (Proc.devRef .tc main_v6) = W9 m ρ c (Proc.devRef .tc main_v6) :=
  Eq.trans step14 (Eq.trans step13 (Eq.trans step12 (Eq.trans step11 step10)))

theorem carry_v6_14_19 (c : Dev nD) : W19 m ρ c (Proc.devRef .tc main_v6) = W14 m ρ c (Proc.devRef .tc main_v6) :=
  Eq.trans step19 (Eq.trans step18 (Eq.trans step17 (Eq.trans step16 step15)))

theorem carry_v6_19_24 (c : Dev nD) : W24 m ρ c (Proc.devRef .tc main_v6) = W19 m ρ c (Proc.devRef .tc main_v6) :=
  Eq.trans step24 (Eq.trans step23 (Eq.trans step22 (Eq.trans step21 step20)))

theorem carry_v33_3_4 (c : Dev nD) : W4 m ρ c (Proc.devRef .tc main_v33) = W3 m ρ c (Proc.devRef .tc main_v33) :=
  step4

theorem carry_v33_4_9 (c : Dev nD) : W9 m ρ c (Proc.devRef .tc main_v33) = W4 m ρ c (Proc.devRef .tc main_v33) :=
  Eq.trans step9 (Eq.trans step8 (Eq.trans step7 (Eq.trans step6 step5)))

theorem carry_v33_9_14 (c : Dev nD) : W14 m ρ c (Proc.devRef .tc main_v33) = W9 m ρ c (Proc.devRef .tc main_v33) :=
  Eq.trans step14 (Eq.trans step13 (Eq.trans step12 (Eq.trans step11 step10)))

theorem carry_v33_14_19 (c : Dev nD) : W19 m ρ c (Proc.devRef .tc main_v33) = W14 m ρ c (Proc.devRef .tc main_v33) :=
  Eq.trans step19 (Eq.trans step18 (Eq.trans step17 (Eq.trans step16 step15)))

theorem carry_v33_19_24 (c : Dev nD) : W24 m ρ c (Proc.devRef .tc main_v33) = W19 m ρ c (Proc.devRef .tc main_v33) :=
  Eq.trans step24 (Eq.trans step23 (Eq.trans step22 (Eq.trans step21 step20)))

end Cert.KernelIdeal.CarryGraph
-- ==== Proof.KGraphAt.lean ====
import proofs.«424203_j57904749085258_1_alg».proof.Proof.KGraph
import proofs.«424203_j57904749085258_1_alg».proof.Proof.CarryGraph

noncomputable section

namespace Cert.KernelIdeal.KChain

open Idealize.ShloMosaic Idealize.ShloMosaic.TcCoe Idealize.SL.Sem Cert.KernelIdeal Cert.KernelIdeal.Gen
open Cert.KernelIdeal.CarryGraph

variable [Cert.ReferenceIdeal.Facts]
variable (m : (ℓ : Loc nD τ sig) → Buf (Elt Ideal) ℓ) (ρ : Dev nD → PrngReg)

theorem graph_at4 (c : Dev nD) : GraphAt m c (W4 m ρ c) :=
  (graph_at3 m ρ c).carry (carry_v3_3_4 m ρ c) (carry_v6_3_4 m ρ c) (carry_v33_3_4 m ρ c)
theorem graph_at9 (c : Dev nD) : GraphAt m c (W9 m ρ c) :=
  (graph_at4 m ρ c).carry (carry_v3_4_9 m ρ c) (carry_v6_4_9 m ρ c) (carry_v33_4_9 m ρ c)
theorem graph_at14 (c : Dev nD) : GraphAt m c (W14 m ρ c) :=
  (graph_at9 m ρ c).carry (carry_v3_9_14 m ρ c) (carry_v6_9_14 m ρ c) (carry_v33_9_14 m ρ c)
theorem graph_at19 (c : Dev nD) : GraphAt m c (W19 m ρ c) :=
  (graph_at14 m ρ c).carry (carry_v3_14_19 m ρ c) (carry_v6_14_19 m ρ c) (carry_v33_14_19 m ρ c)
theorem graph_at24 (c : Dev nD) : GraphAt m c (W24 m ρ c) :=
  (graph_at19 m ρ c).carry (carry_v3_19_24 m ρ c) (carry_v6_19_24 m ρ c) (carry_v33_19_24 m ρ c)

end Cert.KernelIdeal.KChain

end
-- ==== Proof.CarryMid.lean ====
import proofs.«424203_j57904749085258_1_alg».proof.Proof.Carry

namespace Cert.KernelIdeal.CarryMid

open Idealize.ShloMosaic Idealize.ShloMosaic.TcCoe Idealize.SL.Sem Cert.KernelIdeal Cert.KernelIdeal.Gen Cert.KernelIdeal.Carry

variable {F : FTy → Type} [FloatOps F]
variable (m : (ℓ : Loc nD τ sig) → Buf (Elt F) ℓ) (ρ : Dev nD → PrngReg)

theorem carry_v50_5_7 (c : Dev nD) : W7 m ρ c (Proc.devRef .tc main_v50) = W5 m ρ c (Proc.devRef .tc main_v50) :=
  Eq.trans step7 ((W6_arr m ρ c 0).trans (((dat1 (V5 m ρ) c).arrAt_in 0 rfl _).trans (A_eq1 (V5 m ρ) c 0)))

theorem carry_v77_10_12 (c : Dev nD) : W12 m ρ c (Proc.devRef .tc main_v77) = W10 m ρ c (Proc.devRef .tc main_v77) :=
  Eq.trans step12 ((W11_arr m ρ c 0).trans (((dat4 (V10 m ρ) c).arrAt_in 0 rfl _).trans (A_eq4 (V10 m ρ) c 0)))

theorem carry_v104_15_17 (c : Dev nD) : W17 m ρ c (Proc.devRef .tc main_v104) = W15 m ρ c (Proc.devRef .tc main_v104) :=
  Eq.trans step17 ((W16_arr m ρ c 0).trans (((dat7 (V15 m ρ) c).arrAt_in 0 rfl _).trans (A_eq7 (V15 m ρ) c 0)))

theorem carry_v131_20_22 (c : Dev nD) : W22 m ρ c (Proc.devRef .tc main_v131) = W20 m ρ c (Proc.devRef .tc main_v131) :=
  Eq.trans step22 ((W21_arr m ρ c 0).trans (((dat10 (V20 m ρ) c).arrAt_in 0 rfl _).trans (A_eq10 (V20 m ρ) c 0)))

theorem carry_v158_25_27 (c : Dev nD) : W27 m ρ c (Proc.devRef .tc main_v158) = W25 m ρ c (Proc.devRef .tc main_v158) :=
  Eq.trans step27 ((W26_arr m ρ c 0).trans (((dat13 (V25 m ρ) c).arrAt_in 0 rfl _).trans (A_eq13 (V25 m ρ) c 0)))

theorem carry_v168_28_29 (c : Dev nD) : W29 m ρ c (Proc.devRef .tc main_v168) = W28 m ρ c (Proc.devRef .tc main_v168) :=
  step29

theorem carry_v170_30_31 (c : Dev nD) : W31 m ρ c (Proc.devRef .tc main_v170) = W30 m ρ c (Proc.devRef .tc main_v170) :=
  step31

end Cert.KernelIdeal.CarryMid
-- ==== Proof.CarryArgsA.lean ====
import proofs.«424203_j57904749085258_1_alg».proof.Proof.Carry

namespace Cert.KernelIdeal.CarryArgsA

open Idealize.ShloMosaic Idealize.ShloMosaic.TcCoe Idealize.SL.Sem Cert.KernelIdeal Cert.KernelIdeal.Gen Cert.KernelIdeal.Carry

variable {F : FTy → Type} [FloatOps F]
variable (m : (ℓ : Loc nD τ sig) → Buf (Elt F) ℓ) (ρ : Dev nD → PrngReg)

theorem carry_arg0_0_3 (c : Dev nD) : W3 m ρ c (Proc.devRef .tc main_arg0) = m ((c : Thread nD τ).loc main_arg0) :=
  Eq.trans step3 (Eq.trans step2 step1)

theorem carry_arg4_0_3 (c : Dev nD) : W3 m ρ c (Proc.devRef .tc main_arg4) = m ((c : Thread nD τ).loc main_arg4) :=
  Eq.trans step3 (Eq.trans step2 step1)

theorem carry_arg5_0_4 (c : Dev nD) : W4 m ρ c (Proc.devRef .tc main_arg5) = m ((c : Thread nD τ).loc main_arg5) :=
  Eq.trans step4 (Eq.trans step3 (Eq.trans step2 step1))

theorem carry_arg6_0_6 (c : Dev nD) : W6 m ρ c (Proc.devRef .tc main_arg6) = m ((c : Thread nD τ).loc main_arg6) :=
  Eq.trans step6 (Eq.trans step5 (Eq.trans step4 (Eq.trans step3 (Eq.trans step2 step1))))

theorem carry_arg7_0_6 (c : Dev nD) : W6 m ρ c (Proc.devRef .tc main_arg7) = m ((c : Thread nD τ).loc main_arg7) :=
  Eq.trans step6 (Eq.trans step5 (Eq.trans step4 (Eq.trans step3 (Eq.trans step2 step1))))

theorem carry_arg8_0_8 (c : Dev nD) : W8 m ρ c (Proc.devRef .tc main_arg8) = m ((c : Thread nD τ).loc main_arg8) :=
  Eq.trans step8 (Eq.trans step7 (Eq.trans step6 (Eq.trans step5 (Eq.trans step4 (Eq.trans step3 (Eq.trans step2 step1))))))

theorem carry_arg9_0_9 (c : Dev nD) : W9 m ρ c (Proc.devRef .tc main_arg9) = m ((c : Thread nD τ).loc main_arg9) :=
  Eq.trans step9 (Eq.trans step8 (Eq.trans step7 (Eq.trans step6 (Eq.trans step5 (Eq.trans step4 (Eq.trans step3 (Eq.trans step2 step1)))))))

theorem carry_arg10_0_11 (c : Dev nD) : W11 m ρ c (Proc.devRef .tc main_arg10) = m ((c : Thread nD τ).loc main_arg10) :=
  Eq.trans step11 (Eq.trans step10 (Eq.trans step9 (Eq.trans step8 (Eq.trans step7 (Eq.trans step6 (Eq.trans step5 (Eq.trans step4 (Eq.trans step3 (Eq.trans step2 step1)))))))))

theorem carry_arg11_0_11 (c : Dev nD) : W11 m ρ c (Proc.devRef .tc main_arg11) = m ((c : Thread nD τ).loc main_arg11) :=
  Eq.trans step11 (Eq.trans step10 (Eq.trans step9 (Eq.trans step8 (Eq.trans step7 (Eq.trans step6 (Eq.trans step5 (Eq.trans step4 (Eq.trans step3 (Eq.trans step2 step1)))))))))

end Cert.KernelIdeal.CarryArgsA
-- ==== Proof.LinM.lean ====
import proofs.«424203_j57904749085258_1_alg».proof.KernelIdeal
import Idealize.ShloMosaic.Lib.StackMember
import Idealize.ShloMosaic.Lib.KernelVsHost

noncomputable section

open scoped BigOperators

namespace Cert.KernelIdeal.RegValue

open Idealize.ShloMosaic Idealize.ShloMosaic.ValueIdx Idealize.ShloMosaic.StackMember Cert.KernelIdeal

variable {M m K n N : Nat}

-- h · W entry by entry: entry (r, j) is the sum over k of h (r, k) * W (k, j).
def linM (x : FVec Ideal ⟨2, ![M, K]⟩ .f32) (w : FVec Ideal ⟨2, ![K, n]⟩ .f32) : FVec Ideal ⟨2, ![M, n]⟩ .f32 :=
  fun i => ∑ k : Fin K, x (ix2 (i 0) k) * w (ix2 k (i 1))

-- The plain product of two matrices, read at an entry, is h · W.
theorem dotGeneral_eq_linM (prec : Option ContractPrecision) (x : FVec Ideal ⟨2, ![M, K]⟩ .f32) (w : FVec Ideal ⟨2, ![K, n]⟩ .f32) :
    Host.dotGeneral (DotDims.plain M K n) prec x w = linM x w :=
  funext fun i => (congrArg _ (eq_ix2 i)).trans (dotGeneral_plain_apply prec x w (i 0) (i 1))

-- The block indices of a product over row tiles: point t takes tile t of h and of the output, and all of W.
def RowTiles (ix iw io : Fin N → Fin 2 → Nat) : Prop :=
  ∀ t, ix t 0 = t ∧ ix t 1 = 0 ∧ iw t 0 = 0 ∧ iw t 1 = 0 ∧ io t 0 = t ∧ io t 1 = 0

instance (ix iw io : Fin N → Fin 2 → Nat) : Decidable (RowTiles ix iw io) := Nat.decidableForallFin _

-- A tile's rows are rows of h and W is whole, so the tile's product into zeros is the same rows of h · W.
theorem matmul_rowTile (prec : Option ContractPrecision) (x : FVec Ideal ⟨2, ![M, K]⟩ .f32) (w : FVec Ideal ⟨2, ![K, n]⟩ .f32)
    (xb : FVec Ideal ⟨2, ![m, K]⟩ .f32) (wb : FVec Ideal ⟨2, ![K, n]⟩ .f32)
    (ex : (⟨2, ![m, K]⟩ : Shape).Idx → (⟨2, ![M, K]⟩ : Shape).Idx) (ew : (⟨2, ![K, n]⟩ : Shape).Idx → (⟨2, ![K, n]⟩ : Shape).Idx)
    (eo : (⟨2, ![m, n]⟩ : Shape).Idx → (⟨2, ![M, n]⟩ : Shape).Idx) {ix iw io : Fin N → Fin 2 → Nat} (hi : RowTiles ix iw io) (t : Fin N)
    (hxb : ∀ j, xb j = x (ex j)) (hwb : ∀ j, wb j = w (ew j))
    (hx : ∀ j a, (ex j a : Nat) = ix t a * ![m, K] a + 1 * j a) (hw : ∀ j a, (ew j a : Nat) = iw t a * ![K, n] a + 1 * j a)
    (ho : ∀ j a, (eo j a : Nat) = io t a * ![m, n] a + 1 * j a) :
    matmul (DotDims.plain m K n) prec xb wb (constant _ .f32 0x00000000#32) = fun j => linM x w (eo j) := by
  obtain rfl : xb = fun j => x (ex j) := funext hxb
  obtain rfl : wb = fun j => w (ew j) := funext hwb
  obtain ⟨h1, h2, h3, h4, h5, h6⟩ := hi t
  rw [matmul_zero_eq_dotGeneral]
  funext j
  obtain ⟨p, q, rfl⟩ : ∃ p q, j = ix2 p q := ⟨j 0, j 1, eq_ix2 j⟩
  refine (dotGeneral_plain_apply prec _ _ p q).trans (Finset.sum_congr rfl fun k _ => ?_)
  have x0 : (ex (ix2 p k) 0 : Nat) = ix t 0 * m + 1 * p := hx _ 0
  have x1 : (ex (ix2 p k) 1 : Nat) = ix t 1 * K + 1 * k := hx _ 1
  have w0 : (ew (ix2 k q) 0 : Nat) = iw t 0 * K + 1 * k := hw _ 0
  have w1 : (ew (ix2 k q) 1 : Nat) = iw t 1 * n + 1 * q := hw _ 1
  have o0 : (eo (ix2 p q) 0 : Nat) = io t 0 * m + 1 * p := ho _ 0
  have o1 : (eo (ix2 p q) 1 : Nat) = io t 1 * n + 1 * q := ho _ 1
  rw [h1] at x0; rw [h2] at x1; rw [h3] at w0; rw [h4] at w1; rw [h5] at o0; rw [h6] at o1
  exact congrArg₂ (· * ·) (congrArg x (Shape.idx_ext₂ (by show (ex (ix2 p k) 0 : Nat) = (eo (ix2 p q) 0 : Nat); omega) (by show (ex (ix2 p k) 1 : Nat) = k; omega)))
    (congrArg w (Shape.idx_ext₂ (by show (ew (ix2 k q) 0 : Nat) = k; omega) (by show (ew (ix2 k q) 1 : Nat) = (eo (ix2 p q) 1 : Nat); omega)))

-- Every row lies in the tile of its quotient by the tile height: the tiles cover the array.
theorem exists_rowTile {ix iw io : Fin N → Fin 2 → Nat} (hi : RowTiles ix iw io) (hN : M ≤ m * N) (i : (⟨2, ![M, n]⟩ : Shape).Idx) :
    ∃ t : Fin N, ∀ a, io t a * ![m, n] a ≤ i a ∧ (i a : Nat) < io t a * ![m, n] a + ![m, n] a := by
  have h0 : (i 0 : Nat) < M := (i 0).isLt
  have h1 : (i 1 : Nat) < n := (i 1).isLt
  have hm : 0 < m := Nat.pos_of_ne_zero fun e => by subst e; omega
  refine ⟨⟨i 0 / m, Nat.div_lt_of_lt_mul (lt_of_lt_of_le h0 hN)⟩, fun a => ?_⟩
  obtain ⟨-, -, -, -, h5, h6⟩ := hi ⟨i 0 / m, Nat.div_lt_of_lt_mul (lt_of_lt_of_le h0 hN)⟩
  match a with
  | ⟨0, _⟩ =>
    show io _ 0 * m ≤ (i 0 : Nat) ∧ (i 0 : Nat) < io _ 0 * m + m
    rw [h5]
    exact ⟨Nat.div_mul_le_self _ _, Nat.lt_div_mul_add hm⟩
  | ⟨1, _⟩ =>
    show io _ 1 * n ≤ (i 1 : Nat) ∧ (i 1 : Nat) < io _ 1 * n + n
    rw [h6]
    omega

-- Two zeros are the constant zero function.
theorem zeros2 : (![0, 0] : Fin 2 → Nat) = fun _ => 0 :=
  funext fun a => by match a with | ⟨0, _⟩ => rfl | ⟨1, _⟩ => rfl

-- The five dense transforms of the network, at their sizes.
def linM0 (x : FVec Ideal S50000x128 .f32) (w : FVec Ideal S128x16 .f32) : FVec Ideal S50000x16 .f32 := linM x w
def linM3 (x : FVec Ideal S50000x16 .f32) (w : FVec Ideal S16x32 .f32) : FVec Ideal S50000x32 .f32 := linM x w
def linM6 (x : FVec Ideal S50000x32 .f32) (w : FVec Ideal S32x64 .f32) : FVec Ideal S50000x64 .f32 := linM x w
def linM9 (x : FVec Ideal S50000x64 .f32) (w : FVec Ideal S64x64 .f32) : FVec Ideal S50000x64 .f32 := linM x w
def linM12 (x : FVec Ideal S50000x64 .f32) (w : FVec Ideal S64x128 .f32) : FVec Ideal S50000x128 .f32 := linM x w

end Cert.KernelIdeal.RegValue

end
-- ==== Proof.RegLin0.lean ====
import proofs.«424203_j57904749085258_1_alg».proof.Proof.Gen.KernelIdeal.Frame
import proofs.«424203_j57904749085258_1_alg».proof.Proof.LinM

noncomputable section

namespace Cert.KernelIdeal.RegValue

open Cert.KernelIdeal Cert.KernelIdeal.Gen Idealize.ShloMosaic Idealize.ShloMosaic.TcCoe Idealize.SL.Sem
open Idealize.ShloMosaic.Pipeline (Dat)

-- At point t the tiles of h and of the output are tile t, and W's tile is all of W.
theorem idx_lin0 : RowTiles win0_0.index win0_1.index win0_2.index := by decide +kernel

-- The product of tile t of h by W is tile t of h · W.
theorem tile_lin0 (t : Fin cfg0.N) (x : FVec Ideal S50000x128 .f32) (w : FVec Ideal S128x16 .f32)
    (xb : FVec Ideal S10000x128 .f32) (wb : FVec Ideal S128x16 .f32)
    (hxb : ∀ j, xb j = x (((cfg0.win 0).blk t).view.emb j)) (hwb : ∀ j, wb j = w (((cfg0.win 1).blk t).view.emb j)) :
    (cfg0.win 2).cut (grid0.coords t) (out0_2 xb wb) = ((cfg0.win 2).blk t).view.read (Elt Ideal) (linM0 x w) := by
  unfold out0_2
  rw [View.canon_unit_zero zeros2]
  simp only [k0_pay1, View.ld_unit_zero (S := S10000x128) zeros2, View.ld_unit_zero (S := S128x16) zeros2]
  have key := matmul_rowTile (m := 10000) none x w xb wb ((cfg0.win 0).blk t).view.emb ((cfg0.win 1).blk t).view.emb
    ((cfg0.win 2).blk t).view.emb idx_lin0 t hxb hwb (fun _ _ => rfl) (fun _ _ => rfl) (fun _ _ => rfl)
  exact key

variable (V : (c : Dev nD) → (b : Ref sig .tc) → Buf (Elt Ideal) ((c : Thread nD τ).loc b))

-- Tile t of the output is tile t of h · W, and the tiles cover the rows: the output is h · W.
theorem lin0_value (c : Dev nD) (x : FVec Ideal S50000x128 .f32) (w : FVec Ideal S128x16 .f32)
    (hx : V c (Pipeline.arrRef spec0 0) = x) (hw : V c (Pipeline.arrRef spec0 1) = w) :
    (dat0 (F := Ideal) V c).arrAt 2 cfg0.N = linM0 x w := by
  refine (dat0 (F := Ideal) V c).arrAt_eq_of_cover 2 _ (fun t _ => ?_) fun (i : S50000x16.Idx) => ?_
  · show (cfg0.win 2).cut (grid0.coords t) ((dat0 (F := Ideal) V c).after 2 t) = _
    rw [after0_2]
    exact tile_lin0 t x w _ _ (fun _ => congrFun hx _) (fun _ => congrFun hw _)
  · obtain ⟨t, ht⟩ := exists_rowTile (m := 10000) idx_lin0 (by decide) i
    refine ⟨t, flush0_2 t, ?_⟩
    show i ∈ ((View.whole main_v34).slice (win0_2.rect t)).set
    rw [View.set_slice_whole, Rect.mem_set_unit]
    exact ht

end Cert.KernelIdeal.RegValue

end
-- ==== Proof.RegLin0Ref.lean ====
import proofs.«424203_j57904749085258_1_alg».proof.Proof.Spec
import proofs.«424203_j57904749085258_1_alg».proof.Proof.LinM

noncomputable section

namespace Cert.KernelIdeal.RegValue

open Cert.KernelIdeal Idealize.ShloMosaic

variable [Cert.ReferenceIdeal.Facts]

-- The reference's dense transform of layer 1 is a plain product of h and W, so it is h · W entry by entry.
theorem lin1_eq_linM0 (x : FVec Ideal S50000x128 .f32) (w : FVec Ideal S128x16 .f32) :
    Cert.Gnn.lin1 x w = linM0 x w :=
  dotGeneral_eq_linM none x w

end Cert.KernelIdeal.RegValue

end
-- ==== Proof.SpecK16.lean ====
import proofs.«424203_j57904749085258_1_alg».proof.KernelIdeal
import Idealize.ShloMosaic.PureOps.Ideal
import Idealize.ShloMosaic.Lib.ValueIdx

noncomputable section

open scoped BigOperators

namespace Cert.GnnK

open Idealize.ShloMosaic Idealize.ShloMosaic.ValueIdx Cert.KernelIdeal

variable [Cert.KernelIdeal.Facts]
open Cert.KernelIdeal.Facts₀ Cert.KernelIdeal.Facts

def reluM16 (x : FVec Ideal S50000x16 .f32) : FVec Ideal S50000x16 .f32 := fun i => max (x i) 0

def colSum16 (v : FVec Ideal S50000x16 .f32) : FVec Ideal S1x16 .f32 :=
  fun j => ∑ i : Fin 50000, v (ix2 i (j 1) : S50000x16.Idx)

def colSumSq16 (v : FVec Ideal S50000x16 .f32) : FVec Ideal S1x16 .f32 :=
  fun j => ∑ i : Fin 50000, v (ix2 i (j 1) : S50000x16.Idx) * v (ix2 i (j 1) : S50000x16.Idx)

def meanK16 (s : FVec Ideal S1x16 .f32) : FVec Ideal S1x16 .f32 :=
  Host.divf s (broadcastInDim S1x16 ![] bcast_S_S1x16 (constant (F := Ideal) S_ .f32 0x47435000#32))

def varK16 (s q : FVec Ideal S1x16 .f32) : FVec Ideal S1x16 .f32 :=
  subf (meanK16 q) (mulf (meanK16 s) (meanK16 s))

def rowK16 (g : FVec Ideal S16 .f32) : FVec Ideal S1x16 .f32 := shapeCast S1x16 g shapeCasts_S16_S1x16

def applyM16 (v : FVec Ideal S50000x16 .f32) (mean var g bt : FVec Ideal S1x16 .f32) : FVec Ideal S50000x16 .f32 :=
  fun i => g (ix2 (0 : Fin 1) (i 1) : S1x16.Idx) * (v i - mean (ix2 (0 : Fin 1) (i 1) : S1x16.Idx))
      * Ideal.rsqrt (var (ix2 (0 : Fin 1) (i 1) : S1x16.Idx) + Ideal.ofBits .f32 0x3727C5AC#32)
    + bt (ix2 (0 : Fin 1) (i 1) : S1x16.Idx)

end Cert.GnnK

end
-- ==== Proof.LibTiles.lean ====
import Mathlib.Algebra.BigOperators.Fin
import Mathlib.Data.Fintype.BigOperators
import Mathlib.Logic.Equiv.Fin.Basic

namespace Cert.LibTiles

variable {M : Type*} [AddCommMonoid M]

theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

end Cert.LibTiles
-- ==== Proof.ColStats.lean ====
import proofs.«424203_j57904749085258_1_alg».proof.Proof.LibTiles
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

open Idealize.ShloMosaic Idealize.ShloMosaic.ValueIdx

namespace Cert.ColStats

theorem hz : (![0, 0] : Fin 2 → Nat) = fun _ => 0 := funext fun a => by fin_cases a <;> rfl

variable {w : ℕ}

abbrev TileV (w : ℕ) := FVec Ideal ⟨2, ![10000, w]⟩ .f32
abbrev RowV (w : ℕ) := FVec Ideal ⟨2, ![1, w]⟩ .f32
abbrev AllV (w : ℕ) := FVec Ideal ⟨2, ![50000, w]⟩ .f32

-- Row r put back on the summed axis of the column index q is the entry index (r, q).
theorem lift_rq (h : (⟨2, ![10000, w]⟩ : Shape).Reduces [0] ⟨1, ![w]⟩) (q : Fin w) (r : Fin 10000) :
    h.lift (ix1 q) r = ix2 r q :=
  funext fun a => Fin.ext (match a with | ⟨0, _⟩ => rfl | ⟨1, _⟩ => rfl)

-- A row plus a tile reduced over its rows is, entry by entry, the row's entry plus the tile's column sum, the tile's entries read as g.
theorem addf_colsum_apply (y : TileV w) (acc : RowV w)
    {hs : (⟨2, ![1, w]⟩ : Shape).ShapeCasts ⟨2, ![1, w]⟩} {hr : (⟨2, ![10000, w]⟩ : Shape).Reduces [0] ⟨1, ![w]⟩}
    {hφ : FKind.Formats .f32} {hacc : (0x00000000#32 : BitVec 32) = FKind.add.neutral .f32 hφ}
    {hc : (⟨1, ![w]⟩ : Shape).ShapeCasts ⟨2, ![1, w]⟩} (u : Fin 1) (q : Fin w) {g : Fin 10000 → EReal}
    (hg : ∀ r, y (ix2 r q) = g r) :
    addf (shapeCast ⟨2, ![1, w]⟩ acc hs)
        (shapeCast ⟨2, ![1, w]⟩ (multiReduction .add [0] ⟨1, ![w]⟩ y 0x00000000#32 hr hφ hacc) hc) (ix2 u q)
      = acc (ix2 u q) + ∑ r, g r := by
  refine (addf_apply _ _ _).trans (congrArg₂ (· + ·) (congrFun (shapeCast_self acc _) _) ?_)
  refine (shapeCast_a_1a_apply _ _ u q).trans ?_
  refine (Ideal.multiReduction_add_single _ _ _ _ _ (ix1 q)).trans ?_
  exact Finset.sum_congr rfl fun r _ => (congrArg y (lift_rq _ q r)).trans (hg r)

-- max(x, 0) entry by entry.
theorem relu_apply {S : Shape} (x : FVec Ideal S .f32) (h : S.ShapeCasts S) (i : S.Idx) :
    maximumf (shapeCast S x h) (broadcast S (Scalar.ofBits .f32 0x00000000#32 : Ideal .f32)) i = max (x i) 0 :=
  (maximumf_apply _ _ _).trans (congrArg₂ max (congrFun (shapeCast_self x h) i) Ideal.ofBits_zero_f32)

def rowAt (k r : ℕ) : Fin 50000 := ⟨(k * 10000 + r) % 50000, Nat.mod_lt _ (by decide)⟩

-- The five tiles' sums together are the sum over all 50000 rows.
theorem tiles_sum {M : Type*} [AddCommMonoid M] (f : Fin 50000 → M) :
    ∑ k ∈ Finset.range 5, ∑ r : Fin 10000, f (rowAt k r.val) = ∑ i : Fin 50000, f i := by
  rw [Finset.sum_range]
  refine ((Cert.LibTiles.tile_sum 5 10000 f).trans ?_).symm
  refine Finset.sum_congr rfl fun k _ => Finset.sum_congr rfl fun r _ => congrArg f (Fin.ext ?_)
  show k.val * 10000 + r.val = (k.val * 10000 + r.val) % 50000
  have := k.isLt
  have := r.isLt
  omega

-- A row that starts at zero and takes on, tile after tile, the tile's column sums of ψ ends at the column sums of ψ over all rows.
theorem colsum_of_steps {N : ℕ} (o : (n : ℕ) → n < N → RowV w) (ψ : EReal → EReal) {tile : Fin N → TileV w} {x : AllV w}
    {f : TileV w → RowV w → RowV w} {z : RowV w}
    (hf : ∀ y acc (u : Fin 1) (q : Fin w), f y acc (ix2 u q) = acc (ix2 u q) + ∑ r : Fin 10000, ψ (y (ix2 r q)))
    (htile : ∀ (t : Fin N) (r : Fin 10000) (q : Fin w), tile t (ix2 r q) = x (ix2 (rowAt t.val r.val) q))
    (h0 : ∀ h, o 0 h = f (tile ⟨0, h⟩) z)
    (hs : ∀ n h, o (n + 1) h = f (tile ⟨n + 1, h⟩) (o n (Nat.lt_of_succ_lt h)))
    (hz : ∀ (u : Fin 1) (q : Fin w), z (ix2 u q) = 0) (h4 : 4 < N) :
    o 4 h4 = fun j => ∑ i : Fin 50000, ψ (x (ix2 i (j 1) : (⟨2, ![50000, w]⟩ : Shape).Idx)) := by
  have key : ∀ (n : ℕ) (h : n < N) (u : Fin 1) (q : Fin w),
      o n h (ix2 u q) = ∑ k ∈ Finset.range (n + 1), ∑ r : Fin 10000, ψ (x (ix2 (rowAt k r.val) q)) := by
    intro n
    induction n with
    | zero =>
      intro h u q
      rw [h0, hf, hz, zero_add, Finset.sum_range_one]
      exact Finset.sum_congr rfl fun r _ => congrArg ψ (htile _ r q)
    | succ n ih =>
      intro h u q
      rw [hs, hf, Finset.sum_range_succ, ih]
      exact congrArg₂ (· + ·) rfl (Finset.sum_congr rfl fun r _ => congrArg ψ (htile _ r q))
  funext j
  obtain ⟨u, q, rfl⟩ : ∃ (u : Fin 1) (q : Fin w), j = ix2 u q := ⟨j 0, j 1, eq_ix2 j⟩
  exact (key 4 h4 u q).trans (tiles_sum fun i => ψ (x (ix2 i q)))

end Cert.ColStats

end
-- ==== Proof.RegStats1.lean ====
import proofs.«424203_j57904749085258_1_alg».proof.Proof.Gen.KernelIdeal.Frame
import proofs.«424203_j57904749085258_1_alg».proof.Proof.SpecK16
import proofs.«424203_j57904749085258_1_alg».proof.Proof.ColStats

noncomputable section

open Idealize.ShloMosaic Idealize.ShloMosaic.TcCoe Idealize.SL.Sem

namespace Cert.KernelIdeal.RegValue.Stats1

open Idealize.ShloMosaic.ValueIdx Cert.KernelIdeal Cert.KernelIdeal.Gen Cert.ColStats

section AnyFloat

variable {F : FTy → Type} [FloatOps F]
variable (V : (c : Dev nD) → (b : Ref sig .tc) → Buf (Elt F) ((c : Thread nD τ).loc b)) (c : Dev nD)

-- The tile of the entry array that point t reads.
abbrev tile (t : Fin cfg1.N) : Vec F S10000x16 .f32 := iblk1 V c 0 t

-- The first point sets each row to zero and leaves it at zero plus the tile's contribution.
theorem outs_zero (h : 0 < cfg1.N) :
    outsAt1 V c 0 h = (k1_pay4 (tile V c ⟨0, h⟩) (k1_pay1 (F := F)), k1_pay5 (tile V c ⟨0, h⟩) (k1_pay2 (F := F))) := by
  rw [outsAt1_A V c ⟨0, h⟩ rfl]
  unfold out1_A_1 out1_A_2
  rw [View.read_writes_eq_canon _ _ _ (cover1_A_1 _ _ _ _ _ _ _ _ _ _), View.read_writes_eq_canon _ _ _ (cover1_A_2 _ _ _ _ _ _ _ _ _ _)]
  unfold kernelRun1_A
  dsimp only
  sl_unfold_words
  rw [View.canon_cons_unit_zero (S := S1x16) hz, View.canon_cons_unit_zero (S := S1x16) hz,
    View.readCov_unit_zero (S := S1x16) _ hz, View.readCov_unit_zero (S := S1x16) _ hz]
  simp only [View.readAt_eq_ld, (hs1_0 _).read_unread, View.ld_unit_zero (S := S10000x16) hz, View.ld_unit_zero (S := S1x16) hz]

-- A later point leaves each row at what it held plus the tile's contribution.
theorem outs_succ (n : ℕ) (h : n + 1 < cfg1.N) :
    outsAt1 V c (n + 1) h = (k1_pay4 (tile V c ⟨n + 1, h⟩) (outsAt1 V c n (Nat.lt_of_succ_lt h)).1,
      k1_pay5 (tile V c ⟨n + 1, h⟩) (outsAt1 V c n (Nat.lt_of_succ_lt h)).2) := by
  have hN : cfg1.N = 5 := N_1
  rw [outsAt1_B V c ⟨n + 1, h⟩ (by dsimp only; omega)]
  unfold out1_B_1 out1_B_2
  rw [View.read_writes_eq_canon _ _ _ (cover1_B_1 _ _ _ _ _ _ _ _ _ _ _ _), View.read_writes_eq_canon _ _ _ (cover1_B_2 _ _ _ _ _ _ _ _ _ _ _ _)]
  unfold kernelRun1_B
  dsimp only
  sl_unfold_words
  rw [View.canon_unit_zero hz, View.canon_unit_zero hz]
  simp only [View.readAt_eq_ld, (hs1_0 _).read_unread, (hs1_1 _).read_unread, (hs1_2 _).read_unread,
    View.ld_unit_zero (S := S10000x16) hz, View.ld_unit_zero (S := S1x16) hz]
  rfl

theorem sum_final : (dat1 V c).arrAt 1 cfg1.N = (outsAt1 V c 4 t1_4.isLt).1 := by
  have hN : cfg1.N = 5 := N_1
  have hz' : (fun a => win1_1.index t1_4 a * main_v51_0.ty.shape.size a) = fun _ => 0 := funext fun a => by fin_cases a <;> decide
  refine (dat1 V c).arrAt_eq_of_cover 1 _ (fun t hf => ?_) fun j => ⟨t1_4, (flush1_1 t1_4).mpr rfl, ?_⟩
  · obtain rfl : t = t1_4 := Fin.ext (by have := (flush1_1 t).mp hf; have := t.isLt; show t.val = 4; omega)
    show (cfg1.win 1).cut (grid1.coords t1_4) ((dat1 V c).after 1 t1_4) = _
    rw [after1_1]
    exact (Memref.read_access_unit_zero (Elt F) main_v51_0 hz' (fun a => by rw [congrFun hz' a]; simp) _).symm
  · show j ∈ ((View.whole main_v51_0).slice (win1_1.rect t1_4)).set
    rw [View.set_slice_whole]
    exact View.mem_set_unit_zero hz' _ j

theorem sq_final : (dat1 V c).arrAt 2 cfg1.N = (outsAt1 V c 4 t1_4.isLt).2 := by
  have hN : cfg1.N = 5 := N_1
  have hz' : (fun a => win1_2.index t1_4 a * main_v51_1.ty.shape.size a) = fun _ => 0 := funext fun a => by fin_cases a <;> decide
  refine (dat1 V c).arrAt_eq_of_cover 2 _ (fun t hf => ?_) fun j => ⟨t1_4, (flush1_2 t1_4).mpr rfl, ?_⟩
  · obtain rfl : t = t1_4 := Fin.ext (by have := (flush1_2 t).mp hf; have := t.isLt; show t.val = 4; omega)
    show (cfg1.win 2).cut (grid1.coords t1_4) ((dat1 V c).after 2 t1_4) = _
    rw [after1_2]
    exact (Memref.read_access_unit_zero (Elt F) main_v51_1 hz' (fun a => by rw [congrFun hz' a]; simp) _).symm
  · show j ∈ ((View.whole main_v51_1).slice (win1_2.rect t1_4)).set
    rw [View.set_slice_whole]
    exact View.mem_set_unit_zero hz' _ j

end AnyFloat

section AtIdeal

variable (V : (c : Dev nD) → (b : Ref sig .tc) → Buf (Elt Ideal) ((c : Thread nD τ).loc b)) (c : Dev nD)

-- Entry (r, q) of the tile point t reads is entry (10000 t + r, q) of the entry array.
theorem tile_apply (x : FVec Ideal S50000x16 .f32) (hx : V c (Pipeline.arrRef spec1 0) = x) (t : Fin cfg1.N)
    (r : Fin 10000) (q : Fin 16) : (tile V c t : FVec Ideal S10000x16 .f32) (ix2 r q) = x (ix2 (rowAt t.val r.val) q) := by
  subst hx
  obtain ⟨e0, e1⟩ := (by decide +kernel : ∀ t : Fin grid1.N, win1_0.index t (0 : Fin 2) = t.val ∧ win1_0.index t (1 : Fin 2) = 0) t
  have hN : t.val < 5 := lt_of_lt_of_eq t.isLt (show cfg1.N = 5 from N_1)
  have hr : r.val < 10000 := r.isLt
  unfold tile iblk1
  rw [View.read_apply]
  show V c (Pipeline.arrRef spec1 0) _ = V c (Pipeline.arrRef spec1 0) _
  congr 1
  funext a
  apply Fin.ext
  match a with
  | ⟨0, _⟩ => show win1_0.index t 0 * 10000 + 1 * r.val = (t.val * 10000 + r.val) % 50000; rw [e0]; omega
  | ⟨1, _⟩ => show win1_0.index t 1 * 16 + 1 * q.val = q.val; rw [e1]; omega

-- The first row after a tile: the row before plus the tile's column sums.
theorem sum_step (y : FVec Ideal S10000x16 .f32) (acc : FVec Ideal S1x16 .f32) (u : Fin 1) (q : Fin 16) :
    k1_pay4 (F := Ideal) y acc (ix2 u q) = acc (ix2 u q) + ∑ r : Fin 10000, max (y (ix2 r q)) 0 :=
  addf_colsum_apply (k1_pay3 y) acc u q fun r => relu_apply y _ _

-- The second row after a tile: the row before plus the tile's column sums of squares.
theorem sq_step (y : FVec Ideal S10000x16 .f32) (acc : FVec Ideal S1x16 .f32) (u : Fin 1) (q : Fin 16) :
    k1_pay5 (F := Ideal) y acc (ix2 u q) = acc (ix2 u q) + ∑ r : Fin 10000, max (y (ix2 r q)) 0 * max (y (ix2 r q)) 0 :=
  addf_colsum_apply (mulf (k1_pay3 y) (k1_pay3 y)) acc u q fun r => congrArg₂ (· * ·) (relu_apply y _ _) (relu_apply y _ _)

end AtIdeal

end Cert.KernelIdeal.RegValue.Stats1

namespace Cert.KernelIdeal.RegValue

open Idealize.ShloMosaic.ValueIdx Cert.KernelIdeal Cert.KernelIdeal.Gen Cert.ColStats

theorem stats1_sum (V : (c : Dev nD) → (b : Ref sig .tc) → Buf (Elt Ideal) ((c : Thread nD τ).loc b)) (c : Dev nD)
    (x : FVec Ideal S50000x16 .f32) (hx : V c (Pipeline.arrRef spec1 0) = x) :
    (dat1 (F := Ideal) V c).arrAt 1 cfg1.N = Cert.GnnK.colSum16 (Cert.GnnK.reluM16 x) :=
  (Stats1.sum_final V c).trans (colsum_of_steps (fun n h => (outsAt1 V c n h).1) (fun a => max a 0) Stats1.sum_step
    (Stats1.tile_apply V c x hx) (fun h => congrArg Prod.fst (Stats1.outs_zero V c h))
    (fun n h => congrArg Prod.fst (Stats1.outs_succ V c n h)) (fun _ _ => Ideal.ofBits_zero_f32) t1_4.isLt)

theorem stats1_sumsq (V : (c : Dev nD) → (b : Ref sig .tc) → Buf (Elt Ideal) ((c : Thread nD τ).loc b)) (c : Dev nD)
    (x : FVec Ideal S50000x16 .f32) (hx : V c (Pipeline.arrRef spec1 0) = x) :
    (dat1 (F := Ideal) V c).arrAt 2 cfg1.N = Cert.GnnK.colSumSq16 (Cert.GnnK.reluM16 x) :=
  (Stats1.sq_final V c).trans (colsum_of_steps (fun n h => (outsAt1 V c n h).2) (fun a => max a 0 * max a 0) Stats1.sq_step
    (Stats1.tile_apply V c x hx) (fun h => congrArg Prod.snd (Stats1.outs_zero V c h))
    (fun n h => congrArg Prod.snd (Stats1.outs_succ V c n h)) (fun _ _ => Ideal.ofBits_zero_f32) t1_4.isLt)

end Cert.KernelIdeal.RegValue

end
-- ==== Proof.BnTile.lean ====
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.ShloMosaic.ValueIdx

namespace Cert.BnTile

variable {m a b : ℕ}

theorem zeros2 : (![0, 0] : Fin 2 → Nat) = fun _ => 0 :=
  funext fun a => match a with | ⟨0, _⟩ => rfl | ⟨1, _⟩ => rfl

-- max(v, 0) and g * (v - mean) * (var + 1e-5)^(-1/2) + bt, entry by entry, at any height and width
def relu (v : FVec Ideal ⟨2, ![m, b]⟩ .f32) : FVec Ideal ⟨2, ![m, b]⟩ .f32 := fun i => max (v i) 0

def apply (v : FVec Ideal ⟨2, ![m, b]⟩ .f32) (mean var g bt : FVec Ideal ⟨2, ![1, b]⟩ .f32) : FVec Ideal ⟨2, ![m, b]⟩ .f32 :=
  fun i => g (ix2 (0 : Fin 1) (i 1)) * (v i - mean (ix2 (0 : Fin 1) (i 1)))
      * Ideal.rsqrt (var (ix2 (0 : Fin 1) (i 1)) + Ideal.ofBits .f32 0x3727C5AC#32)
    + bt (ix2 (0 : Fin 1) (i 1))

-- the same on a tile, the four rows broadcast over it
def norm (x : FVec Ideal ⟨2, ![a, b]⟩ .f32) (var g mean bt : FVec Ideal ⟨2, ![1, b]⟩ .f32)
    (h : (⟨2, ![1, b]⟩ : Shape).Broadcasts ⟨2, ![a, b]⟩) : FVec Ideal ⟨2, ![a, b]⟩ .f32 :=
  addf (mulf (mulf (broadcastTo _ g h) (subf x (broadcastTo _ mean h)))
    (broadcastTo _ (rsqrt (addf var (broadcast _ (Scalar.ofBits .f32 0x3727C5AC#32)))) h)) (broadcastTo _ bt h)

-- a row broadcast over the tile reads its column
theorem norm_eq_apply (x : FVec Ideal ⟨2, ![a, b]⟩ .f32) (var g mean bt : FVec Ideal ⟨2, ![1, b]⟩ .f32)
    (h : (⟨2, ![1, b]⟩ : Shape).Broadcasts ⟨2, ![a, b]⟩) : norm x var g mean bt h = apply x mean var g bt := by
  funext y
  obtain ⟨p, q, rfl⟩ : ∃ p q, y = ix2 p q := ⟨_, _, eq_ix2 y⟩
  show (broadcastTo _ g h (ix2 p q) * (x (ix2 p q) - broadcastTo _ mean h (ix2 p q)))
      * broadcastTo _ (rsqrt (addf var (broadcast _ (Ideal.ofBits .f32 0x3727C5AC#32)))) h (ix2 p q)
      + broadcastTo _ bt h (ix2 p q) = _
  rw [broadcastTo_1b_ab_apply, broadcastTo_1b_ab_apply, broadcastTo_1b_ab_apply, broadcastTo_1b_ab_apply]
  rfl

-- e puts entry (p, q) of tile k at row k * a + p, column q of the array
structure EmbedsTile (e : (⟨2, ![a, b]⟩ : Shape).Idx → (⟨2, ![m, b]⟩ : Shape).Idx) (k : ℕ) : Prop where
  row : ∀ y, ((e y 0 : Fin _) : ℕ) = k * a + (y 0 : Fin _)
  col : ∀ y, ((e y 1 : Fin _) : ℕ) = (y 1 : Fin _)

namespace EmbedsTile

variable {e e' : (⟨2, ![a, b]⟩ : Shape).Idx → (⟨2, ![m, b]⟩ : Shape).Idx} {k : ℕ}

theorem ext (h : EmbedsTile e k) (h' : EmbedsTile e' k) (y) : e y = e' y :=
  Shape.idx_ext₂ ((h.row y).trans (h'.row y).symm) ((h.col y).trans (h'.col y).symm)

-- row r of the array is row r % a of tile r / a, so it lies in whatever holds all of that tile
theorem mem (h : EmbedsTile e k) (ha : 0 < a) (i : (⟨2, ![m, b]⟩ : Shape).Idx) (hk : (i 0 : ℕ) / a = k)
    {s : Finset (⟨2, ![m, b]⟩ : Shape).Idx} (hs : ∀ y, e y ∈ s) : i ∈ s :=
  (Shape.idx_ext₂ ((h.row _).trans (by subst hk; exact Nat.div_add_mod' _ _)) (h.col _) :
    e (ix2 ⟨(i 0 : ℕ) % a, Nat.mod_lt _ ha⟩ (i 1)) = i) ▸ hs _

variable (he : EmbedsTile e k) {x : FVec Ideal ⟨2, ![m, b]⟩ .f32} {mean var g bt X1 X2 X3 X4 : FVec Ideal ⟨2, ![1, b]⟩ .f32}
  {X0 R : FVec Ideal ⟨2, ![a, b]⟩ .f32} (hb : (⟨2, ![1, b]⟩ : Shape).Broadcasts ⟨2, ![a, b]⟩)
  (h0 : ∀ y, X0 y = x (e y)) (h1 : ∀ y, X1 y = mean y) (h2 : ∀ y, X2 y = var y) (h3 : ∀ y, X3 y = g y) (h4 : ∀ y, X4 y = bt y)
include he h0 h1 h2 h3 h4

-- if X0 is the array read through e and X1 .. X4 are the rows, the tile's normalisation is the array's read through e
theorem norm_block (hR : ∀ y, R y = apply x mean var g bt (e y)) : norm X0 X2 X3 X1 X4 hb = R := by
  obtain rfl := funext h0
  obtain rfl := funext h1
  obtain rfl := funext h2
  obtain rfl := funext h3
  obtain rfl := funext h4
  rw [norm_eq_apply]
  funext y
  have hq : (ix2 (0 : Fin 1) (e y 1) : (⟨2, ![1, b]⟩ : Shape).Idx) = ix2 (0 : Fin 1) (y 1) := congrArg (ix2 (0 : Fin 1)) (Fin.ext (he.col y))
  rw [hR]
  show _ = X3 (ix2 (0 : Fin 1) (e y 1)) * (x (e y) - X1 (ix2 (0 : Fin 1) (e y 1)))
      * Ideal.rsqrt (X2 (ix2 (0 : Fin 1) (e y 1)) + Ideal.ofBits .f32 0x3727C5AC#32) + X4 (ix2 (0 : Fin 1) (e y 1))
  rw [hq]
  rfl

-- the maximum with 0 taken first
theorem pre_block (hR : ∀ y, R y = apply (relu x) mean var g bt (e y)) :
    norm (maximumf X0 (broadcast _ (Scalar.ofBits .f32 0x00000000#32))) X2 X3 X1 X4 hb = R :=
  norm_block he hb (x := relu x) (fun y => by show max (X0 y) (Ideal.ofBits .f32 0x00000000#32) = max (x (e y)) 0; rw [h0, Ideal.ofBits_zero_f32]) h1 h2 h3 h4 hR

-- the maximum with 0 taken last
theorem post_block (hR : ∀ y, R y = relu (apply x mean var g bt) (e y)) :
    maximumf (norm X0 X2 X3 X1 X4 hb) (broadcast _ (Scalar.ofBits .f32 0x00000000#32)) = R := by
  rw [norm_block he hb h0 h1 h2 h3 h4 fun _ => rfl]
  funext y
  rw [hR]
  show max _ (Ideal.ofBits .f32 0x00000000#32) = max _ 0
  rw [Ideal.ofBits_zero_f32]

end EmbedsTile

end Cert.BnTile

end
-- ==== Proof.RegApply2.lean ====
import proofs.«424203_j57904749085258_1_alg».proof.Proof.Gen.KernelIdeal.Frame
import proofs.«424203_j57904749085258_1_alg».proof.Proof.SpecK16
import proofs.«424203_j57904749085258_1_alg».proof.Proof.BnTile

noncomputable section

open Idealize.ShloMosaic Idealize.ShloMosaic.TcCoe Idealize.ShloMosaic.ValueIdx

namespace Cert.KernelIdeal.RegValue

open Cert.KernelIdeal Cert.KernelIdeal.Gen Cert.BnTile

theorem apply2_index : ∀ t : Fin cfg2.N,
    win2_0.index t (0 : Fin 2) = t.val ∧ win2_0.index t (1 : Fin 2) = 0
    ∧ win2_5.index t (0 : Fin 2) = t.val ∧ win2_5.index t (1 : Fin 2) = 0
    ∧ ∀ a : Fin 2, win2_1.index t a = 0 ∧ win2_2.index t a = 0 ∧ win2_3.index t a = 0 ∧ win2_4.index t a = 0 :=
  (by decide +kernel : ∀ t : Fin grid2.N, _)

section
variable (t : Fin cfg2.N)

-- tile t sits at rows 10000 * t onwards of both arrays
theorem apply2_emb :
    EmbedsTile (m := 50000) (a := 10000) (b := 16) ((cfg2.win 0).blk t).view.emb t.val
    ∧ EmbedsTile (m := 50000) (a := 10000) (b := 16) ((cfg2.win 5).blk t).view.emb t.val :=
  have ⟨e0, e1, f0, f1, _⟩ := apply2_index t
  ⟨⟨fun y => (win2_0.rect_emb_val t y (0 : Fin 2)).trans (by rw [e0]; rfl), win2_0.rect_emb_val_of_index_zero t (1 : Fin 2) e1⟩,
    ⟨fun y => (win2_5.rect_emb_val t y (0 : Fin 2)).trans (by rw [f0]; rfl), win2_5.rect_emb_val_of_index_zero t (1 : Fin 2) f1⟩⟩

variable (V : (c : Dev nD) → (b : Ref sig .tc) → Buf (Elt Ideal) ((c : Thread nD τ).loc b)) (c : Dev nD)
  (x : FVec Ideal S50000x16 .f32) (mean var g bt : FVec Ideal S1x16 .f32)

-- the blocks at tile t are reads of the five input arrays
theorem apply2_read0 (h : V c (Pipeline.arrRef spec2 0) = x) (y) : iblk2 V c 0 t y = x (((cfg2.win 5).blk t).view.emb y) := by
  subst h; exact congrArg (V c (Pipeline.arrRef spec2 0)) ((apply2_emb t).1.ext (apply2_emb t).2 y)

theorem apply2_read1 (h : V c (Pipeline.arrRef spec2 1) = mean) (y) : iblk2 V c 1 t y = mean y := by
  subst h
  exact congrArg (V c (Pipeline.arrRef spec2 1)) (funext fun a => Fin.ext (win2_1.rect_emb_val_of_index_zero t a ((apply2_index t).2.2.2.2 a).1 y))

theorem apply2_read2 (h : V c (Pipeline.arrRef spec2 2) = var) (y) : iblk2 V c 2 t y = var y := by
  subst h
  exact congrArg (V c (Pipeline.arrRef spec2 2)) (funext fun a => Fin.ext (win2_2.rect_emb_val_of_index_zero t a ((apply2_index t).2.2.2.2 a).2.1 y))

theorem apply2_read3 (h : V c (Pipeline.arrRef spec2 3) = g) (y) : iblk2 V c 3 t y = g y := by
  subst h
  exact congrArg (V c (Pipeline.arrRef spec2 3)) (funext fun a => Fin.ext (win2_3.rect_emb_val_of_index_zero t a ((apply2_index t).2.2.2.2 a).2.2.1 y))

theorem apply2_read4 (h : V c (Pipeline.arrRef spec2 4) = bt) (y) : iblk2 V c 4 t y = bt y := by
  subst h
  exact congrArg (V c (Pipeline.arrRef spec2 4)) (funext fun a => Fin.ext (win2_4.rect_emb_val_of_index_zero t a ((apply2_index t).2.2.2.2 a).2.2.2 y))

theorem apply2_flushed (p0 : ∀ y, iblk2 V c 0 t y = x (((cfg2.win 5).blk t).view.emb y))
    (p1 : ∀ y, iblk2 V c 1 t y = mean y) (p2 : ∀ y, iblk2 V c 2 t y = var y)
    (p3 : ∀ y, iblk2 V c 3 t y = g y) (p4 : ∀ y, iblk2 V c 4 t y = bt y) :
    (dat2 V c).flushed 5 t = ((cfg2.win 5).blk t).view.read (Elt Ideal) (Cert.GnnK.applyM16 (Cert.GnnK.reluM16 x) mean var g bt) := by
  show (dat2 V c).after 5 t = _
  rw [after2_5, out2_5, View.canon_unit_zero zeros2, k2_pay1]
  simp only [View.ld_unit_zero (S := S10000x16) zeros2, View.ld_unit_zero (S := S1x16) zeros2, shapeCast_self]
  exact (apply2_emb t).2.pre_block _ p0 p1 p2 p3 p4 fun _ => rfl

end

theorem apply2_cover (i : S50000x16.Idx) : ∃ t : Fin cfg2.N, (cfg2.win 5).flush t = true ∧ i ∈ ((cfg2.win 5).blk t).view.set :=
  ⟨⟨(i 0).val / 10000, lt_of_lt_of_eq (Nat.div_lt_of_lt_mul (i 0).isLt) N_2.symm⟩, flush2_5 _,
    (apply2_emb _).2.mem (by decide) i rfl (View.emb_mem_set _)⟩

theorem apply2_value (V : (c : Dev nD) → (b : Ref sig .tc) → Buf (Elt Ideal) ((c : Thread nD τ).loc b)) (c : Dev nD)
    (x : FVec Ideal S50000x16 .f32) (mean var g bt : FVec Ideal S1x16 .f32)
    (hx : V c (Pipeline.arrRef spec2 0) = x) (h1 : V c (Pipeline.arrRef spec2 1) = mean)
    (h2 : V c (Pipeline.arrRef spec2 2) = var) (h3 : V c (Pipeline.arrRef spec2 3) = g)
    (h4 : V c (Pipeline.arrRef spec2 4) = bt) :
    (dat2 (F := Ideal) V c).arrAt 5 cfg2.N = Cert.GnnK.applyM16 (Cert.GnnK.reluM16 x) mean var g bt :=
  (dat2 V c).arrAt_eq_of_cover 5 _
    (fun t _ => apply2_flushed t V c x mean var g bt (apply2_read0 t V c x hx) (apply2_read1 t V c mean h1)
      (apply2_read2 t V c var h2) (apply2_read3 t V c g h3) (apply2_read4 t V c bt h4))
    apply2_cover

end Cert.KernelIdeal.RegValue

end
-- ==== Proof.BnAlgebra.lean ====
import Mathlib.Data.EReal.Operations
import Mathlib.Algebra.BigOperators.Field
import Mathlib.Algebra.Order.BigOperators.Group.Finset
import Mathlib.Tactic.FieldSimp
import Mathlib.Tactic.Ring

open scoped BigOperators

namespace Cert.GnnB

variable {ι : Type*}

theorem coe_sum (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

theorem sum_sqdev [Fintype ι] (r : ι → ℝ) (μ : ℝ) :
    ∑ i, (r i - μ) * (r i - μ) = ∑ i, r i * r i - 2 * μ * ∑ i, r i + (Fintype.card ι : ℝ) * (μ * μ) := by
  have h : ∀ i, (r i - μ) * (r i - μ) = r i * r i - 2 * μ * r i + μ * μ := fun i => by ring
  simp only [h, Finset.sum_add_distrib, Finset.sum_sub_distrib, ← Finset.mul_sum, Finset.sum_const, Finset.card_univ,
    nsmul_eq_mul]
  ring

theorem var_identity [Fintype ι] (r : ι → ℝ) (N : ℝ) (hN : N ≠ 0) (hcard : (Fintype.card ι : ℝ) = N) :
    (∑ i, (r i - (∑ k, r k) / N) * (r i - (∑ k, r k) / N)) / N
      = (∑ i, r i * r i) / N - (∑ k, r k) / N * ((∑ k, r k) / N) := by
  rw [sum_sqdev, hcard]
  field_simp
  ring

theorem var_nonneg [Fintype ι] (r : ι → ℝ) (μ N : ℝ) (hN : 0 < N) : 0 ≤ (∑ i, (r i - μ) * (r i - μ)) / N :=
  div_nonneg (Finset.sum_nonneg fun i _ => mul_self_nonneg _) hN.le

end Cert.GnnB
-- ==== Proof.BnIdeal.lean ====
import Idealize.ShloMosaic.PureOps.Ideal.Laws
import proofs.«424203_j57904749085258_1_alg».proof.Proof.BnAlgebra

noncomputable section

open scoped BigOperators

namespace Cert.GnnB

open Idealize.ShloMosaic

theorem ofBits_count : Ideal.ofBits .f32 0x47435000#32 = ((50000 : ℝ) : EReal) := by
  simp [Ideal.ofBits, Ideal.ieee, -EReal.coe_mul]; norm_num

theorem ofBits_eps : Ideal.ofBits .f32 0x3727C5AC#32 = ((10995116 / 2 ^ 40 : ℝ) : EReal) := by
  simp [Ideal.ofBits, Ideal.ieee, -EReal.coe_mul]; norm_num

theorem count_sub_zero :
    Ideal.ofBits .f32 0x47435000#32 - ((((0#32 : BitVec 32).toInt : ℝ)) : EReal) = ((50000 : ℝ) : EReal) := by
  rw [ofBits_count, BitVec.toInt_zero, Int.cast_zero, EReal.coe_zero, sub_zero]

theorem cmp_count_pos : Ideal.cmp .ogt ((50000 : ℝ) : EReal) (Ideal.ofBits .f32 0x00000000#32) = 1#1 := by
  rw [Ideal.ofBits_zero_f32]
  have h : (0 : EReal) < ((50000 : ℝ) : EReal) := EReal.coe_pos.mpr (by norm_num)
  simp [Ideal.cmp, h]

theorem div_coe_coe (x : ℝ) {N : ℝ} (hN : N ≠ 0) : Ideal.div (x : EReal) (N : EReal) = ((x / N : ℝ) : EReal) := by
  rw [Ideal.div_coe hN, ← EReal.coe_mul, mul_one_div]

variable {ι : Type*} [Fintype ι]

theorem sum_coe (r : ι → ℝ) : ∑ i, (r i : EReal) = ((∑ i, r i : ℝ) : EReal) := (coe_sum _ _).symm

theorem sumsq_coe (r : ι → ℝ) : ∑ i, (r i : EReal) * (r i : EReal) = ((∑ i, r i * r i : ℝ) : EReal) := by
  rw [coe_sum]; exact Finset.sum_congr rfl fun i _ => (EReal.coe_mul _ _).symm

theorem sumdev_coe (r : ι → ℝ) (μ : ℝ) :
    ∑ i, ((r i : EReal) - (μ : EReal)) * ((r i : EReal) - (μ : EReal)) = ((∑ i, (r i - μ) * (r i - μ) : ℝ) : EReal) := by
  rw [coe_sum]; exact Finset.sum_congr rfl fun i _ => by rw [EReal.coe_mul, EReal.coe_sub]

theorem mean_col (x : ι → EReal) (r : ι → ℝ) (hx : ∀ i, x i = (r i : EReal)) {N : ℝ} (hN : N ≠ 0) :
    Ideal.div (∑ i, x i) (N : EReal) = (((∑ i, r i) / N : ℝ) : EReal) := by
  simp only [hx]
  rw [sum_coe, div_coe_coe _ hN]

theorem var_col (x : ι → EReal) (r : ι → ℝ) (hx : ∀ i, x i = (r i : EReal)) {N : ℝ} (hN : N ≠ 0) :
    Ideal.div (∑ i, (x i - Ideal.div (∑ k, x k) (N : EReal)) * (x i - Ideal.div (∑ k, x k) (N : EReal))) (N : EReal)
      = (((∑ i, (r i - (∑ k, r k) / N) * (r i - (∑ k, r k) / N)) / N : ℝ) : EReal) := by
  rw [mean_col x r hx hN]
  simp only [hx]
  rw [sumdev_coe, div_coe_coe _ hN]

theorem var_two_ways (x : ι → EReal) (r : ι → ℝ) (hx : ∀ i, x i = (r i : EReal)) {N : ℝ} (hN : N ≠ 0)
    (hcard : (Fintype.card ι : ℝ) = N) :
    Ideal.div (∑ i, x i * x i) (N : EReal) - Ideal.div (∑ i, x i) (N : EReal) * Ideal.div (∑ i, x i) (N : EReal)
      = Ideal.div (∑ i, (x i - Ideal.div (∑ k, x k) (N : EReal)) * (x i - Ideal.div (∑ k, x k) (N : EReal))) (N : EReal) := by
  rw [var_col x r hx hN, mean_col x r hx hN]
  simp only [hx]
  rw [sumsq_coe, div_coe_coe _ hN, ← EReal.coe_mul, ← EReal.coe_sub, var_identity r N hN hcard]

theorem var_col_real (x : ι → EReal) (r : ι → ℝ) (hx : ∀ i, x i = (r i : EReal)) {N : ℝ} (hN : 0 < N) :
    ∃ w : ℝ, 0 ≤ w ∧
      Ideal.div (∑ i, (x i - Ideal.div (∑ k, x k) (N : EReal)) * (x i - Ideal.div (∑ k, x k) (N : EReal))) (N : EReal)
        = (w : EReal) :=
  ⟨_, var_nonneg r _ N hN, var_col x r hx hN.ne'⟩

theorem rsqrt_add_eps_real {w : ℝ} (hw : 0 ≤ w) :
    ∃ t : ℝ, Ideal.rsqrt ((w : EReal) + Ideal.ofBits .f32 0x3727C5AC#32) = (t : EReal) := by
  have hp : 0 < w + 10995116 / 2 ^ 40 := by positivity
  rw [ofBits_eps, ← EReal.coe_add, Ideal.rsqrt_coe, if_neg (not_lt.mpr hp.le), if_neg hp.ne']
  exact ⟨_, rfl⟩

theorem bn_scalar_real (G X M V B : EReal) (hG : ∃ a : ℝ, G = (a : EReal)) (hX : ∃ a : ℝ, X = (a : EReal))
    (hM : ∃ a : ℝ, M = (a : EReal)) (hV : ∃ w : ℝ, 0 ≤ w ∧ V = (w : EReal)) (hB : ∃ a : ℝ, B = (a : EReal)) :
    ∃ t : ℝ, G * (X - M) * Ideal.rsqrt (V + Ideal.ofBits .f32 0x3727C5AC#32) + B = (t : EReal) := by
  obtain ⟨g, rfl⟩ := hG
  obtain ⟨x, rfl⟩ := hX
  obtain ⟨m, rfl⟩ := hM
  obtain ⟨w, hw, rfl⟩ := hV
  obtain ⟨b, rfl⟩ := hB
  obtain ⟨t, ht⟩ := rsqrt_add_eps_real hw
  exact ⟨g * (x - m) * t + b, by rw [ht, EReal.coe_add, EReal.coe_mul, EReal.coe_mul, EReal.coe_sub]⟩

end Cert.GnnB

end
-- ==== Proof.RealOps.lean ====
import Idealize.ShloMosaic.PureOps.Ideal
import Idealize.ShloMosaic.PureOps.Ideal.Laws
import proofs.«424203_j57904749085258_1_alg».proof.Proof.SpecGraph

noncomputable section

namespace Cert.Gnn

open Idealize.ShloMosaic

theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    rw [Finset.sum_insert ha]
    exact real_add (h a (Finset.mem_insert_self a s)) (ih fun i hi => h i (Finset.mem_insert_of_mem hi))

theorem pos_max {a e : EReal} (ha : ∃ r : ℝ, a = (r : EReal)) (he : ∃ r : ℝ, 0 < r ∧ e = (r : EReal)) :
    ∃ r : ℝ, 0 < r ∧ max a e = (r : EReal) := by
  obtain ⟨x, rfl⟩ := ha
  obtain ⟨y, hy, rfl⟩ := he
  exact ⟨max x y, lt_max_of_lt_right hy, (EReal.coe_strictMono.monotone.map_max).symm⟩

theorem real_rsqrt {a : EReal} (ha : ∃ r : ℝ, 0 < r ∧ a = (r : EReal)) : ∃ r : ℝ, Ideal.rsqrt a = (r : EReal) := by
  obtain ⟨x, hx, rfl⟩ := ha
  exact ⟨(Real.sqrt x)⁻¹, by rw [Ideal.rsqrt_coe, if_neg (not_lt.2 hx.le), if_neg hx.ne']⟩

theorem ofBits_one_f32 : Ideal.ofBits .f32 0x3F800000#32 = 1 := by
  simp [Ideal.ofBits, Ideal.ieee, -EReal.coe_mul]; norm_num

theorem ofBits_eps_f32 : ∃ r : ℝ, 0 < r ∧ Ideal.ofBits .f32 0x2B8CBCCC#32 = (r : EReal) := by
  refine ⟨(9223372 : ℝ) * (2 : ℝ) ^ (-63 : ℤ), by positivity, ?_⟩
  simp [Ideal.ofBits, Ideal.ieee, -EReal.coe_mul]

variable {S T : Shape} {φ : FTy}

theorem allReal_addf {x y : FVec Ideal S φ} (hx : AllReal x) (hy : AllReal y) : AllReal (addf x y) :=
  fun i => real_add (hx i) (hy i)

theorem allReal_mulf {x y : FVec Ideal S φ} (hx : AllReal x) (hy : AllReal y) : AllReal (mulf x y) :=
  fun i => real_mul (hx i) (hy i)

theorem allReal_maximumf {x y : FVec Ideal S φ} (hx : AllReal x) (hy : AllReal y) : AllReal (maximumf x y) :=
  fun i => real_max (hx i) (hy i)

theorem allReal_select (c : IVec S 1) {x y : S.Idx → EReal} (hx : AllReal x) (hy : AllReal y) : AllReal (select c x y) := by
  intro i
  show ∃ r : ℝ, (if c i = 1 then x i else y i) = (r : EReal)
  split
  · exact hx i
  · exact hy i

theorem allReal_broadcastInDim (dims : Fin S.rank → Fin T.rank) (h : S.BroadcastsInDim T dims) {x : S.Idx → EReal}
    (hx : AllReal x) : AllReal (broadcastInDim T dims h x) :=
  fun _ => hx _

theorem allReal_constant (s : Shape) (b : BitVec φ.bits) (hb : ∃ r : ℝ, Ideal.ofBits φ b = (r : EReal)) :
    AllReal (constant (F := Ideal) s φ b) :=
  fun _ => hb

theorem allReal_zero (s : Shape) : AllReal (constant (F := Ideal) s .f32 0x00000000#32) :=
  allReal_constant s _ ⟨0, by rw [Ideal.ofBits_zero_f32, EReal.coe_zero]⟩

theorem allReal_one (s : Shape) : AllReal (constant (F := Ideal) s .f32 0x3F800000#32) :=
  allReal_constant s _ ⟨1, by rw [ofBits_one_f32, EReal.coe_one]⟩

theorem allReal_gather {SI : Shape} {w : Nat} (d : GatherDims S SI T) (idx : IVec SI w) {x : S.Idx → EReal}
    (hx : AllReal x) : AllReal (Host.gather d x idx) :=
  fun _ => hx _

theorem allReal_concatenate (a : Fin T.rank) (xs : List ((s : Shape) × (s.Idx → EReal)))
    (h : Shape.Concatenates (xs.map (·.1)) T a) (hx : ∀ p ∈ xs, AllReal p.2) : AllReal (concatenate T a xs h) := by
  intro j
  unfold concatenate
  exact hx _ (List.getElem_mem _) _

theorem allReal_scatterAdd {SI SU : Shape} {w : Nat} (d : ScatterDims S SI SU) (idx : IVec SI w) {x : FVec Ideal S φ}
    {u : FVec Ideal SU φ} (hx : AllReal x) (hu : AllReal u) : AllReal (Host.scatterAdd d x idx u) := by
  intro i
  show ∃ r : ℝ, x i + ∑ j ∈ Finset.univ.filter (fun j => d.resultIdx? j idx = some i), u j = (r : EReal)
  exact real_add (hx i) (real_sum _ _ fun j _ => hu j)

theorem allReal_dotGeneral {SL SR : Shape} {φ₁ φ₂ : FTy} (d : DotDims SL SR T) (prec : Option ContractPrecision)
    {x : FVec Ideal SL φ₁} {y : FVec Ideal SR φ₂} (hx : AllReal x) (hy : AllReal y) :
    AllReal (Host.dotGeneral d prec x y) := by
  intro j
  rw [Host.dotGeneral, Ideal.dotGeneral_apply]
  exact real_sum _ _ fun k _ => real_mul (hx _) (hy _)

theorem allReal_rsqrt_max {x e : FVec Ideal S φ} (hx : AllReal x) (he : ∀ i, ∃ r : ℝ, 0 < r ∧ e i = (r : EReal)) :
    AllReal (Host.rsqrt (maximumf x e)) :=
  fun i => real_rsqrt (pos_max (hx i) (he i))

end Cert.Gnn

end
-- ==== Proof.LayerWidth.lean ====
import proofs.«424203_j57904749085258_1_alg».proof.Proof.SpecGraph
import proofs.«424203_j57904749085258_1_alg».proof.Proof.BnIdeal
import proofs.«424203_j57904749085258_1_alg».proof.Proof.RealOps
import Idealize.ShloMosaic.Lib.ValueLayout
import Idealize.ShloMosaic.Lib.IdealHost
import Idealize.ShloMosaic.Lib.KernelVsHost

noncomputable section

open scoped BigOperators

namespace Cert.GnnB

open Idealize.ShloMosaic Idealize.ShloMosaic.ValueIdx Cert.Gnn

abbrev Sc : Shape := ⟨0, ![]⟩
abbrev Vec (n : ℕ) : Shape := ⟨1, ![n]⟩
abbrev Row (n : ℕ) : Shape := ⟨2, ![1, n]⟩
abbrev Mat (n : ℕ) : Shape := ⟨2, ![50000, n]⟩

variable {n : ℕ}

theorem sc_pos : 0 < Sc.numel := by decide

theorem sc_bcast (T : Shape) : Sc.BroadcastsInDim T ![] := ⟨fun a => a.elim0, fun a => a.elim0⟩

theorem vec_row : (Vec n).BroadcastsInDim (Row n) ![1] :=
  ⟨fun a b _ => Subsingleton.elim (α := Fin 1) a b, fun a => match a with | ⟨0, _⟩ => Or.inr rfl⟩

theorem row_mat : (Row n).BroadcastsInDim (Mat n) ![0, 1] :=
  ⟨(by decide : Function.Injective (![0, 1] : Fin 2 → Fin 2)),
    fun a => match a with | ⟨0, _⟩ => Or.inl rfl | ⟨1, _⟩ => Or.inr rfl⟩

theorem mat_reducesTo : (Mat n).ReducesTo [0] (Vec n) := ⟨rfl, fun b => match b with | ⟨0, _⟩ => rfl⟩

theorem mat_reduces : (Mat n).Reduces [0] (Vec n) := ⟨rfl, Nat.one_pos, fun b => match b with | ⟨0, _⟩ => rfl⟩

theorem vec_casts : (Vec n).ShapeCasts (Row n) := by
  show ∏ a : Fin 2, ![1, n] a = ∏ a : Fin 1, ![n] a
  rw [Fin.prod_univ_two, Fin.prod_univ_one]
  exact Nat.one_mul n

def colSum (v : FVec Ideal (Mat n) .f32) : FVec Ideal (Row n) .f32 :=
  fun j => ∑ i : Fin 50000, v (ix2 i (j 1) : (Mat n).Idx)

def colSumSq (v : FVec Ideal (Mat n) .f32) : FVec Ideal (Row n) .f32 :=
  fun j => ∑ i : Fin 50000, v (ix2 i (j 1) : (Mat n).Idx) * v (ix2 i (j 1) : (Mat n).Idx)

def meanK (s : FVec Ideal (Row n) .f32) : FVec Ideal (Row n) .f32 :=
  Host.divf s (broadcastInDim (Row n) ![] (sc_bcast _) (constant (F := Ideal) Sc .f32 0x47435000#32))

def varK (s q : FVec Ideal (Row n) .f32) : FVec Ideal (Row n) .f32 := subf (meanK q) (mulf (meanK s) (meanK s))

def rowK (g : FVec Ideal (Vec n) .f32) : FVec Ideal (Row n) .f32 := shapeCast (Row n) g vec_casts

def applyK (v : FVec Ideal (Mat n) .f32) (mean var g bt : FVec Ideal (Row n) .f32) : FVec Ideal (Mat n) .f32 :=
  fun i => g (ix2 (0 : Fin 1) (i 1) : (Row n).Idx) * (v i - mean (ix2 (0 : Fin 1) (i 1) : (Row n).Idx))
      * Ideal.rsqrt (var (ix2 (0 : Fin 1) (i 1) : (Row n).Idx) + Ideal.ofBits .f32 0x3727C5AC#32)
    + bt (ix2 (0 : Fin 1) (i 1) : (Row n).Idx)

def overNodes (w : FVec Ideal (Vec n) .f32) : FVec Ideal (Mat n) .f32 :=
  broadcastInDim (Mat n) ![0, 1] row_mat (broadcastInDim (Row n) ![1] vec_row w)

def colSums (x : FVec Ideal (Mat n) .f32) : FVec Ideal (Vec n) .f32 :=
  Host.reduceAdd x (constant (F := Ideal) Sc .f32 0x00000000#32) mat_reducesTo sc_pos

def colMeans (x : FVec Ideal (Mat n) .f32) : FVec Ideal (Vec n) .f32 :=
  Host.divf (colSums x) (broadcastInDim (Vec n) ![] (sc_bcast _) (constant (F := Ideal) Sc .f32 0x47435000#32))

def dev (x : FVec Ideal (Mat n) .f32) : FVec Ideal (Mat n) .f32 :=
  subf x (broadcastInDim (Mat n) ![0, 1] row_mat
    (Host.divf (broadcastInDim (Row n) ![1] vec_row (colSums x))
      (broadcastInDim (Row n) ![] (sc_bcast _) (constant (F := Ideal) Sc .f32 0x47435000#32))))

def colVars (x : FVec Ideal (Mat n) .f32) : FVec Ideal (Vec n) .f32 :=
  select (broadcastInDim (Vec n) ![] (sc_bcast _) (cmpf .ogt cnt (constant (F := Ideal) Sc .f32 0x00000000#32)))
    (Host.divf (colSums (mulf (dev x) (dev x))) (broadcastInDim (Vec n) ![] (sc_bcast _) cnt))
    (broadcastInDim (Vec n) ![] (sc_bcast _) (id (constant (F := Ideal) Sc .f32 0x7FC00000#32)))

def bn (x : FVec Ideal (Mat n) .f32) (g bt : FVec Ideal (Vec n) .f32) : FVec Ideal (Mat n) .f32 :=
  addf
    (mulf (mulf (overNodes g) (subf x (overNodes (colMeans x))))
      (overNodes (Host.rsqrt (addf (colVars x)
        (broadcastInDim (Vec n) ![] (sc_bcast _) (constant (F := Ideal) Sc .f32 0x3727C5AC#32))))))
    (overNodes bt)

-- A vector of n numbers laid out as one row has, at column c, its entry c (for n = 1 the only column is 0).
theorem vecRow_apply (w : FVec Ideal (Vec n) .f32) (c : Fin n) :
    broadcastInDim (Row n) ![1] vec_row w (ix2 (0 : Fin 1) c) = w (ix1 c) :=
  broadcastInDim_apply ![1] vec_row w (ix2 (0 : Fin 1) c) (ix1 c) fun a => by
    match a with
    | ⟨0, _⟩ =>
      show c.val = if n = 1 then 0 else c.val
      split
      · have := c.isLt; omega
      · rfl

theorem overNodes_apply (w : FVec Ideal (Vec n) .f32) (p : Fin 50000) (c : Fin n) : overNodes w (ix2 p c) = w (ix1 c) :=
  (broadcastInDim_oneRow_apply row_mat _ p c).trans (vecRow_apply w c)

-- A column sum started at 0 is the sum of the column's entries over the nodes.
theorem colSums_apply (x : FVec Ideal (Mat n) .f32) (c : Fin n) : colSums x (ix1 c) = ∑ i : Fin 50000, x (ix2 i c) := by
  show Ideal.hostReduceAdd mat_reducesTo x (Ideal.ofBits .f32 0x00000000#32) (ix1 c) = _
  rw [Ideal.hostReduceAdd_single _ mat_reduces, Ideal.ofBits_zero_f32, zero_add]
  exact Finset.sum_congr rfl fun i _ => congrArg x (funext fun a => by
    match a with
    | ⟨0, _⟩ => rfl
    | ⟨1, _⟩ => rfl)

theorem colMeans_apply (x : FVec Ideal (Mat n) .f32) (c : Fin n) :
    colMeans x (ix1 c) = Ideal.div (∑ i : Fin 50000, x (ix2 i c)) ((50000 : ℝ) : EReal) := by
  show Ideal.div (colSums x (ix1 c)) (Ideal.ofBits .f32 0x47435000#32) = _
  rw [colSums_apply, ofBits_count]

theorem dev_apply (x : FVec Ideal (Mat n) .f32) (i : Fin 50000) (c : Fin n) :
    dev x (ix2 i c) = x (ix2 i c) - Ideal.div (∑ k : Fin 50000, x (ix2 k c)) ((50000 : ℝ) : EReal) := by
  unfold dev
  rw [subf_apply, broadcastInDim_oneRow_apply, hostDivf_apply, vecRow_apply, colSums_apply]
  exact congrArg (fun d => x (ix2 i c) - Ideal.div _ d) ofBits_count

-- The divisor 50000 - 0 is positive, so the variance is the quotient: the mean of the squared deviations.
theorem colVars_apply (x : FVec Ideal (Mat n) .f32) (c : Fin n) :
    colVars x (ix1 c)
      = Ideal.div (∑ i : Fin 50000, (x (ix2 i c) - Ideal.div (∑ k : Fin 50000, x (ix2 k c)) ((50000 : ℝ) : EReal))
          * (x (ix2 i c) - Ideal.div (∑ k : Fin 50000, x (ix2 k c)) ((50000 : ℝ) : EReal))) ((50000 : ℝ) : EReal) := by
  have hn : ∀ j : Sc.Idx, cnt j = ((50000 : ℝ) : EReal) := fun _ => count_sub_zero
  have hp : ∀ j : Sc.Idx, cmpf .ogt cnt (constant (F := Ideal) Sc .f32 0x00000000#32) j = 1#1 := fun j => by
    rw [cmpf_apply, hn, constant_apply]; exact cmp_count_pos
  unfold colVars
  rw [select_apply, broadcastInDim_scalar_apply, hp, select_one, hostDivf_apply, broadcastInDim_scalar_apply, hn,
    colSums_apply]
  simp only [mulf_apply, dev_apply]

theorem bn_apply (x : FVec Ideal (Mat n) .f32) (g bt : FVec Ideal (Vec n) .f32) (p : Fin 50000) (c : Fin n) :
    bn x g bt (ix2 p c)
      = g (ix1 c) * (x (ix2 p c) - colMeans x (ix1 c))
          * Ideal.rsqrt (colVars x (ix1 c) + Ideal.ofBits .f32 0x3727C5AC#32) + bt (ix1 c) := by
  unfold bn
  rw [addf_apply, mulf_apply, mulf_apply, subf_apply]
  simp only [overNodes_apply]
  rfl

-- max(x, 0) written with the number 0 and with the constant that denotes 0.
theorem relu_bridge {T : Shape} (h : Sc.BroadcastsInDim T ![]) (x : FVec Ideal T .f32) :
    (fun i => max (x i) 0) = maximumf x (broadcastInDim T ![] h (constant (F := Ideal) Sc .f32 0x00000000#32)) := by
  funext i
  show max (x i) 0 = max (x i) (Ideal.ofBits .f32 0x00000000#32)
  rw [Ideal.ofBits_zero_f32]

theorem relu_real {T : Shape} (h : Sc.BroadcastsInDim T ![]) (x : FVec Ideal T .f32) (hx : AllReal x) :
    AllReal (maximumf x (broadcastInDim T ![] h (constant (F := Ideal) Sc .f32 0x00000000#32))) :=
  allReal_maximumf hx (allReal_broadcastInDim _ _ (allReal_zero _))

-- On reals the variance from the column sums, (Σ v²)/N - mean · mean, is the mean of the squared deviations.
theorem bn_bridge (v : FVec Ideal (Mat n) .f32) (hv : AllReal v) (g bt : FVec Ideal (Vec n) .f32) :
    applyK v (meanK (colSum v)) (varK (colSum v) (colSumSq v)) (rowK g) (rowK bt) = bn v g bt := by
  funext j
  obtain ⟨p, c, rfl⟩ : ∃ (p : Fin 50000) (c : Fin n), j = ix2 p c := ⟨j 0, j 1, eq_ix2 j⟩
  have hc : ∀ i : Fin 50000, ∃ r : ℝ, v (ix2 i c) = (r : EReal) := fun _ => hv _
  choose r hr using hc
  rw [bn_apply, colMeans_apply, colVars_apply, ← var_two_ways _ r hr (by norm_num) (by simp), ← ofBits_count]
  show shapeCast (Row n) g vec_casts (ix2 (0 : Fin 1) c) * _ * _ + shapeCast (Row n) bt vec_casts (ix2 (0 : Fin 1) c) = _
  rw [shapeCast_a_1a_apply, shapeCast_a_1a_apply]
  rfl

-- A column's variance is a real that is not negative, so the inverse square root of it plus the 1e-5 is a real.
theorem bn_real (v : FVec Ideal (Mat n) .f32) (hv : AllReal v) (g bt : FVec Ideal (Vec n) .f32) (hg : AllReal g)
    (hb : AllReal bt) : AllReal (bn v g bt) := fun j => by
  obtain ⟨p, c, rfl⟩ : ∃ (p : Fin 50000) (c : Fin n), j = ix2 p c := ⟨j 0, j 1, eq_ix2 j⟩
  have hc : ∀ i : Fin 50000, ∃ r : ℝ, v (ix2 i c) = (r : EReal) := fun _ => hv _
  choose r hr using hc
  rw [bn_apply, colMeans_apply, colVars_apply]
  exact bn_scalar_real _ _ _ _ _ (hg _) (hv _) ⟨_, mean_col _ r hr (by norm_num)⟩ (var_col_real _ r hr (by norm_num)) (hb _)

-- Every entry is 0 plus a finite sum of products mm[source] * norm over the edges into the node, plus the bias.
theorem conv_real {m : ℕ} {sd : ScatterDims (Mat n) ⟨2, ![m, 1]⟩ ⟨2, ![m, n]⟩} {gd : GatherDims (Mat n) ⟨2, ![m, 1]⟩ ⟨2, ![m, n]⟩}
    {he : (⟨1, ![m]⟩ : Shape).BroadcastsInDim ⟨2, ![m, 1]⟩ ![0]}
    {hem : (⟨2, ![m, 1]⟩ : Shape).BroadcastsInDim ⟨2, ![m, n]⟩ ![0, 1]} {hz : Sc.BroadcastsInDim (Mat n) ![]}
    (src tgt : IVec ⟨1, ![m]⟩ 32) (norm : FVec Ideal ⟨1, ![m]⟩ .f32) (mm : FVec Ideal (Mat n) .f32) (b : FVec Ideal (Vec n) .f32)
    (hn : AllReal norm) (hm : AllReal mm) (hb : AllReal b) :
    AllReal (addf
      (Host.scatterAdd sd (broadcastInDim (Mat n) ![] hz (constant (F := Ideal) Sc .f32 0x00000000#32))
        (broadcastInDim ⟨2, ![m, 1]⟩ ![0] he tgt)
        (mulf (Host.gather gd mm (broadcastInDim ⟨2, ![m, 1]⟩ ![0] he src))
          (broadcastInDim ⟨2, ![m, n]⟩ ![0, 1] hem (broadcastInDim ⟨2, ![m, 1]⟩ ![0] he norm))))
      (overNodes b)) :=
  allReal_addf
    (allReal_scatterAdd _ _ (allReal_broadcastInDim _ _ (allReal_zero _))
      (allReal_mulf (allReal_gather _ _ hm) (allReal_broadcastInDim _ _ (allReal_broadcastInDim _ _ hn))))
    (allReal_broadcastInDim _ _ (allReal_broadcastInDim _ _ hb))

end Cert.GnnB

end
-- ==== Proof.BnBridge16.lean ====
import proofs.«424203_j57904749085258_1_alg».proof.Proof.SpecK16
import proofs.«424203_j57904749085258_1_alg».proof.Proof.SpecW16
import proofs.«424203_j57904749085258_1_alg».proof.Proof.LayerWidth

namespace Cert.GnnB

open Idealize.ShloMosaic

variable [Cert.KernelIdeal.Facts] [Cert.ReferenceIdeal.Facts]

theorem relu_bridge16 (x : FVec Ideal Cert.KernelIdeal.S50000x16 .f32) : Cert.GnnK.reluM16 x = Cert.Gnn.relu16 x :=
  relu_bridge _ x

theorem bn_bridge16 (v : FVec Ideal Cert.KernelIdeal.S50000x16 .f32) (hv : Cert.Gnn.AllReal v)
    (g bt : FVec Ideal Cert.KernelIdeal.S16 .f32) :
    Cert.GnnK.applyM16 v (Cert.GnnK.meanK16 (Cert.GnnK.colSum16 v))
        (Cert.GnnK.varK16 (Cert.GnnK.colSum16 v) (Cert.GnnK.colSumSq16 v)) (Cert.GnnK.rowK16 g) (Cert.GnnK.rowK16 bt)
      = Cert.Gnn.bn16 v g bt :=
  bn_bridge v hv g bt

theorem relu_real16 (x : FVec Ideal Cert.ReferenceIdeal.S50000x16 .f32) (hx : Cert.Gnn.AllReal x) :
    Cert.Gnn.AllReal (Cert.Gnn.relu16 x) :=
  relu_real _ x hx

theorem bn_real16 (v : FVec Ideal Cert.ReferenceIdeal.S50000x16 .f32) (hv : Cert.Gnn.AllReal v)
    (g bt : FVec Ideal Cert.ReferenceIdeal.S16 .f32) (hg : Cert.Gnn.AllReal g) (hb : Cert.Gnn.AllReal bt) :
    Cert.Gnn.AllReal (Cert.Gnn.bn16 v g bt) :=
  bn_real v hv g bt hg hb

end Cert.GnnB
-- ==== Proof.RealStages.lean ====
import proofs.«424203_j57904749085258_1_alg».proof.Proof.Spec
import proofs.«424203_j57904749085258_1_alg».proof.Proof.RealOps

noncomputable section

namespace Cert.Gnn

open Idealize.ShloMosaic Cert.ReferenceIdeal

variable [Cert.ReferenceIdeal.Facts]
open Cert.ReferenceIdeal.Facts₀ Cert.ReferenceIdeal.Facts

theorem wOf_real (ew : FVec Ideal S800000 .f32) (hew : AllReal ew) : AllReal (wOf ew) := by
  unfold wOf
  refine allReal_concatenate _ _ _ fun p hp => ?_
  simp only [List.mem_cons, List.not_mem_nil, or_false] at hp
  rcases hp with rfl | rfl
  · exact hew
  · exact allReal_broadcastInDim (T := S50000) ![] bcast_S_S50000 (allReal_one S_)

theorem degOf_real (ei : IVec S2x800000 32) (ew : FVec Ideal S800000 .f32) (hew : AllReal ew) : AllReal (degOf ei ew) := by
  unfold degOf
  exact allReal_scatterAdd _ _ (allReal_broadcastInDim _ _ (allReal_zero _)) (wOf_real ew hew)

theorem disOf_real (ei : IVec S2x800000 32) (ew : FVec Ideal S800000 .f32) (hew : AllReal ew) : AllReal (disOf ei ew) := by
  unfold disOf
  refine allReal_select _ (allReal_rsqrt_max (degOf_real ei ew hew) fun _ => ?_) (allReal_broadcastInDim _ _ ?_)
  · exact ofBits_eps_f32
  · exact allReal_zero _

theorem normOf_real (ei : IVec S2x800000 32) (ew : FVec Ideal S800000 .f32) (hew : AllReal ew) : AllReal (normOf ei ew) := by
  unfold normOf
  exact allReal_mulf (allReal_mulf (allReal_gather _ _ (disOf_real ei ew hew)) (wOf_real ew hew))
    (allReal_gather _ _ (disOf_real ei ew hew))

theorem lin1_real (h : FVec Ideal S50000x128 .f32) (W : FVec Ideal S128x16 .f32) (hh : AllReal h) (hW : AllReal W) :
    AllReal (lin1 h W) := by
  unfold lin1; exact allReal_dotGeneral _ _ hh hW
theorem lin2_real (h : FVec Ideal S50000x16 .f32) (W : FVec Ideal S16x32 .f32) (hh : AllReal h) (hW : AllReal W) :
    AllReal (lin2 h W) := by
  unfold lin2; exact allReal_dotGeneral _ _ hh hW
theorem lin3_real (h : FVec Ideal S50000x32 .f32) (W : FVec Ideal S32x64 .f32) (hh : AllReal h) (hW : AllReal W) :
    AllReal (lin3 h W) := by
  unfold lin3; exact allReal_dotGeneral _ _ hh hW
theorem lin4_real (h : FVec Ideal S50000x64 .f32) (W : FVec Ideal S64x64 .f32) (hh : AllReal h) (hW : AllReal W) :
    AllReal (lin4 h W) := by
  unfold lin4; exact allReal_dotGeneral _ _ hh hW
theorem lin5_real (h : FVec Ideal S50000x64 .f32) (W : FVec Ideal S64x128 .f32) (hh : AllReal h) (hW : AllReal W) :
    AllReal (lin5 h W) := by
  unfold lin5; exact allReal_dotGeneral _ _ hh hW

end Cert.Gnn

end
-- ==== Proof.RealConv16.lean ====
import proofs.«424203_j57904749085258_1_alg».proof.Proof.SpecW16
import proofs.«424203_j57904749085258_1_alg».proof.Proof.LayerWidth

namespace Cert.Gnn

open Idealize.ShloMosaic Cert.ReferenceIdeal

variable [Cert.ReferenceIdeal.Facts]
open Cert.ReferenceIdeal.Facts₀ Cert.ReferenceIdeal.Facts

theorem conv16_real (row col : IVec S850000 32) (norm : FVec Ideal S850000 .f32) (mm : FVec Ideal S50000x16 .f32)
    (b : FVec Ideal S16 .f32) (hn : AllReal norm) (hm : AllReal mm) (hb : AllReal b) :
    AllReal (conv16 row col norm mm b) :=
  Cert.GnnB.conv_real (wrapIdx row) col norm mm b hn hm hb

end Cert.Gnn
-- ==== Proof.KLayer1.lean ====
import proofs.«424203_j57904749085258_1_alg».proof.Proof.KGraphAt
import proofs.«424203_j57904749085258_1_alg».proof.Proof.CarryMid
import proofs.«424203_j57904749085258_1_alg».proof.Proof.CarryArgsA
import proofs.«424203_j57904749085258_1_alg».proof.Proof.RegLin0
import proofs.«424203_j57904749085258_1_alg».proof.Proof.RegLin0Ref
import proofs.«424203_j57904749085258_1_alg».proof.Proof.RegStats1
import proofs.«424203_j57904749085258_1_alg».proof.Proof.RegApply2
import proofs.«424203_j57904749085258_1_alg».proof.Proof.BnBridge16
import proofs.«424203_j57904749085258_1_alg».proof.Proof.RealStages
import proofs.«424203_j57904749085258_1_alg».proof.Proof.RealConv16

noncomputable section

namespace Cert.KernelIdeal.KChain

open Idealize.ShloMosaic Idealize.ShloMosaic.TcCoe Idealize.SL.Sem Cert.KernelIdeal Cert.KernelIdeal.Gen
open Cert.KernelIdeal.CarryMid Cert.KernelIdeal.CarryArgsA

variable [Cert.ReferenceIdeal.Facts]
variable (m : (ℓ : Loc nD τ sig) → Buf (Elt Ideal) ℓ) (ρ : Dev nD → PrngReg)

theorem W5_conv (V : Valuation τ sig (Elt Ideal)) :
    StableHlo.after hostOps1 V (Proc.devRef .tc main_v50)
      = Cert.Gnn.conv16 (V (Proc.devRef .tc main_v3)) (V (Proc.devRef .tc main_v6)) (V (Proc.devRef .tc main_v33))
          (V (Proc.devRef .tc main_v34)) (V (Proc.devRef .tc main_arg5)) := by
  after_results_simp
  rfl

theorem W7_rows (V : Valuation τ sig (Elt Ideal)) :
    StableHlo.after hostOps2 V (Proc.devRef .tc main_v53) = Cert.GnnK.meanK16 (V (Proc.devRef .tc main_v51_0))
    ∧ StableHlo.after hostOps2 V (Proc.devRef .tc main_v57) = Cert.GnnK.varK16 (V (Proc.devRef .tc main_v51_0)) (V (Proc.devRef .tc main_v51_1))
    ∧ StableHlo.after hostOps2 V (Proc.devRef .tc main_v58) = Cert.GnnK.rowK16 (V (Proc.devRef .tc main_arg6))
    ∧ StableHlo.after hostOps2 V (Proc.devRef .tc main_v59) = Cert.GnnK.rowK16 (V (Proc.devRef .tc main_arg7)) := by
  refine ⟨?_, ?_, ?_, ?_⟩ <;>
    (after_results_simp
     rfl)

-- Layer 1's value on the features H: linear map, graph convolution, max with 0, batch normalisation.
abbrev out1 (c : Dev nD) (H : FVec Ideal S50000x128 .f32) :=
  Cert.Gnn.bn16 (Cert.Gnn.relu16 (Cert.Gnn.conv16 (Cert.Gnn.rowOf (eiOf m c)) (Cert.Gnn.colOf (eiOf m c)) (Cert.Gnn.normOf (eiOf m c) (ewOf m c))
      (Cert.Gnn.lin1 H (m ((c : Thread nD τ).loc main_arg4))) (m ((c : Thread nD τ).loc main_arg5))))
      (m ((c : Thread nD τ).loc main_arg6)) (m ((c : Thread nD τ).loc main_arg7))

theorem layer1 (c : Dev nD) (H : FVec Ideal S50000x128 .f32) (hH : W3 m ρ c (Proc.devRef .tc main_arg0) = H)
    (hHr : Cert.Gnn.AllReal H) (hew : Cert.Gnn.AllReal (ewOf m c))
    (hW : Cert.Gnn.AllReal (m ((c : Thread nD τ).loc main_arg4))) (hb : Cert.Gnn.AllReal (m ((c : Thread nD τ).loc main_arg5)))
    (hg : Cert.Gnn.AllReal (m ((c : Thread nD τ).loc main_arg6))) (hbt : Cert.Gnn.AllReal (m ((c : Thread nD τ).loc main_arg7))) :
    W8 m ρ c (Proc.devRef .tc main_v60) = out1 m c H ∧ Cert.Gnn.AllReal (out1 m c H) := by
  have hM : W4 m ρ c (Proc.devRef .tc main_v34) = Cert.Gnn.lin1 H (m ((c : Thread nD τ).loc main_arg4)) :=
    (W4_arr m ρ c 2).trans
      ((Cert.KernelIdeal.RegValue.lin0_value (V3 m ρ) c _ _ hH (carry_arg4_0_3 m ρ c)).trans
        (Cert.KernelIdeal.RegValue.lin1_eq_linM0 _ _).symm)
  obtain ⟨hR, hC, hN⟩ := graph_at4 m ρ c
  have hX := W5_conv (W4 m ρ c)
  rw [hR, hC, hN, hM, carry_arg5_0_4 m ρ c] at hX
  have hXr := Cert.Gnn.conv16_real (Cert.Gnn.rowOf (eiOf m c)) (Cert.Gnn.colOf (eiOf m c)) _ _ _ (Cert.Gnn.normOf_real (eiOf m c) _ hew)
    (Cert.Gnn.lin1_real _ _ hHr hW) hb
  have hS := (W6_arr m ρ c 1).trans (Cert.KernelIdeal.RegValue.stats1_sum (V5 m ρ) c _ hX)
  have hQ := (W6_arr m ρ c 2).trans (Cert.KernelIdeal.RegValue.stats1_sumsq (V5 m ρ) c _ hX)
  have hr := W7_rows (W6 m ρ c)
  have hY := (W8_arr m ρ c 5).trans
    (Cert.KernelIdeal.RegValue.apply2_value (V7 m ρ) c _ _ _ _ _ ((carry_v50_5_7 m ρ c).trans hX)
      (hr.1.trans (congrArg Cert.GnnK.meanK16 hS)) (hr.2.1.trans (congrArg₂ Cert.GnnK.varK16 hS hQ))
      (hr.2.2.1.trans (congrArg Cert.GnnK.rowK16 (carry_arg6_0_6 m ρ c))) (hr.2.2.2.trans (congrArg Cert.GnnK.rowK16 (carry_arg7_0_6 m ρ c))))
  have hRr := Cert.GnnB.relu_real16 _ hXr
  refine ⟨?_, Cert.GnnB.bn_real16 _ hRr _ _ hg hbt⟩
  rw [hY, Cert.GnnB.relu_bridge16]
  exact Cert.GnnB.bn_bridge16 _ hRr _ _

end Cert.KernelIdeal.KChain

end
-- ==== Proof.RegLin3.lean ====
import proofs.«424203_j57904749085258_1_alg».proof.Proof.Gen.KernelIdeal.Frame
import proofs.«424203_j57904749085258_1_alg».proof.Proof.LinM

noncomputable section

namespace Cert.KernelIdeal.RegValue

open Cert.KernelIdeal Cert.KernelIdeal.Gen Idealize.ShloMosaic Idealize.ShloMosaic.TcCoe Idealize.SL.Sem
open Idealize.ShloMosaic.Pipeline (Dat)

-- At point t the tiles of h and of the output are tile t, and W's tile is all of W.
theorem idx_lin3 : RowTiles win3_0.index win3_1.index win3_2.index := by decide +kernel

-- The product of tile t of h by W is tile t of h · W.
theorem tile_lin3 (t : Fin cfg3.N) (x : FVec Ideal S50000x16 .f32) (w : FVec Ideal S16x32 .f32)
    (xb : FVec Ideal S10000x16 .f32) (wb : FVec Ideal S16x32 .f32)
    (hxb : ∀ j, xb j = x (((cfg3.win 0).blk t).view.emb j)) (hwb : ∀ j, wb j = w (((cfg3.win 1).blk t).view.emb j)) :
    (cfg3.win 2).cut (grid3.coords t) (out3_2 xb wb) = ((cfg3.win 2).blk t).view.read (Elt Ideal) (linM3 x w) := by
  unfold out3_2
  rw [View.canon_unit_zero zeros2]
  simp only [k3_pay1, shapeCast_self, View.ld_unit_zero (S := S10000x16) zeros2, View.ld_unit_zero (S := S16x32) zeros2]
  have key := matmul_rowTile (m := 10000) none x w xb wb ((cfg3.win 0).blk t).view.emb ((cfg3.win 1).blk t).view.emb
    ((cfg3.win 2).blk t).view.emb idx_lin3 t hxb hwb (fun _ _ => rfl) (fun _ _ => rfl) (fun _ _ => rfl)
  exact key

variable (V : (c : Dev nD) → (b : Ref sig .tc) → Buf (Elt Ideal) ((c : Thread nD τ).loc b))

-- Tile t of the output is tile t of h · W, and the tiles cover the rows: the output is h · W.
theorem lin3_value (c : Dev nD) (x : FVec Ideal S50000x16 .f32) (w : FVec Ideal S16x32 .f32)
    (hx : V c (Pipeline.arrRef spec3 0) = x) (hw : V c (Pipeline.arrRef spec3 1) = w) :
    (dat3 (F := Ideal) V c).arrAt 2 cfg3.N = linM3 x w := by
  refine (dat3 (F := Ideal) V c).arrAt_eq_of_cover 2 _ (fun t _ => ?_) fun (i : S50000x32.Idx) => ?_
  · show (cfg3.win 2).cut (grid3.coords t) ((dat3 (F := Ideal) V c).after 2 t) = _
    rw [after3_2]
    exact tile_lin3 t x w _ _ (fun _ => congrFun hx _) (fun _ => congrFun hw _)
  · obtain ⟨t, ht⟩ := exists_rowTile (m := 10000) idx_lin3 (by decide) i
    refine ⟨t, flush3_2 t, ?_⟩
    show i ∈ ((View.whole main_v61).slice (win3_2.rect t)).set
    rw [View.set_slice_whole, Rect.mem_set_unit]
    exact ht

end Cert.KernelIdeal.RegValue

end
-- ==== Proof.RegLin3Ref.lean ====
import proofs.«424203_j57904749085258_1_alg».proof.Proof.Spec
import proofs.«424203_j57904749085258_1_alg».proof.Proof.LinM

noncomputable section

namespace Cert.KernelIdeal.RegValue

open Cert.KernelIdeal Idealize.ShloMosaic

variable [Cert.ReferenceIdeal.Facts]

-- The reference's dense transform of layer 2 is a plain product of h and W, so it is h · W entry by entry.
theorem lin2_eq_linM3 (x : FVec Ideal S50000x16 .f32) (w : FVec Ideal S16x32 .f32) :
    Cert.Gnn.lin2 x w = linM3 x w :=
  dotGeneral_eq_linM none x w

end Cert.KernelIdeal.RegValue

end
-- ==== Proof.SpecK32.lean ====
import proofs.«424203_j57904749085258_1_alg».proof.KernelIdeal
import Idealize.ShloMosaic.PureOps.Ideal
import Idealize.ShloMosaic.Lib.ValueIdx

noncomputable section

open scoped BigOperators

namespace Cert.GnnK

open Idealize.ShloMosaic Idealize.ShloMosaic.ValueIdx Cert.KernelIdeal

variable [Cert.KernelIdeal.Facts]
open Cert.KernelIdeal.Facts₀ Cert.KernelIdeal.Facts

def reluM32 (x : FVec Ideal S50000x32 .f32) : FVec Ideal S50000x32 .f32 := fun i => max (x i) 0

def colSum32 (v : FVec Ideal S50000x32 .f32) : FVec Ideal S1x32 .f32 :=
  fun j => ∑ i : Fin 50000, v (ix2 i (j 1) : S50000x32.Idx)

def colSumSq32 (v : FVec Ideal S50000x32 .f32) : FVec Ideal S1x32 .f32 :=
  fun j => ∑ i : Fin 50000, v (ix2 i (j 1) : S50000x32.Idx) * v (ix2 i (j 1) : S50000x32.Idx)

def meanK32 (s : FVec Ideal S1x32 .f32) : FVec Ideal S1x32 .f32 :=
  Host.divf s (broadcastInDim S1x32 ![] bcast_S_S1x32 (constant (F := Ideal) S_ .f32 0x47435000#32))

def varK32 (s q : FVec Ideal S1x32 .f32) : FVec Ideal S1x32 .f32 :=
  subf (meanK32 q) (mulf (meanK32 s) (meanK32 s))

def rowK32 (g : FVec Ideal S32 .f32) : FVec Ideal S1x32 .f32 := shapeCast S1x32 g shapeCasts_S32_S1x32

def applyM32 (v : FVec Ideal S50000x32 .f32) (mean var g bt : FVec Ideal S1x32 .f32) : FVec Ideal S50000x32 .f32 :=
  fun i => g (ix2 (0 : Fin 1) (i 1) : S1x32.Idx) * (v i - mean (ix2 (0 : Fin 1) (i 1) : S1x32.Idx))
      * Ideal.rsqrt (var (ix2 (0 : Fin 1) (i 1) : S1x32.Idx) + Ideal.ofBits .f32 0x3727C5AC#32)
    + bt (ix2 (0 : Fin 1) (i 1) : S1x32.Idx)

end Cert.GnnK

end
-- ==== Proof.RegStats4.lean ====
import proofs.«424203_j57904749085258_1_alg».proof.Proof.Gen.KernelIdeal.Frame
import proofs.«424203_j57904749085258_1_alg».proof.Proof.SpecK32
import proofs.«424203_j57904749085258_1_alg».proof.Proof.ColStats

noncomputable section

open Idealize.ShloMosaic Idealize.ShloMosaic.TcCoe Idealize.SL.Sem

namespace Cert.KernelIdeal.RegValue.Stats4

open Idealize.ShloMosaic.ValueIdx Cert.KernelIdeal Cert.KernelIdeal.Gen Cert.ColStats

section AnyFloat

variable {F : FTy → Type} [FloatOps F]
variable (V : (c : Dev nD) → (b : Ref sig .tc) → Buf (Elt F) ((c : Thread nD τ).loc b)) (c : Dev nD)

-- The tile of the entry array that point t reads.
abbrev tile (t : Fin cfg4.N) : Vec F S10000x32 .f32 := iblk4 V c 0 t

-- The first point sets each row to zero and leaves it at zero plus the tile's contribution.
theorem outs_zero (h : 0 < cfg4.N) :
    outsAt4 V c 0 h = (k4_pay4 (tile V c ⟨0, h⟩) (k4_pay1 (F := F)), k4_pay5 (tile V c ⟨0, h⟩) (k4_pay2 (F := F))) := by
  rw [outsAt4_A V c ⟨0, h⟩ rfl]
  unfold out4_A_1 out4_A_2
  rw [View.read_writes_eq_canon _ _ _ (cover4_A_1 _ _ _ _ _ _ _ _ _ _), View.read_writes_eq_canon _ _ _ (cover4_A_2 _ _ _ _ _ _ _ _ _ _)]
  unfold kernelRun4_A
  dsimp only
  sl_unfold_words
  rw [View.canon_cons_unit_zero (S := S1x32) hz, View.canon_cons_unit_zero (S := S1x32) hz,
    View.readCov_unit_zero (S := S1x32) _ hz, View.readCov_unit_zero (S := S1x32) _ hz]
  simp only [View.readAt_eq_ld, (hs4_0 _).read_unread, View.ld_unit_zero (S := S10000x32) hz, View.ld_unit_zero (S := S1x32) hz]

-- A later point leaves each row at what it held plus the tile's contribution.
theorem outs_succ (n : ℕ) (h : n + 1 < cfg4.N) :
    outsAt4 V c (n + 1) h = (k4_pay4 (tile V c ⟨n + 1, h⟩) (outsAt4 V c n (Nat.lt_of_succ_lt h)).1,
      k4_pay5 (tile V c ⟨n + 1, h⟩) (outsAt4 V c n (Nat.lt_of_succ_lt h)).2) := by
  have hN : cfg4.N = 5 := N_4
  rw [outsAt4_B V c ⟨n + 1, h⟩ (by dsimp only; omega)]
  unfold out4_B_1 out4_B_2
  rw [View.read_writes_eq_canon _ _ _ (cover4_B_1 _ _ _ _ _ _ _ _ _ _ _ _), View.read_writes_eq_canon _ _ _ (cover4_B_2 _ _ _ _ _ _ _ _ _ _ _ _)]
  unfold kernelRun4_B
  dsimp only
  sl_unfold_words
  rw [View.canon_unit_zero hz, View.canon_unit_zero hz]
  simp only [View.readAt_eq_ld, (hs4_0 _).read_unread, (hs4_1 _).read_unread, (hs4_2 _).read_unread,
    View.ld_unit_zero (S := S10000x32) hz, View.ld_unit_zero (S := S1x32) hz]
  rfl

theorem sum_final : (dat4 V c).arrAt 1 cfg4.N = (outsAt4 V c 4 t4_4.isLt).1 := by
  have hN : cfg4.N = 5 := N_4
  have hz' : (fun a => win4_1.index t4_4 a * main_v78_0.ty.shape.size a) = fun _ => 0 := funext fun a => by fin_cases a <;> decide
  refine (dat4 V c).arrAt_eq_of_cover 1 _ (fun t hf => ?_) fun j => ⟨t4_4, (flush4_1 t4_4).mpr rfl, ?_⟩
  · obtain rfl : t = t4_4 := Fin.ext (by have := (flush4_1 t).mp hf; have := t.isLt; show t.val = 4; omega)
    show (cfg4.win 1).cut (grid4.coords t4_4) ((dat4 V c).after 1 t4_4) = _
    rw [after4_1]
    exact (Memref.read_access_unit_zero (Elt F) main_v78_0 hz' (fun a => by rw [congrFun hz' a]; simp) _).symm
  · show j ∈ ((View.whole main_v78_0).slice (win4_1.rect t4_4)).set
    rw [View.set_slice_whole]
    exact View.mem_set_unit_zero hz' _ j

theorem sq_final : (dat4 V c).arrAt 2 cfg4.N = (outsAt4 V c 4 t4_4.isLt).2 := by
  have hN : cfg4.N = 5 := N_4
  have hz' : (fun a => win4_2.index t4_4 a * main_v78_1.ty.shape.size a) = fun _ => 0 := funext fun a => by fin_cases a <;> decide
  refine (dat4 V c).arrAt_eq_of_cover 2 _ (fun t hf => ?_) fun j => ⟨t4_4, (flush4_2 t4_4).mpr rfl, ?_⟩
  · obtain rfl : t = t4_4 := Fin.ext (by have := (flush4_2 t).mp hf; have := t.isLt; show t.val = 4; omega)
    show (cfg4.win 2).cut (grid4.coords t4_4) ((dat4 V c).after 2 t4_4) = _
    rw [after4_2]
    exact (Memref.read_access_unit_zero (Elt F) main_v78_1 hz' (fun a => by rw [congrFun hz' a]; simp) _).symm
  · show j ∈ ((View.whole main_v78_1).slice (win4_2.rect t4_4)).set
    rw [View.set_slice_whole]
    exact View.mem_set_unit_zero hz' _ j

end AnyFloat

section AtIdeal

variable (V : (c : Dev nD) → (b : Ref sig .tc) → Buf (Elt Ideal) ((c : Thread nD τ).loc b)) (c : Dev nD)

-- Entry (r, q) of the tile point t reads is entry (10000 t + r, q) of the entry array.
theorem tile_apply (x : FVec Ideal S50000x32 .f32) (hx : V c (Pipeline.arrRef spec4 0) = x) (t : Fin cfg4.N)
    (r : Fin 10000) (q : Fin 32) : (tile V c t : FVec Ideal S10000x32 .f32) (ix2 r q) = x (ix2 (rowAt t.val r.val) q) := by
  subst hx
  obtain ⟨e0, e1⟩ := (by decide +kernel : ∀ t : Fin grid4.N, win4_0.index t (0 : Fin 2) = t.val ∧ win4_0.index t (1 : Fin 2) = 0) t
  have hN : t.val < 5 := lt_of_lt_of_eq t.isLt (show cfg4.N = 5 from N_4)
  have hr : r.val < 10000 := r.isLt
  unfold tile iblk4
  rw [View.read_apply]
  show V c (Pipeline.arrRef spec4 0) _ = V c (Pipeline.arrRef spec4 0) _
  congr 1
  funext a
  apply Fin.ext
  match a with
  | ⟨0, _⟩ => show win4_0.index t 0 * 10000 + 1 * r.val = (t.val * 10000 + r.val) % 50000; rw [e0]; omega
  | ⟨1, _⟩ => show win4_0.index t 1 * 32 + 1 * q.val = q.val; rw [e1]; omega

-- The first row after a tile: the row before plus the tile's column sums.
theorem sum_step (y : FVec Ideal S10000x32 .f32) (acc : FVec Ideal S1x32 .f32) (u : Fin 1) (q : Fin 32) :
    k4_pay4 (F := Ideal) y acc (ix2 u q) = acc (ix2 u q) + ∑ r : Fin 10000, max (y (ix2 r q)) 0 :=
  addf_colsum_apply (k4_pay3 y) acc u q fun r => relu_apply y _ _

-- The second row after a tile: the row before plus the tile's column sums of squares.
theorem sq_step (y : FVec Ideal S10000x32 .f32) (acc : FVec Ideal S1x32 .f32) (u : Fin 1) (q : Fin 32) :
    k4_pay5 (F := Ideal) y acc (ix2 u q) = acc (ix2 u q) + ∑ r : Fin 10000, max (y (ix2 r q)) 0 * max (y (ix2 r q)) 0 :=
  addf_colsum_apply (mulf (k4_pay3 y) (k4_pay3 y)) acc u q fun r => congrArg₂ (· * ·) (relu_apply y _ _) (relu_apply y _ _)

end AtIdeal

end Cert.KernelIdeal.RegValue.Stats4

namespace Cert.KernelIdeal.RegValue

open Idealize.ShloMosaic.ValueIdx Cert.KernelIdeal Cert.KernelIdeal.Gen Cert.ColStats

theorem stats4_sum (V : (c : Dev nD) → (b : Ref sig .tc) → Buf (Elt Ideal) ((c : Thread nD τ).loc b)) (c : Dev nD)
    (x : FVec Ideal S50000x32 .f32) (hx : V c (Pipeline.arrRef spec4 0) = x) :
    (dat4 (F := Ideal) V c).arrAt 1 cfg4.N = Cert.GnnK.colSum32 (Cert.GnnK.reluM32 x) :=
  (Stats4.sum_final V c).trans (colsum_of_steps (fun n h => (outsAt4 V c n h).1) (fun a => max a 0) Stats4.sum_step
    (Stats4.tile_apply V c x hx) (fun h => congrArg Prod.fst (Stats4.outs_zero V c h))
    (fun n h => congrArg Prod.fst (Stats4.outs_succ V c n h)) (fun _ _ => Ideal.ofBits_zero_f32) t4_4.isLt)

theorem stats4_sumsq (V : (c : Dev nD) → (b : Ref sig .tc) → Buf (Elt Ideal) ((c : Thread nD τ).loc b)) (c : Dev nD)
    (x : FVec Ideal S50000x32 .f32) (hx : V c (Pipeline.arrRef spec4 0) = x) :
    (dat4 (F := Ideal) V c).arrAt 2 cfg4.N = Cert.GnnK.colSumSq32 (Cert.GnnK.reluM32 x) :=
  (Stats4.sq_final V c).trans (colsum_of_steps (fun n h => (outsAt4 V c n h).2) (fun a => max a 0 * max a 0) Stats4.sq_step
    (Stats4.tile_apply V c x hx) (fun h => congrArg Prod.snd (Stats4.outs_zero V c h))
    (fun n h => congrArg Prod.snd (Stats4.outs_succ V c n h)) (fun _ _ => Ideal.ofBits_zero_f32) t4_4.isLt)

end Cert.KernelIdeal.RegValue

end
-- ==== Proof.RegApply5.lean ====
import proofs.«424203_j57904749085258_1_alg».proof.Proof.Gen.KernelIdeal.Frame
import proofs.«424203_j57904749085258_1_alg».proof.Proof.SpecK32
import proofs.«424203_j57904749085258_1_alg».proof.Proof.BnTile

noncomputable section

open Idealize.ShloMosaic Idealize.ShloMosaic.TcCoe Idealize.ShloMosaic.ValueIdx

namespace Cert.KernelIdeal.RegValue

open Cert.KernelIdeal Cert.KernelIdeal.Gen Cert.BnTile

theorem apply5_index : ∀ t : Fin cfg5.N,
    win5_0.index t (0 : Fin 2) = t.val ∧ win5_0.index t (1 : Fin 2) = 0
    ∧ win5_5.index t (0 : Fin 2) = t.val ∧ win5_5.index t (1 : Fin 2) = 0
    ∧ ∀ a : Fin 2, win5_1.index t a = 0 ∧ win5_2.index t a = 0 ∧ win5_3.index t a = 0 ∧ win5_4.index t a = 0 :=
  (by decide +kernel : ∀ t : Fin grid5.N, _)

section
variable (t : Fin cfg5.N)

-- tile t sits at rows 10000 * t onwards of both arrays
theorem apply5_emb :
    EmbedsTile (m := 50000) (a := 10000) (b := 32) ((cfg5.win 0).blk t).view.emb t.val
    ∧ EmbedsTile (m := 50000) (a := 10000) (b := 32) ((cfg5.win 5).blk t).view.emb t.val :=
  have ⟨e0, e1, f0, f1, _⟩ := apply5_index t
  ⟨⟨fun y => (win5_0.rect_emb_val t y (0 : Fin 2)).trans (by rw [e0]; rfl), win5_0.rect_emb_val_of_index_zero t (1 : Fin 2) e1⟩,
    ⟨fun y => (win5_5.rect_emb_val t y (0 : Fin 2)).trans (by rw [f0]; rfl), win5_5.rect_emb_val_of_index_zero t (1 : Fin 2) f1⟩⟩

variable (V : (c : Dev nD) → (b : Ref sig .tc) → Buf (Elt Ideal) ((c : Thread nD τ).loc b)) (c : Dev nD)
  (x : FVec Ideal S50000x32 .f32) (mean var g bt : FVec Ideal S1x32 .f32)

-- the blocks at tile t are reads of the five input arrays
theorem apply5_read0 (h : V c (Pipeline.arrRef spec5 0) = x) (y) : iblk5 V c 0 t y = x (((cfg5.win 5).blk t).view.emb y) := by
  subst h; exact congrArg (V c (Pipeline.arrRef spec5 0)) ((apply5_emb t).1.ext (apply5_emb t).2 y)

theorem apply5_read1 (h : V c (Pipeline.arrRef spec5 1) = mean) (y) : iblk5 V c 1 t y = mean y := by
  subst h
  exact congrArg (V c (Pipeline.arrRef spec5 1)) (funext fun a => Fin.ext (win5_1.rect_emb_val_of_index_zero t a ((apply5_index t).2.2.2.2 a).1 y))

theorem apply5_read2 (h : V c (Pipeline.arrRef spec5 2) = var) (y) : iblk5 V c 2 t y = var y := by
  subst h
  exact congrArg (V c (Pipeline.arrRef spec5 2)) (funext fun a => Fin.ext (win5_2.rect_emb_val_of_index_zero t a ((apply5_index t).2.2.2.2 a).2.1 y))

theorem apply5_read3 (h : V c (Pipeline.arrRef spec5 3) = g) (y) : iblk5 V c 3 t y = g y := by
  subst h
  exact congrArg (V c (Pipeline.arrRef spec5 3)) (funext fun a => Fin.ext (win5_3.rect_emb_val_of_index_zero t a ((apply5_index t).2.2.2.2 a).2.2.1 y))

theorem apply5_read4 (h : V c (Pipeline.arrRef spec5 4) = bt) (y) : iblk5 V c 4 t y = bt y := by
  subst h
  exact congrArg (V c (Pipeline.arrRef spec5 4)) (funext fun a => Fin.ext (win5_4.rect_emb_val_of_index_zero t a ((apply5_index t).2.2.2.2 a).2.2.2 y))

theorem apply5_flushed (p0 : ∀ y, iblk5 V c 0 t y = x (((cfg5.win 5).blk t).view.emb y))
    (p1 : ∀ y, iblk5 V c 1 t y = mean y) (p2 : ∀ y, iblk5 V c 2 t y = var y)
    (p3 : ∀ y, iblk5 V c 3 t y = g y) (p4 : ∀ y, iblk5 V c 4 t y = bt y) :
    (dat5 V c).flushed 5 t = ((cfg5.win 5).blk t).view.read (Elt Ideal) (Cert.GnnK.applyM32 (Cert.GnnK.reluM32 x) mean var g bt) := by
  show (dat5 V c).after 5 t = _
  rw [after5_5, out5_5, View.canon_unit_zero zeros2, k5_pay1]
  simp only [View.ld_unit_zero (S := S10000x32) zeros2, View.ld_unit_zero (S := S1x32) zeros2, shapeCast_self]
  exact (apply5_emb t).2.pre_block _ p0 p1 p2 p3 p4 fun _ => rfl

end

theorem apply5_cover (i : S50000x32.Idx) : ∃ t : Fin cfg5.N, (cfg5.win 5).flush t = true ∧ i ∈ ((cfg5.win 5).blk t).view.set :=
  ⟨⟨(i 0).val / 10000, lt_of_lt_of_eq (Nat.div_lt_of_lt_mul (i 0).isLt) N_5.symm⟩, flush5_5 _,
    (apply5_emb _).2.mem (by decide) i rfl (View.emb_mem_set _)⟩

theorem apply5_value (V : (c : Dev nD) → (b : Ref sig .tc) → Buf (Elt Ideal) ((c : Thread nD τ).loc b)) (c : Dev nD)
    (x : FVec Ideal S50000x32 .f32) (mean var g bt : FVec Ideal S1x32 .f32)
    (hx : V c (Pipeline.arrRef spec5 0) = x) (h1 : V c (Pipeline.arrRef spec5 1) = mean)
    (h2 : V c (Pipeline.arrRef spec5 2) = var) (h3 : V c (Pipeline.arrRef spec5 3) = g)
    (h4 : V c (Pipeline.arrRef spec5 4) = bt) :
    (dat5 (F := Ideal) V c).arrAt 5 cfg5.N = Cert.GnnK.applyM32 (Cert.GnnK.reluM32 x) mean var g bt :=
  (dat5 V c).arrAt_eq_of_cover 5 _
    (fun t _ => apply5_flushed t V c x mean var g bt (apply5_read0 t V c x hx) (apply5_read1 t V c mean h1)
      (apply5_read2 t V c var h2) (apply5_read3 t V c g h3) (apply5_read4 t V c bt h4))
    apply5_cover

end Cert.KernelIdeal.RegValue

end
-- ==== Proof.BnBridge32.lean ====
import proofs.«424203_j57904749085258_1_alg».proof.Proof.SpecK32
import proofs.«424203_j57904749085258_1_alg».proof.Proof.SpecW32
import proofs.«424203_j57904749085258_1_alg».proof.Proof.LayerWidth

namespace Cert.GnnB

open Idealize.ShloMosaic

variable [Cert.KernelIdeal.Facts] [Cert.ReferenceIdeal.Facts]

theorem relu_bridge32 (x : FVec Ideal Cert.KernelIdeal.S50000x32 .f32) : Cert.GnnK.reluM32 x = Cert.Gnn.relu32 x :=
  relu_bridge _ x

theorem bn_bridge32 (v : FVec Ideal Cert.KernelIdeal.S50000x32 .f32) (hv : Cert.Gnn.AllReal v)
    (g bt : FVec Ideal Cert.KernelIdeal.S32 .f32) :
    Cert.GnnK.applyM32 v (Cert.GnnK.meanK32 (Cert.GnnK.colSum32 v))
        (Cert.GnnK.varK32 (Cert.GnnK.colSum32 v) (Cert.GnnK.colSumSq32 v)) (Cert.GnnK.rowK32 g) (Cert.GnnK.rowK32 bt)
      = Cert.Gnn.bn32 v g bt :=
  bn_bridge v hv g bt

theorem relu_real32 (x : FVec Ideal Cert.ReferenceIdeal.S50000x32 .f32) (hx : Cert.Gnn.AllReal x) :
    Cert.Gnn.AllReal (Cert.Gnn.relu32 x) :=
  relu_real _ x hx

theorem bn_real32 (v : FVec Ideal Cert.ReferenceIdeal.S50000x32 .f32) (hv : Cert.Gnn.AllReal v)
    (g bt : FVec Ideal Cert.ReferenceIdeal.S32 .f32) (hg : Cert.Gnn.AllReal g) (hb : Cert.Gnn.AllReal bt) :
    Cert.Gnn.AllReal (Cert.Gnn.bn32 v g bt) :=
  bn_real v hv g bt hg hb

end Cert.GnnB
-- ==== Proof.RealConv32.lean ====
import proofs.«424203_j57904749085258_1_alg».proof.Proof.SpecW32
import proofs.«424203_j57904749085258_1_alg».proof.Proof.LayerWidth

namespace Cert.Gnn

open Idealize.ShloMosaic Cert.ReferenceIdeal

variable [Cert.ReferenceIdeal.Facts]
open Cert.ReferenceIdeal.Facts₀ Cert.ReferenceIdeal.Facts

theorem conv32_real (row col : IVec S850000 32) (norm : FVec Ideal S850000 .f32) (mm : FVec Ideal S50000x32 .f32)
    (b : FVec Ideal S32 .f32) (hn : AllReal norm) (hm : AllReal mm) (hb : AllReal b) :
    AllReal (conv32 row col norm mm b) :=
  Cert.GnnB.conv_real (wrapIdx row) col norm mm b hn hm hb

end Cert.Gnn
-- ==== Proof.KLayer2.lean ====
import proofs.«424203_j57904749085258_1_alg».proof.Proof.KGraphAt
import proofs.«424203_j57904749085258_1_alg».proof.Proof.CarryMid
import proofs.«424203_j57904749085258_1_alg».proof.Proof.CarryArgsA
import proofs.«424203_j57904749085258_1_alg».proof.Proof.RegLin3
import proofs.«424203_j57904749085258_1_alg».proof.Proof.RegLin3Ref
import proofs.«424203_j57904749085258_1_alg».proof.Proof.RegStats4
import proofs.«424203_j57904749085258_1_alg».proof.Proof.RegApply5
import proofs.«424203_j57904749085258_1_alg».proof.Proof.BnBridge32
import proofs.«424203_j57904749085258_1_alg».proof.Proof.RealStages
import proofs.«424203_j57904749085258_1_alg».proof.Proof.RealConv32

noncomputable section

namespace Cert.KernelIdeal.KChain

open Idealize.ShloMosaic Idealize.ShloMosaic.TcCoe Idealize.SL.Sem Cert.KernelIdeal Cert.KernelIdeal.Gen
open Cert.KernelIdeal.CarryMid Cert.KernelIdeal.CarryArgsA

variable [Cert.ReferenceIdeal.Facts]
variable (m : (ℓ : Loc nD τ sig) → Buf (Elt Ideal) ℓ) (ρ : Dev nD → PrngReg)

theorem W10_conv (V : Valuation τ sig (Elt Ideal)) :
    StableHlo.after hostOps4 V (Proc.devRef .tc main_v77)
      = Cert.Gnn.conv32 (V (Proc.devRef .tc main_v3)) (V (Proc.devRef .tc main_v6)) (V (Proc.devRef .tc main_v33))
          (V (Proc.devRef .tc main_v61)) (V (Proc.devRef .tc main_arg9)) := by
  after_results_simp
  rfl

theorem W12_rows (V : Valuation τ sig (Elt Ideal)) :
    StableHlo.after hostOps5 V (Proc.devRef .tc main_v80) = Cert.GnnK.meanK32 (V (Proc.devRef .tc main_v78_0))
    ∧ StableHlo.after hostOps5 V (Proc.devRef .tc main_v84) = Cert.GnnK.varK32 (V (Proc.devRef .tc main_v78_0)) (V (Proc.devRef .tc main_v78_1))
    ∧ StableHlo.after hostOps5 V (Proc.devRef .tc main_v85) = Cert.GnnK.rowK32 (V (Proc.devRef .tc main_arg10))
    ∧ StableHlo.after hostOps5 V (Proc.devRef .tc main_v86) = Cert.GnnK.rowK32 (V (Proc.devRef .tc main_arg11)) := by
  refine ⟨?_, ?_, ?_, ?_⟩ <;>
    (after_results_simp
     rfl)

-- Layer 2's value on the features H: linear map, graph convolution, max with 0, batch normalisation.
abbrev out2 (c : Dev nD) (H : FVec Ideal S50000x16 .f32) :=
  Cert.Gnn.bn32 (Cert.Gnn.relu32 (Cert.Gnn.conv32 (Cert.Gnn.rowOf (eiOf m c)) (Cert.Gnn.colOf (eiOf m c)) (Cert.Gnn.normOf (eiOf m c) (ewOf m c))
      (Cert.Gnn.lin2 H (m ((c : Thread nD τ).loc main_arg8))) (m ((c : Thread nD τ).loc main_arg9))))
      (m ((c : Thread nD τ).loc main_arg10)) (m ((c : Thread nD τ).loc main_arg11))

theorem layer2 (c : Dev nD) (H : FVec Ideal S50000x16 .f32) (hH : W8 m ρ c (Proc.devRef .tc main_v60) = H)
    (hHr : Cert.Gnn.AllReal H) (hew : Cert.Gnn.AllReal (ewOf m c))
    (hW : Cert.Gnn.AllReal (m ((c : Thread nD τ).loc main_arg8))) (hb : Cert.Gnn.AllReal (m ((c : Thread nD τ).loc main_arg9)))
    (hg : Cert.Gnn.AllReal (m ((c : Thread nD τ).loc main_arg10))) (hbt : Cert.Gnn.AllReal (m ((c : Thread nD τ).loc main_arg11))) :
    W13 m ρ c (Proc.devRef .tc main_v87) = out2 m c H ∧ Cert.Gnn.AllReal (out2 m c H) := by
  have hM : W9 m ρ c (Proc.devRef .tc main_v61) = Cert.Gnn.lin2 H (m ((c : Thread nD τ).loc main_arg8)) :=
    (W9_arr m ρ c 2).trans
      ((Cert.KernelIdeal.RegValue.lin3_value (V8 m ρ) c _ _ hH (carry_arg8_0_8 m ρ c)).trans
        (Cert.KernelIdeal.RegValue.lin2_eq_linM3 _ _).symm)
  obtain ⟨hR, hC, hN⟩ := graph_at9 m ρ c
  have hX := W10_conv (W9 m ρ c)
  rw [hR, hC, hN, hM, carry_arg9_0_9 m ρ c] at hX
  have hXr := Cert.Gnn.conv32_real (Cert.Gnn.rowOf (eiOf m c)) (Cert.Gnn.colOf (eiOf m c)) _ _ _ (Cert.Gnn.normOf_real (eiOf m c) _ hew)
    (Cert.Gnn.lin2_real _ _ hHr hW) hb
  have hS := (W11_arr m ρ c 1).trans (Cert.KernelIdeal.RegValue.stats4_sum (V10 m ρ) c _ hX)
  have hQ := (W11_arr m ρ c 2).trans (Cert.KernelIdeal.RegValue.stats4_sumsq (V10 m ρ) c _ hX)
  have hr := W12_rows (W11 m ρ c)
  have hY := (W13_arr m ρ c 5).trans
    (Cert.KernelIdeal.RegValue.apply5_value (V12 m ρ) c _ _ _ _ _ ((carry_v77_10_12 m ρ c).trans hX)
      (hr.1.trans (congrArg Cert.GnnK.meanK32 hS)) (hr.2.1.trans (congrArg₂ Cert.GnnK.varK32 hS hQ))
      (hr.2.2.1.trans (congrArg Cert.GnnK.rowK32 (carry_arg10_0_11 m ρ c))) (hr.2.2.2.trans (congrArg Cert.GnnK.rowK32 (carry_arg11_0_11 m ρ c))))
  have hRr := Cert.GnnB.relu_real32 _ hXr
  refine ⟨?_, Cert.GnnB.bn_real32 _ hRr _ _ hg hbt⟩
  rw [hY, Cert.GnnB.relu_bridge32]
  exact Cert.GnnB.bn_bridge32 _ hRr _ _

end Cert.KernelIdeal.KChain

end
-- ==== Proof.CarryArgsB.lean ====
import proofs.«424203_j57904749085258_1_alg».proof.Proof.Carry

namespace Cert.KernelIdeal.CarryArgsB

open Idealize.ShloMosaic Idealize.ShloMosaic.TcCoe Idealize.SL.Sem Cert.KernelIdeal Cert.KernelIdeal.Gen Cert.KernelIdeal.Carry

variable {F : FTy → Type} [FloatOps F]
variable (m : (ℓ : Loc nD τ sig) → Buf (Elt F) ℓ) (ρ : Dev nD → PrngReg)

theorem carry_arg12_0_13 (c : Dev nD) : W13 m ρ c (Proc.devRef .tc main_arg12) = m ((c : Thread nD τ).loc main_arg12) :=
  Eq.trans step13 (Eq.trans step12 (Eq.trans step11 (Eq.trans step10 (Eq.trans step9 (Eq.trans step8 (Eq.trans step7 (Eq.trans step6 (Eq.trans step5 (Eq.trans step4 (Eq.trans step3 (Eq.trans step2 step1)))))))))))

theorem carry_arg13_0_14 (c : Dev nD) : W14 m ρ c (Proc.devRef .tc main_arg13) = m ((c : Thread nD τ).loc main_arg13) :=
  Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1))))))))))))

theorem carry_arg14_0_16 (c : Dev nD) : W16 m ρ c (Proc.devRef .tc main_arg14) = m ((c : Thread nD τ).loc main_arg14) :=
  Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1))))))))))))))

theorem carry_arg15_0_16 (c : Dev nD) : W16 m ρ c (Proc.devRef .tc main_arg15) = m ((c : Thread nD τ).loc main_arg15) :=
  Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1))))))))))))))

theorem carry_arg16_0_18 (c : Dev nD) : W18 m ρ c (Proc.devRef .tc main_arg16) = m ((c : Thread nD τ).loc main_arg16) :=
  Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1))))))))))))))))

theorem carry_arg17_0_19 (c : Dev nD) : W19 m ρ c (Proc.devRef .tc main_arg17) = m ((c : Thread nD τ).loc main_arg17) :=
  Eq.trans step19 (Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1)))))))))))))))))

theorem carry_arg18_0_21 (c : Dev nD) : W21 m ρ c (Proc.devRef .tc main_arg18) = m ((c : Thread nD τ).loc main_arg18) :=
  Eq.trans step21 (Eq.trans step20 (Eq.trans step19 (Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1)))))))))))))))))))

theorem carry_arg19_0_21 (c : Dev nD) : W21 m ρ c (Proc.devRef .tc main_arg19) = m ((c : Thread nD τ).loc main_arg19) :=
  Eq.trans step21 (Eq.trans step20 (Eq.trans step19 (Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1)))))))))))))))))))

end Cert.KernelIdeal.CarryArgsB
-- ==== Proof.RegLin6.lean ====
import proofs.«424203_j57904749085258_1_alg».proof.Proof.Gen.KernelIdeal.Frame
import proofs.«424203_j57904749085258_1_alg».proof.Proof.LinM

noncomputable section

namespace Cert.KernelIdeal.RegValue

open Cert.KernelIdeal Cert.KernelIdeal.Gen Idealize.ShloMosaic Idealize.ShloMosaic.TcCoe Idealize.SL.Sem
open Idealize.ShloMosaic.Pipeline (Dat)

-- At point t the tiles of h and of the output are tile t, and W's tile is all of W.
theorem idx_lin6 : RowTiles win6_0.index win6_1.index win6_2.index := by decide +kernel

-- The product of tile t of h by W is tile t of h · W.
theorem tile_lin6 (t : Fin cfg6.N) (x : FVec Ideal S50000x32 .f32) (w : FVec Ideal S32x64 .f32)
    (xb : FVec Ideal S10000x32 .f32) (wb : FVec Ideal S32x64 .f32)
    (hxb : ∀ j, xb j = x (((cfg6.win 0).blk t).view.emb j)) (hwb : ∀ j, wb j = w (((cfg6.win 1).blk t).view.emb j)) :
    (cfg6.win 2).cut (grid6.coords t) (out6_2 xb wb) = ((cfg6.win 2).blk t).view.read (Elt Ideal) (linM6 x w) := by
  unfold out6_2
  rw [View.canon_unit_zero zeros2]
  simp only [k6_pay1, shapeCast_self, View.ld_unit_zero (S := S10000x32) zeros2, View.ld_unit_zero (S := S32x64) zeros2]
  have key := matmul_rowTile (m := 10000) none x w xb wb ((cfg6.win 0).blk t).view.emb ((cfg6.win 1).blk t).view.emb
    ((cfg6.win 2).blk t).view.emb idx_lin6 t hxb hwb (fun _ _ => rfl) (fun _ _ => rfl) (fun _ _ => rfl)
  exact key

variable (V : (c : Dev nD) → (b : Ref sig .tc) → Buf (Elt Ideal) ((c : Thread nD τ).loc b))

-- Tile t of the output is tile t of h · W, and the tiles cover the rows: the output is h · W.
theorem lin6_value (c : Dev nD) (x : FVec Ideal S50000x32 .f32) (w : FVec Ideal S32x64 .f32)
    (hx : V c (Pipeline.arrRef spec6 0) = x) (hw : V c (Pipeline.arrRef spec6 1) = w) :
    (dat6 (F := Ideal) V c).arrAt 2 cfg6.N = linM6 x w := by
  refine (dat6 (F := Ideal) V c).arrAt_eq_of_cover 2 _ (fun t _ => ?_) fun (i : S50000x64.Idx) => ?_
  · show (cfg6.win 2).cut (grid6.coords t) ((dat6 (F := Ideal) V c).after 2 t) = _
    rw [after6_2]
    exact tile_lin6 t x w _ _ (fun _ => congrFun hx _) (fun _ => congrFun hw _)
  · obtain ⟨t, ht⟩ := exists_rowTile (m := 10000) idx_lin6 (by decide) i
    refine ⟨t, flush6_2 t, ?_⟩
    show i ∈ ((View.whole main_v88).slice (win6_2.rect t)).set
    rw [View.set_slice_whole, Rect.mem_set_unit]
    exact ht

end Cert.KernelIdeal.RegValue

end
-- ==== Proof.RegLin6Ref.lean ====
import proofs.«424203_j57904749085258_1_alg».proof.Proof.Spec
import proofs.«424203_j57904749085258_1_alg».proof.Proof.LinM

noncomputable section

namespace Cert.KernelIdeal.RegValue

open Cert.KernelIdeal Idealize.ShloMosaic

variable [Cert.ReferenceIdeal.Facts]

-- The reference's dense transform of layer 3 is a plain product of h and W, so it is h · W entry by entry.
theorem lin3_eq_linM6 (x : FVec Ideal S50000x32 .f32) (w : FVec Ideal S32x64 .f32) :
    Cert.Gnn.lin3 x w = linM6 x w :=
  dotGeneral_eq_linM none x w

end Cert.KernelIdeal.RegValue

end
-- ==== Proof.SpecK64.lean ====
import proofs.«424203_j57904749085258_1_alg».proof.KernelIdeal
import Idealize.ShloMosaic.PureOps.Ideal
import Idealize.ShloMosaic.Lib.ValueIdx

noncomputable section

open scoped BigOperators

namespace Cert.GnnK

open Idealize.ShloMosaic Idealize.ShloMosaic.ValueIdx Cert.KernelIdeal

variable [Cert.KernelIdeal.Facts]
open Cert.KernelIdeal.Facts₀ Cert.KernelIdeal.Facts

def reluM64 (x : FVec Ideal S50000x64 .f32) : FVec Ideal S50000x64 .f32 := fun i => max (x i) 0

def colSum64 (v : FVec Ideal S50000x64 .f32) : FVec Ideal S1x64 .f32 :=
  fun j => ∑ i : Fin 50000, v (ix2 i (j 1) : S50000x64.Idx)

def colSumSq64 (v : FVec Ideal S50000x64 .f32) : FVec Ideal S1x64 .f32 :=
  fun j => ∑ i : Fin 50000, v (ix2 i (j 1) : S50000x64.Idx) * v (ix2 i (j 1) : S50000x64.Idx)

def meanK64 (s : FVec Ideal S1x64 .f32) : FVec Ideal S1x64 .f32 :=
  Host.divf s (broadcastInDim S1x64 ![] bcast_S_S1x64 (constant (F := Ideal) S_ .f32 0x47435000#32))

def varK64 (s q : FVec Ideal S1x64 .f32) : FVec Ideal S1x64 .f32 :=
  subf (meanK64 q) (mulf (meanK64 s) (meanK64 s))

def rowK64 (g : FVec Ideal S64 .f32) : FVec Ideal S1x64 .f32 := shapeCast S1x64 g shapeCasts_S64_S1x64

def applyM64 (v : FVec Ideal S50000x64 .f32) (mean var g bt : FVec Ideal S1x64 .f32) : FVec Ideal S50000x64 .f32 :=
  fun i => g (ix2 (0 : Fin 1) (i 1) : S1x64.Idx) * (v i - mean (ix2 (0 : Fin 1) (i 1) : S1x64.Idx))
      * Ideal.rsqrt (var (ix2 (0 : Fin 1) (i 1) : S1x64.Idx) + Ideal.ofBits .f32 0x3727C5AC#32)
    + bt (ix2 (0 : Fin 1) (i 1) : S1x64.Idx)

end Cert.GnnK

end
-- ==== Proof.RegStats7.lean ====
import proofs.«424203_j57904749085258_1_alg».proof.Proof.Gen.KernelIdeal.Frame
import proofs.«424203_j57904749085258_1_alg».proof.Proof.SpecK64
import proofs.«424203_j57904749085258_1_alg».proof.Proof.ColStats

noncomputable section

open Idealize.ShloMosaic Idealize.ShloMosaic.TcCoe Idealize.SL.Sem

namespace Cert.KernelIdeal.RegValue.Stats7

open Idealize.ShloMosaic.ValueIdx Cert.KernelIdeal Cert.KernelIdeal.Gen Cert.ColStats

section AnyFloat

variable {F : FTy → Type} [FloatOps F]
variable (V : (c : Dev nD) → (b : Ref sig .tc) → Buf (Elt F) ((c : Thread nD τ).loc b)) (c : Dev nD)

-- The tile of the entry array that point t reads.
abbrev tile (t : Fin cfg7.N) : Vec F S10000x64 .f32 := iblk7 V c 0 t

-- The first point sets each row to zero and leaves it at zero plus the tile's contribution.
theorem outs_zero (h : 0 < cfg7.N) :
    outsAt7 V c 0 h = (k7_pay4 (tile V c ⟨0, h⟩) (k7_pay1 (F := F)), k7_pay5 (tile V c ⟨0, h⟩) (k7_pay2 (F := F))) := by
  rw [outsAt7_A V c ⟨0, h⟩ rfl]
  unfold out7_A_1 out7_A_2
  rw [View.read_writes_eq_canon _ _ _ (cover7_A_1 _ _ _ _ _ _ _ _ _ _), View.read_writes_eq_canon _ _ _ (cover7_A_2 _ _ _ _ _ _ _ _ _ _)]
  unfold kernelRun7_A
  dsimp only
  sl_unfold_words
  rw [View.canon_cons_unit_zero (S := S1x64) hz, View.canon_cons_unit_zero (S := S1x64) hz,
    View.readCov_unit_zero (S := S1x64) _ hz, View.readCov_unit_zero (S := S1x64) _ hz]
  simp only [View.readAt_eq_ld, (hs7_0 _).read_unread, View.ld_unit_zero (S := S10000x64) hz, View.ld_unit_zero (S := S1x64) hz]

-- A later point leaves each row at what it held plus the tile's contribution.
theorem outs_succ (n : ℕ) (h : n + 1 < cfg7.N) :
    outsAt7 V c (n + 1) h = (k7_pay4 (tile V c ⟨n + 1, h⟩) (outsAt7 V c n (Nat.lt_of_succ_lt h)).1,
      k7_pay5 (tile V c ⟨n + 1, h⟩) (outsAt7 V c n (Nat.lt_of_succ_lt h)).2) := by
  have hN : cfg7.N = 5 := N_7
  rw [outsAt7_B V c ⟨n + 1, h⟩ (by dsimp only; omega)]
  unfold out7_B_1 out7_B_2
  rw [View.read_writes_eq_canon _ _ _ (cover7_B_1 _ _ _ _ _ _ _ _ _ _ _ _), View.read_writes_eq_canon _ _ _ (cover7_B_2 _ _ _ _ _ _ _ _ _ _ _ _)]
  unfold kernelRun7_B
  dsimp only
  sl_unfold_words
  rw [View.canon_unit_zero hz, View.canon_unit_zero hz]
  simp only [View.readAt_eq_ld, (hs7_0 _).read_unread, (hs7_1 _).read_unread, (hs7_2 _).read_unread,
    View.ld_unit_zero (S := S10000x64) hz, View.ld_unit_zero (S := S1x64) hz]
  rfl

theorem sum_final : (dat7 V c).arrAt 1 cfg7.N = (outsAt7 V c 4 t7_4.isLt).1 := by
  have hN : cfg7.N = 5 := N_7
  have hz' : (fun a => win7_1.index t7_4 a * main_v105_0.ty.shape.size a) = fun _ => 0 := funext fun a => by fin_cases a <;> decide
  refine (dat7 V c).arrAt_eq_of_cover 1 _ (fun t hf => ?_) fun j => ⟨t7_4, (flush7_1 t7_4).mpr rfl, ?_⟩
  · obtain rfl : t = t7_4 := Fin.ext (by have := (flush7_1 t).mp hf; have := t.isLt; show t.val = 4; omega)
    show (cfg7.win 1).cut (grid7.coords t7_4) ((dat7 V c).after 1 t7_4) = _
    rw [after7_1]
    exact (Memref.read_access_unit_zero (Elt F) main_v105_0 hz' (fun a => by rw [congrFun hz' a]; simp) _).symm
  · show j ∈ ((View.whole main_v105_0).slice (win7_1.rect t7_4)).set
    rw [View.set_slice_whole]
    exact View.mem_set_unit_zero hz' _ j

theorem sq_final : (dat7 V c).arrAt 2 cfg7.N = (outsAt7 V c 4 t7_4.isLt).2 := by
  have hN : cfg7.N = 5 := N_7
  have hz' : (fun a => win7_2.index t7_4 a * main_v105_1.ty.shape.size a) = fun _ => 0 := funext fun a => by fin_cases a <;> decide
  refine (dat7 V c).arrAt_eq_of_cover 2 _ (fun t hf => ?_) fun j => ⟨t7_4, (flush7_2 t7_4).mpr rfl, ?_⟩
  · obtain rfl : t = t7_4 := Fin.ext (by have := (flush7_2 t).mp hf; have := t.isLt; show t.val = 4; omega)
    show (cfg7.win 2).cut (grid7.coords t7_4) ((dat7 V c).after 2 t7_4) = _
    rw [after7_2]
    exact (Memref.read_access_unit_zero (Elt F) main_v105_1 hz' (fun a => by rw [congrFun hz' a]; simp) _).symm
  · show j ∈ ((View.whole main_v105_1).slice (win7_2.rect t7_4)).set
    rw [View.set_slice_whole]
    exact View.mem_set_unit_zero hz' _ j

end AnyFloat

section AtIdeal

variable (V : (c : Dev nD) → (b : Ref sig .tc) → Buf (Elt Ideal) ((c : Thread nD τ).loc b)) (c : Dev nD)

-- Entry (r, q) of the tile point t reads is entry (10000 t + r, q) of the entry array.
theorem tile_apply (x : FVec Ideal S50000x64 .f32) (hx : V c (Pipeline.arrRef spec7 0) = x) (t : Fin cfg7.N)
    (r : Fin 10000) (q : Fin 64) : (tile V c t : FVec Ideal S10000x64 .f32) (ix2 r q) = x (ix2 (rowAt t.val r.val) q) := by
  subst hx
  obtain ⟨e0, e1⟩ := (by decide +kernel : ∀ t : Fin grid7.N, win7_0.index t (0 : Fin 2) = t.val ∧ win7_0.index t (1 : Fin 2) = 0) t
  have hN : t.val < 5 := lt_of_lt_of_eq t.isLt (show cfg7.N = 5 from N_7)
  have hr : r.val < 10000 := r.isLt
  unfold tile iblk7
  rw [View.read_apply]
  show V c (Pipeline.arrRef spec7 0) _ = V c (Pipeline.arrRef spec7 0) _
  congr 1
  funext a
  apply Fin.ext
  match a with
  | ⟨0, _⟩ => show win7_0.index t 0 * 10000 + 1 * r.val = (t.val * 10000 + r.val) % 50000; rw [e0]; omega
  | ⟨1, _⟩ => show win7_0.index t 1 * 64 + 1 * q.val = q.val; rw [e1]; omega

-- The first row after a tile: the row before plus the tile's column sums.
theorem sum_step (y : FVec Ideal S10000x64 .f32) (acc : FVec Ideal S1x64 .f32) (u : Fin 1) (q : Fin 64) :
    k7_pay4 (F := Ideal) y acc (ix2 u q) = acc (ix2 u q) + ∑ r : Fin 10000, max (y (ix2 r q)) 0 :=
  addf_colsum_apply (k7_pay3 y) acc u q fun r => relu_apply y _ _

-- The second row after a tile: the row before plus the tile's column sums of squares.
theorem sq_step (y : FVec Ideal S10000x64 .f32) (acc : FVec Ideal S1x64 .f32) (u : Fin 1) (q : Fin 64) :
    k7_pay5 (F := Ideal) y acc (ix2 u q) = acc (ix2 u q) + ∑ r : Fin 10000, max (y (ix2 r q)) 0 * max (y (ix2 r q)) 0 :=
  addf_colsum_apply (mulf (k7_pay3 y) (k7_pay3 y)) acc u q fun r => congrArg₂ (· * ·) (relu_apply y _ _) (relu_apply y _ _)

end AtIdeal

end Cert.KernelIdeal.RegValue.Stats7

namespace Cert.KernelIdeal.RegValue

open Idealize.ShloMosaic.ValueIdx Cert.KernelIdeal Cert.KernelIdeal.Gen Cert.ColStats

theorem stats7_sum (V : (c : Dev nD) → (b : Ref sig .tc) → Buf (Elt Ideal) ((c : Thread nD τ).loc b)) (c : Dev nD)
    (x : FVec Ideal S50000x64 .f32) (hx : V c (Pipeline.arrRef spec7 0) = x) :
    (dat7 (F := Ideal) V c).arrAt 1 cfg7.N = Cert.GnnK.colSum64 (Cert.GnnK.reluM64 x) :=
  (Stats7.sum_final V c).trans (colsum_of_steps (fun n h => (outsAt7 V c n h).1) (fun a => max a 0) Stats7.sum_step
    (Stats7.tile_apply V c x hx) (fun h => congrArg Prod.fst (Stats7.outs_zero V c h))
    (fun n h => congrArg Prod.fst (Stats7.outs_succ V c n h)) (fun _ _ => Ideal.ofBits_zero_f32) t7_4.isLt)

theorem stats7_sumsq (V : (c : Dev nD) → (b : Ref sig .tc) → Buf (Elt Ideal) ((c : Thread nD τ).loc b)) (c : Dev nD)
    (x : FVec Ideal S50000x64 .f32) (hx : V c (Pipeline.arrRef spec7 0) = x) :
    (dat7 (F := Ideal) V c).arrAt 2 cfg7.N = Cert.GnnK.colSumSq64 (Cert.GnnK.reluM64 x) :=
  (Stats7.sq_final V c).trans (colsum_of_steps (fun n h => (outsAt7 V c n h).2) (fun a => max a 0 * max a 0) Stats7.sq_step
    (Stats7.tile_apply V c x hx) (fun h => congrArg Prod.snd (Stats7.outs_zero V c h))
    (fun n h => congrArg Prod.snd (Stats7.outs_succ V c n h)) (fun _ _ => Ideal.ofBits_zero_f32) t7_4.isLt)

end Cert.KernelIdeal.RegValue

end
-- ==== Proof.RegApply8.lean ====
import proofs.«424203_j57904749085258_1_alg».proof.Proof.Gen.KernelIdeal.Frame
import proofs.«424203_j57904749085258_1_alg».proof.Proof.SpecK64
import proofs.«424203_j57904749085258_1_alg».proof.Proof.BnTile

noncomputable section

open Idealize.ShloMosaic Idealize.ShloMosaic.TcCoe Idealize.ShloMosaic.ValueIdx

namespace Cert.KernelIdeal.RegValue

open Cert.KernelIdeal Cert.KernelIdeal.Gen Cert.BnTile

theorem apply8_index : ∀ t : Fin cfg8.N,
    win8_0.index t (0 : Fin 2) = t.val ∧ win8_0.index t (1 : Fin 2) = 0
    ∧ win8_5.index t (0 : Fin 2) = t.val ∧ win8_5.index t (1 : Fin 2) = 0
    ∧ ∀ a : Fin 2, win8_1.index t a = 0 ∧ win8_2.index t a = 0 ∧ win8_3.index t a = 0 ∧ win8_4.index t a = 0 :=
  (by decide +kernel : ∀ t : Fin grid8.N, _)

section
variable (t : Fin cfg8.N)

-- tile t sits at rows 10000 * t onwards of both arrays
theorem apply8_emb :
    EmbedsTile (m := 50000) (a := 10000) (b := 64) ((cfg8.win 0).blk t).view.emb t.val
    ∧ EmbedsTile (m := 50000) (a := 10000) (b := 64) ((cfg8.win 5).blk t).view.emb t.val :=
  have ⟨e0, e1, f0, f1, _⟩ := apply8_index t
  ⟨⟨fun y => (win8_0.rect_emb_val t y (0 : Fin 2)).trans (by rw [e0]; rfl), win8_0.rect_emb_val_of_index_zero t (1 : Fin 2) e1⟩,
    ⟨fun y => (win8_5.rect_emb_val t y (0 : Fin 2)).trans (by rw [f0]; rfl), win8_5.rect_emb_val_of_index_zero t (1 : Fin 2) f1⟩⟩

variable (V : (c : Dev nD) → (b : Ref sig .tc) → Buf (Elt Ideal) ((c : Thread nD τ).loc b)) (c : Dev nD)
  (x : FVec Ideal S50000x64 .f32) (mean var g bt : FVec Ideal S1x64 .f32)

-- the blocks at tile t are reads of the five input arrays
theorem apply8_read0 (h : V c (Pipeline.arrRef spec8 0) = x) (y) : iblk8 V c 0 t y = x (((cfg8.win 5).blk t).view.emb y) := by
  subst h; exact congrArg (V c (Pipeline.arrRef spec8 0)) ((apply8_emb t).1.ext (apply8_emb t).2 y)

theorem apply8_read1 (h : V c (Pipeline.arrRef spec8 1) = mean) (y) : iblk8 V c 1 t y = mean y := by
  subst h
  exact congrArg (V c (Pipeline.arrRef spec8 1)) (funext fun a => Fin.ext (win8_1.rect_emb_val_of_index_zero t a ((apply8_index t).2.2.2.2 a).1 y))

theorem apply8_read2 (h : V c (Pipeline.arrRef spec8 2) = var) (y) : iblk8 V c 2 t y = var y := by
  subst h
  exact congrArg (V c (Pipeline.arrRef spec8 2)) (funext fun a => Fin.ext (win8_2.rect_emb_val_of_index_zero t a ((apply8_index t).2.2.2.2 a).2.1 y))

theorem apply8_read3 (h : V c (Pipeline.arrRef spec8 3) = g) (y) : iblk8 V c 3 t y = g y := by
  subst h
  exact congrArg (V c (Pipeline.arrRef spec8 3)) (funext fun a => Fin.ext (win8_3.rect_emb_val_of_index_zero t a ((apply8_index t).2.2.2.2 a).2.2.1 y))

theorem apply8_read4 (h : V c (Pipeline.arrRef spec8 4) = bt) (y) : iblk8 V c 4 t y = bt y := by
  subst h
  exact congrArg (V c (Pipeline.arrRef spec8 4)) (funext fun a => Fin.ext (win8_4.rect_emb_val_of_index_zero t a ((apply8_index t).2.2.2.2 a).2.2.2 y))

theorem apply8_flushed (p0 : ∀ y, iblk8 V c 0 t y = x (((cfg8.win 5).blk t).view.emb y))
    (p1 : ∀ y, iblk8 V c 1 t y = mean y) (p2 : ∀ y, iblk8 V c 2 t y = var y)
    (p3 : ∀ y, iblk8 V c 3 t y = g y) (p4 : ∀ y, iblk8 V c 4 t y = bt y) :
    (dat8 V c).flushed 5 t = ((cfg8.win 5).blk t).view.read (Elt Ideal) (Cert.GnnK.applyM64 (Cert.GnnK.reluM64 x) mean var g bt) := by
  show (dat8 V c).after 5 t = _
  rw [after8_5, out8_5, View.canon_unit_zero zeros2, k8_pay1]
  simp only [View.ld_unit_zero (S := S10000x64) zeros2, View.ld_unit_zero (S := S1x64) zeros2, shapeCast_self]
  exact (apply8_emb t).2.pre_block _ p0 p1 p2 p3 p4 fun _ => rfl

end

theorem apply8_cover (i : S50000x64.Idx) : ∃ t : Fin cfg8.N, (cfg8.win 5).flush t = true ∧ i ∈ ((cfg8.win 5).blk t).view.set :=
  ⟨⟨(i 0).val / 10000, lt_of_lt_of_eq (Nat.div_lt_of_lt_mul (i 0).isLt) N_8.symm⟩, flush8_5 _,
    (apply8_emb _).2.mem (by decide) i rfl (View.emb_mem_set _)⟩

theorem apply8_value (V : (c : Dev nD) → (b : Ref sig .tc) → Buf (Elt Ideal) ((c : Thread nD τ).loc b)) (c : Dev nD)
    (x : FVec Ideal S50000x64 .f32) (mean var g bt : FVec Ideal S1x64 .f32)
    (hx : V c (Pipeline.arrRef spec8 0) = x) (h1 : V c (Pipeline.arrRef spec8 1) = mean)
    (h2 : V c (Pipeline.arrRef spec8 2) = var) (h3 : V c (Pipeline.arrRef spec8 3) = g)
    (h4 : V c (Pipeline.arrRef spec8 4) = bt) :
    (dat8 (F := Ideal) V c).arrAt 5 cfg8.N = Cert.GnnK.applyM64 (Cert.GnnK.reluM64 x) mean var g bt :=
  (dat8 V c).arrAt_eq_of_cover 5 _
    (fun t _ => apply8_flushed t V c x mean var g bt (apply8_read0 t V c x hx) (apply8_read1 t V c mean h1)
      (apply8_read2 t V c var h2) (apply8_read3 t V c g h3) (apply8_read4 t V c bt h4))
    apply8_cover

end Cert.KernelIdeal.RegValue

end
-- ==== Proof.BnBridge64.lean ====
import proofs.«424203_j57904749085258_1_alg».proof.Proof.SpecK64
import proofs.«424203_j57904749085258_1_alg».proof.Proof.SpecW64
import proofs.«424203_j57904749085258_1_alg».proof.Proof.LayerWidth

namespace Cert.GnnB

open Idealize.ShloMosaic

variable [Cert.KernelIdeal.Facts] [Cert.ReferenceIdeal.Facts]

theorem relu_bridge64 (x : FVec Ideal Cert.KernelIdeal.S50000x64 .f32) : Cert.GnnK.reluM64 x = Cert.Gnn.relu64 x :=
  relu_bridge _ x

theorem bn_bridge64 (v : FVec Ideal Cert.KernelIdeal.S50000x64 .f32) (hv : Cert.Gnn.AllReal v)
    (g bt : FVec Ideal Cert.KernelIdeal.S64 .f32) :
    Cert.GnnK.applyM64 v (Cert.GnnK.meanK64 (Cert.GnnK.colSum64 v))
        (Cert.GnnK.varK64 (Cert.GnnK.colSum64 v) (Cert.GnnK.colSumSq64 v)) (Cert.GnnK.rowK64 g) (Cert.GnnK.rowK64 bt)
      = Cert.Gnn.bn64 v g bt :=
  bn_bridge v hv g bt

theorem relu_real64 (x : FVec Ideal Cert.ReferenceIdeal.S50000x64 .f32) (hx : Cert.Gnn.AllReal x) :
    Cert.Gnn.AllReal (Cert.Gnn.relu64 x) :=
  relu_real _ x hx

theorem bn_real64 (v : FVec Ideal Cert.ReferenceIdeal.S50000x64 .f32) (hv : Cert.Gnn.AllReal v)
    (g bt : FVec Ideal Cert.ReferenceIdeal.S64 .f32) (hg : Cert.Gnn.AllReal g) (hb : Cert.Gnn.AllReal bt) :
    Cert.Gnn.AllReal (Cert.Gnn.bn64 v g bt) :=
  bn_real v hv g bt hg hb

end Cert.GnnB
-- ==== Proof.RealConv64.lean ====
import proofs.«424203_j57904749085258_1_alg».proof.Proof.SpecW64
import proofs.«424203_j57904749085258_1_alg».proof.Proof.LayerWidth

namespace Cert.Gnn

open Idealize.ShloMosaic Cert.ReferenceIdeal

variable [Cert.ReferenceIdeal.Facts]
open Cert.ReferenceIdeal.Facts₀ Cert.ReferenceIdeal.Facts

theorem conv64_real (row col : IVec S850000 32) (norm : FVec Ideal S850000 .f32) (mm : FVec Ideal S50000x64 .f32)
    (b : FVec Ideal S64 .f32) (hn : AllReal norm) (hm : AllReal mm) (hb : AllReal b) :
    AllReal (conv64 row col norm mm b) :=
  Cert.GnnB.conv_real (wrapIdx row) col norm mm b hn hm hb

end Cert.Gnn
-- ==== Proof.KLayer3.lean ====
import proofs.«424203_j57904749085258_1_alg».proof.Proof.KGraphAt
import proofs.«424203_j57904749085258_1_alg».proof.Proof.CarryMid
import proofs.«424203_j57904749085258_1_alg».proof.Proof.CarryArgsB
import proofs.«424203_j57904749085258_1_alg».proof.Proof.RegLin6
import proofs.«424203_j57904749085258_1_alg».proof.Proof.RegLin6Ref
import proofs.«424203_j57904749085258_1_alg».proof.Proof.RegStats7
import proofs.«424203_j57904749085258_1_alg».proof.Proof.RegApply8
import proofs.«424203_j57904749085258_1_alg».proof.Proof.BnBridge64
import proofs.«424203_j57904749085258_1_alg».proof.Proof.RealStages
import proofs.«424203_j57904749085258_1_alg».proof.Proof.RealConv64

noncomputable section

namespace Cert.KernelIdeal.KChain

open Idealize.ShloMosaic Idealize.ShloMosaic.TcCoe Idealize.SL.Sem Cert.KernelIdeal Cert.KernelIdeal.Gen
open Cert.KernelIdeal.CarryMid Cert.KernelIdeal.CarryArgsB

variable [Cert.ReferenceIdeal.Facts]
variable (m : (ℓ : Loc nD τ sig) → Buf (Elt Ideal) ℓ) (ρ : Dev nD → PrngReg)

theorem W15_conv (V : Valuation τ sig (Elt Ideal)) :
    StableHlo.after hostOps7 V (Proc.devRef .tc main_v104)
      = Cert.Gnn.conv64 (V (Proc.devRef .tc main_v3)) (V (Proc.devRef .tc main_v6)) (V (Proc.devRef .tc main_v33))
          (V (Proc.devRef .tc main_v88)) (V (Proc.devRef .tc main_arg13)) := by
  after_results_simp
  rfl

theorem W17_rows (V : Valuation τ sig (Elt Ideal)) :
    StableHlo.after hostOps8 V (Proc.devRef .tc main_v107) = Cert.GnnK.meanK64 (V (Proc.devRef .tc main_v105_0))
    ∧ StableHlo.after hostOps8 V (Proc.devRef .tc main_v111) = Cert.GnnK.varK64 (V (Proc.devRef .tc main_v105_0)) (V (Proc.devRef .tc main_v105_1))
    ∧ StableHlo.after hostOps8 V (Proc.devRef .tc main_v112) = Cert.GnnK.rowK64 (V (Proc.devRef .tc main_arg14))
    ∧ StableHlo.after hostOps8 V (Proc.devRef .tc main_v113) = Cert.GnnK.rowK64 (V (Proc.devRef .tc main_arg15)) := by
  refine ⟨?_, ?_, ?_, ?_⟩ <;>
    (after_results_simp
     rfl)

-- Layer 3's value on the features H: linear map, graph convolution, max with 0, batch normalisation.
abbrev out3 (c : Dev nD) (H : FVec Ideal S50000x32 .f32) :=
  Cert.Gnn.bn64 (Cert.Gnn.relu64 (Cert.Gnn.conv64 (Cert.Gnn.rowOf (eiOf m c)) (Cert.Gnn.colOf (eiOf m c)) (Cert.Gnn.normOf (eiOf m c) (ewOf m c))
      (Cert.Gnn.lin3 H (m ((c : Thread nD τ).loc main_arg12))) (m ((c : Thread nD τ).loc main_arg13))))
      (m ((c : Thread nD τ).loc main_arg14)) (m ((c : Thread nD τ).loc main_arg15))

theorem layer3 (c : Dev nD) (H : FVec Ideal S50000x32 .f32) (hH : W13 m ρ c (Proc.devRef .tc main_v87) = H)
    (hHr : Cert.Gnn.AllReal H) (hew : Cert.Gnn.AllReal (ewOf m c))
    (hW : Cert.Gnn.AllReal (m ((c : Thread nD τ).loc main_arg12))) (hb : Cert.Gnn.AllReal (m ((c : Thread nD τ).loc main_arg13)))
    (hg : Cert.Gnn.AllReal (m ((c : Thread nD τ).loc main_arg14))) (hbt : Cert.Gnn.AllReal (m ((c : Thread nD τ).loc main_arg15))) :
    W18 m ρ c (Proc.devRef .tc main_v114) = out3 m c H ∧ Cert.Gnn.AllReal (out3 m c H) := by
  have hM : W14 m ρ c (Proc.devRef .tc main_v88) = Cert.Gnn.lin3 H (m ((c : Thread nD τ).loc main_arg12)) :=
    (W14_arr m ρ c 2).trans
      ((Cert.KernelIdeal.RegValue.lin6_value (V13 m ρ) c _ _ hH (carry_arg12_0_13 m ρ c)).trans
        (Cert.KernelIdeal.RegValue.lin3_eq_linM6 _ _).symm)
  obtain ⟨hR, hC, hN⟩ := graph_at14 m ρ c
  have hX := W15_conv (W14 m ρ c)
  rw [hR, hC, hN, hM, carry_arg13_0_14 m ρ c] at hX
  have hXr := Cert.Gnn.conv64_real (Cert.Gnn.rowOf (eiOf m c)) (Cert.Gnn.colOf (eiOf m c)) _ _ _ (Cert.Gnn.normOf_real (eiOf m c) _ hew)
    (Cert.Gnn.lin3_real _ _ hHr hW) hb
  have hS := (W16_arr m ρ c 1).trans (Cert.KernelIdeal.RegValue.stats7_sum (V15 m ρ) c _ hX)
  have hQ := (W16_arr m ρ c 2).trans (Cert.KernelIdeal.RegValue.stats7_sumsq (V15 m ρ) c _ hX)
  have hr := W17_rows (W16 m ρ c)
  have hY := (W18_arr m ρ c 5).trans
    (Cert.KernelIdeal.RegValue.apply8_value (V17 m ρ) c _ _ _ _ _ ((carry_v104_15_17 m ρ c).trans hX)
      (hr.1.trans (congrArg Cert.GnnK.meanK64 hS)) (hr.2.1.trans (congrArg₂ Cert.GnnK.varK64 hS hQ))
      (hr.2.2.1.trans (congrArg Cert.GnnK.rowK64 (carry_arg14_0_16 m ρ c))) (hr.2.2.2.trans (congrArg Cert.GnnK.rowK64 (carry_arg15_0_16 m ρ c))))
  have hRr := Cert.GnnB.relu_real64 _ hXr
  refine ⟨?_, Cert.GnnB.bn_real64 _ hRr _ _ hg hbt⟩
  rw [hY, Cert.GnnB.relu_bridge64]
  exact Cert.GnnB.bn_bridge64 _ hRr _ _

end Cert.KernelIdeal.KChain

end
-- ==== Proof.RegLin9.lean ====
import proofs.«424203_j57904749085258_1_alg».proof.Proof.Gen.KernelIdeal.Frame
import proofs.«424203_j57904749085258_1_alg».proof.Proof.LinM

noncomputable section

namespace Cert.KernelIdeal.RegValue

open Cert.KernelIdeal Cert.KernelIdeal.Gen Idealize.ShloMosaic Idealize.ShloMosaic.TcCoe Idealize.SL.Sem
open Idealize.ShloMosaic.Pipeline (Dat)

-- At point t the tiles of h and of the output are tile t, and W's tile is all of W.
theorem idx_lin9 : RowTiles win9_0.index win9_1.index win9_2.index := by decide +kernel

-- The product of tile t of h by W is tile t of h · W.
theorem tile_lin9 (t : Fin cfg9.N) (x : FVec Ideal S50000x64 .f32) (w : FVec Ideal S64x64 .f32)
    (xb : FVec Ideal S10000x64 .f32) (wb : FVec Ideal S64x64 .f32)
    (hxb : ∀ j, xb j = x (((cfg9.win 0).blk t).view.emb j)) (hwb : ∀ j, wb j = w (((cfg9.win 1).blk t).view.emb j)) :
    (cfg9.win 2).cut (grid9.coords t) (out9_2 xb wb) = ((cfg9.win 2).blk t).view.read (Elt Ideal) (linM9 x w) := by
  unfold out9_2
  rw [View.canon_unit_zero zeros2]
  simp only [k9_pay1, shapeCast_self, View.ld_unit_zero (S := S10000x64) zeros2, View.ld_unit_zero (S := S64x64) zeros2]
  have key := matmul_rowTile (m := 10000) none x w xb wb ((cfg9.win 0).blk t).view.emb ((cfg9.win 1).blk t).view.emb
    ((cfg9.win 2).blk t).view.emb idx_lin9 t hxb hwb (fun _ _ => rfl) (fun _ _ => rfl) (fun _ _ => rfl)
  exact key

variable (V : (c : Dev nD) → (b : Ref sig .tc) → Buf (Elt Ideal) ((c : Thread nD τ).loc b))

-- Tile t of the output is tile t of h · W, and the tiles cover the rows: the output is h · W.
theorem lin9_value (c : Dev nD) (x : FVec Ideal S50000x64 .f32) (w : FVec Ideal S64x64 .f32)
    (hx : V c (Pipeline.arrRef spec9 0) = x) (hw : V c (Pipeline.arrRef spec9 1) = w) :
    (dat9 (F := Ideal) V c).arrAt 2 cfg9.N = linM9 x w := by
  refine (dat9 (F := Ideal) V c).arrAt_eq_of_cover 2 _ (fun t _ => ?_) fun (i : S50000x64.Idx) => ?_
  · show (cfg9.win 2).cut (grid9.coords t) ((dat9 (F := Ideal) V c).after 2 t) = _
    rw [after9_2]
    exact tile_lin9 t x w _ _ (fun _ => congrFun hx _) (fun _ => congrFun hw _)
  · obtain ⟨t, ht⟩ := exists_rowTile (m := 10000) idx_lin9 (by decide) i
    refine ⟨t, flush9_2 t, ?_⟩
    show i ∈ ((View.whole main_v115).slice (win9_2.rect t)).set
    rw [View.set_slice_whole, Rect.mem_set_unit]
    exact ht

end Cert.KernelIdeal.RegValue

end
-- ==== Proof.RegLin9Ref.lean ====
import proofs.«424203_j57904749085258_1_alg».proof.Proof.Spec
import proofs.«424203_j57904749085258_1_alg».proof.Proof.LinM

noncomputable section

namespace Cert.KernelIdeal.RegValue

open Cert.KernelIdeal Idealize.ShloMosaic

variable [Cert.ReferenceIdeal.Facts]

-- The reference's dense transform of layer 4 is a plain product of h and W, so it is h · W entry by entry.
theorem lin4_eq_linM9 (x : FVec Ideal S50000x64 .f32) (w : FVec Ideal S64x64 .f32) :
    Cert.Gnn.lin4 x w = linM9 x w :=
  dotGeneral_eq_linM none x w

end Cert.KernelIdeal.RegValue

end
-- ==== Proof.RegStats10.lean ====
import proofs.«424203_j57904749085258_1_alg».proof.Proof.Gen.KernelIdeal.Frame
import proofs.«424203_j57904749085258_1_alg».proof.Proof.SpecK64
import proofs.«424203_j57904749085258_1_alg».proof.Proof.ColStats

noncomputable section

open Idealize.ShloMosaic Idealize.ShloMosaic.TcCoe Idealize.SL.Sem

namespace Cert.KernelIdeal.RegValue.Stats10

open Idealize.ShloMosaic.ValueIdx Cert.KernelIdeal Cert.KernelIdeal.Gen Cert.ColStats

section AnyFloat

variable {F : FTy → Type} [FloatOps F]
variable (V : (c : Dev nD) → (b : Ref sig .tc) → Buf (Elt F) ((c : Thread nD τ).loc b)) (c : Dev nD)

-- The tile of the entry array that point t reads.
abbrev tile (t : Fin cfg10.N) : Vec F S10000x64 .f32 := iblk10 V c 0 t

-- The first point sets each row to zero and leaves it at zero plus the tile's contribution.
theorem outs_zero (h : 0 < cfg10.N) :
    outsAt10 V c 0 h = (k10_pay4 (tile V c ⟨0, h⟩) (k10_pay1 (F := F)), k10_pay5 (tile V c ⟨0, h⟩) (k10_pay2 (F := F))) := by
  rw [outsAt10_A V c ⟨0, h⟩ rfl]
  unfold out10_A_1 out10_A_2
  rw [View.read_writes_eq_canon _ _ _ (cover10_A_1 _ _ _ _ _ _ _ _ _ _), View.read_writes_eq_canon _ _ _ (cover10_A_2 _ _ _ _ _ _ _ _ _ _)]
  unfold kernelRun10_A
  dsimp only
  sl_unfold_words
  rw [View.canon_cons_unit_zero (S := S1x64) hz, View.canon_cons_unit_zero (S := S1x64) hz,
    View.readCov_unit_zero (S := S1x64) _ hz, View.readCov_unit_zero (S := S1x64) _ hz]
  simp only [View.readAt_eq_ld, (hs10_0 _).read_unread, View.ld_unit_zero (S := S10000x64) hz, View.ld_unit_zero (S := S1x64) hz]

-- A later point leaves each row at what it held plus the tile's contribution.
theorem outs_succ (n : ℕ) (h : n + 1 < cfg10.N) :
    outsAt10 V c (n + 1) h = (k10_pay4 (tile V c ⟨n + 1, h⟩) (outsAt10 V c n (Nat.lt_of_succ_lt h)).1,
      k10_pay5 (tile V c ⟨n + 1, h⟩) (outsAt10 V c n (Nat.lt_of_succ_lt h)).2) := by
  have hN : cfg10.N = 5 := N_10
  rw [outsAt10_B V c ⟨n + 1, h⟩ (by dsimp only; omega)]
  unfold out10_B_1 out10_B_2
  rw [View.read_writes_eq_canon _ _ _ (cover10_B_1 _ _ _ _ _ _ _ _ _ _ _ _), View.read_writes_eq_canon _ _ _ (cover10_B_2 _ _ _ _ _ _ _ _ _ _ _ _)]
  unfold kernelRun10_B
  dsimp only
  sl_unfold_words
  rw [View.canon_unit_zero hz, View.canon_unit_zero hz]
  simp only [View.readAt_eq_ld, (hs10_0 _).read_unread, (hs10_1 _).read_unread, (hs10_2 _).read_unread,
    View.ld_unit_zero (S := S10000x64) hz, View.ld_unit_zero (S := S1x64) hz]
  rfl

theorem sum_final : (dat10 V c).arrAt 1 cfg10.N = (outsAt10 V c 4 t10_4.isLt).1 := by
  have hN : cfg10.N = 5 := N_10
  have hz' : (fun a => win10_1.index t10_4 a * main_v132_0.ty.shape.size a) = fun _ => 0 := funext fun a => by fin_cases a <;> decide
  refine (dat10 V c).arrAt_eq_of_cover 1 _ (fun t hf => ?_) fun j => ⟨t10_4, (flush10_1 t10_4).mpr rfl, ?_⟩
  · obtain rfl : t = t10_4 := Fin.ext (by have := (flush10_1 t).mp hf; have := t.isLt; show t.val = 4; omega)
    show (cfg10.win 1).cut (grid10.coords t10_4) ((dat10 V c).after 1 t10_4) = _
    rw [after10_1]
    exact (Memref.read_access_unit_zero (Elt F) main_v132_0 hz' (fun a => by rw [congrFun hz' a]; simp) _).symm
  · show j ∈ ((View.whole main_v132_0).slice (win10_1.rect t10_4)).set
    rw [View.set_slice_whole]
    exact View.mem_set_unit_zero hz' _ j

theorem sq_final : (dat10 V c).arrAt 2 cfg10.N = (outsAt10 V c 4 t10_4.isLt).2 := by
  have hN : cfg10.N = 5 := N_10
  have hz' : (fun a => win10_2.index t10_4 a * main_v132_1.ty.shape.size a) = fun _ => 0 := funext fun a => by fin_cases a <;> decide
  refine (dat10 V c).arrAt_eq_of_cover 2 _ (fun t hf => ?_) fun j => ⟨t10_4, (flush10_2 t10_4).mpr rfl, ?_⟩
  · obtain rfl : t = t10_4 := Fin.ext (by have := (flush10_2 t).mp hf; have := t.isLt; show t.val = 4; omega)
    show (cfg10.win 2).cut (grid10.coords t10_4) ((dat10 V c).after 2 t10_4) = _
    rw [after10_2]
    exact (Memref.read_access_unit_zero (Elt F) main_v132_1 hz' (fun a => by rw [congrFun hz' a]; simp) _).symm
  · show j ∈ ((View.whole main_v132_1).slice (win10_2.rect t10_4)).set
    rw [View.set_slice_whole]
    exact View.mem_set_unit_zero hz' _ j

end AnyFloat

section AtIdeal

variable (V : (c : Dev nD) → (b : Ref sig .tc) → Buf (Elt Ideal) ((c : Thread nD τ).loc b)) (c : Dev nD)

-- Entry (r, q) of the tile point t reads is entry (10000 t + r, q) of the entry array.
theorem tile_apply (x : FVec Ideal S50000x64 .f32) (hx : V c (Pipeline.arrRef spec10 0) = x) (t : Fin cfg10.N)
    (r : Fin 10000) (q : Fin 64) : (tile V c t : FVec Ideal S10000x64 .f32) (ix2 r q) = x (ix2 (rowAt t.val r.val) q) := by
  subst hx
  obtain ⟨e0, e1⟩ := (by decide +kernel : ∀ t : Fin grid10.N, win10_0.index t (0 : Fin 2) = t.val ∧ win10_0.index t (1 : Fin 2) = 0) t
  have hN : t.val < 5 := lt_of_lt_of_eq t.isLt (show cfg10.N = 5 from N_10)
  have hr : r.val < 10000 := r.isLt
  unfold tile iblk10
  rw [View.read_apply]
  show V c (Pipeline.arrRef spec10 0) _ = V c (Pipeline.arrRef spec10 0) _
  congr 1
  funext a
  apply Fin.ext
  match a with
  | ⟨0, _⟩ => show win10_0.index t 0 * 10000 + 1 * r.val = (t.val * 10000 + r.val) % 50000; rw [e0]; omega
  | ⟨1, _⟩ => show win10_0.index t 1 * 64 + 1 * q.val = q.val; rw [e1]; omega

-- The first row after a tile: the row before plus the tile's column sums.
theorem sum_step (y : FVec Ideal S10000x64 .f32) (acc : FVec Ideal S1x64 .f32) (u : Fin 1) (q : Fin 64) :
    k10_pay4 (F := Ideal) y acc (ix2 u q) = acc (ix2 u q) + ∑ r : Fin 10000, y (ix2 r q) :=
  addf_colsum_apply (k10_pay3 y) acc u q fun r => congrFun (shapeCast_self y _) _

-- The second row after a tile: the row before plus the tile's column sums of squares.
theorem sq_step (y : FVec Ideal S10000x64 .f32) (acc : FVec Ideal S1x64 .f32) (u : Fin 1) (q : Fin 64) :
    k10_pay5 (F := Ideal) y acc (ix2 u q) = acc (ix2 u q) + ∑ r : Fin 10000, y (ix2 r q) * y (ix2 r q) :=
  addf_colsum_apply (mulf (k10_pay3 y) (k10_pay3 y)) acc u q fun r => congrArg₂ (· * ·) (congrFun (shapeCast_self y _) _) (congrFun (shapeCast_self y _) _)

end AtIdeal

end Cert.KernelIdeal.RegValue.Stats10

namespace Cert.KernelIdeal.RegValue

open Idealize.ShloMosaic.ValueIdx Cert.KernelIdeal Cert.KernelIdeal.Gen Cert.ColStats

theorem stats10_sum (V : (c : Dev nD) → (b : Ref sig .tc) → Buf (Elt Ideal) ((c : Thread nD τ).loc b)) (c : Dev nD)
    (x : FVec Ideal S50000x64 .f32) (hx : V c (Pipeline.arrRef spec10 0) = x) :
    (dat10 (F := Ideal) V c).arrAt 1 cfg10.N = Cert.GnnK.colSum64 x :=
  (Stats10.sum_final V c).trans (colsum_of_steps (fun n h => (outsAt10 V c n h).1) (fun a => a) Stats10.sum_step
    (Stats10.tile_apply V c x hx) (fun h => congrArg Prod.fst (Stats10.outs_zero V c h))
    (fun n h => congrArg Prod.fst (Stats10.outs_succ V c n h)) (fun _ _ => Ideal.ofBits_zero_f32) t10_4.isLt)

theorem stats10_sumsq (V : (c : Dev nD) → (b : Ref sig .tc) → Buf (Elt Ideal) ((c : Thread nD τ).loc b)) (c : Dev nD)
    (x : FVec Ideal S50000x64 .f32) (hx : V c (Pipeline.arrRef spec10 0) = x) :
    (dat10 (F := Ideal) V c).arrAt 2 cfg10.N = Cert.GnnK.colSumSq64 x :=
  (Stats10.sq_final V c).trans (colsum_of_steps (fun n h => (outsAt10 V c n h).2) (fun a => a * a) Stats10.sq_step
    (Stats10.tile_apply V c x hx) (fun h => congrArg Prod.snd (Stats10.outs_zero V c h))
    (fun n h => congrArg Prod.snd (Stats10.outs_succ V c n h)) (fun _ _ => Ideal.ofBits_zero_f32) t10_4.isLt)

end Cert.KernelIdeal.RegValue

end
-- ==== Proof.RegApply11.lean ====
import proofs.«424203_j57904749085258_1_alg».proof.Proof.Gen.KernelIdeal.Frame
import proofs.«424203_j57904749085258_1_alg».proof.Proof.SpecK64
import proofs.«424203_j57904749085258_1_alg».proof.Proof.BnTile

noncomputable section

open Idealize.ShloMosaic Idealize.ShloMosaic.TcCoe Idealize.ShloMosaic.ValueIdx

namespace Cert.KernelIdeal.RegValue

open Cert.KernelIdeal Cert.KernelIdeal.Gen Cert.BnTile

theorem apply11_index : ∀ t : Fin cfg11.N,
    win11_0.index t (0 : Fin 2) = t.val ∧ win11_0.index t (1 : Fin 2) = 0
    ∧ win11_5.index t (0 : Fin 2) = t.val ∧ win11_5.index t (1 : Fin 2) = 0
    ∧ ∀ a : Fin 2, win11_1.index t a = 0 ∧ win11_2.index t a = 0 ∧ win11_3.index t a = 0 ∧ win11_4.index t a = 0 :=
  (by decide +kernel : ∀ t : Fin grid11.N, _)

section
variable (t : Fin cfg11.N)

-- tile t sits at rows 10000 * t onwards of both arrays
theorem apply11_emb :
    EmbedsTile (m := 50000) (a := 10000) (b := 64) ((cfg11.win 0).blk t).view.emb t.val
    ∧ EmbedsTile (m := 50000) (a := 10000) (b := 64) ((cfg11.win 5).blk t).view.emb t.val :=
  have ⟨e0, e1, f0, f1, _⟩ := apply11_index t
  ⟨⟨fun y => (win11_0.rect_emb_val t y (0 : Fin 2)).trans (by rw [e0]; rfl), win11_0.rect_emb_val_of_index_zero t (1 : Fin 2) e1⟩,
    ⟨fun y => (win11_5.rect_emb_val t y (0 : Fin 2)).trans (by rw [f0]; rfl), win11_5.rect_emb_val_of_index_zero t (1 : Fin 2) f1⟩⟩

variable (V : (c : Dev nD) → (b : Ref sig .tc) → Buf (Elt Ideal) ((c : Thread nD τ).loc b)) (c : Dev nD)
  (x : FVec Ideal S50000x64 .f32) (mean var g bt : FVec Ideal S1x64 .f32)

-- the blocks at tile t are reads of the five input arrays
theorem apply11_read0 (h : V c (Pipeline.arrRef spec11 0) = x) (y) : iblk11 V c 0 t y = x (((cfg11.win 5).blk t).view.emb y) := by
  subst h; exact congrArg (V c (Pipeline.arrRef spec11 0)) ((apply11_emb t).1.ext (apply11_emb t).2 y)

theorem apply11_read1 (h : V c (Pipeline.arrRef spec11 1) = mean) (y) : iblk11 V c 1 t y = mean y := by
  subst h
  exact congrArg (V c (Pipeline.arrRef spec11 1)) (funext fun a => Fin.ext (win11_1.rect_emb_val_of_index_zero t a ((apply11_index t).2.2.2.2 a).1 y))

theorem apply11_read2 (h : V c (Pipeline.arrRef spec11 2) = var) (y) : iblk11 V c 2 t y = var y := by
  subst h
  exact congrArg (V c (Pipeline.arrRef spec11 2)) (funext fun a => Fin.ext (win11_2.rect_emb_val_of_index_zero t a ((apply11_index t).2.2.2.2 a).2.1 y))

theorem apply11_read3 (h : V c (Pipeline.arrRef spec11 3) = g) (y) : iblk11 V c 3 t y = g y := by
  subst h
  exact congrArg (V c (Pipeline.arrRef spec11 3)) (funext fun a => Fin.ext (win11_3.rect_emb_val_of_index_zero t a ((apply11_index t).2.2.2.2 a).2.2.1 y))

theorem apply11_read4 (h : V c (Pipeline.arrRef spec11 4) = bt) (y) : iblk11 V c 4 t y = bt y := by
  subst h
  exact congrArg (V c (Pipeline.arrRef spec11 4)) (funext fun a => Fin.ext (win11_4.rect_emb_val_of_index_zero t a ((apply11_index t).2.2.2.2 a).2.2.2 y))

theorem apply11_flushed (p0 : ∀ y, iblk11 V c 0 t y = x (((cfg11.win 5).blk t).view.emb y))
    (p1 : ∀ y, iblk11 V c 1 t y = mean y) (p2 : ∀ y, iblk11 V c 2 t y = var y)
    (p3 : ∀ y, iblk11 V c 3 t y = g y) (p4 : ∀ y, iblk11 V c 4 t y = bt y) :
    (dat11 V c).flushed 5 t = ((cfg11.win 5).blk t).view.read (Elt Ideal) (Cert.GnnK.reluM64 (Cert.GnnK.applyM64 x mean var g bt)) := by
  show (dat11 V c).after 5 t = _
  rw [after11_5, out11_5, View.canon_unit_zero zeros2, k11_pay1]
  simp only [View.ld_unit_zero (S := S10000x64) zeros2, View.ld_unit_zero (S := S1x64) zeros2, shapeCast_self]
  exact (apply11_emb t).2.post_block _ p0 p1 p2 p3 p4 fun _ => rfl

end

theorem apply11_cover (i : S50000x64.Idx) : ∃ t : Fin cfg11.N, (cfg11.win 5).flush t = true ∧ i ∈ ((cfg11.win 5).blk t).view.set :=
  ⟨⟨(i 0).val / 10000, lt_of_lt_of_eq (Nat.div_lt_of_lt_mul (i 0).isLt) N_11.symm⟩, flush11_5 _,
    (apply11_emb _).2.mem (by decide) i rfl (View.emb_mem_set _)⟩

theorem apply11_value (V : (c : Dev nD) → (b : Ref sig .tc) → Buf (Elt Ideal) ((c : Thread nD τ).loc b)) (c : Dev nD)
    (x : FVec Ideal S50000x64 .f32) (mean var g bt : FVec Ideal S1x64 .f32)
    (hx : V c (Pipeline.arrRef spec11 0) = x) (h1 : V c (Pipeline.arrRef spec11 1) = mean)
    (h2 : V c (Pipeline.arrRef spec11 2) = var) (h3 : V c (Pipeline.arrRef spec11 3) = g)
    (h4 : V c (Pipeline.arrRef spec11 4) = bt) :
    (dat11 (F := Ideal) V c).arrAt 5 cfg11.N = Cert.GnnK.reluM64 (Cert.GnnK.applyM64 x mean var g bt) :=
  (dat11 V c).arrAt_eq_of_cover 5 _
    (fun t _ => apply11_flushed t V c x mean var g bt (apply11_read0 t V c x hx) (apply11_read1 t V c mean h1)
      (apply11_read2 t V c var h2) (apply11_read3 t V c g h3) (apply11_read4 t V c bt h4))
    apply11_cover

end Cert.KernelIdeal.RegValue

end
-- ==== Proof.KLayer4.lean ====
import proofs.«424203_j57904749085258_1_alg».proof.Proof.KGraphAt
import proofs.«424203_j57904749085258_1_alg».proof.Proof.CarryMid
import proofs.«424203_j57904749085258_1_alg».proof.Proof.CarryArgsB
import proofs.«424203_j57904749085258_1_alg».proof.Proof.RegLin9
import proofs.«424203_j57904749085258_1_alg».proof.Proof.RegLin9Ref
import proofs.«424203_j57904749085258_1_alg».proof.Proof.RegStats10
import proofs.«424203_j57904749085258_1_alg».proof.Proof.RegApply11
import proofs.«424203_j57904749085258_1_alg».proof.Proof.BnBridge64
import proofs.«424203_j57904749085258_1_alg».proof.Proof.RealStages
import proofs.«424203_j57904749085258_1_alg».proof.Proof.RealConv64

noncomputable section

namespace Cert.KernelIdeal.KChain

open Idealize.ShloMosaic Idealize.ShloMosaic.TcCoe Idealize.SL.Sem Cert.KernelIdeal Cert.KernelIdeal.Gen
open Cert.KernelIdeal.CarryMid Cert.KernelIdeal.CarryArgsB

variable [Cert.ReferenceIdeal.Facts]
variable (m : (ℓ : Loc nD τ sig) → Buf (Elt Ideal) ℓ) (ρ : Dev nD → PrngReg)

theorem W20_conv (V : Valuation τ sig (Elt Ideal)) :
    StableHlo.after hostOps10 V (Proc.devRef .tc main_v131)
      = Cert.Gnn.conv64 (V (Proc.devRef .tc main_v3)) (V (Proc.devRef .tc main_v6)) (V (Proc.devRef .tc main_v33))
          (V (Proc.devRef .tc main_v115)) (V (Proc.devRef .tc main_arg17)) := by
  after_results_simp
  rfl

theorem W22_rows (V : Valuation τ sig (Elt Ideal)) :
    StableHlo.after hostOps11 V (Proc.devRef .tc main_v134) = Cert.GnnK.meanK64 (V (Proc.devRef .tc main_v132_0))
    ∧ StableHlo.after hostOps11 V (Proc.devRef .tc main_v138) = Cert.GnnK.varK64 (V (Proc.devRef .tc main_v132_0)) (V (Proc.devRef .tc main_v132_1))
    ∧ StableHlo.after hostOps11 V (Proc.devRef .tc main_v139) = Cert.GnnK.rowK64 (V (Proc.devRef .tc main_arg18))
    ∧ StableHlo.after hostOps11 V (Proc.devRef .tc main_v140) = Cert.GnnK.rowK64 (V (Proc.devRef .tc main_arg19)) := by
  refine ⟨?_, ?_, ?_, ?_⟩ <;>
    (after_results_simp
     rfl)

-- Layer 4's value on the features H: linear map, graph convolution, batch normalisation, max with 0.
abbrev out4 (c : Dev nD) (H : FVec Ideal S50000x64 .f32) :=
  Cert.Gnn.relu64 (Cert.Gnn.bn64 (Cert.Gnn.conv64 (Cert.Gnn.rowOf (eiOf m c)) (Cert.Gnn.colOf (eiOf m c)) (Cert.Gnn.normOf (eiOf m c) (ewOf m c))
      (Cert.Gnn.lin4 H (m ((c : Thread nD τ).loc main_arg16))) (m ((c : Thread nD τ).loc main_arg17)))
      (m ((c : Thread nD τ).loc main_arg18)) (m ((c : Thread nD τ).loc main_arg19)))

theorem layer4 (c : Dev nD) (H : FVec Ideal S50000x64 .f32) (hH : W18 m ρ c (Proc.devRef .tc main_v114) = H)
    (hHr : Cert.Gnn.AllReal H) (hew : Cert.Gnn.AllReal (ewOf m c))
    (hW : Cert.Gnn.AllReal (m ((c : Thread nD τ).loc main_arg16))) (hb : Cert.Gnn.AllReal (m ((c : Thread nD τ).loc main_arg17)))
    (hg : Cert.Gnn.AllReal (m ((c : Thread nD τ).loc main_arg18))) (hbt : Cert.Gnn.AllReal (m ((c : Thread nD τ).loc main_arg19))) :
    W23 m ρ c (Proc.devRef .tc main_v141) = out4 m c H ∧ Cert.Gnn.AllReal (out4 m c H) := by
  have hM : W19 m ρ c (Proc.devRef .tc main_v115) = Cert.Gnn.lin4 H (m ((c : Thread nD τ).loc main_arg16)) :=
    (W19_arr m ρ c 2).trans
      ((Cert.KernelIdeal.RegValue.lin9_value (V18 m ρ) c _ _ hH (carry_arg16_0_18 m ρ c)).trans
        (Cert.KernelIdeal.RegValue.lin4_eq_linM9 _ _).symm)
  obtain ⟨hR, hC, hN⟩ := graph_at19 m ρ c
  have hX := W20_conv (W19 m ρ c)
  rw [hR, hC, hN, hM, carry_arg17_0_19 m ρ c] at hX
  have hXr := Cert.Gnn.conv64_real (Cert.Gnn.rowOf (eiOf m c)) (Cert.Gnn.colOf (eiOf m c)) _ _ _ (Cert.Gnn.normOf_real (eiOf m c) _ hew)
    (Cert.Gnn.lin4_real _ _ hHr hW) hb
  have hS := (W21_arr m ρ c 1).trans (Cert.KernelIdeal.RegValue.stats10_sum (V20 m ρ) c _ hX)
  have hQ := (W21_arr m ρ c 2).trans (Cert.KernelIdeal.RegValue.stats10_sumsq (V20 m ρ) c _ hX)
  have hr := W22_rows (W21 m ρ c)
  have hY := (W23_arr m ρ c 5).trans
    (Cert.KernelIdeal.RegValue.apply11_value (V22 m ρ) c _ _ _ _ _ ((carry_v131_20_22 m ρ c).trans hX)
      (hr.1.trans (congrArg Cert.GnnK.meanK64 hS)) (hr.2.1.trans (congrArg₂ Cert.GnnK.varK64 hS hQ))
      (hr.2.2.1.trans (congrArg Cert.GnnK.rowK64 (carry_arg18_0_21 m ρ c))) (hr.2.2.2.trans (congrArg Cert.GnnK.rowK64 (carry_arg19_0_21 m ρ c))))
  refine ⟨?_, Cert.GnnB.relu_real64 _ (Cert.GnnB.bn_real64 _ hXr _ _ hg hbt)⟩
  rw [hY, Cert.GnnB.bn_bridge64 _ hXr, Cert.GnnB.relu_bridge64]

end Cert.KernelIdeal.KChain

end
-- ==== Proof.CarryArgsC.lean ====
import proofs.«424203_j57904749085258_1_alg».proof.Proof.Carry

namespace Cert.KernelIdeal.CarryArgsC

open Idealize.ShloMosaic Idealize.ShloMosaic.TcCoe Idealize.SL.Sem Cert.KernelIdeal Cert.KernelIdeal.Gen Cert.KernelIdeal.Carry

variable {F : FTy → Type} [FloatOps F]
variable (m : (ℓ : Loc nD τ sig) → Buf (Elt F) ℓ) (ρ : Dev nD → PrngReg)

theorem carry_arg20_0_23 (c : Dev nD) : W23 m ρ c (Proc.devRef .tc main_arg20) = m ((c : Thread nD τ).loc main_arg20) :=
  Eq.trans step23 (Eq.trans step22 (Eq.trans step21 (Eq.trans step20 (Eq.trans step19 (Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1)))))))))))))))))))))

theorem carry_arg21_0_24 (c : Dev nD) : W24 m ρ c (Proc.devRef .tc main_arg21) = m ((c : Thread nD τ).loc main_arg21) :=
  Eq.trans step24 (Eq.trans step23 (Eq.trans step22 (Eq.trans step21 (Eq.trans step20 (Eq.trans step19 (Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1))))))))))))))))))))))

theorem carry_arg22_0_26 (c : Dev nD) : W26 m ρ c (Proc.devRef .tc main_arg22) = m ((c : Thread nD τ).loc main_arg22) :=
  Eq.trans step26 (Eq.trans step25 (Eq.trans step24 (Eq.trans step23 (Eq.trans step22 (Eq.trans step21 (Eq.trans step20 (Eq.trans step19 (Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1))))))))))))))))))))))))

theorem carry_arg23_0_26 (c : Dev nD) : W26 m ρ c (Proc.devRef .tc main_arg23) = m ((c : Thread nD τ).loc main_arg23) :=
  Eq.trans step26 (Eq.trans step25 (Eq.trans step24 (Eq.trans step23 (Eq.trans step22 (Eq.trans step21 (Eq.trans step20 (Eq.trans step19 (Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1))))))))))))))))))))))))

theorem carry_arg3_0_28 (c : Dev nD) : W28 m ρ c (Proc.devRef .tc main_arg3) = m ((c : Thread nD τ).loc main_arg3) :=
  Eq.trans step28 (Eq.trans step27 (Eq.trans step26 (Eq.trans step25 (Eq.trans step24 (Eq.trans step23 (Eq.trans step22 (Eq.trans step21 (Eq.trans step20 (Eq.trans step19 (Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1))))))))))))))))))))))))))

end Cert.KernelIdeal.CarryArgsC
-- ==== Proof.RegLin12.lean ====
import proofs.«424203_j57904749085258_1_alg».proof.Proof.Gen.KernelIdeal.Frame
import proofs.«424203_j57904749085258_1_alg».proof.Proof.LinM

noncomputable section

namespace Cert.KernelIdeal.RegValue

open Cert.KernelIdeal Cert.KernelIdeal.Gen Idealize.ShloMosaic Idealize.ShloMosaic.TcCoe Idealize.SL.Sem
open Idealize.ShloMosaic.Pipeline (Dat)

-- At point t the tiles of h and of the output are tile t, and W's tile is all of W.
theorem idx_lin12 : RowTiles win12_0.index win12_1.index win12_2.index := by decide +kernel

-- The product of tile t of h by W is tile t of h · W.
theorem tile_lin12 (t : Fin cfg12.N) (x : FVec Ideal S50000x64 .f32) (w : FVec Ideal S64x128 .f32)
    (xb : FVec Ideal S10000x64 .f32) (wb : FVec Ideal S64x128 .f32)
    (hxb : ∀ j, xb j = x (((cfg12.win 0).blk t).view.emb j)) (hwb : ∀ j, wb j = w (((cfg12.win 1).blk t).view.emb j)) :
    (cfg12.win 2).cut (grid12.coords t) (out12_2 xb wb) = ((cfg12.win 2).blk t).view.read (Elt Ideal) (linM12 x w) := by
  unfold out12_2
  rw [View.canon_unit_zero zeros2]
  simp only [k12_pay1, shapeCast_self, View.ld_unit_zero (S := S10000x64) zeros2, View.ld_unit_zero (S := S64x128) zeros2]
  have key := matmul_rowTile (m := 10000) none x w xb wb ((cfg12.win 0).blk t).view.emb ((cfg12.win 1).blk t).view.emb
    ((cfg12.win 2).blk t).view.emb idx_lin12 t hxb hwb (fun _ _ => rfl) (fun _ _ => rfl) (fun _ _ => rfl)
  exact key

variable (V : (c : Dev nD) → (b : Ref sig .tc) → Buf (Elt Ideal) ((c : Thread nD τ).loc b))

-- Tile t of the output is tile t of h · W, and the tiles cover the rows: the output is h · W.
theorem lin12_value (c : Dev nD) (x : FVec Ideal S50000x64 .f32) (w : FVec Ideal S64x128 .f32)
    (hx : V c (Pipeline.arrRef spec12 0) = x) (hw : V c (Pipeline.arrRef spec12 1) = w) :
    (dat12 (F := Ideal) V c).arrAt 2 cfg12.N = linM12 x w := by
  refine (dat12 (F := Ideal) V c).arrAt_eq_of_cover 2 _ (fun t _ => ?_) fun (i : S50000x128.Idx) => ?_
  · show (cfg12.win 2).cut (grid12.coords t) ((dat12 (F := Ideal) V c).after 2 t) = _
    rw [after12_2]
    exact tile_lin12 t x w _ _ (fun _ => congrFun hx _) (fun _ => congrFun hw _)
  · obtain ⟨t, ht⟩ := exists_rowTile (m := 10000) idx_lin12 (by decide) i
    refine ⟨t, flush12_2 t, ?_⟩
    show i ∈ ((View.whole main_v142).slice (win12_2.rect t)).set
    rw [View.set_slice_whole, Rect.mem_set_unit]
    exact ht

end Cert.KernelIdeal.RegValue

end
-- ==== Proof.RegLin12Ref.lean ====
import proofs.«424203_j57904749085258_1_alg».proof.Proof.Spec
import proofs.«424203_j57904749085258_1_alg».proof.Proof.LinM

noncomputable section

namespace Cert.KernelIdeal.RegValue

open Cert.KernelIdeal Idealize.ShloMosaic

variable [Cert.ReferenceIdeal.Facts]

-- The reference's dense transform of layer 5 is a plain product of h and W, so it is h · W entry by entry.
theorem lin5_eq_linM12 (x : FVec Ideal S50000x64 .f32) (w : FVec Ideal S64x128 .f32) :
    Cert.Gnn.lin5 x w = linM12 x w :=
  dotGeneral_eq_linM none x w

end Cert.KernelIdeal.RegValue

end
-- ==== Proof.SpecK128.lean ====
import proofs.«424203_j57904749085258_1_alg».proof.KernelIdeal
import Idealize.ShloMosaic.PureOps.Ideal
import Idealize.ShloMosaic.Lib.ValueIdx

noncomputable section

open scoped BigOperators

namespace Cert.GnnK

open Idealize.ShloMosaic Idealize.ShloMosaic.ValueIdx Cert.KernelIdeal

variable [Cert.KernelIdeal.Facts]
open Cert.KernelIdeal.Facts₀ Cert.KernelIdeal.Facts

def colSum128 (v : FVec Ideal S50000x128 .f32) : FVec Ideal S1x128 .f32 :=
  fun j => ∑ i : Fin 50000, v (ix2 i (j 1) : S50000x128.Idx)

def colSumSq128 (v : FVec Ideal S50000x128 .f32) : FVec Ideal S1x128 .f32 :=
  fun j => ∑ i : Fin 50000, v (ix2 i (j 1) : S50000x128.Idx) * v (ix2 i (j 1) : S50000x128.Idx)

def meanK128 (s : FVec Ideal S1x128 .f32) : FVec Ideal S1x128 .f32 :=
  Host.divf s (broadcastInDim S1x128 ![] bcast_S_S1x128 (constant (F := Ideal) S_ .f32 0x47435000#32))

def varK128 (s q : FVec Ideal S1x128 .f32) : FVec Ideal S1x128 .f32 :=
  subf (meanK128 q) (mulf (meanK128 s) (meanK128 s))

def rowK128 (g : FVec Ideal S128 .f32) : FVec Ideal S1x128 .f32 := shapeCast S1x128 g shapeCasts_S128_S1x128

def applyM128 (v : FVec Ideal S50000x128 .f32) (mean var g bt : FVec Ideal S1x128 .f32) : FVec Ideal S50000x128 .f32 :=
  fun i => g (ix2 (0 : Fin 1) (i 1) : S1x128.Idx) * (v i - mean (ix2 (0 : Fin 1) (i 1) : S1x128.Idx))
      * Ideal.rsqrt (var (ix2 (0 : Fin 1) (i 1) : S1x128.Idx) + Ideal.ofBits .f32 0x3727C5AC#32)
    + bt (ix2 (0 : Fin 1) (i 1) : S1x128.Idx)

end Cert.GnnK

end
-- ==== Proof.RegStats13.lean ====
import proofs.«424203_j57904749085258_1_alg».proof.Proof.Gen.KernelIdeal.Frame
import proofs.«424203_j57904749085258_1_alg».proof.Proof.SpecK128
import proofs.«424203_j57904749085258_1_alg».proof.Proof.ColStats

noncomputable section

open Idealize.ShloMosaic Idealize.ShloMosaic.TcCoe Idealize.SL.Sem

namespace Cert.KernelIdeal.RegValue.Stats13

open Idealize.ShloMosaic.ValueIdx Cert.KernelIdeal Cert.KernelIdeal.Gen Cert.ColStats

section AnyFloat

variable {F : FTy → Type} [FloatOps F]
variable (V : (c : Dev nD) → (b : Ref sig .tc) → Buf (Elt F) ((c : Thread nD τ).loc b)) (c : Dev nD)

-- The tile of the entry array that point t reads.
abbrev tile (t : Fin cfg13.N) : Vec F S10000x128 .f32 := iblk13 V c 0 t

-- The first point sets each row to zero and leaves it at zero plus the tile's contribution.
theorem outs_zero (h : 0 < cfg13.N) :
    outsAt13 V c 0 h = (k13_pay4 (tile V c ⟨0, h⟩) (k13_pay1 (F := F)), k13_pay5 (tile V c ⟨0, h⟩) (k13_pay2 (F := F))) := by
  rw [outsAt13_A V c ⟨0, h⟩ rfl]
  unfold out13_A_1 out13_A_2
  rw [View.read_writes_eq_canon _ _ _ (cover13_A_1 _ _ _ _ _ _ _ _ _ _), View.read_writes_eq_canon _ _ _ (cover13_A_2 _ _ _ _ _ _ _ _ _ _)]
  unfold kernelRun13_A
  dsimp only
  sl_unfold_words
  rw [View.canon_cons_unit_zero (S := S1x128) hz, View.canon_cons_unit_zero (S := S1x128) hz,
    View.readCov_unit_zero (S := S1x128) _ hz, View.readCov_unit_zero (S := S1x128) _ hz]
  simp only [View.readAt_eq_ld, (hs13_0 _).read_unread, View.ld_unit_zero (S := S10000x128) hz, View.ld_unit_zero (S := S1x128) hz]

-- A later point leaves each row at what it held plus the tile's contribution.
theorem outs_succ (n : ℕ) (h : n + 1 < cfg13.N) :
    outsAt13 V c (n + 1) h = (k13_pay4 (tile V c ⟨n + 1, h⟩) (outsAt13 V c n (Nat.lt_of_succ_lt h)).1,
      k13_pay5 (tile V c ⟨n + 1, h⟩) (outsAt13 V c n (Nat.lt_of_succ_lt h)).2) := by
  have hN : cfg13.N = 5 := N_13
  rw [outsAt13_B V c ⟨n + 1, h⟩ (by dsimp only; omega)]
  unfold out13_B_1 out13_B_2
  rw [View.read_writes_eq_canon _ _ _ (cover13_B_1 _ _ _ _ _ _ _ _ _ _ _ _), View.read_writes_eq_canon _ _ _ (cover13_B_2 _ _ _ _ _ _ _ _ _ _ _ _)]
  unfold kernelRun13_B
  dsimp only
  sl_unfold_words
  rw [View.canon_unit_zero hz, View.canon_unit_zero hz]
  simp only [View.readAt_eq_ld, (hs13_0 _).read_unread, (hs13_1 _).read_unread, (hs13_2 _).read_unread,
    View.ld_unit_zero (S := S10000x128) hz, View.ld_unit_zero (S := S1x128) hz]
  rfl

theorem sum_final : (dat13 V c).arrAt 1 cfg13.N = (outsAt13 V c 4 t13_4.isLt).1 := by
  have hN : cfg13.N = 5 := N_13
  have hz' : (fun a => win13_1.index t13_4 a * main_v159_0.ty.shape.size a) = fun _ => 0 := funext fun a => by fin_cases a <;> decide
  refine (dat13 V c).arrAt_eq_of_cover 1 _ (fun t hf => ?_) fun j => ⟨t13_4, (flush13_1 t13_4).mpr rfl, ?_⟩
  · obtain rfl : t = t13_4 := Fin.ext (by have := (flush13_1 t).mp hf; have := t.isLt; show t.val = 4; omega)
    show (cfg13.win 1).cut (grid13.coords t13_4) ((dat13 V c).after 1 t13_4) = _
    rw [after13_1]
    exact (Memref.read_access_unit_zero (Elt F) main_v159_0 hz' (fun a => by rw [congrFun hz' a]; simp) _).symm
  · show j ∈ ((View.whole main_v159_0).slice (win13_1.rect t13_4)).set
    rw [View.set_slice_whole]
    exact View.mem_set_unit_zero hz' _ j

theorem sq_final : (dat13 V c).arrAt 2 cfg13.N = (outsAt13 V c 4 t13_4.isLt).2 := by
  have hN : cfg13.N = 5 := N_13
  have hz' : (fun a => win13_2.index t13_4 a * main_v159_1.ty.shape.size a) = fun _ => 0 := funext fun a => by fin_cases a <;> decide
  refine (dat13 V c).arrAt_eq_of_cover 2 _ (fun t hf => ?_) fun j => ⟨t13_4, (flush13_2 t13_4).mpr rfl, ?_⟩
  · obtain rfl : t = t13_4 := Fin.ext (by have := (flush13_2 t).mp hf; have := t.isLt; show t.val = 4; omega)
    show (cfg13.win 2).cut (grid13.coords t13_4) ((dat13 V c).after 2 t13_4) = _
    rw [after13_2]
    exact (Memref.read_access_unit_zero (Elt F) main_v159_1 hz' (fun a => by rw [congrFun hz' a]; simp) _).symm
  · show j ∈ ((View.whole main_v159_1).slice (win13_2.rect t13_4)).set
    rw [View.set_slice_whole]
    exact View.mem_set_unit_zero hz' _ j

end AnyFloat

section AtIdeal

variable (V : (c : Dev nD) → (b : Ref sig .tc) → Buf (Elt Ideal) ((c : Thread nD τ).loc b)) (c : Dev nD)

-- Entry (r, q) of the tile point t reads is entry (10000 t + r, q) of the entry array.
theorem tile_apply (x : FVec Ideal S50000x128 .f32) (hx : V c (Pipeline.arrRef spec13 0) = x) (t : Fin cfg13.N)
    (r : Fin 10000) (q : Fin 128) : (tile V c t : FVec Ideal S10000x128 .f32) (ix2 r q) = x (ix2 (rowAt t.val r.val) q) := by
  subst hx
  obtain ⟨e0, e1⟩ := (by decide +kernel : ∀ t : Fin grid13.N, win13_0.index t (0 : Fin 2) = t.val ∧ win13_0.index t (1 : Fin 2) = 0) t
  have hN : t.val < 5 := lt_of_lt_of_eq t.isLt (show cfg13.N = 5 from N_13)
  have hr : r.val < 10000 := r.isLt
  unfold tile iblk13
  rw [View.read_apply]
  show V c (Pipeline.arrRef spec13 0) _ = V c (Pipeline.arrRef spec13 0) _
  congr 1
  funext a
  apply Fin.ext
  match a with
  | ⟨0, _⟩ => show win13_0.index t 0 * 10000 + 1 * r.val = (t.val * 10000 + r.val) % 50000; rw [e0]; omega
  | ⟨1, _⟩ => show win13_0.index t 1 * 128 + 1 * q.val = q.val; rw [e1]; omega

-- The first row after a tile: the row before plus the tile's column sums.
theorem sum_step (y : FVec Ideal S10000x128 .f32) (acc : FVec Ideal S1x128 .f32) (u : Fin 1) (q : Fin 128) :
    k13_pay4 (F := Ideal) y acc (ix2 u q) = acc (ix2 u q) + ∑ r : Fin 10000, y (ix2 r q) :=
  addf_colsum_apply (k13_pay3 y) acc u q fun r => congrFun (shapeCast_self y _) _

-- The second row after a tile: the row before plus the tile's column sums of squares.
theorem sq_step (y : FVec Ideal S10000x128 .f32) (acc : FVec Ideal S1x128 .f32) (u : Fin 1) (q : Fin 128) :
    k13_pay5 (F := Ideal) y acc (ix2 u q) = acc (ix2 u q) + ∑ r : Fin 10000, y (ix2 r q) * y (ix2 r q) :=
  addf_colsum_apply (mulf (k13_pay3 y) (k13_pay3 y)) acc u q fun r => congrArg₂ (· * ·) (congrFun (shapeCast_self y _) _) (congrFun (shapeCast_self y _) _)

end AtIdeal

end Cert.KernelIdeal.RegValue.Stats13

namespace Cert.KernelIdeal.RegValue

open Idealize.ShloMosaic.ValueIdx Cert.KernelIdeal Cert.KernelIdeal.Gen Cert.ColStats

theorem stats13_sum (V : (c : Dev nD) → (b : Ref sig .tc) → Buf (Elt Ideal) ((c : Thread nD τ).loc b)) (c : Dev nD)
    (x : FVec Ideal S50000x128 .f32) (hx : V c (Pipeline.arrRef spec13 0) = x) :
    (dat13 (F := Ideal) V c).arrAt 1 cfg13.N = Cert.GnnK.colSum128 x :=
  (Stats13.sum_final V c).trans (colsum_of_steps (fun n h => (outsAt13 V c n h).1) (fun a => a) Stats13.sum_step
    (Stats13.tile_apply V c x hx) (fun h => congrArg Prod.fst (Stats13.outs_zero V c h))
    (fun n h => congrArg Prod.fst (Stats13.outs_succ V c n h)) (fun _ _ => Ideal.ofBits_zero_f32) t13_4.isLt)

theorem stats13_sumsq (V : (c : Dev nD) → (b : Ref sig .tc) → Buf (Elt Ideal) ((c : Thread nD τ).loc b)) (c : Dev nD)
    (x : FVec Ideal S50000x128 .f32) (hx : V c (Pipeline.arrRef spec13 0) = x) :
    (dat13 (F := Ideal) V c).arrAt 2 cfg13.N = Cert.GnnK.colSumSq128 x :=
  (Stats13.sq_final V c).trans (colsum_of_steps (fun n h => (outsAt13 V c n h).2) (fun a => a * a) Stats13.sq_step
    (Stats13.tile_apply V c x hx) (fun h => congrArg Prod.snd (Stats13.outs_zero V c h))
    (fun n h => congrArg Prod.snd (Stats13.outs_succ V c n h)) (fun _ _ => Ideal.ofBits_zero_f32) t13_4.isLt)

end Cert.KernelIdeal.RegValue

end
-- ==== Proof.RegApply14.lean ====
import proofs.«424203_j57904749085258_1_alg».proof.Proof.Gen.KernelIdeal.Frame
import proofs.«424203_j57904749085258_1_alg».proof.Proof.SpecK128
import proofs.«424203_j57904749085258_1_alg».proof.Proof.BnTile

noncomputable section

open Idealize.ShloMosaic Idealize.ShloMosaic.TcCoe Idealize.ShloMosaic.ValueIdx

namespace Cert.KernelIdeal.RegValue

open Cert.KernelIdeal Cert.KernelIdeal.Gen Cert.BnTile

theorem apply14_index : ∀ t : Fin cfg14.N,
    win14_0.index t (0 : Fin 2) = t.val ∧ win14_0.index t (1 : Fin 2) = 0
    ∧ win14_5.index t (0 : Fin 2) = t.val ∧ win14_5.index t (1 : Fin 2) = 0
    ∧ ∀ a : Fin 2, win14_1.index t a = 0 ∧ win14_2.index t a = 0 ∧ win14_3.index t a = 0 ∧ win14_4.index t a = 0 :=
  (by decide +kernel : ∀ t : Fin grid14.N, _)

section
variable (t : Fin cfg14.N)

-- tile t sits at rows 10000 * t onwards of both arrays
theorem apply14_emb :
    EmbedsTile (m := 50000) (a := 10000) (b := 128) ((cfg14.win 0).blk t).view.emb t.val
    ∧ EmbedsTile (m := 50000) (a := 10000) (b := 128) ((cfg14.win 5).blk t).view.emb t.val :=
  have ⟨e0, e1, f0, f1, _⟩ := apply14_index t
  ⟨⟨fun y => (win14_0.rect_emb_val t y (0 : Fin 2)).trans (by rw [e0]; rfl), win14_0.rect_emb_val_of_index_zero t (1 : Fin 2) e1⟩,
    ⟨fun y => (win14_5.rect_emb_val t y (0 : Fin 2)).trans (by rw [f0]; rfl), win14_5.rect_emb_val_of_index_zero t (1 : Fin 2) f1⟩⟩

variable (V : (c : Dev nD) → (b : Ref sig .tc) → Buf (Elt Ideal) ((c : Thread nD τ).loc b)) (c : Dev nD)
  (x : FVec Ideal S50000x128 .f32) (mean var g bt : FVec Ideal S1x128 .f32)

-- the blocks at tile t are reads of the five input arrays
theorem apply14_read0 (h : V c (Pipeline.arrRef spec14 0) = x) (y) : iblk14 V c 0 t y = x (((cfg14.win 5).blk t).view.emb y) := by
  subst h; exact congrArg (V c (Pipeline.arrRef spec14 0)) ((apply14_emb t).1.ext (apply14_emb t).2 y)

theorem apply14_read1 (h : V c (Pipeline.arrRef spec14 1) = mean) (y) : iblk14 V c 1 t y = mean y := by
  subst h
  exact congrArg (V c (Pipeline.arrRef spec14 1)) (funext fun a => Fin.ext (win14_1.rect_emb_val_of_index_zero t a ((apply14_index t).2.2.2.2 a).1 y))

theorem apply14_read2 (h : V c (Pipeline.arrRef spec14 2) = var) (y) : iblk14 V c 2 t y = var y := by
  subst h
  exact congrArg (V c (Pipeline.arrRef spec14 2)) (funext fun a => Fin.ext (win14_2.rect_emb_val_of_index_zero t a ((apply14_index t).2.2.2.2 a).2.1 y))

theorem apply14_read3 (h : V c (Pipeline.arrRef spec14 3) = g) (y) : iblk14 V c 3 t y = g y := by
  subst h
  exact congrArg (V c (Pipeline.arrRef spec14 3)) (funext fun a => Fin.ext (win14_3.rect_emb_val_of_index_zero t a ((apply14_index t).2.2.2.2 a).2.2.1 y))

theorem apply14_read4 (h : V c (Pipeline.arrRef spec14 4) = bt) (y) : iblk14 V c 4 t y = bt y := by
  subst h
  exact congrArg (V c (Pipeline.arrRef spec14 4)) (funext fun a => Fin.ext (win14_4.rect_emb_val_of_index_zero t a ((apply14_index t).2.2.2.2 a).2.2.2 y))

theorem apply14_flushed (p0 : ∀ y, iblk14 V c 0 t y = x (((cfg14.win 5).blk t).view.emb y))
    (p1 : ∀ y, iblk14 V c 1 t y = mean y) (p2 : ∀ y, iblk14 V c 2 t y = var y)
    (p3 : ∀ y, iblk14 V c 3 t y = g y) (p4 : ∀ y, iblk14 V c 4 t y = bt y) :
    (dat14 V c).flushed 5 t = ((cfg14.win 5).blk t).view.read (Elt Ideal) (Cert.GnnK.applyM128 x mean var g bt) := by
  show (dat14 V c).after 5 t = _
  rw [after14_5, out14_5, View.canon_unit_zero zeros2, k14_pay1]
  simp only [View.ld_unit_zero (S := S10000x128) zeros2, View.ld_unit_zero (S := S1x128) zeros2, shapeCast_self]
  exact (apply14_emb t).2.norm_block _ p0 p1 p2 p3 p4 fun _ => rfl

end

theorem apply14_cover (i : S50000x128.Idx) : ∃ t : Fin cfg14.N, (cfg14.win 5).flush t = true ∧ i ∈ ((cfg14.win 5).blk t).view.set :=
  ⟨⟨(i 0).val / 10000, lt_of_lt_of_eq (Nat.div_lt_of_lt_mul (i 0).isLt) N_14.symm⟩, flush14_5 _,
    (apply14_emb _).2.mem (by decide) i rfl (View.emb_mem_set _)⟩

theorem apply14_value (V : (c : Dev nD) → (b : Ref sig .tc) → Buf (Elt Ideal) ((c : Thread nD τ).loc b)) (c : Dev nD)
    (x : FVec Ideal S50000x128 .f32) (mean var g bt : FVec Ideal S1x128 .f32)
    (hx : V c (Pipeline.arrRef spec14 0) = x) (h1 : V c (Pipeline.arrRef spec14 1) = mean)
    (h2 : V c (Pipeline.arrRef spec14 2) = var) (h3 : V c (Pipeline.arrRef spec14 3) = g)
    (h4 : V c (Pipeline.arrRef spec14 4) = bt) :
    (dat14 (F := Ideal) V c).arrAt 5 cfg14.N = Cert.GnnK.applyM128 x mean var g bt :=
  (dat14 V c).arrAt_eq_of_cover 5 _
    (fun t _ => apply14_flushed t V c x mean var g bt (apply14_read0 t V c x hx) (apply14_read1 t V c mean h1)
      (apply14_read2 t V c var h2) (apply14_read3 t V c g h3) (apply14_read4 t V c bt h4))
    apply14_cover

end Cert.KernelIdeal.RegValue

end
-- ==== Proof.BnBridge128.lean ====
import proofs.«424203_j57904749085258_1_alg».proof.Proof.SpecK128
import proofs.«424203_j57904749085258_1_alg».proof.Proof.SpecW128
import proofs.«424203_j57904749085258_1_alg».proof.Proof.LayerWidth

namespace Cert.GnnB

open Idealize.ShloMosaic

variable [Cert.KernelIdeal.Facts] [Cert.ReferenceIdeal.Facts]

theorem bn_bridge128 (v : FVec Ideal Cert.KernelIdeal.S50000x128 .f32) (hv : Cert.Gnn.AllReal v)
    (g bt : FVec Ideal Cert.KernelIdeal.S128 .f32) :
    Cert.GnnK.applyM128 v (Cert.GnnK.meanK128 (Cert.GnnK.colSum128 v))
        (Cert.GnnK.varK128 (Cert.GnnK.colSum128 v) (Cert.GnnK.colSumSq128 v)) (Cert.GnnK.rowK128 g) (Cert.GnnK.rowK128 bt)
      = Cert.Gnn.bn128 v g bt :=
  bn_bridge v hv g bt

theorem bn_real128 (v : FVec Ideal Cert.ReferenceIdeal.S50000x128 .f32) (hv : Cert.Gnn.AllReal v)
    (g bt : FVec Ideal Cert.ReferenceIdeal.S128 .f32) (hg : Cert.Gnn.AllReal g) (hb : Cert.Gnn.AllReal bt) :
    Cert.Gnn.AllReal (Cert.Gnn.bn128 v g bt) :=
  bn_real v hv g bt hg hb

end Cert.GnnB
-- ==== Proof.RealConv128.lean ====
import proofs.«424203_j57904749085258_1_alg».proof.Proof.SpecW128
import proofs.«424203_j57904749085258_1_alg».proof.Proof.LayerWidth

namespace Cert.Gnn

open Idealize.ShloMosaic Cert.ReferenceIdeal

variable [Cert.ReferenceIdeal.Facts]
open Cert.ReferenceIdeal.Facts₀ Cert.ReferenceIdeal.Facts

theorem conv128_real (row col : IVec S850000 32) (norm : FVec Ideal S850000 .f32) (mm : FVec Ideal S50000x128 .f32)
    (b : FVec Ideal S128 .f32) (hn : AllReal norm) (hm : AllReal mm) (hb : AllReal b) :
    AllReal (conv128 row col norm mm b) :=
  Cert.GnnB.conv_real (wrapIdx row) col norm mm b hn hm hb

end Cert.Gnn
-- ==== Proof.KLayer5.lean ====
import proofs.«424203_j57904749085258_1_alg».proof.Proof.KGraphAt
import proofs.«424203_j57904749085258_1_alg».proof.Proof.CarryMid
import proofs.«424203_j57904749085258_1_alg».proof.Proof.CarryArgsC
import proofs.«424203_j57904749085258_1_alg».proof.Proof.RegLin12
import proofs.«424203_j57904749085258_1_alg».proof.Proof.RegLin12Ref
import proofs.«424203_j57904749085258_1_alg».proof.Proof.RegStats13
import proofs.«424203_j57904749085258_1_alg».proof.Proof.RegApply14
import proofs.«424203_j57904749085258_1_alg».proof.Proof.BnBridge128
import proofs.«424203_j57904749085258_1_alg».proof.Proof.RealStages
import proofs.«424203_j57904749085258_1_alg».proof.Proof.RealConv128

noncomputable section

namespace Cert.KernelIdeal.KChain

open Idealize.ShloMosaic Idealize.ShloMosaic.TcCoe Idealize.SL.Sem Cert.KernelIdeal Cert.KernelIdeal.Gen
open Cert.KernelIdeal.CarryMid Cert.KernelIdeal.CarryArgsC

variable [Cert.ReferenceIdeal.Facts]
variable (m : (ℓ : Loc nD τ sig) → Buf (Elt Ideal) ℓ) (ρ : Dev nD → PrngReg)

theorem W25_conv (V : Valuation τ sig (Elt Ideal)) :
    StableHlo.after hostOps13 V (Proc.devRef .tc main_v158)
      = Cert.Gnn.conv128 (V (Proc.devRef .tc main_v3)) (V (Proc.devRef .tc main_v6)) (V (Proc.devRef .tc main_v33))
          (V (Proc.devRef .tc main_v142)) (V (Proc.devRef .tc main_arg21)) := by
  after_results_simp
  rfl

theorem W27_rows (V : Valuation τ sig (Elt Ideal)) :
    StableHlo.after hostOps14 V (Proc.devRef .tc main_v161) = Cert.GnnK.meanK128 (V (Proc.devRef .tc main_v159_0))
    ∧ StableHlo.after hostOps14 V (Proc.devRef .tc main_v165) = Cert.GnnK.varK128 (V (Proc.devRef .tc main_v159_0)) (V (Proc.devRef .tc main_v159_1))
    ∧ StableHlo.after hostOps14 V (Proc.devRef .tc main_v166) = Cert.GnnK.rowK128 (V (Proc.devRef .tc main_arg22))
    ∧ StableHlo.after hostOps14 V (Proc.devRef .tc main_v167) = Cert.GnnK.rowK128 (V (Proc.devRef .tc main_arg23)) := by
  refine ⟨?_, ?_, ?_, ?_⟩ <;>
    (after_results_simp
     rfl)

-- Layer 5's value on the features H: linear map, graph convolution, batch normalisation.
abbrev out5 (c : Dev nD) (H : FVec Ideal S50000x64 .f32) :=
  Cert.Gnn.bn128 (Cert.Gnn.conv128 (Cert.Gnn.rowOf (eiOf m c)) (Cert.Gnn.colOf (eiOf m c)) (Cert.Gnn.normOf (eiOf m c) (ewOf m c))
      (Cert.Gnn.lin5 H (m ((c : Thread nD τ).loc main_arg20))) (m ((c : Thread nD τ).loc main_arg21)))
      (m ((c : Thread nD τ).loc main_arg22)) (m ((c : Thread nD τ).loc main_arg23))

theorem layer5 (c : Dev nD) (H : FVec Ideal S50000x64 .f32) (hH : W23 m ρ c (Proc.devRef .tc main_v141) = H)
    (hHr : Cert.Gnn.AllReal H) (hew : Cert.Gnn.AllReal (ewOf m c))
    (hW : Cert.Gnn.AllReal (m ((c : Thread nD τ).loc main_arg20))) (hb : Cert.Gnn.AllReal (m ((c : Thread nD τ).loc main_arg21)))
    (hg : Cert.Gnn.AllReal (m ((c : Thread nD τ).loc main_arg22))) (hbt : Cert.Gnn.AllReal (m ((c : Thread nD τ).loc main_arg23))) :
    W28 m ρ c (Proc.devRef .tc main_v168) = out5 m c H ∧ Cert.Gnn.AllReal (out5 m c H) := by
  have hM : W24 m ρ c (Proc.devRef .tc main_v142) = Cert.Gnn.lin5 H (m ((c : Thread nD τ).loc main_arg20)) :=
    (W24_arr m ρ c 2).trans
      ((Cert.KernelIdeal.RegValue.lin12_value (V23 m ρ) c _ _ hH (carry_arg20_0_23 m ρ c)).trans
        (Cert.KernelIdeal.RegValue.lin5_eq_linM12 _ _).symm)
  obtain ⟨hR, hC, hN⟩ := graph_at24 m ρ c
  have hX := W25_conv (W24 m ρ c)
  rw [hR, hC, hN, hM, carry_arg21_0_24 m ρ c] at hX
  have hXr := Cert.Gnn.conv128_real (Cert.Gnn.rowOf (eiOf m c)) (Cert.Gnn.colOf (eiOf m c)) _ _ _ (Cert.Gnn.normOf_real (eiOf m c) _ hew)
    (Cert.Gnn.lin5_real _ _ hHr hW) hb
  have hS := (W26_arr m ρ c 1).trans (Cert.KernelIdeal.RegValue.stats13_sum (V25 m ρ) c _ hX)
  have hQ := (W26_arr m ρ c 2).trans (Cert.KernelIdeal.RegValue.stats13_sumsq (V25 m ρ) c _ hX)
  have hr := W27_rows (W26 m ρ c)
  have hY := (W28_arr m ρ c 5).trans
    (Cert.KernelIdeal.RegValue.apply14_value (V27 m ρ) c _ _ _ _ _ ((carry_v158_25_27 m ρ c).trans hX)
      (hr.1.trans (congrArg Cert.GnnK.meanK128 hS)) (hr.2.1.trans (congrArg₂ Cert.GnnK.varK128 hS hQ))
      (hr.2.2.1.trans (congrArg Cert.GnnK.rowK128 (carry_arg22_0_26 m ρ c))) (hr.2.2.2.trans (congrArg Cert.GnnK.rowK128 (carry_arg23_0_26 m ρ c))))
  refine ⟨?_, Cert.GnnB.bn_real128 _ hXr _ _ hg hbt⟩
  rw [hY]
  exact Cert.GnnB.bn_bridge128 _ hXr _ _

end Cert.KernelIdeal.KChain

end
-- ==== Proof.CarryArgsD.lean ====
import proofs.«424203_j57904749085258_1_alg».proof.Proof.Carry

namespace Cert.KernelIdeal.CarryArgsD

open Idealize.ShloMosaic Idealize.ShloMosaic.TcCoe Idealize.SL.Sem Cert.KernelIdeal Cert.KernelIdeal.Gen Cert.KernelIdeal.Carry

variable {F : FTy → Type} [FloatOps F]
variable (m : (ℓ : Loc nD τ sig) → Buf (Elt F) ℓ) (ρ : Dev nD → PrngReg)

theorem carry_arg25_0_30 (c : Dev nD) : W30 m ρ c (Proc.devRef .tc main_arg25) = m ((c : Thread nD τ).loc main_arg25) :=
  Eq.trans step30 (Eq.trans step29 (Eq.trans step28 (Eq.trans step27 (Eq.trans step26 (Eq.trans step25 (Eq.trans step24 (Eq.trans step23 (Eq.trans step22 (Eq.trans step21 (Eq.trans step20 (Eq.trans step19 (Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1))))))))))))))))))))))))))))

theorem carry_arg27_0_30 (c : Dev nD) : W30 m ρ c (Proc.devRef .tc main_arg27) = m ((c : Thread nD τ).loc main_arg27) :=
  Eq.trans step30 (Eq.trans step29 (Eq.trans step28 (Eq.trans step27 (Eq.trans step26 (Eq.trans step25 (Eq.trans step24 (Eq.trans step23 (Eq.trans step22 (Eq.trans step21 (Eq.trans step20 (Eq.trans step19 (Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1))))))))))))))))))))))))))))

theorem carry_arg24_0_31 (c : Dev nD) : W31 m ρ c (Proc.devRef .tc main_arg24) = m ((c : Thread nD τ).loc main_arg24) :=
  Eq.trans step31 (Eq.trans step30 (Eq.trans step29 (Eq.trans step28 (Eq.trans step27 (Eq.trans step26 (Eq.trans step25 (Eq.trans step24 (Eq.trans step23 (Eq.trans step22 (Eq.trans step21 (Eq.trans step20 (Eq.trans step19 (Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1)))))))))))))))))))))))))))))

theorem carry_arg26_0_31 (c : Dev nD) : W31 m ρ c (Proc.devRef .tc main_arg26) = m ((c : Thread nD τ).loc main_arg26) :=
  Eq.trans step31 (Eq.trans step30 (Eq.trans step29 (Eq.trans step28 (Eq.trans step27 (Eq.trans step26 (Eq.trans step25 (Eq.trans step24 (Eq.trans step23 (Eq.trans step22 (Eq.trans step21 (Eq.trans step20 (Eq.trans step19 (Eq.trans step18 (Eq.trans step17 (Eq.trans step16 (Eq.trans step15 (Eq.trans step14 (Eq.trans step13 (Eq.trans step12 (Eq.trans step11 (Eq.trans step10 (Eq.trans step9 (Eq.trans step8 (Eq.trans step7 (Eq.trans step6 (Eq.trans step5 (Eq.trans step4 (Eq.trans step3 (Eq.trans step2 step1)))))))))))))))))))))))))))))

end Cert.KernelIdeal.CarryArgsD
-- ==== Proof.PoolSpec.lean ====
import proofs.«424203_j57904749085258_1_alg».proof.Proof.LibTiles
import Idealize.ShloMosaic.Lib.ValueIdx

noncomputable section

namespace Cert.PoolSpec

open Idealize.ShloMosaic Idealize.ShloMosaic.ValueIdx

abbrev Nodes : Type := (⟨2, ![50000, 128]⟩ : Shape).Idx → EReal
abbrev Graphs : Type := (⟨1, ![50000]⟩ : Shape).Idx → BitVec 32
abbrev Pooled : Type := (⟨2, ![256, 128]⟩ : Shape).Idx → EReal

-- What node n gives to entry (g, l): its entry l when its graph number is the word g, else nothing.
def term (h : Nodes) (b : Graphs) (g : Fin 256) (l : Fin 128) (n : Fin 50000) : EReal :=
  if b (ix1 n) = BitVec.ofNat 32 g.val then h (ix2 n l) else 0

-- The pooled array: entry (g, l) is the sum over all nodes of what each gives to it.
def poolM (h : Nodes) (b : Graphs) : Pooled :=
  fun i => ∑ n : Fin 50000, term h b (i 0) (i 1) n

-- Node k of tile t, the nodes cut into 5 tiles of 10000.
def node (t : Fin 5) (k : Fin 10000) : Fin 50000 :=
  ⟨t.val * 10000 + k.val, Cert.LibTiles.tile_lt t k⟩

-- What tile t gives to entry (g, l).
def tile (h : Nodes) (b : Graphs) (t : Fin 5) (g : Fin 256) (l : Fin 128) : EReal :=
  ∑ k : Fin 10000, term h b g l (node t k)

-- The running result after tile n: zero plus tile 0, then each next tile added.
def acc (h : Nodes) (b : Graphs) : (n : ℕ) → n < 5 → Pooled
  | 0, hn => fun i => 0 + tile h b ⟨0, hn⟩ (i 0) (i 1)
  | n + 1, hn => fun i => acc h b n (Nat.lt_of_succ_lt hn) i + tile h b ⟨n + 1, hn⟩ (i 0) (i 1)

-- A sum over the nodes is the sum over the tiles of each tile's sum, so the last running result is the pooled array.
theorem acc_last (h : Nodes) (b : Graphs) : acc h b 4 (by decide) = poolM h b := by
  funext i
  rw [show poolM h b i = ∑ t : Fin 5, tile h b t (i 0) (i 1) from Cert.LibTiles.tile_sum 5 10000 _, Fin.sum_univ_five]
  simp only [acc, zero_add]
  rfl

end Cert.PoolSpec

end
-- ==== Proof.PoolPay.lean ====
import proofs.«424203_j57904749085258_1_alg».proof.Proof.Gen.KernelIdeal.Skeleton
import proofs.«424203_j57904749085258_1_alg».proof.Proof.PoolSpec
import Idealize.ShloMosaic.Lib.Pipeline.Value
import Idealize.ShloMosaic.Lib.StackMember
import Idealize.ShloMosaic.PureOps.Ideal.Laws

noncomputable section

namespace Cert.KernelIdeal.RegValue

open Idealize.ShloMosaic Idealize.ShloMosaic.ValueIdx Cert.KernelIdeal Cert.KernelIdeal.Gen
open Cert.PoolSpec (node)

-- Entries 10000 i … 10000 i + 9999 of the row of graph numbers.
abbrev lanes {F : FTy → Type} [FloatOps F] (i : grid15.Coords) (x1 : Vec F S1x50000 .i32) : Vec F S1x10000 .i32 :=
  View.ld x1 (Rect.unit (s := S1x50000) (k15_off1 i) S1x10000.size (k15_off1_inb i))

-- Entry k of them, at coordinate t, is the entry of node k of tile t.
theorem lanes_apply {F : FTy → Type} [FloatOps F] (i : grid15.Coords) (x1 : Vec F S1x50000 .i32) (t : Fin 5) (hi : (i 0).val = t.val)
    (k : Fin 10000) : lanes i x1 (ix2 (0 : Fin 1) k : S1x10000.Idx) = x1 (ix2 (0 : Fin 1) (node t k) : S1x50000.Idx) := by
  refine congrArg x1 (funext fun a => Fin.ext ?_)
  match a with
  | ⟨0, _⟩ =>
    show k15_off1 i 0 + 1 * 0 = 0
    rw [k15_off1_eq]; rfl
  | ⟨1, _⟩ =>
    show k15_off1 i 1 + 1 * k.val = t.val * 10000 + k.val
    rw [k15_off1_eq]
    show 10000 * (i 0).val + 1 * k.val = t.val * 10000 + k.val
    omega

-- The 50000 graph numbers laid out as one row: entry n of the row is number n.
theorem row_apply (b : IVec S50000 32) (n : Fin 50000) :
    shapeCast S1x50000 b shapeCasts_S50000_S1x50000 (ix2 (0 : Fin 1) n : S1x50000.Idx) = b (ix1 n : S50000.Idx) :=
  shapeCast_apply b _ _ _ (by
    rw [Shape.rowMajor_val_one, Shape.rowMajor_val_two]
    show n.val = 0 * 50000 + n.val
    omega)

-- The product into the zero block at (g, l) is Σ_k A (g, k) · B (k, l): the contraction is the plain product's.
theorem matmul_pool_apply (A : FVec Ideal S256x10000 .f32) (B : FVec Ideal S10000x128 .f32) (g : Fin 256) (l : Fin 128) :
    matmul dot_S256x10000_S10000x128_S256x128_1_0_0_1_n_n none A B (constant (F := Ideal) S256x128 .f32 0x00000000#32) (ix2 g l : S256x128.Idx)
      = ∑ k : Fin 10000, A (ix2 g k : S256x10000.Idx) * B (ix2 k l : S10000x128.Idx) :=
  (congrFun (matmul_zero_eq_dotGeneral dot_S256x10000_S10000x128_S256x128_1_0_0_1_n_n none A B) _).trans (StackMember.dotGeneral_plain_apply none A B g l)

theorem toInt_setWidth_ofBool (c : Bool) : ((BitVec.ofBool c).setWidth 32).toInt = if c then 1 else 0 := by
  cases c <;> decide

-- Entry (g, k) of the table of truth values: 1.0 when graph number k of the row is the word g, else 0.0.
theorem ind_apply (bb : IVec S1x10000 32) (g : Fin 256) (k : Fin 10000) :
    (sitofp .f32 (extui 32 (cmpi .eq
        (broadcastTo S256x10000 (iota .tc S256x1 32 [0] iota_S256x1_d0_w32) broadcasts_S256x1_S256x10000)
        (broadcastTo S256x10000 bb broadcasts_S1x10000_S256x10000)) natLt_1_32) : FVec Ideal S256x10000 .f32) (ix2 g k : S256x10000.Idx)
      = if bb (ix2 (0 : Fin 1) k : S1x10000.Idx) = BitVec.ofNat 32 g.val then 1 else 0 := by
  have e1 : broadcastTo S256x10000 (iota .tc S256x1 32 [0] iota_S256x1_d0_w32) broadcasts_S256x1_S256x10000 (ix2 g k : S256x10000.Idx)
      = BitVec.ofNat 32 g.val := by
    rw [broadcastTo_apply _ _ (ix2 g k : S256x10000.Idx) (ix2 g (0 : Fin 1) : S256x1.Idx) (fun a => by
      match a with
      | ⟨0, _⟩ => rfl
      | ⟨1, _⟩ => rfl), iota_single_apply]
  have e2 : broadcastTo S256x10000 bb broadcasts_S1x10000_S256x10000 (ix2 g k : S256x10000.Idx)
      = bb (ix2 (0 : Fin 1) k : S1x10000.Idx) :=
    broadcastTo_apply _ _ (ix2 g k : S256x10000.Idx) (ix2 (0 : Fin 1) k : S1x10000.Idx) (fun a => by
      match a with
      | ⟨0, _⟩ => rfl
      | ⟨1, _⟩ => rfl)
  show ((((IntOp.cmpi .eq _ _).setWidth 32).toInt : ℝ) : EReal) = _
  rw [e1, e2]
  unfold IntOp.cmpi
  rw [toInt_setWidth_ofBool]
  by_cases h : bb (ix2 (0 : Fin 1) k : S1x10000.Idx) = BitVec.ofNat 32 g.val
  · rw [if_pos h, h]; simp
  · have h' : ¬BitVec.ofNat 32 g.val = bb (ix2 (0 : Fin 1) k : S1x10000.Idx) := fun e => h e.symm
    rw [if_neg h]; simp [h']

-- The body's arithmetic at (g, l): the running entry plus, over the tile's nodes whose graph number is the word g, their entries at l.
theorem pay2_apply (x : Vec Ideal S10000x128 .f32) (bb : Vec Ideal S1x10000 .i32) (a : Vec Ideal S256x128 .f32)
    (g : Fin 256) (l : Fin 128) :
    k15_pay2 (F := Ideal) x bb a (ix2 g l : S256x128.Idx)
      = a (ix2 g l : S256x128.Idx)
        + ∑ k : Fin 10000, (if bb (ix2 (0 : Fin 1) k : S1x10000.Idx) = BitVec.ofNat 32 g.val then x (ix2 k l : S10000x128.Idx) else 0) := by
  unfold k15_pay2
  simp only [shapeCast_self]
  refine (addf_apply _ _ _).trans (congrArg (a (ix2 g l : S256x128.Idx) + ·)
    ((matmul_pool_apply _ _ g l).trans (Finset.sum_congr rfl fun k _ => ?_)))
  rw [ind_apply, ite_mul, one_mul, zero_mul]

-- The zero block.
theorem pay1_apply (i : S256x128.Idx) : k15_pay1 (F := Ideal) i = 0 :=
  Ideal.ofBits_zero_f32

end Cert.KernelIdeal.RegValue

end
-- ==== Proof.RegPool.lean ====
import proofs.«424203_j57904749085258_1_alg».proof.Proof.Gen.KernelIdeal.Frame
import proofs.«424203_j57904749085258_1_alg».proof.Proof.PoolPay
import Idealize.ShloMosaic.Lib.Tactic

noncomputable section

namespace Cert.KernelIdeal.RegValue

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen
open Cert.PoolSpec (poolM node tile acc acc_last)

section Pieces

variable {F : FTy → Type} [FloatOps F] {c : Dev nD} {i : grid15.Coords}
  {a1 : Memref sig .tc .vmem S10000x128 .f32} {h1 : a1.IsWhole} {a2 : Memref sig .tc .vmem S1x50000 .i32} {h2 : a2.IsWhole}
  {a3 : Memref sig .tc .vmem S256x128 .f32} {h3 : a3.IsWhole} {x0 : Vec F S10000x128 .f32} {x1 : Vec F S1x50000 .i32}

theorem hz15 : (![0, 0] : Fin 2 → Nat) = fun _ => 0 := funext fun a => by fin_cases a <;> rfl

-- At a later point: the body's arithmetic on the tile, the row's entries, and the block xo found there.
theorem out_B {hc : ¬cond15_0 i} {xo : Vec F S256x128 .f32} :
    out15_B_2 c i a1 h1 a2 h2 a3 h3 hc x0 x1 xo = k15_pay2 x0 (lanes i x1) xo := by
  unfold out15_B_2
  rw [View.read_writes_eq_canon _ _ _ (cover15_B_2 c i a1 h1 a2 h2 a3 h3 hc x0 x1 xo)]
  unfold kernelRun15_B
  dsimp only
  sl_unfold_words
  rw [View.canon_unit_zero hz15]
  simp only [View.readAt_eq_ld, h1.read_unread, h2.read_unread, h3.read_unread,
    View.ld_unit_zero (S := S10000x128) hz15, View.ld_unit_zero (S := S256x128) hz15]
  rfl

-- At point 0 the block found is the zero block.
theorem out_A {hc : cond15_0 i} :
    out15_A_2 c i a1 h1 a2 h2 a3 h3 hc x0 x1 = k15_pay2 x0 (lanes i x1) (k15_pay1 (F := F)) := by
  unfold out15_A_2
  rw [View.read_writes_eq_canon _ _ _ (cover15_A_2 c i a1 h1 a2 h2 a3 h3 hc x0 x1)]
  unfold kernelRun15_A
  dsimp only
  sl_unfold_words
  rw [View.canon_cons_unit_zero (S := S256x128) hz15, View.readCov_unit_zero (S := S256x128) _ hz15]
  simp only [View.readAt_eq_ld, h1.read_unread, h2.read_unread,
    View.ld_unit_zero (S := S10000x128) hz15, View.ld_unit_zero (S := S256x128) hz15]
  rfl

end Pieces

section Value

variable (V : (c : Dev nD) → (b : Ref sig .tc) → Buf (Elt Ideal) ((c : Thread nD τ).loc b))

-- The index maps, evaluated at the five points.
theorem idx15 : ∀ t : Fin cfg15.N, win15_0.index t (0 : Fin 2) = t.val ∧ win15_0.index t (1 : Fin 2) = 0
    ∧ (∀ a, win15_1.index t a = 0) ∧ (∀ a, win15_2.index t a = 0) ∧ ((grid15.coords t) 0).val = t.val :=
  (by decide +kernel : ∀ t : Fin grid15.N, _)

abbrev hblk (c : Dev nD) (t : Fin cfg15.N) : Vec Ideal S10000x128 .f32 := iblk15 V c 0 t
abbrev rblk (c : Dev nD) (t : Fin cfg15.N) : Vec Ideal S1x50000 .i32 := iblk15 V c 1 t

abbrev tileOf (t : Fin cfg15.N) : Fin 5 := ⟨t.val, lt_of_lt_of_eq t.isLt N_15⟩

-- Row k of the tile at point t is node k of tile t's row.
theorem hblk_apply (c : Dev nD) (t : Fin cfg15.N) (k : Fin 10000) (l : Fin 128) :
    hblk V c t (ix2 k l : S10000x128.Idx) = V c (Pipeline.arrRef spec15 0) (ix2 (node (tileOf t) k) l : S50000x128.Idx) := by
  obtain ⟨e0, e1, -⟩ := idx15 t
  refine congrArg (V c (Pipeline.arrRef spec15 0)) (funext fun a => Fin.ext ?_)
  match a with
  | ⟨0, _⟩ =>
    show win15_0.index t (0 : Fin 2) * 10000 + 1 * k.val = t.val * 10000 + k.val
    rw [e0]; omega
  | ⟨1, _⟩ =>
    show win15_0.index t (1 : Fin 2) * 128 + 1 * l.val = l.val
    rw [e1]; omega

-- The row block at any point is the whole row.
theorem rblk_apply (c : Dev nD) (t : Fin cfg15.N) (y : S1x50000.Idx) : rblk V c t y = V c (Pipeline.arrRef spec15 1) y :=
  congrArg (V c (Pipeline.arrRef spec15 1)) (funext fun a =>
    Fin.ext (win15_1.rect_emb_val_of_index_zero t a ((idx15 t).2.2.1 a) y))

variable (c : Dev nD) (h : FVec Ideal S50000x128 .f32) (b : IVec S50000 32)
  (hh : V c (Pipeline.arrRef spec15 0) = h)
  (hb : V c (Pipeline.arrRef spec15 1) = shapeCast S1x50000 b shapeCasts_S50000_S1x50000)
include hh hb

-- At point t the body's arithmetic on a running block a is a plus tile t's contribution.
theorem step_value (t : Fin cfg15.N) (a : Vec Ideal S256x128 .f32) (j : S256x128.Idx) :
    k15_pay2 (F := Ideal) (hblk V c t) (lanes (grid15.coords t) (rblk V c t)) a j = a j + tile h b (tileOf t) (j 0) (j 1) := by
  obtain ⟨g, l, rfl⟩ : ∃ (g : Fin 256) (l : Fin 128), j = ix2 g l := ⟨j 0, j 1, eq_ix2 j⟩
  refine (pay2_apply _ _ a g l).trans (congrArg (a (ix2 g l : S256x128.Idx) + ·) (Finset.sum_congr rfl fun k _ => ?_))
  rw [lanes_apply _ _ (tileOf t) (idx15 t).2.2.2.2 k, rblk_apply, hb, row_apply, hblk_apply, hh]
  rfl

-- After point n the result block is the specification's running result.
theorem outsAt_eq : ∀ (n : ℕ) (hn : n < cfg15.N), outsAt15 V c n hn = acc h b n (lt_of_lt_of_eq hn N_15)
  | 0, hn => by
    refine (outsAt15_A V c ⟨0, hn⟩ rfl).trans (out_A.trans (funext fun j => ?_))
    rw [step_value V c h b hh hb ⟨0, hn⟩, pay1_apply]
    rfl
  | n + 1, hn => by
    have hN : cfg15.N = 5 := N_15
    have hB : ¬(⟨n + 1, hn⟩ : Fin cfg15.N).val % 5 = 0 := by dsimp only; omega
    refine (outsAt15_B V c ⟨n + 1, hn⟩ hB).trans (out_B.trans (funext fun j => ?_))
    rw [step_value V c h b hh hb ⟨n + 1, hn⟩]
    exact congrArg (· + _) (congrFun (outsAt_eq n (Nat.lt_of_succ_lt hn)) j)

-- The last point's running result is the pooled array, and its block is the whole result array.
theorem pool15_value : (dat15 (F := Ideal) V c).arrAt 2 cfg15.N = poolM h b := by
  have e : ∀ (t : Fin cfg15.N) (y : S256x128.Idx), ((cfg15.win 2).blk t).view.emb y = y := fun t y =>
    funext fun a => Fin.ext (win15_2.rect_emb_val_of_index_zero t a ((idx15 t).2.2.2.1 a) y)
  refine (dat15 V c).arrAt_eq_of_cover 2 _ (fun t hf => ?_) fun i =>
    ⟨t15_4, (flush15_2 t15_4).mpr rfl, e t15_4 i ▸ ((cfg15.win 2).blk t15_4).view.emb_mem_set i⟩
  have hN : cfg15.N = 5 := N_15
  obtain rfl : t = t15_4 := Fin.ext (show t.val = 4 by have := (flush15_2 t).mp hf; have := t.isLt; omega)
  show (cfg15.win 2).cut (grid15.coords t15_4) ((dat15 V c).after 2 t15_4) = _
  rw [after15_2, outsAt_eq V c h b hh hb,
    show acc h b (t15_4 : Fin cfg15.N).val (lt_of_lt_of_eq (t15_4 : Fin cfg15.N).isLt N_15) = poolM h b from acc_last h b]
  generalize poolM h b = G
  funext y
  show G y = G (((cfg15.win 2).blk t15_4).view.emb y)
  rw [e]

end Value

end Cert.KernelIdeal.RegValue

end
-- ==== Proof.PoolRef.lean ====
import proofs.«424203_j57904749085258_1_alg».proof.Proof.Spec
import proofs.«424203_j57904749085258_1_alg».proof.Proof.PoolSpec
import Idealize.ShloMosaic.Lib.ValueIdx
import Idealize.ShloMosaic.PureOps.Ideal.Laws

noncomputable section

namespace Cert.Gnn

open Idealize.ShloMosaic Idealize.ShloMosaic.ValueIdx Cert.ReferenceIdeal

variable [Cert.ReferenceIdeal.Facts]
open Cert.ReferenceIdeal.Facts₀ Cert.ReferenceIdeal.Facts

-- An update lands on entry i exactly when on every axis its start plus its window coordinate is i's coordinate.
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    rw [Option.some.injEq]
    refine ⟨fun e a => ?_, fun e => funext fun a => Fin.ext ?_⟩
    · have := h a
      rw [← e]
      show _ = (((d.start j idx a + d.window j a).toNat : Nat) : Int)
      omega
    · show (d.start j idx a + d.window j a).toNat = (i a).val
      rw [e a]; rfl
  · rename_i h
    refine ⟨fun e => absurd e (by simp), fun e => (h fun a => ?_).elim⟩
    have := (i a).isLt
    rw [e a]; omega

-- The start of update (n, l) is node n's graph number, read signed, on the row axis and 0 on the column axis.
theorem pool_start_0 (idx : IVec S50000x1 32) (j : S50000x128.Idx) :
    scatter_S256x128_S50000x1_S50000x128_1_0_0_1.start j idx 0 = (idx (ix2 (j 0) (0 : Fin 1) : S50000x1.Idx)).toInt := by
  have h0 : (0 : Fin S256x128.rank) ∈ scatter_S256x128_S50000x1_S50000x128_1_0_0_1.scatterDimsToOperandDims :=
    show (0 : Fin S256x128.rank) ∈ ([0] : List (Fin S256x128.rank)) by decide
  unfold ScatterDims.start
  rw [dif_pos h0]
  congr 2
  funext a
  match a with
  | ⟨0, _⟩ => rfl
  | ⟨1, _⟩ => rfl

theorem pool_start_1 (idx : IVec S50000x1 32) (j : S50000x128.Idx) : scatter_S256x128_S50000x1_S50000x128_1_0_0_1.start j idx 1 = 0 := by
  have h1 : ¬(1 : Fin S256x128.rank) ∈ scatter_S256x128_S50000x1_S50000x128_1_0_0_1.scatterDimsToOperandDims :=
    show ¬(1 : Fin S256x128.rank) ∈ ([0] : List (Fin S256x128.rank)) by decide
  unfold ScatterDims.start
  rw [dif_neg h1]

-- The window coordinate is 0 on the row axis (an inserted axis) and the update's column on the column axis.
theorem pool_window_0 (j : S50000x128.Idx) : scatter_S256x128_S50000x1_S50000x128_1_0_0_1.window j 0 = 0 := by
  have h0 : ¬(0 : Fin S256x128.rank) ∈ scatter_S256x128_S50000x1_S50000x128_1_0_0_1.sKept := show ¬(0 : Fin S256x128.rank) ∈ S256x128.kept [0] by decide
  unfold ScatterDims.window
  rw [dif_neg h0]

theorem pool_window_1 (j : S50000x128.Idx) : scatter_S256x128_S50000x1_S50000x128_1_0_0_1.window j 1 = (j 1).val := by
  have h1 : (1 : Fin S256x128.rank) ∈ scatter_S256x128_S50000x1_S50000x128_1_0_0_1.sKept := show (1 : Fin S256x128.rank) ∈ S256x128.kept [0] by decide
  unfold ScatterDims.window
  rw [dif_pos h1]
  rfl

-- A word read signed is the row number g < 256 exactly when it is the word g.
theorem toInt_eq_row_iff (x : BitVec 32) (g : Fin 256) : x.toInt = (g.val : Int) ↔ x = BitVec.ofNat 32 g.val := by
  have hg : g.val < 256 := g.isLt
  have e : (BitVec.ofNat 32 g.val).toInt = (g.val : Int) := by
    rw [BitVec.toInt_ofNat', Int.bmod_eq_of_le (by omega) (by omega)]
  exact ⟨fun h => BitVec.eq_of_toInt_eq (h.trans e.symm), fun h => h ▸ e⟩

-- Update (n, l) lands on entry i exactly when node n's graph number is the word of i's row and l is i's column.
theorem pool_lands_iff (idx : IVec S50000x1 32) (j : S50000x128.Idx) (i : S256x128.Idx) :
    scatter_S256x128_S50000x1_S50000x128_1_0_0_1.resultIdx? j idx = some i
      ↔ idx (ix2 (j 0) (0 : Fin 1) : S50000x1.Idx) = BitVec.ofNat 32 (i 0).val ∧ j 1 = i 1 := by
  rw [resultIdx?_eq_some_iff, Fin.forall_fin_two, pool_start_0, pool_start_1, pool_window_0, pool_window_1]
  exact and_congr (Iff.trans ⟨fun e => by omega, fun e => by omega⟩ (toInt_eq_row_iff _ (i 0)))
    ⟨fun e => Fin.ext (by omega), fun e => by rw [e, Int.zero_add]⟩

-- Entry i of the reference's pooled array sums, over the nodes whose graph number is the word of i's row, the node's entry at i's column.
theorem pool_ref (h : FVec Ideal S50000x128 .f32) (batch : IVec S50000 32) :
    pool h batch = Cert.PoolSpec.poolM h batch := by
  funext i
  show _ = ∑ n : Fin 50000,
    (if batch (ix1 n : S50000.Idx) = BitVec.ofNat 32 (i 0).val then h (ix2 n (i 1) : S50000x128.Idx) else 0)
  unfold pool Host.scatterAdd
  rw [Ideal.hostScatterAdd_def]
  unfold Ideal.hostScatterAdd
  have hz : broadcastInDim S256x128 ![] bcast_S_S256x128 (constant (F := Ideal) S_ .f32 0x00000000#32) i = 0 :=
    Ideal.ofBits_zero_f32
  rw [hz, zero_add, Finset.sum_filter]
  refine (sum_idx2 (n0 := 50000) (n1 := 128) _).trans (Finset.sum_congr rfl fun n _ => ?_)
  have key : ∀ l : Fin 128,
      scatter_S256x128_S50000x1_S50000x128_1_0_0_1.resultIdx? (ix2 n l : S50000x128.Idx)
          (broadcastInDim S50000x1 ![0] bcast_S50000_S50000x1_0 batch) = some i
        ↔ batch (ix1 n : S50000.Idx) = BitVec.ofNat 32 (i 0).val ∧ l = i 1 := fun l =>
    (pool_lands_iff _ _ i).trans (by
      rw [show broadcastInDim S50000x1 ![0] bcast_S50000_S50000x1_0 batch (ix2 ((ix2 n l : S50000x128.Idx) 0) (0 : Fin 1) : S50000x1.Idx)
        = batch (ix1 n : S50000.Idx) from congrArg batch (funext fun a => by
          match a with
          | ⟨0, _⟩ => rfl)]
      exact Iff.rfl)
  by_cases hA : batch (ix1 n : S50000.Idx) = BitVec.ofNat 32 (i 0).val
  · rw [if_pos hA]
    exact (Finset.sum_eq_single (i 1) (fun l _ hl => if_neg fun e => hl ((key l).mp e).2)
      (fun hn => absurd (Finset.mem_univ _) hn)).trans (if_pos ((key (i 1)).mpr ⟨hA, rfl⟩))
  · rw [if_neg hA]
    exact Finset.sum_eq_zero fun l _ => if_neg fun e => hA ((key l).mp e).1

end Cert.Gnn

end
-- ==== Proof.RegHead.lean ====
import proofs.«424203_j57904749085258_1_alg».proof.Proof.Gen.KernelIdeal.Frame
import proofs.«424203_j57904749085258_1_alg».proof.Proof.Spec
import Idealize.ShloMosaic.Lib.Pipeline.Value
import Idealize.ShloMosaic.Lib.KernelVsHost

noncomputable section

namespace Cert.KernelIdeal.RegValue

open Idealize.ShloMosaic Idealize.ShloMosaic.ValueIdx Idealize.ShloMosaic.TcCoe Idealize.SL.Sem
open Cert.KernelIdeal Cert.KernelIdeal.Gen
open Idealize.ShloMosaic.Pipeline (Dat)

-- A vector laid along each of m rows reads x(t) at (r, t), whichever way it is broadcast.
theorem rowBias_eq {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] hd2 (broadcastInDim ⟨2, ![1, n]⟩ ![1] hd1 x) := by
  funext i
  obtain ⟨r, t, rfl⟩ : ∃ (r : Fin m) (t : Fin n), i = ix2 r t := ⟨i 0, i 1, eq_ix2 i⟩
  have ht : t.val = if n = 1 then 0 else t.val := by have := t.isLt; split <;> omega
  refine (broadcastTo_apply (shapeCast ⟨2, ![1, n]⟩ x h1) hb (ix2 r t) (ix2 (0 : Fin 1) t) fun a => ?_).trans
    ((shapeCast_apply x h1 (ix2 (0 : Fin 1) t) (ix1 t) ?_).trans
      ((broadcastInDim_oneRow_apply hd2 (broadcastInDim ⟨2, ![1, n]⟩ ![1] hd1 x) r t).trans
        (broadcastInDim_apply ![1] hd1 x (ix2 (0 : Fin 1) t) (ix1 t) fun a => ?_)).symm)
  · match a with
    | ⟨0, _⟩ => rfl
    | ⟨1, _⟩ => exact ht
  · rw [Shape.rowMajor_val_two, Shape.rowMajor_val_one]; show t.val = 0 * n + t.val; omega
  · match a with
    | ⟨0, _⟩ => exact ht

-- The body's arithmetic is the reference's head operation by operation: 0 + x = x in the products, and the biases are laid down the rows either way.
theorem head_payload [Cert.ReferenceIdeal.Facts] (p : FVec Ideal S256x128 .f32) (w1 : FVec Ideal S128x64 .f32) (b1 : FVec Ideal S64 .f32)
    (w2 : FVec Ideal S64x1 .f32) (b2 : FVec Ideal S1 .f32) :
    shapeCast S256 (k16_pay1 (F := Ideal) p w1 (shapeCast S1x64 b1 Facts₀.shapeCasts_S64_S1x64) w2
        (shapeCast S1x1 b2 Facts₀.shapeCasts_S1_S1x1)) Facts₀.shapeCasts_S256x1_S256
      = Cert.Gnn.head p w1 b1 w2 b2 := by
  unfold k16_pay1 Cert.Gnn.head
  simp only [shapeCast_self]
  rw [matmul_zero_eq_dotGeneral, matmul_zero_eq_dotGeneral,
    rowBias_eq b1 Facts₀.shapeCasts_S64_S1x64 Gen.broadcasts_S1x64_S256x64
      Cert.ReferenceIdeal.Facts₀.bcast_S64_S1x64_1 Cert.ReferenceIdeal.Facts₀.bcast_S1x64_S256x64_0_1,
    rowBias_eq b2 Facts₀.shapeCasts_S1_S1x1 Gen.broadcasts_S1x1_S256x1
      Cert.ReferenceIdeal.Facts₀.bcast_S1_S1x1_1 Cert.ReferenceIdeal.Facts₀.bcast_S1x1_S256x1_0_1,
    broadcastInDim_constant, broadcastInDim_constant]
  rfl

section Region
variable (V : (c : Dev nD) → (b : Ref sig .tc) → Buf (Elt Ideal) ((c : Thread nD τ).loc b))

theorem hz16 : (![0, 0] : Fin 2 → Nat) = fun _ => 0 := funext fun a => by fin_cases a <;> rfl

-- The index maps, evaluated at the grid's one point.
theorem idx16 : ∀ t : Fin cfg16.N, (∀ a : Fin 2, win16_0.index t a = 0) ∧ (∀ a : Fin 2, win16_1.index t a = 0)
    ∧ (∀ a : Fin 2, win16_2.index t a = 0) ∧ (∀ a : Fin 2, win16_3.index t a = 0) ∧ (∀ a : Fin 2, win16_4.index t a = 0)
    ∧ ∀ a : Fin 2, win16_5.index t a = 0 :=
  (by decide +kernel : ∀ t : Fin grid16.N, _)

section Blocks
variable (c : Dev nD) (t : Fin cfg16.N)

-- Each input block is its whole array: every entry keeps its coordinates.
theorem blk16_0 : (iblk16 (F := Ideal) V c 0 t : FVec Ideal S256x128 .f32) = V c (Pipeline.arrRef spec16 0) :=
  funext fun y => congrArg _ (funext fun a => Fin.ext (win16_0.rect_emb_val_of_index_zero t a ((idx16 t).1 a) y))
theorem blk16_1 : (iblk16 (F := Ideal) V c 1 t : FVec Ideal S128x64 .f32) = V c (Pipeline.arrRef spec16 1) :=
  funext fun y => congrArg _ (funext fun a => Fin.ext (win16_1.rect_emb_val_of_index_zero t a ((idx16 t).2.1 a) y))
theorem blk16_2 : (iblk16 (F := Ideal) V c 2 t : FVec Ideal S1x64 .f32) = V c (Pipeline.arrRef spec16 2) :=
  funext fun y => congrArg _ (funext fun a => Fin.ext (win16_2.rect_emb_val_of_index_zero t a ((idx16 t).2.2.1 a) y))
theorem blk16_3 : (iblk16 (F := Ideal) V c 3 t : FVec Ideal S64x1 .f32) = V c (Pipeline.arrRef spec16 3) :=
  funext fun y => congrArg _ (funext fun a => Fin.ext (win16_3.rect_emb_val_of_index_zero t a ((idx16 t).2.2.2.1 a) y))
theorem blk16_4 : (iblk16 (F := Ideal) V c 4 t : FVec Ideal S1x1 .f32) = V c (Pipeline.arrRef spec16 4) :=
  funext fun y => congrArg _ (funext fun a => Fin.ext (win16_4.rect_emb_val_of_index_zero t a ((idx16 t).2.2.2.2.1 a) y))

-- So is the output block the whole column.
theorem emb16_5 (y : S256x1.Idx) : ((cfg16.win 5).blk t).view.emb y = y :=
  funext fun a => Fin.ext (win16_5.rect_emb_val_of_index_zero t a ((idx16 t).2.2.2.2.2 a) y)

-- So an array cut to that block is the array read through it.
theorem cut16_5 (G : Vec Ideal S256x1 .f32) : (cfg16.win 5).cut (grid16.coords t) G = ((cfg16.win 5).blk t).view.read (Elt Ideal) G :=
  funext fun y => congrArg G (emb16_5 t y).symm

variable {p : FVec Ideal S256x128 .f32} {w1 : FVec Ideal S128x64 .f32} {r1 : FVec Ideal S1x64 .f32} {w2 : FVec Ideal S64x1 .f32}
  {r2 : FVec Ideal S1x1 .f32} (h0 : (V c (Pipeline.arrRef spec16 0) : FVec Ideal S256x128 .f32) = p)
  (h1 : (V c (Pipeline.arrRef spec16 1) : FVec Ideal S128x64 .f32) = w1) (h2 : (V c (Pipeline.arrRef spec16 2) : FVec Ideal S1x64 .f32) = r1)
  (h3 : (V c (Pipeline.arrRef spec16 3) : FVec Ideal S64x1 .f32) = w2) (h4 : (V c (Pipeline.arrRef spec16 4) : FVec Ideal S1x1 .f32) = r2)
include h0 h1 h2 h3 h4

-- After the body the output block is the body's arithmetic on the five arrays.
theorem after16_5_eq : (dat16 (F := Ideal) V c).after 5 t = k16_pay1 (F := Ideal) p w1 r1 w2 r2 := by
  rw [after16_5]
  unfold out16_5
  rw [View.canon_unit_zero hz16]
  simp only [View.ld_unit_zero (S := S256x128) hz16, View.ld_unit_zero (S := S128x64) hz16,
    View.ld_unit_zero (S := S1x64) hz16, View.ld_unit_zero (S := S64x1) hz16, View.ld_unit_zero (S := S1x1) hz16]
  rw [blk16_0 V c t, h0, blk16_1 V c t, h1, blk16_2 V c t, h2, blk16_3 V c t, h3, blk16_4 V c t, h4]

-- The one point's block covers the column, so the column is that point's output block.
theorem arr16_5_eq : ((dat16 (F := Ideal) V c).arrAt 5 cfg16.N : FVec Ideal S256x1 .f32) = k16_pay1 (F := Ideal) p w1 r1 w2 r2 :=
  (dat16 (F := Ideal) V c).arrAt_eq_of_cover 5 _
    (fun t _ => (congrArg ((cfg16.win 5).cut (grid16.coords t)) (after16_5_eq V c t h0 h1 h2 h3 h4)).trans (cut16_5 t _)) fun i =>
    ⟨t16_0, flush16_5 t16_0, emb16_5 t16_0 i ▸ ((cfg16.win 5).blk t16_0).view.emb_mem_set i⟩

end Blocks

-- The output column, cast to a vector, is the reference's head of the five input arrays (the biases as one-row casts).
theorem head16_value [Cert.ReferenceIdeal.Facts] (c : Dev nD) (p : FVec Ideal S256x128 .f32) (w1 : FVec Ideal S128x64 .f32)
    (b1 : FVec Ideal S64 .f32) (w2 : FVec Ideal S64x1 .f32) (b2 : FVec Ideal S1 .f32)
    (h0 : (V c (Pipeline.arrRef spec16 0) : FVec Ideal S256x128 .f32) = p)
    (h1 : (V c (Pipeline.arrRef spec16 1) : FVec Ideal S128x64 .f32) = w1)
    (h2 : (V c (Pipeline.arrRef spec16 2) : FVec Ideal S1x64 .f32) = shapeCast S1x64 b1 Facts₀.shapeCasts_S64_S1x64)
    (h3 : (V c (Pipeline.arrRef spec16 3) : FVec Ideal S64x1 .f32) = w2)
    (h4 : (V c (Pipeline.arrRef spec16 4) : FVec Ideal S1x1 .f32) = shapeCast S1x1 b2 Facts₀.shapeCasts_S1_S1x1) :
    shapeCast S256 ((dat16 (F := Ideal) V c).arrAt 5 cfg16.N : FVec Ideal S256x1 .f32) Facts₀.shapeCasts_S256x1_S256
      = Cert.Gnn.head p w1 b1 w2 b2 := by
  rw [arr16_5_eq V c h0 h1 h2 h3 h4]
  exact head_payload p w1 b1 w2 b2

end Region

end Cert.KernelIdeal.RegValue

end
-- ==== Proof.KTail.lean ====
import proofs.«424203_j57904749085258_1_alg».proof.Proof.Gen.KernelIdeal.Frame
import proofs.«424203_j57904749085258_1_alg».proof.Proof.Spec
import proofs.«424203_j57904749085258_1_alg».proof.Proof.CarryMid
import proofs.«424203_j57904749085258_1_alg».proof.Proof.CarryArgsC
import proofs.«424203_j57904749085258_1_alg».proof.Proof.CarryArgsD
import proofs.«424203_j57904749085258_1_alg».proof.Proof.RegPool
import proofs.«424203_j57904749085258_1_alg».proof.Proof.PoolRef
import proofs.«424203_j57904749085258_1_alg».proof.Proof.RegHead

noncomputable section

namespace Cert.KernelIdeal.KChain

open Idealize.ShloMosaic Idealize.ShloMosaic.TcCoe Idealize.SL.Sem Cert.KernelIdeal Cert.KernelIdeal.Gen
open Cert.KernelIdeal.CarryMid Cert.KernelIdeal.CarryArgsC Cert.KernelIdeal.CarryArgsD

variable [Cert.ReferenceIdeal.Facts]
variable (m : (ℓ : Loc nD τ sig) → Buf (Elt Ideal) ℓ) (ρ : Dev nD → PrngReg)

theorem W29_batch (c : Dev nD) (b : IVec S50000 32) (hb : W28 m ρ c (Proc.devRef .tc main_arg3) = b) :
    W29 m ρ c (Proc.devRef .tc main_v169) = shapeCast S1x50000 b shapeCasts_S50000_S1x50000 := by
  subst hb
  show StableHlo.after hostOps15 (W28 m ρ c) (Proc.devRef .tc main_v169) = _
  after_results_simp
  rfl

theorem W31_rows (c : Dev nD) (b1 : FVec Ideal S64 .f32) (b2 : FVec Ideal S1 .f32)
    (h1 : W30 m ρ c (Proc.devRef .tc main_arg25) = b1) (h2 : W30 m ρ c (Proc.devRef .tc main_arg27) = b2) :
    W31 m ρ c (Proc.devRef .tc main_v171) = shapeCast S1x64 b1 shapeCasts_S64_S1x64
    ∧ W31 m ρ c (Proc.devRef .tc main_v172) = shapeCast S1x1 b2 shapeCasts_S1_S1x1 := by
  subst h1 h2
  refine ⟨?_, ?_⟩ <;>
    (show StableHlo.after hostOps16 (W30 m ρ c) (Proc.devRef .tc _) = _
     after_results_simp
     rfl)

theorem W33_out (c : Dev nD) (o : FVec Ideal S256x1 .f32) (ho : W32 m ρ c (Proc.devRef .tc main_v173) = o) :
    W33 m ρ c (Proc.devRef .tc main_v174) = shapeCast S256 o shapeCasts_S256x1_S256 := by
  subst ho
  show StableHlo.after hostOps17 (W32 m ρ c) (Proc.devRef .tc main_v174) = _
  after_results_simp
  rfl

theorem tail (c : Dev nD) (H5 : FVec Ideal S50000x128 .f32) (hH : W28 m ρ c (Proc.devRef .tc main_v168) = H5) :
    W33 m ρ c (Proc.devRef .tc main_v174)
      = Cert.Gnn.head (Cert.Gnn.pool H5 (m ((c : Thread nD τ).loc main_arg3))) (m ((c : Thread nD τ).loc main_arg24))
          (m ((c : Thread nD τ).loc main_arg25)) (m ((c : Thread nD τ).loc main_arg26)) (m ((c : Thread nD τ).loc main_arg27)) := by
  have hb := W29_batch m ρ c _ (carry_arg3_0_28 m ρ c)
  have hP : W30 m ρ c (Proc.devRef .tc main_v170) = Cert.Gnn.pool H5 (m ((c : Thread nD τ).loc main_arg3)) :=
    (W30_arr m ρ c 2).trans
      ((Cert.KernelIdeal.RegValue.pool15_value (V29 m ρ) c _ _ ((carry_v168_28_29 m ρ c).trans hH) hb).trans
        (Cert.Gnn.pool_ref _ _).symm)
  obtain ⟨hr1, hr2⟩ := W31_rows m ρ c _ _ (carry_arg25_0_30 m ρ c) (carry_arg27_0_30 m ρ c)
  have hO := Cert.KernelIdeal.RegValue.head16_value (V31 m ρ) c _ _ _ _ _ ((carry_v170_30_31 m ρ c).trans hP)
    (carry_arg24_0_31 m ρ c) hr1 (carry_arg26_0_31 m ρ c) hr2
  rw [W33_out m ρ c _ (W32_arr m ρ c 5)]
  exact hO

end Cert.KernelIdeal.KChain

end
-- ==== Proof.PreReal.lean ====
import proofs.«424203_j57904749085258_1_alg».proof.Defs
import proofs.«424203_j57904749085258_1_alg».proof.Proof.SpecGraph
import Idealize.ShloMosaic.Lib.ReduceAll
import Idealize.ShloMosaic.Lib.ValueIdx

noncomputable section

namespace Cert.PreReal

open Idealize.ShloMosaic Idealize.ShloMosaic.ValueIdx Cert.Pre_finite_inputs
open Cert.Gnn (AllReal)

variable [Cert.Pre_finite_inputs.Facts]
open Cert.Pre_finite_inputs.Facts

instance : Subsingleton S_.Idx := ⟨fun a b => funext fun d => d.elim0⟩

-- At the extended reals |x| < +∞ fails at both infinities, so it leaves the real numbers.
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  induction x using EReal.rec with
  | coe r => exact ⟨r, rfl⟩
  | _ => exfalso; revert h; simp [FloatOps.cmpf, FloatOps.hostAbsf, FloatOps.ofBits, Ideal.cmp, Ideal.ofBits, Ideal.ieee]

section Conjunct

variable {S : Shape} {axes : List (Fin S.rank)} {hb : S_.BroadcastsInDim S (![] : Fin 0 → Fin S.rank)} {hr : S.ReducesTo axes S_}
  {hu : 0 < S_.numel} {x : FVec Ideal S .f32} {init a : IVec S_ 1}

-- A conjunction over all entries that is true is true at each: all(|x| < +∞) makes x an array of reals.
theorem allReal_of_check
    (h : Host.reduce IntOp.andi (cmpf .olt (Host.absf x) (broadcastInDim S ![] hb (constant (F := Ideal) S_ .f32 0x7F800000#32))) init hr hu ix0 = 1#1) :
    AllReal x :=
  fun i => real_of_abs_lt (x i) (Host.reduce_andi_all _ init hr hu ix0 h i)

-- One more conjunct: all(|x| < +∞) joined onto a gives the reals of x beside whatever a gives.
theorem real_and {P : Prop}
    (h : andi a (Host.reduce IntOp.andi (cmpf .olt (Host.absf x) (broadcastInDim S ![] hb (constant (F := Ideal) S_ .f32 0x7F800000#32))) init hr hu) ix0 = 1#1)
    (k : a ix0 = 1#1 → P) : P ∧ AllReal x :=
  ⟨k (IntOp.andi_eq_one.1 h).1, allReal_of_check (IntOp.andi_eq_one.1 h).2⟩

end Conjunct

-- The predicate is the conjunction, over the float arguments in order, of all(|x| < +∞).
theorem fn_split {a0 : FVec Ideal S50000x128 .f32} {a2 : FVec Ideal S800000 .f32} {a4 : FVec Ideal S128x16 .f32} {a5 a6 a7 : FVec Ideal S16 .f32} {a8 : FVec Ideal S16x32 .f32} {a9 a10 a11 : FVec Ideal S32 .f32} {a12 : FVec Ideal S32x64 .f32} {a13 a14 a15 a17 a18 a19 a25 : FVec Ideal S64 .f32} {a16 : FVec Ideal S64x64 .f32} {a20 : FVec Ideal S64x128 .f32} {a21 a22 a23 : FVec Ideal S128 .f32} {a24 : FVec Ideal S128x64 .f32} {a26 : FVec Ideal S64x1 .f32} {a27 : FVec Ideal S1 .f32} {a1 : IVec S2x800000 32} {a3 : IVec S50000 32}
    (h : fn (F := Ideal) a0 a1 a2 a3 a4 a5 a6 a7 a8 a9 a10 a11 a12 a13 a14 a15 a16 a17 a18 a19 a20 a21 a22 a23 a24 a25 a26 a27 = fun _ => 1#1) :
    ((((((((((((((((((((((((AllReal a0 ∧ AllReal a2) ∧ AllReal a4) ∧ AllReal a5) ∧ AllReal a6) ∧ AllReal a7) ∧ AllReal a8) ∧ AllReal a9) ∧ AllReal a10) ∧ AllReal a11) ∧ AllReal a12) ∧ AllReal a13) ∧ AllReal a14) ∧ AllReal a15) ∧ AllReal a16) ∧ AllReal a17) ∧ AllReal a18) ∧ AllReal a19) ∧ AllReal a20) ∧ AllReal a21) ∧ AllReal a22) ∧ AllReal a23) ∧ AllReal a24) ∧ AllReal a25) ∧ AllReal a26) ∧ AllReal a27 := by
  replace h := congrFun h ix0
  dsimp only [fn, fn_part1, fn_part2, fn_part3, fn_part4, fn_part5, fn_part6, fn_part7] at h
  iterate 24 refine real_and h fun h => ?_
  exact real_and h allReal_of_check

section Memory

open Idealize.SL.Sem Cert.KernelIdeal

variable (m : (ℓ : Loc nD τ sig) → Buf (Elt Ideal) ℓ) (hpre : Cert.Pre_KernelIdeal m) (c : Dev nD)
include hpre

theorem pre_real_arg0 : AllReal (m ((c.tc : Thread nD τ).loc main_arg0)) := (fn_split (hpre c)).1.1.1.1.1.1.1.1.1.1.1.1.1.1.1.1.1.1.1.1.1.1.1.1.1
theorem pre_real_arg2 : AllReal (m ((c.tc : Thread nD τ).loc main_arg2)) := (fn_split (hpre c)).1.1.1.1.1.1.1.1.1.1.1.1.1.1.1.1.1.1.1.1.1.1.1.1.2
theorem pre_real_arg4 : AllReal (m ((c.tc : Thread nD τ).loc main_arg4)) := (fn_split (hpre c)).1.1.1.1.1.1.1.1.1.1.1.1.1.1.1.1.1.1.1.1.1.1.1.2
theorem pre_real_arg5 : AllReal (m ((c.tc : Thread nD τ).loc main_arg5)) := (fn_split (hpre c)).1.1.1.1.1.1.1.1.1.1.1.1.1.1.1.1.1.1.1.1.1.1.2
theorem pre_real_arg6 : AllReal (m ((c.tc : Thread nD τ).loc main_arg6)) := (fn_split (hpre c)).1.1.1.1.1.1.1.1.1.1.1.1.1.1.1.1.1.1.1.1.1.2
theorem pre_real_arg7 : AllReal (m ((c.tc : Thread nD τ).loc main_arg7)) := (fn_split (hpre c)).1.1.1.1.1.1.1.1.1.1.1.1.1.1.1.1.1.1.1.1.2
theorem pre_real_arg8 : AllReal (m ((c.tc : Thread nD τ).loc main_arg8)) := (fn_split (hpre c)).1.1.1.1.1.1.1.1.1.1.1.1.1.1.1.1.1.1.1.2
theorem pre_real_arg9 : AllReal (m ((c.tc : Thread nD τ).loc main_arg9)) := (fn_split (hpre c)).1.1.1.1.1.1.1.1.1.1.1.1.1.1.1.1.1.1.2
theorem pre_real_arg10 : AllReal (m ((c.tc : Thread nD τ).loc main_arg10)) := (fn_split (hpre c)).1.1.1.1.1.1.1.1.1.1.1.1.1.1.1.1.1.2
theorem pre_real_arg11 : AllReal (m ((c.tc : Thread nD τ).loc main_arg11)) := (fn_split (hpre c)).1.1.1.1.1.1.1.1.1.1.1.1.1.1.1.1.2
theorem pre_real_arg12 : AllReal (m ((c.tc : Thread nD τ).loc main_arg12)) := (fn_split (hpre c)).1.1.1.1.1.1.1.1.1.1.1.1.1.1.1.2
theorem pre_real_arg13 : AllReal (m ((c.tc : Thread nD τ).loc main_arg13)) := (fn_split (hpre c)).1.1.1.1.1.1.1.1.1.1.1.1.1.1.2
theorem pre_real_arg14 : AllReal (m ((c.tc : Thread nD τ).loc main_arg14)) := (fn_split (hpre c)).1.1.1.1.1.1.1.1.1.1.1.1.1.2
theorem pre_real_arg15 : AllReal (m ((c.tc : Thread nD τ).loc main_arg15)) := (fn_split (hpre c)).1.1.1.1.1.1.1.1.1.1.1.1.2
theorem pre_real_arg16 : AllReal (m ((c.tc : Thread nD τ).loc main_arg16)) := (fn_split (hpre c)).1.1.1.1.1.1.1.1.1.1.1.2
theorem pre_real_arg17 : AllReal (m ((c.tc : Thread nD τ).loc main_arg17)) := (fn_split (hpre c)).1.1.1.1.1.1.1.1.1.1.2
theorem pre_real_arg18 : AllReal (m ((c.tc : Thread nD τ).loc main_arg18)) := (fn_split (hpre c)).1.1.1.1.1.1.1.1.1.2
theorem pre_real_arg19 : AllReal (m ((c.tc : Thread nD τ).loc main_arg19)) := (fn_split (hpre c)).1.1.1.1.1.1.1.1.2
theorem pre_real_arg20 : AllReal (m ((c.tc : Thread nD τ).loc main_arg20)) := (fn_split (hpre c)).1.1.1.1.1.1.1.2
theorem pre_real_arg21 : AllReal (m ((c.tc : Thread nD τ).loc main_arg21)) := (fn_split (hpre c)).1.1.1.1.1.1.2
theorem pre_real_arg22 : AllReal (m ((c.tc : Thread nD τ).loc main_arg22)) := (fn_split (hpre c)).1.1.1.1.1.2
theorem pre_real_arg23 : AllReal (m ((c.tc : Thread nD τ).loc main_arg23)) := (fn_split (hpre c)).1.1.1.1.2

end Memory

end Cert.PreReal

end
-- ==== Proof.KValue.lean ====
import proofs.«424203_j57904749085258_1_alg».proof.Defs
import proofs.«424203_j57904749085258_1_alg».proof.Proof.KLayer1
import proofs.«424203_j57904749085258_1_alg».proof.Proof.KLayer2
import proofs.«424203_j57904749085258_1_alg».proof.Proof.KLayer3
import proofs.«424203_j57904749085258_1_alg».proof.Proof.KLayer4
import proofs.«424203_j57904749085258_1_alg».proof.Proof.KLayer5
import proofs.«424203_j57904749085258_1_alg».proof.Proof.KTail
import proofs.«424203_j57904749085258_1_alg».proof.Proof.PreReal

noncomputable section

namespace Cert.KernelIdeal.KChain

open Idealize.ShloMosaic Idealize.ShloMosaic.TcCoe Idealize.SL.Sem Cert.KernelIdeal Cert.KernelIdeal.Gen
open Cert.KernelIdeal.CarryArgsA

variable [Cert.ReferenceIdeal.Facts] [Cert.Pre_finite_inputs.Facts]
variable (m : (ℓ : Loc nD τ sig) → Buf (Elt Ideal) ℓ) (ρ : Dev nD → PrngReg)

abbrev netOf (c : Dev nD) :=
  Cert.Gnn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))

theorem kernel_value (hpre : Cert.Pre_KernelIdeal m) (c : Dev nD) :
    W33 m ρ c (Proc.devRef .tc main_v174) = netOf m c := by
  obtain ⟨e1, r1⟩ := layer1 m ρ c _ (carry_arg0_0_3 m ρ c) (Cert.PreReal.pre_real_arg0 m hpre c) (Cert.PreReal.pre_real_arg2 m hpre c) (Cert.PreReal.pre_real_arg4 m hpre c) (Cert.PreReal.pre_real_arg5 m hpre c) (Cert.PreReal.pre_real_arg6 m hpre c) (Cert.PreReal.pre_real_arg7 m hpre c)
  obtain ⟨e2, r2⟩ := layer2 m ρ c _ e1 r1 (Cert.PreReal.pre_real_arg2 m hpre c) (Cert.PreReal.pre_real_arg8 m hpre c) (Cert.PreReal.pre_real_arg9 m hpre c) (Cert.PreReal.pre_real_arg10 m hpre c) (Cert.PreReal.pre_real_arg11 m hpre c)
  obtain ⟨e3, r3⟩ := layer3 m ρ c _ e2 r2 (Cert.PreReal.pre_real_arg2 m hpre c) (Cert.PreReal.pre_real_arg12 m hpre c) (Cert.PreReal.pre_real_arg13 m hpre c) (Cert.PreReal.pre_real_arg14 m hpre c) (Cert.PreReal.pre_real_arg15 m hpre c)
  obtain ⟨e4, r4⟩ := layer4 m ρ c _ e3 r3 (Cert.PreReal.pre_real_arg2 m hpre c) (Cert.PreReal.pre_real_arg16 m hpre c) (Cert.PreReal.pre_real_arg17 m hpre c) (Cert.PreReal.pre_real_arg18 m hpre c) (Cert.PreReal.pre_real_arg19 m hpre c)
  obtain ⟨e5, r5⟩ := layer5 m ρ c _ e4 r4 (Cert.PreReal.pre_real_arg2 m hpre c) (Cert.PreReal.pre_real_arg20 m hpre c) (Cert.PreReal.pre_real_arg21 m hpre c) (Cert.PreReal.pre_real_arg22 m hpre c) (Cert.PreReal.pre_real_arg23 m hpre c)
  exact tail m ρ c _ e5

end Cert.KernelIdeal.KChain

end
-- ==== Proof.RefRunOps.lean ====
import proofs.«424203_j57904749085258_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

abbrev c00 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S50000 ![] bcast_S_S50000),
    binary main_arg2 main_v7 main_v8 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)) ]

abbrev c01 : List (HloOp τ sig (Elt F)) :=
  [ nullary main_cst_0 (constant S_ .f32 0x00000000#32),
    unary main_cst_0 main_v9 (broadcastInDim S50000 ![] bcast_S_S50000),
    unary main_v6 main_v10 (broadcastInDim S850000x1 ![0] bcast_S850000_S850000x1_0),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000),
    binary main_v11 main_v12 main_v13 (cmpf .ogt),
    nullary main_cst_2 (constant S_ .f32 0x2B8CBCCC#32),
    unary main_cst_2 main_v14 (broadcastInDim S50000 ![] bcast_S_S50000),
    binary main_v11 main_v14 main_v15 (maximumf),
    unary main_v15 main_v16 (Host.rsqrt),
    nullary main_cst_3 (constant S_ .f32 0x00000000#32),
    unary main_cst_3 main_call0_v0 (id),
    unary main_call0_v0 main_call0_v1 ((broadcastInDim S50000 ![] bcast_S_S50000)),
    ternary main_v13 main_v16 main_call0_v1 main_v17 (select) ]

abbrev c02 : List (HloOp τ sig (Elt F)) :=
  [ nullary main_c (constantI S_ 32 0#32),
    unary main_c main_v18 (broadcastInDim S850000 ![] bcast_S_S850000),
    binary main_v3 main_v18 main_v19 (cmpi .slt),
    nullary main_c_4 (constantI S_ 32 50000#32),
    unary main_c_4 main_v20 (broadcastInDim S850000 ![] bcast_S_S850000),
    binary main_v3 main_v20 main_v21 (addi),
    ternary main_v19 main_v21 main_v3 main_v22 (select),
    unary main_v22 main_v23 (broadcastInDim S850000x1 ![0] bcast_S850000_S850000x1_0),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v8 main_v25 (mulf),
    nullary main_c_5 (constantI S_ 32 0#32),
    unary main_c_5 main_v26 (broadcastInDim S850000 ![] bcast_S_S850000),
    binary main_v6 main_v26 main_v27 (cmpi .slt),
    nullary main_c_6 (constantI S_ 32 50000#32),
    unary main_c_6 main_v28 (broadcastInDim S850000 ![] bcast_S_S850000),
    binary main_v6 main_v28 main_v29 (addi),
    ternary main_v27 main_v29 main_v6 main_v30 (select),
    unary main_v30 main_v31 (broadcastInDim S850000x1 ![0] bcast_S850000_S850000x1_0),
    binary main_v17 main_v31 main_v32 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v25 main_v32 main_v33 (mulf) ]

abbrev c03 : List (HloOp τ sig (Elt F)) :=
  [ binary main_arg0 main_arg4 main_v34 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    nullary main_c_7 (constantI S_ 32 0#32),
    unary main_c_7 main_v35 (broadcastInDim S850000 ![] bcast_S_S850000),
    binary main_v3 main_v35 main_v36 (cmpi .slt),
    nullary main_c_8 (constantI S_ 32 50000#32),
    unary main_c_8 main_v37 (broadcastInDim S850000 ![] bcast_S_S850000),
    binary main_v3 main_v37 main_v38 (addi),
    ternary main_v36 main_v38 main_v3 main_v39 (select),
    unary main_v39 main_v40 (broadcastInDim S850000x1 ![0] bcast_S850000_S850000x1_0),
    binary main_v34 main_v40 main_v41 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v33 main_v42 (broadcastInDim S850000x1 ![0] bcast_S850000_S850000x1_0),
    unary main_v42 main_v43 (broadcastInDim S850000x16 ![0, 1] bcast_S850000x1_S850000x16_0_1),
    binary main_v41 main_v43 main_v44 (mulf),
    nullary main_cst_9 (constant S_ .f32 0x00000000#32),
    unary main_cst_9 main_v45 (broadcastInDim S50000x16 ![] bcast_S_S50000x16),
    unary main_v6 main_v46 (broadcastInDim S850000x1 ![0] bcast_S850000_S850000x1_0),
    ternary main_v45 main_v46 main_v44 main_v47 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)) ]

abbrev c04 : List (HloOp τ sig (Elt F)) :=
  [ unary main_arg5 main_v48 (broadcastInDim S1x16 ![1] bcast_S16_S1x16_1),
    unary main_v48 main_v49 (broadcastInDim S50000x16 ![0, 1] bcast_S1x16_S50000x16_0_1),
    binary main_v47 main_v49 main_v50 (addf) ]

abbrev c05 : List (HloOp τ sig (Elt F)) :=
  [ nullary main_call1_cst (constant S_ .f32 0x00000000#32),
    unary main_call1_cst main_call1_v0 ((broadcastInDim S50000x16 ![] bcast_S_S50000x16)),
    binary main_v50 main_call1_v0 main_v51 (maximumf) ]

abbrev c06 : List (HloOp τ sig (Elt F)) :=
  [ nullary main_cst_10 (constant S_ .f32 0x00000000#32),
    binary main_v51 main_cst_10 main_v52 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F)),
    nullary main_cst_11 (constant S_ .f32 0x47435000#32),
    unary main_cst_11 main_v53 (broadcastInDim S16 ![] bcast_S_S16),
    binary main_v52 main_v53 main_v54 (Host.divf),
    nullary main_c_12 (constantI S_ 32 0#32),
    nullary main_call2_cst (constant S_ .f32 0x00000000#32),
    binary main_v51 main_call2_cst main_call2_v0 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F)),
    unary main_call2_v0 main_call2_v1 ((broadcastInDim S1x16 ![1] bcast_S16_S1x16_1)),
    nullary main_call2_cst_0 (constant S_ .f32 0x47435000#32),
    unary main_call2_cst_0 main_call2_v2 ((broadcastInDim S1x16 ![] bcast_S_S1x16)),
    binary main_call2_v1 main_call2_v2 main_call2_v3 (Host.divf),
    unary main_call2_v3 main_call2_v4 ((broadcastInDim S50000x16 ![0, 1] bcast_S1x16_S50000x16_0_1)),
    binary main_v51 main_call2_v4 main_call2_v5 (subf),
    binary main_call2_v5 main_call2_v5 main_call2_v6 (mulf),
    unary main_c_12 main_call2_v7 ((sitofp .f32)),
    nullary main_call2_cst_1 (constant S_ .f32 0x47435000#32),
    binary main_call2_cst_1 main_call2_v7 main_call2_v8 (subf),
    nullary main_call2_cst_2 (constant S_ .f32 0x00000000#32),
    binary main_call2_v6 main_call2_cst_2 main_call2_v9 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F)),
    unary main_call2_v8 main_call2_v10 ((broadcastInDim S16 ![] bcast_S_S16)),
    binary main_call2_v9 main_call2_v10 main_call2_v11 (Host.divf),
    nullary main_call2_cst_3 (constant S_ .f32 0x00000000#32),
    binary main_call2_v8 main_call2_cst_3 main_call2_v12 ((cmpf .ogt)),
    nullary main_call2_cst_4 (constant S_ .f32 0x7FC00000#32),
    unary main_call2_cst_4 main_call2_call0_v0 (id),
    unary main_call2_call0_v0 main_call2_call0_v1 ((broadcastInDim S16 ![] bcast_S_S16)),
    ternary main_call2_v12 main_call2_v11 main_call2_call0_v1 main_v55 ((fun p a b => select (broadcastInDim S16 ![] bcast_S_S16 p) a b) : (⟨S_, .i1⟩ : BufTy).Contents (Elt F) → (⟨S16, .f32⟩ : BufTy).Contents (Elt F) → (⟨S16, .f32⟩ : BufTy).Contents (Elt F) → (⟨S16, .f32⟩ : BufTy).Contents (Elt F)),
    unary main_v54 main_v56 (broadcastInDim S1x16 ![1] bcast_S16_S1x16_1),
    unary main_v56 main_v57 (broadcastInDim S50000x16 ![0, 1] bcast_S1x16_S50000x16_0_1),
    binary main_v51 main_v57 main_v58 (subf),
    unary main_arg6 main_v59 (broadcastInDim S1x16 ![1] bcast_S16_S1x16_1),
    unary main_v59 main_v60 (broadcastInDim S50000x16 ![0, 1] bcast_S1x16_S50000x16_0_1),
    binary main_v60 main_v58 main_v61 (mulf),
    nullary main_cst_13 (constant S_ .f32 0x3727C5AC#32),
    unary main_cst_13 main_v62 (broadcastInDim S16 ![] bcast_S_S16),
    binary main_v55 main_v62 main_v63 (addf),
    unary main_v63 main_v64 (Host.rsqrt),
    unary main_v64 main_v65 (broadcastInDim S1x16 ![1] bcast_S16_S1x16_1),
    unary main_v65 main_v66 (broadcastInDim S50000x16 ![0, 1] bcast_S1x16_S50000x16_0_1),
    binary main_v61 main_v66 main_v67 (mulf),
    unary main_arg7 main_v68 (broadcastInDim S1x16 ![1] bcast_S16_S1x16_1),
    unary main_v68 main_v69 (broadcastInDim S50000x16 ![0, 1] bcast_S1x16_S50000x16_0_1),
    binary main_v67 main_v69 main_v70 (addf) ]

abbrev c07 : List (HloOp τ sig (Elt F)) :=
  [ binary main_v70 main_arg8 main_v71 ((fun l r => Host.dotGeneral dot_S50000x16_S16x32_S50000x32_1_0_0_1_n_n none l r) : (⟨S50000x16, .f32⟩ : BufTy).Contents (Elt F) → (⟨S16x32, .f32⟩ : BufTy).Contents (Elt F) → (⟨S50000x32, .f32⟩ : BufTy).Contents (Elt F)),
    nullary main_c_14 (constantI S_ 32 0#32),
    unary main_c_14 main_v72 (broadcastInDim S850000 ![] bcast_S_S850000),
    binary main_v3 main_v72 main_v73 (cmpi .slt),
    nullary main_c_15 (constantI S_ 32 50000#32),
    unary main_c_15 main_v74 (broadcastInDim S850000 ![] bcast_S_S850000),
    binary main_v3 main_v74 main_v75 (addi),
    ternary main_v73 main_v75 main_v3 main_v76 (select),
    unary main_v76 main_v77 (broadcastInDim S850000x1 ![0] bcast_S850000_S850000x1_0),
    binary main_v71 main_v77 main_v78 ((fun x i => Host.gather gather_S50000x32_S850000x1_S850000x32_1_0_n_n_0_1_132 x i) : (⟨S50000x32, .f32⟩ : BufTy).Contents (Elt F) → (⟨S850000x1, .i32⟩ : BufTy).Contents (Elt F) → (⟨S850000x32, .f32⟩ : BufTy).Contents (Elt F)),
    unary main_v33 main_v79 (broadcastInDim S850000x1 ![0] bcast_S850000_S850000x1_0),
    unary main_v79 main_v80 (broadcastInDim S850000x32 ![0, 1] bcast_S850000x1_S850000x32_0_1),
    binary main_v78 main_v80 main_v81 (mulf),
    nullary main_cst_16 (constant S_ .f32 0x00000000#32),
    unary main_cst_16 main_v82 (broadcastInDim S50000x32 ![] bcast_S_S50000x32),
    unary main_v6 main_v83 (broadcastInDim S850000x1 ![0] bcast_S850000_S850000x1_0),
    ternary main_v82 main_v83 main_v81 main_v84 ((fun x i u => Host.scatterAdd scatter_S50000x32_S850000x1_S850000x32_1_0_0_1 x i u) : (⟨S50000x32, .f32⟩ : BufTy).Contents (Elt F) → (⟨S850000x1, .i32⟩ : BufTy).Contents (Elt F) → (⟨S850000x32, .f32⟩ : BufTy).Contents (Elt F) → (⟨S50000x32, .f32⟩ : BufTy).Contents (Elt F)),
    unary main_arg9 main_v85 (broadcastInDim S1x32 ![1] bcast_S32_S1x32_1),
    unary main_v85 main_v86 (broadcastInDim S50000x32 ![0, 1] bcast_S1x32_S50000x32_0_1),
    binary main_v84 main_v86 main_v87 (addf) ]

abbrev c08 : List (HloOp τ sig (Elt F)) :=
  [ nullary main_call3_cst (constant S_ .f32 0x00000000#32),
    unary main_call3_cst main_call3_v0 ((broadcastInDim S50000x32 ![] bcast_S_S50000x32)),
    binary main_v87 main_call3_v0 main_v88 (maximumf) ]

abbrev c09 : List (HloOp τ sig (Elt F)) :=
  [ nullary main_cst_17 (constant S_ .f32 0x00000000#32),
    binary main_v88 main_cst_17 main_v89 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    nullary main_cst_18 (constant S_ .f32 0x47435000#32),
    unary main_cst_18 main_v90 (broadcastInDim S32 ![] bcast_S_S32),
    binary main_v89 main_v90 main_v91 (Host.divf),
    nullary main_c_19 (constantI S_ 32 0#32),
    nullary main_call4_cst (constant S_ .f32 0x00000000#32),
    binary main_v88 main_call4_cst main_call4_v0 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    unary main_call4_v0 main_call4_v1 ((broadcastInDim S1x32 ![1] bcast_S32_S1x32_1)),
    nullary main_call4_cst_0 (constant S_ .f32 0x47435000#32),
    unary main_call4_cst_0 main_call4_v2 ((broadcastInDim S1x32 ![] bcast_S_S1x32)),
    binary main_call4_v1 main_call4_v2 main_call4_v3 (Host.divf),
    unary main_call4_v3 main_call4_v4 ((broadcastInDim S50000x32 ![0, 1] bcast_S1x32_S50000x32_0_1)),
    binary main_v88 main_call4_v4 main_call4_v5 (subf),
    binary main_call4_v5 main_call4_v5 main_call4_v6 (mulf),
    unary main_c_19 main_call4_v7 ((sitofp .f32)),
    nullary main_call4_cst_1 (constant S_ .f32 0x47435000#32),
    binary main_call4_cst_1 main_call4_v7 main_call4_v8 (subf),
    nullary main_call4_cst_2 (constant S_ .f32 0x00000000#32),
    binary main_call4_v6 main_call4_cst_2 main_call4_v9 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    unary main_call4_v8 main_call4_v10 ((broadcastInDim S32 ![] bcast_S_S32)),
    binary main_call4_v9 main_call4_v10 main_call4_v11 (Host.divf),
    nullary main_call4_cst_3 (constant S_ .f32 0x00000000#32),
    binary main_call4_v8 main_call4_cst_3 main_call4_v12 ((cmpf .ogt)),
    nullary main_call4_cst_4 (constant S_ .f32 0x7FC00000#32),
    unary main_call4_cst_4 main_call4_call0_v0 (id),
    unary main_call4_call0_v0 main_call4_call0_v1 ((broadcastInDim S32 ![] bcast_S_S32)),
    ternary main_call4_v12 main_call4_v11 main_call4_call0_v1 main_v92 ((fun p a b => select (broadcastInDim S32 ![] bcast_S_S32 p) a b) : (⟨S_, .i1⟩ : BufTy).Contents (Elt F) → (⟨S32, .f32⟩ : BufTy).Contents (Elt F) → (⟨S32, .f32⟩ : BufTy).Contents (Elt F) → (⟨S32, .f32⟩ : BufTy).Contents (Elt F)),
    unary main_v91 main_v93 (broadcastInDim S1x32 ![1] bcast_S32_S1x32_1),
    unary main_v93 main_v94 (broadcastInDim S50000x32 ![0, 1] bcast_S1x32_S50000x32_0_1),
    binary main_v88 main_v94 main_v95 (subf),
    unary main_arg10 main_v96 (broadcastInDim S1x32 ![1] bcast_S32_S1x32_1),
    unary main_v96 main_v97 (broadcastInDim S50000x32 ![0, 1] bcast_S1x32_S50000x32_0_1) ]

abbrev c10 : List (HloOp τ sig (Elt F)) :=
  [ binary main_v97 main_v95 main_v98 (mulf),
    nullary main_cst_20 (constant S_ .f32 0x3727C5AC#32),
    unary main_cst_20 main_v99 (broadcastInDim S32 ![] bcast_S_S32),
    binary main_v92 main_v99 main_v100 (addf),
    unary main_v100 main_v101 (Host.rsqrt),
    unary main_v101 main_v102 (broadcastInDim S1x32 ![1] bcast_S32_S1x32_1),
    unary main_v102 main_v103 (broadcastInDim S50000x32 ![0, 1] bcast_S1x32_S50000x32_0_1),
    binary main_v98 main_v103 main_v104 (mulf),
    unary main_arg11 main_v105 (broadcastInDim S1x32 ![1] bcast_S32_S1x32_1),
    unary main_v105 main_v106 (broadcastInDim S50000x32 ![0, 1] bcast_S1x32_S50000x32_0_1),
    binary main_v104 main_v106 main_v107 (addf) ]

abbrev c11 : List (HloOp τ sig (Elt F)) :=
  [ binary main_v107 main_arg12 main_v108 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    nullary main_c_21 (constantI S_ 32 0#32),
    unary main_c_21 main_v109 (broadcastInDim S850000 ![] bcast_S_S850000),
    binary main_v3 main_v109 main_v110 (cmpi .slt),
    nullary main_c_22 (constantI S_ 32 50000#32),
    unary main_c_22 main_v111 (broadcastInDim S850000 ![] bcast_S_S850000),
    binary main_v3 main_v111 main_v112 (addi),
    ternary main_v110 main_v112 main_v3 main_v113 (select),
    unary main_v113 main_v114 (broadcastInDim S850000x1 ![0] bcast_S850000_S850000x1_0),
    binary main_v108 main_v114 main_v115 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v33 main_v116 (broadcastInDim S850000x1 ![0] bcast_S850000_S850000x1_0),
    unary main_v116 main_v117 (broadcastInDim S850000x64 ![0, 1] bcast_S850000x1_S850000x64_0_1),
    binary main_v115 main_v117 main_v118 (mulf),
    nullary main_cst_23 (constant S_ .f32 0x00000000#32),
    unary main_cst_23 main_v119 (broadcastInDim S50000x64 ![] bcast_S_S50000x64),
    unary main_v6 main_v120 (broadcastInDim S850000x1 ![0] bcast_S850000_S850000x1_0),
    ternary main_v119 main_v120 main_v118 main_v121 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg13 main_v122 (broadcastInDim S1x64 ![1] bcast_S64_S1x64_1),
    unary main_v122 main_v123 (broadcastInDim S50000x64 ![0, 1] bcast_S1x64_S50000x64_0_1),
    binary main_v121 main_v123 main_v124 (addf) ]

abbrev c12 : List (HloOp τ sig (Elt F)) :=
  [ nullary main_call5_cst (constant S_ .f32 0x00000000#32),
    unary main_call5_cst main_call5_v0 ((broadcastInDim S50000x64 ![] bcast_S_S50000x64)),
    binary main_v124 main_call5_v0 main_v125 (maximumf) ]

abbrev c13 : List (HloOp τ sig (Elt F)) :=
  [ nullary main_cst_24 (constant S_ .f32 0x00000000#32),
    binary main_v125 main_cst_24 main_v126 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_25 (constant S_ .f32 0x47435000#32),
    unary main_cst_25 main_v127 (broadcastInDim S64 ![] bcast_S_S64),
    binary main_v126 main_v127 main_v128 (Host.divf),
    nullary main_c_26 (constantI S_ 32 0#32),
    nullary main_call6_cst (constant S_ .f32 0x00000000#32),
    binary main_v125 main_call6_cst main_call6_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call6_v0 main_call6_v1 ((broadcastInDim S1x64 ![1] bcast_S64_S1x64_1)),
    nullary main_call6_cst_0 (constant S_ .f32 0x47435000#32),
    unary main_call6_cst_0 main_call6_v2 ((broadcastInDim S1x64 ![] bcast_S_S1x64)),
    binary main_call6_v1 main_call6_v2 main_call6_v3 (Host.divf),
    unary main_call6_v3 main_call6_v4 ((broadcastInDim S50000x64 ![0, 1] bcast_S1x64_S50000x64_0_1)),
    binary main_v125 main_call6_v4 main_call6_v5 (subf),
    binary main_call6_v5 main_call6_v5 main_call6_v6 (mulf),
    unary main_c_26 main_call6_v7 ((sitofp .f32)),
    nullary main_call6_cst_1 (constant S_ .f32 0x47435000#32),
    binary main_call6_cst_1 main_call6_v7 main_call6_v8 (subf),
    nullary main_call6_cst_2 (constant S_ .f32 0x00000000#32),
    binary main_call6_v6 main_call6_cst_2 main_call6_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call6_v8 main_call6_v10 ((broadcastInDim S64 ![] bcast_S_S64)),
    binary main_call6_v9 main_call6_v10 main_call6_v11 (Host.divf),
    nullary main_call6_cst_3 (constant S_ .f32 0x00000000#32),
    binary main_call6_v8 main_call6_cst_3 main_call6_v12 ((cmpf .ogt)),
    nullary main_call6_cst_4 (constant S_ .f32 0x7FC00000#32),
    unary main_call6_cst_4 main_call6_call0_v0 (id),
    unary main_call6_call0_v0 main_call6_call0_v1 ((broadcastInDim S64 ![] bcast_S_S64)),
    ternary main_call6_v12 main_call6_v11 main_call6_call0_v1 main_v129 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v128 main_v130 (broadcastInDim S1x64 ![1] bcast_S64_S1x64_1),
    unary main_v130 main_v131 (broadcastInDim S50000x64 ![0, 1] bcast_S1x64_S50000x64_0_1),
    binary main_v125 main_v131 main_v132 (subf),
    unary main_arg14 main_v133 (broadcastInDim S1x64 ![1] bcast_S64_S1x64_1),
    unary main_v133 main_v134 (broadcastInDim S50000x64 ![0, 1] bcast_S1x64_S50000x64_0_1),
    binary main_v134 main_v132 main_v135 (mulf),
    nullary main_cst_27 (constant S_ .f32 0x3727C5AC#32),
    unary main_cst_27 main_v136 (broadcastInDim S64 ![] bcast_S_S64),
    binary main_v129 main_v136 main_v137 (addf),
    unary main_v137 main_v138 (Host.rsqrt),
    unary main_v138 main_v139 (broadcastInDim S1x64 ![1] bcast_S64_S1x64_1),
    unary main_v139 main_v140 (broadcastInDim S50000x64 ![0, 1] bcast_S1x64_S50000x64_0_1),
    binary main_v135 main_v140 main_v141 (mulf),
    unary main_arg15 main_v142 (broadcastInDim S1x64 ![1] bcast_S64_S1x64_1),
    unary main_v142 main_v143 (broadcastInDim S50000x64 ![0, 1] bcast_S1x64_S50000x64_0_1),
    binary main_v141 main_v143 main_v144 (addf) ]

abbrev c14 : List (HloOp τ sig (Elt F)) :=
  [ binary main_v144 main_arg16 main_v145 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_28 (constantI S_ 32 0#32),
    unary main_c_28 main_v146 (broadcastInDim S850000 ![] bcast_S_S850000),
    binary main_v3 main_v146 main_v147 (cmpi .slt),
    nullary main_c_29 (constantI S_ 32 50000#32) ]

abbrev c15 : List (HloOp τ sig (Elt F)) :=
  [ unary main_c_29 main_v148 (broadcastInDim S850000 ![] bcast_S_S850000),
    binary main_v3 main_v148 main_v149 (addi),
    ternary main_v147 main_v149 main_v3 main_v150 (select),
    unary main_v150 main_v151 (broadcastInDim S850000x1 ![0] bcast_S850000_S850000x1_0),
    binary main_v145 main_v151 main_v152 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v33 main_v153 (broadcastInDim S850000x1 ![0] bcast_S850000_S850000x1_0),
    unary main_v153 main_v154 (broadcastInDim S850000x64 ![0, 1] bcast_S850000x1_S850000x64_0_1),
    binary main_v152 main_v154 main_v155 (mulf),
    nullary main_cst_30 (constant S_ .f32 0x00000000#32),
    unary main_cst_30 main_v156 (broadcastInDim S50000x64 ![] bcast_S_S50000x64),
    unary main_v6 main_v157 (broadcastInDim S850000x1 ![0] bcast_S850000_S850000x1_0),
    ternary main_v156 main_v157 main_v155 main_v158 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg17 main_v159 (broadcastInDim S1x64 ![1] bcast_S64_S1x64_1),
    unary main_v159 main_v160 (broadcastInDim S50000x64 ![0, 1] bcast_S1x64_S50000x64_0_1),
    binary main_v158 main_v160 main_v161 (addf) ]

abbrev c16 : List (HloOp τ sig (Elt F)) :=
  [ nullary main_cst_31 (constant S_ .f32 0x00000000#32),
    binary main_v161 main_cst_31 main_v162 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_32 (constant S_ .f32 0x47435000#32),
    unary main_cst_32 main_v163 (broadcastInDim S64 ![] bcast_S_S64),
    binary main_v162 main_v163 main_v164 (Host.divf),
    nullary main_c_33 (constantI S_ 32 0#32),
    nullary main_call7_cst (constant S_ .f32 0x00000000#32),
    binary main_v161 main_call7_cst main_call7_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call7_v0 main_call7_v1 ((broadcastInDim S1x64 ![1] bcast_S64_S1x64_1)),
    nullary main_call7_cst_0 (constant S_ .f32 0x47435000#32),
    unary main_call7_cst_0 main_call7_v2 ((broadcastInDim S1x64 ![] bcast_S_S1x64)),
    binary main_call7_v1 main_call7_v2 main_call7_v3 (Host.divf),
    unary main_call7_v3 main_call7_v4 ((broadcastInDim S50000x64 ![0, 1] bcast_S1x64_S50000x64_0_1)),
    binary main_v161 main_call7_v4 main_call7_v5 (subf),
    binary main_call7_v5 main_call7_v5 main_call7_v6 (mulf),
    unary main_c_33 main_call7_v7 ((sitofp .f32)),
    nullary main_call7_cst_1 (constant S_ .f32 0x47435000#32),
    binary main_call7_cst_1 main_call7_v7 main_call7_v8 (subf),
    nullary main_call7_cst_2 (constant S_ .f32 0x00000000#32),
    binary main_call7_v6 main_call7_cst_2 main_call7_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call7_v8 main_call7_v10 ((broadcastInDim S64 ![] bcast_S_S64)),
    binary main_call7_v9 main_call7_v10 main_call7_v11 (Host.divf),
    nullary main_call7_cst_3 (constant S_ .f32 0x00000000#32),
    binary main_call7_v8 main_call7_cst_3 main_call7_v12 ((cmpf .ogt)),
    nullary main_call7_cst_4 (constant S_ .f32 0x7FC00000#32),
    unary main_call7_cst_4 main_call7_call0_v0 (id),
    unary main_call7_call0_v0 main_call7_call0_v1 ((broadcastInDim S64 ![] bcast_S_S64)),
    ternary main_call7_v12 main_call7_v11 main_call7_call0_v1 main_v165 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v164 main_v166 (broadcastInDim S1x64 ![1] bcast_S64_S1x64_1),
    unary main_v166 main_v167 (broadcastInDim S50000x64 ![0, 1] bcast_S1x64_S50000x64_0_1),
    binary main_v161 main_v167 main_v168 (subf),
    unary main_arg18 main_v169 (broadcastInDim S1x64 ![1] bcast_S64_S1x64_1),
    unary main_v169 main_v170 (broadcastInDim S50000x64 ![0, 1] bcast_S1x64_S50000x64_0_1),
    binary main_v170 main_v168 main_v171 (mulf),
    nullary main_cst_34 (constant S_ .f32 0x3727C5AC#32),
    unary main_cst_34 main_v172 (broadcastInDim S64 ![] bcast_S_S64),
    binary main_v165 main_v172 main_v173 (addf),
    unary main_v173 main_v174 (Host.rsqrt),
    unary main_v174 main_v175 (broadcastInDim S1x64 ![1] bcast_S64_S1x64_1),
    unary main_v175 main_v176 (broadcastInDim S50000x64 ![0, 1] bcast_S1x64_S50000x64_0_1),
    binary main_v171 main_v176 main_v177 (mulf),
    unary main_arg19 main_v178 (broadcastInDim S1x64 ![1] bcast_S64_S1x64_1),
    unary main_v178 main_v179 (broadcastInDim S50000x64 ![0, 1] bcast_S1x64_S50000x64_0_1),
    binary main_v177 main_v179 main_v180 (addf) ]

abbrev c17 : List (HloOp τ sig (Elt F)) :=
  [ nullary main_call8_cst (constant S_ .f32 0x00000000#32),
    unary main_call8_cst main_call8_v0 ((broadcastInDim S50000x64 ![] bcast_S_S50000x64)),
    binary main_v180 main_call8_v0 main_v181 (maximumf) ]

abbrev c18 : List (HloOp τ sig (Elt F)) :=
  [ binary main_v181 main_arg20 main_v182 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    nullary main_c_35 (constantI S_ 32 0#32),
    unary main_c_35 main_v183 (broadcastInDim S850000 ![] bcast_S_S850000),
    binary main_v3 main_v183 main_v184 (cmpi .slt),
    nullary main_c_36 (constantI S_ 32 50000#32),
    unary main_c_36 main_v185 (broadcastInDim S850000 ![] bcast_S_S850000),
    binary main_v3 main_v185 main_v186 (addi),
    ternary main_v184 main_v186 main_v3 main_v187 (select),
    unary main_v187 main_v188 (broadcastInDim S850000x1 ![0] bcast_S850000_S850000x1_0),
    binary main_v182 main_v188 main_v189 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v33 main_v190 (broadcastInDim S850000x1 ![0] bcast_S850000_S850000x1_0),
    unary main_v190 main_v191 (broadcastInDim S850000x128 ![0, 1] bcast_S850000x1_S850000x128_0_1),
    binary main_v189 main_v191 main_v192 (mulf),
    nullary main_cst_37 (constant S_ .f32 0x00000000#32),
    unary main_cst_37 main_v193 (broadcastInDim S50000x128 ![] bcast_S_S50000x128),
    unary main_v6 main_v194 (broadcastInDim S850000x1 ![0] bcast_S850000_S850000x1_0),
    ternary main_v193 main_v194 main_v192 main_v195 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg21 main_v196 (broadcastInDim S1x128 ![1] bcast_S128_S1x128_1),
    unary main_v196 main_v197 (broadcastInDim S50000x128 ![0, 1] bcast_S1x128_S50000x128_0_1),
    binary main_v195 main_v197 main_v198 (addf) ]

abbrev c19 : List (HloOp τ sig (Elt F)) :=
  [ nullary main_cst_38 (constant S_ .f32 0x00000000#32) ]

abbrev c20 : List (HloOp τ sig (Elt F)) :=
  [ binary main_v198 main_cst_38 main_v199 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_39 (constant S_ .f32 0x47435000#32),
    unary main_cst_39 main_v200 (broadcastInDim S128 ![] bcast_S_S128),
    binary main_v199 main_v200 main_v201 (Host.divf),
    nullary main_c_40 (constantI S_ 32 0#32),
    nullary main_call9_cst (constant S_ .f32 0x00000000#32),
    binary main_v198 main_call9_cst main_call9_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call9_v0 main_call9_v1 ((broadcastInDim S1x128 ![1] bcast_S128_S1x128_1)),
    nullary main_call9_cst_0 (constant S_ .f32 0x47435000#32),
    unary main_call9_cst_0 main_call9_v2 ((broadcastInDim S1x128 ![] bcast_S_S1x128)),
    binary main_call9_v1 main_call9_v2 main_call9_v3 (Host.divf),
    unary main_call9_v3 main_call9_v4 ((broadcastInDim S50000x128 ![0, 1] bcast_S1x128_S50000x128_0_1)),
    binary main_v198 main_call9_v4 main_call9_v5 (subf),
    binary main_call9_v5 main_call9_v5 main_call9_v6 (mulf),
    unary main_c_40 main_call9_v7 ((sitofp .f32)),
    nullary main_call9_cst_1 (constant S_ .f32 0x47435000#32),
    binary main_call9_cst_1 main_call9_v7 main_call9_v8 (subf),
    nullary main_call9_cst_2 (constant S_ .f32 0x00000000#32),
    binary main_call9_v6 main_call9_cst_2 main_call9_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call9_v8 main_call9_v10 ((broadcastInDim S128 ![] bcast_S_S128)),
    binary main_call9_v9 main_call9_v10 main_call9_v11 (Host.divf),
    nullary main_call9_cst_3 (constant S_ .f32 0x00000000#32),
    binary main_call9_v8 main_call9_cst_3 main_call9_v12 ((cmpf .ogt)),
    nullary main_call9_cst_4 (constant S_ .f32 0x7FC00000#32),
    unary main_call9_cst_4 main_call9_call0_v0 (id),
    unary main_call9_call0_v0 main_call9_call0_v1 ((broadcastInDim S128 ![] bcast_S_S128)),
    ternary main_call9_v12 main_call9_v11 main_call9_call0_v1 main_v202 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v201 main_v203 (broadcastInDim S1x128 ![1] bcast_S128_S1x128_1),
    unary main_v203 main_v204 (broadcastInDim S50000x128 ![0, 1] bcast_S1x128_S50000x128_0_1),
    binary main_v198 main_v204 main_v205 (subf),
    unary main_arg22 main_v206 (broadcastInDim S1x128 ![1] bcast_S128_S1x128_1),
    unary main_v206 main_v207 (broadcastInDim S50000x128 ![0, 1] bcast_S1x128_S50000x128_0_1),
    binary main_v207 main_v205 main_v208 (mulf),
    nullary main_cst_41 (constant S_ .f32 0x3727C5AC#32),
    unary main_cst_41 main_v209 (broadcastInDim S128 ![] bcast_S_S128),
    binary main_v202 main_v209 main_v210 (addf),
    unary main_v210 main_v211 (Host.rsqrt),
    unary main_v211 main_v212 (broadcastInDim S1x128 ![1] bcast_S128_S1x128_1),
    unary main_v212 main_v213 (broadcastInDim S50000x128 ![0, 1] bcast_S1x128_S50000x128_0_1),
    binary main_v208 main_v213 main_v214 (mulf),
    unary main_arg23 main_v215 (broadcastInDim S1x128 ![1] bcast_S128_S1x128_1),
    unary main_v215 main_v216 (broadcastInDim S50000x128 ![0, 1] bcast_S1x128_S50000x128_0_1),
    binary main_v214 main_v216 main_v217 (addf) ]

abbrev c21 : List (HloOp τ sig (Elt F)) :=
  [ nullary main_cst_42 (constant S_ .f32 0x00000000#32),
    unary main_cst_42 main_v218 (broadcastInDim S256x128 ![] bcast_S_S256x128),
    unary main_arg3 main_v219 (broadcastInDim S50000x1 ![0] bcast_S50000_S50000x1_0),
    ternary main_v218 main_v219 main_v217 main_v220 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)) ]

abbrev c22 : List (HloOp τ sig (Elt F)) :=
  [ nullary main_call10_cst (constant S_ .f32 0x00000000#32),
    unary main_call10_cst main_call10_v0 ((broadcastInDim S256x128 ![] bcast_S_S256x128)),
    binary main_v220 main_call10_v0 main_v221 (maximumf),
    binary main_v221 main_arg24 main_v222 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    unary main_arg25 main_v223 (broadcastInDim S1x64 ![1] bcast_S64_S1x64_1),
    unary main_v223 main_v224 (broadcastInDim S256x64 ![0, 1] bcast_S1x64_S256x64_0_1),
    binary main_v222 main_v224 main_v225 (addf),
    nullary main_call11_cst (constant S_ .f32 0x00000000#32),
    unary main_call11_cst main_call11_v0 ((broadcastInDim S256x64 ![] bcast_S_S256x64)),
    binary main_v225 main_call11_v0 main_v226 (maximumf),
    binary main_v226 main_arg26 main_v227 ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)),
    unary main_arg27 main_v228 (broadcastInDim S1x1 ![1] bcast_S1_S1x1_1),
    unary main_v228 main_v229 (broadcastInDim S256x1 ![0, 1] bcast_S1x1_S256x1_0_1),
    binary main_v227 main_v229 main_v230 (addf),
    reshape main_v230 main_v231 rfl shapeCasts_S256x1_S256 ]

def w0 : List (HloOp τ sig (Elt F)) :=
  c00 ++ (c01 ++ (c02 ++ (c03)))

def w1 : List (HloOp τ sig (Elt F)) :=
  c04 ++ (c05 ++ (c06 ++ (c07 ++ (c08 ++ (c09)))))

def w2 : List (HloOp τ sig (Elt F)) :=
  c10 ++ (c11 ++ (c12 ++ (c13 ++ (c14))))

def w3 : List (HloOp τ sig (Elt F)) :=
  c15 ++ (c16 ++ (c17 ++ (c18 ++ (c19))))

def w4 : List (HloOp τ sig (Elt F)) :=
  c20 ++ (c21 ++ (c22))

def ops : List (HloOp τ sig (Elt F)) :=
  w0 ++ (w1 ++ (w2 ++ (w3 ++ (w4))))

set_option maxRecDepth 8192 in
theorem main_part0_eq (c : Dev nD) : main_part0 (F := F) c = seq w0 := rfl

set_option maxRecDepth 8192 in
theorem main_part1_eq (c : Dev nD) : main_part1 (F := F) c = seq w1 := rfl

set_option maxRecDepth 8192 in
theorem main_part2_eq (c : Dev nD) : main_part2 (F := F) c = seq w2 := rfl

set_option maxRecDepth 8192 in
theorem main_part3_eq (c : Dev nD) : main_part3 (F := F) c = seq w3 := rfl

set_option maxRecDepth 8192 in
theorem main_part4_eq (c : Dev nD) : main_part4 (F := F) c = seq w4 := rfl

theorem main_eq (c : Dev nD) : main (F := F) c = seq ops := by
  unfold main ops
  rw [main_part0_eq, main_part1_eq, main_part2_eq, main_part3_eq, main_part4_eq]
  simp only [seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, w0, w1, w2, w3, w4, List.forall_append]
  exact ⟨⟨⟨nullary_bufs_sub .., unary_bufs_sub .., reshape_bufs_sub .., binary_bufs_sub .., unary_bufs_sub .., reshape_bufs_sub .., binary_bufs_sub .., nullary_bufs_sub .., unary_bufs_sub .., binary_bufs_sub ..⟩,
    ⟨nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩,
    ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩,
    ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩⟩,
    ⟨⟨unary_bufs_sub .., unary_bufs_sub .., binary_bufs_sub ..⟩,
    ⟨nullary_bufs_sub .., unary_bufs_sub .., binary_bufs_sub ..⟩,
    ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩,
    ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩,
    ⟨nullary_bufs_sub .., unary_bufs_sub .., binary_bufs_sub ..⟩,
    ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub ..⟩⟩,
    ⟨⟨binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩,
    ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩,
    ⟨nullary_bufs_sub .., unary_bufs_sub .., binary_bufs_sub ..⟩,
    ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩,
    ⟨binary_bufs_sub .., nullary_bufs_sub .., unary_bufs_sub .., binary_bufs_sub .., nullary_bufs_sub ..⟩⟩,
    ⟨⟨unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩,
    ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩,
    ⟨nullary_bufs_sub .., unary_bufs_sub .., binary_bufs_sub ..⟩,
    ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩,
    nullary_bufs_sub ..⟩,
    ⟨⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩,
    ⟨nullary_bufs_sub .., unary_bufs_sub .., unary_bufs_sub .., ternary_bufs_sub ..⟩,
    ⟨nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩⟩⟩

end Cert.ReferenceIdeal.RefRun

end
-- ==== Proof.RefRunVals.lean ====
import proofs.«424203_j57904749085258_1_alg».proof.Proof.RefRunOps
import proofs.«424203_j57904749085258_1_alg».proof.Proof.Spec

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

-- `op` has the one result `y`, and determines it.
abbrev Wr (op : HloOp τ sig (Elt Ideal)) (y : Ref sig .tc) : Prop :=
  op.writes = {Proc.devRef (τ := τ) .tc y} ∧ op.fresh = ∅

-- Operations whose results are, in order, the references `W` leave every other reference as it was.
theorem keep {ops : List (HloOp τ sig (Elt Ideal))} {W : List (Ref sig .tc)} (h : List.Forall₂ Wr ops W) :
    ∀ (V : Valuation τ sig (Elt Ideal)) {r : Ref sig .tc}, r ∉ W → after ops V (Proc.devRef .tc r) = V (Proc.devRef .tc r) := by
  induction h with
  | nil => exact fun _ _ _ => rfl
  | cons hd _ ih =>
    intro V r hr
    rw [after_cons, ih _ fun m => hr (List.mem_cons_of_mem _ m), HloOp.result_of_not_mem]
    rw [hd.1, Finset.mem_singleton]
    exact devRef_ne_of_ne fun e => hr (e ▸ List.mem_cons_self)

theorem fresh_of {ops : List (HloOp τ sig (Elt Ideal))} {W : List (Ref sig .tc)} (h : List.Forall₂ Wr ops W) :
    ops.Forall fun op => op.fresh = ∅ := by
  induction h with
  | nil => trivial
  | cons hd _ ih => exact (List.forall_cons _ _ _).mpr ⟨hd.2, ih⟩

-- A reference written neither before (`W'`) nor by the operations (`W`) still holds its first contents.
theorem keep_arg {ops : List (HloOp τ sig (Elt Ideal))} {W W' : List (Ref sig .tc)} (hw : List.Forall₂ Wr ops W)
    {U V : Valuation τ sig (Elt Ideal)} (hU : ∀ {r : Ref sig .tc}, r ∉ W' → U (Proc.devRef .tc r) = V (Proc.devRef .tc r))
    {r : Ref sig .tc} (h : r ∉ W' ++ W) : after ops U (Proc.devRef .tc r) = V (Proc.devRef .tc r) :=
  (keep hw U fun m => h (List.mem_append_right _ m)).trans (hU fun m => h (List.mem_append_left _ m))

variable (V0 : Valuation τ sig (Elt Ideal))

abbrev row := Cert.Gnn.rowOf (V0 (Proc.devRef .tc main_arg1))
abbrev col := Cert.Gnn.colOf (V0 (Proc.devRef .tc main_arg1))
abbrev nrm := Cert.Gnn.normOf (V0 (Proc.devRef .tc main_arg1)) (V0 (Proc.devRef .tc main_arg2))
abbrev lay1 := Cert.Gnn.h1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7))
abbrev cnv2 := Cert.Gnn.conv32 (row V0) (col V0) (nrm V0) (Cert.Gnn.lin2 (lay1 V0) (V0 (Proc.devRef .tc main_arg8))) (V0 (Proc.devRef .tc main_arg9))
abbrev act2 := Cert.Gnn.relu32 (cnv2 V0)
abbrev lay2 := Cert.Gnn.h2 (V0 (Proc.devRef .tc main_arg1)) (V0 (Proc.devRef .tc main_arg2)) (lay1 V0) (V0 (Proc.devRef .tc main_arg8)) (V0 (Proc.devRef .tc main_arg9)) (V0 (Proc.devRef .tc main_arg10)) (V0 (Proc.devRef .tc main_arg11))
abbrev lay3 := Cert.Gnn.h3 (V0 (Proc.devRef .tc main_arg1)) (V0 (Proc.devRef .tc main_arg2)) (lay2 V0) (V0 (Proc.devRef .tc main_arg12)) (V0 (Proc.devRef .tc main_arg13)) (V0 (Proc.devRef .tc main_arg14)) (V0 (Proc.devRef .tc main_arg15))
abbrev lay4 := Cert.Gnn.h4 (V0 (Proc.devRef .tc main_arg1)) (V0 (Proc.devRef .tc main_arg2)) (lay3 V0) (V0 (Proc.devRef .tc main_arg16)) (V0 (Proc.devRef .tc main_arg17)) (V0 (Proc.devRef .tc main_arg18)) (V0 (Proc.devRef .tc main_arg19))
abbrev lay5 := Cert.Gnn.h5 (V0 (Proc.devRef .tc main_arg1)) (V0 (Proc.devRef .tc main_arg2)) (lay4 V0) (V0 (Proc.devRef .tc main_arg20)) (V0 (Proc.devRef .tc main_arg21)) (V0 (Proc.devRef .tc main_arg22)) (V0 (Proc.devRef .tc main_arg23))

def val1 : Valuation τ sig (Elt Ideal) := after (c00 (F := Ideal)) V0
abbrev c00_W : List (Ref sig .tc) := [main_v0, main_v1, main_v2, main_v3, main_v4, main_v5, main_v6, main_cst, main_v7, main_v8]
abbrev W1 : List (Ref sig .tc) := c00_W
theorem c00_writes : List.Forall₂ Wr (c00 (F := Ideal)) c00_W := by repeat' constructor
theorem val1_arg {r : Ref sig .tc} (h : r ∉ W1) : val1 V0 (no_index (Proc.devRef .tc r)) = V0 (Proc.devRef .tc r) := keep c00_writes V0 h
theorem val1_main_v3 :
    val1 V0 (no_index (Proc.devRef .tc main_v3)) = (row V0) := by
  unfold val1
  simp only [c00]
  after_results
  rfl
theorem val1_main_v6 :
    val1 V0 (no_index (Proc.devRef .tc main_v6)) = (col V0) := by
  unfold val1
  simp only [c00]
  after_results
  rfl
theorem val1_main_v8 :
    val1 V0 (no_index (Proc.devRef .tc main_v8)) = (Cert.Gnn.wOf (V0 (Proc.devRef .tc main_arg2))) := by
  unfold val1
  simp only [c00]
  after_results
  rfl

def val2 : Valuation τ sig (Elt Ideal) := after (c01 (F := Ideal)) (val1 V0)
abbrev c01_W : List (Ref sig .tc) := [main_cst_0, main_v9, main_v10, main_v11, main_cst_1, main_v12, main_v13, main_cst_2, main_v14, main_v15, main_v16, main_cst_3, main_call0_v0, main_call0_v1, main_v17]
abbrev W2 : List (Ref sig .tc) := W1 ++ c01_W
theorem c01_writes : List.Forall₂ Wr (c01 (F := Ideal)) c01_W := by repeat' constructor
theorem val2_arg {r : Ref sig .tc} (h : r ∉ W2) : val2 V0 (no_index (Proc.devRef .tc r)) = V0 (Proc.devRef .tc r) :=
  keep_arg c01_writes (val1_arg V0) h
theorem val2_main_v3 :
    val2 V0 (no_index (Proc.devRef .tc main_v3)) = (row V0) :=
  (keep c01_writes _ (by decide)).trans (val1_main_v3 V0)
theorem val2_main_v6 :
    val2 V0 (no_index (Proc.devRef .tc main_v6)) = (col V0) :=
  (keep c01_writes _ (by decide)).trans (val1_main_v6 V0)
theorem val2_main_v8 :
    val2 V0 (no_index (Proc.devRef .tc main_v8)) = (Cert.Gnn.wOf (V0 (Proc.devRef .tc main_arg2))) :=
  (keep c01_writes _ (by decide)).trans (val1_main_v8 V0)
theorem val2_main_v17 :
    val2 V0 (no_index (Proc.devRef .tc main_v17)) = (Cert.Gnn.disOf (V0 (Proc.devRef .tc main_arg1)) (V0 (Proc.devRef .tc main_arg2))) := by
  unfold val2
  simp only [c01]
  after_results_simp
  simp only [val1_main_v8, val1_main_v6] <;> rfl

def val3 : Valuation τ sig (Elt Ideal) := after (c02 (F := Ideal)) (val2 V0)
abbrev c02_W : List (Ref sig .tc) := [main_c, main_v18, main_v19, main_c_4, main_v20, main_v21, main_v22, main_v23, main_v24, main_v25, main_c_5, main_v26, main_v27, main_c_6, main_v28, main_v29, main_v30, main_v31, main_v32, main_v33]
abbrev W3 : List (Ref sig .tc) := W2 ++ c02_W
theorem c02_writes : List.Forall₂ Wr (c02 (F := Ideal)) c02_W := by repeat' constructor
theorem val3_arg {r : Ref sig .tc} (h : r ∉ W3) : val3 V0 (no_index (Proc.devRef .tc r)) = V0 (Proc.devRef .tc r) :=
  keep_arg c02_writes (val2_arg V0) h
theorem val3_main_v3 :
    val3 V0 (no_index (Proc.devRef .tc main_v3)) = (row V0) :=
  (keep c02_writes _ (by decide)).trans (val2_main_v3 V0)
theorem val3_main_v6 :
    val3 V0 (no_index (Proc.devRef .tc main_v6)) = (col V0) :=
  (keep c02_writes _ (by decide)).trans (val2_main_v6 V0)
theorem val3_main_v33 :
    val3 V0 (no_index (Proc.devRef .tc main_v33)) = (nrm V0) := by
  unfold val3
  simp only [c02]
  after_results_simp
  simp only [val2_main_v6, val2_main_v17, val2_main_v8, val2_main_v3] <;> rfl

def val4 : Valuation τ sig (Elt Ideal) := after (c03 (F := Ideal)) (val3 V0)
abbrev c03_W : List (Ref sig .tc) := [main_v34, main_c_7, main_v35, main_v36, main_c_8, main_v37, main_v38, main_v39, main_v40, main_v41, main_v42, main_v43, main_v44, main_cst_9, main_v45, main_v46, main_v47]
abbrev W4 : List (Ref sig .tc) := W3 ++ c03_W
theorem c03_writes : List.Forall₂ Wr (c03 (F := Ideal)) c03_W := by repeat' constructor
theorem val4_arg {r : Ref sig .tc} (h : r ∉ W4) : val4 V0 (no_index (Proc.devRef .tc r)) = V0 (Proc.devRef .tc r) :=
  keep_arg c03_writes (val3_arg V0) h
theorem val4_main_v47 :
    val4 V0 (no_index (Proc.devRef .tc main_v47)) = (Host.scatterAdd scatter_S50000x16_S850000x1_S850000x16_1_0_0_1 (broadcastInDim S50000x16 ![] bcast_S_S50000x16 (constant (F := Ideal) S_ .f32 0x00000000#32)) (broadcastInDim S850000x1 ![0] bcast_S850000_S850000x1_0 (col V0)) (mulf (Host.gather gather_S50000x16_S850000x1_S850000x16_1_0_n_n_0_1_116 (Cert.Gnn.lin1 (V0 (Proc.devRef .tc main_arg0)) (V0 (Proc.devRef .tc main_arg4))) (broadcastInDim S850000x1 ![0] bcast_S850000_S850000x1_0 (select (cmpi .slt (row V0) (broadcastInDim S850000 ![] bcast_S_S850000 (constantI S_ 32 0#32))) (addi (row V0) (broadcastInDim S850000 ![] bcast_S_S850000 (constantI S_ 32 50000#32))) (row V0)))) (broadcastInDim S850000x16 ![0, 1] bcast_S850000x1_S850000x16_0_1 (broadcastInDim S850000x1 ![0] bcast_S850000_S850000x1_0 (nrm V0))))) := by
  unfold val4
  simp only [c03]
  after_results_simp
  simp (disch := decide) only [val3_main_v33, val3_main_v3, val3_main_v6, val3_arg] <;> rfl

def val5 : Valuation τ sig (Elt Ideal) := after (c04 (F := Ideal)) (val4 V0)
abbrev c04_W : List (Ref sig .tc) := [main_v48, main_v49, main_v50]
abbrev W5 : List (Ref sig .tc) := W4 ++ c04_W
theorem c04_writes : List.Forall₂ Wr (c04 (F := Ideal)) c04_W := by repeat' constructor
theorem val5_arg {r : Ref sig .tc} (h : r ∉ W5) : val5 V0 (no_index (Proc.devRef .tc r)) = V0 (Proc.devRef .tc r) :=
  keep_arg c04_writes (val4_arg V0) h
theorem val5_main_v50 :
    val5 V0 (no_index (Proc.devRef .tc main_v50)) = (Cert.Gnn.conv16 (row V0) (col V0) (nrm V0) (Cert.Gnn.lin1 (V0 (Proc.devRef .tc main_arg0)) (V0 (Proc.devRef .tc main_arg4))) (V0 (Proc.devRef .tc main_arg5))) := by
  unfold val5
  simp only [c04]
  after_results_simp
  simp (disch := decide) only [val4_main_v47, val4_arg] <;> rfl

def val6 : Valuation τ sig (Elt Ideal) := after (c05 (F := Ideal)) (val5 V0)
abbrev c05_W : List (Ref sig .tc) := [main_call1_cst, main_call1_v0, main_v51]
abbrev W6 : List (Ref sig .tc) := W5 ++ c05_W
theorem c05_writes : List.Forall₂ Wr (c05 (F := Ideal)) c05_W := by repeat' constructor
theorem val6_arg {r : Ref sig .tc} (h : r ∉ W6) : val6 V0 (no_index (Proc.devRef .tc r)) = V0 (Proc.devRef .tc r) :=
  keep_arg c05_writes (val5_arg V0) h
theorem val6_main_v51 :
    val6 V0 (no_index (Proc.devRef .tc main_v51)) = (Cert.Gnn.relu16 (Cert.Gnn.conv16 (row V0) (col V0) (nrm V0) (Cert.Gnn.lin1 (V0 (Proc.devRef .tc main_arg0)) (V0 (Proc.devRef .tc main_arg4))) (V0 (Proc.devRef .tc main_arg5)))) := by
  unfold val6
  simp only [c05]
  after_results_simp
  simp only [val5_main_v50] <;> rfl

def val7 : Valuation τ sig (Elt Ideal) := after (c06 (F := Ideal)) (val6 V0)
abbrev c06_W : List (Ref sig .tc) := [main_cst_10, main_v52, main_cst_11, main_v53, main_v54, main_c_12, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v55, main_v56, main_v57, main_v58, main_v59, main_v60, main_v61, main_cst_13, main_v62, main_v63, main_v64, main_v65, main_v66, main_v67, main_v68, main_v69, main_v70]
abbrev W7 : List (Ref sig .tc) := W6 ++ c06_W
theorem c06_writes : List.Forall₂ Wr (c06 (F := Ideal)) c06_W := by repeat' constructor
theorem val7_arg {r : Ref sig .tc} (h : r ∉ W7) : val7 V0 (no_index (Proc.devRef .tc r)) = V0 (Proc.devRef .tc r) :=
  keep_arg c06_writes (val6_arg V0) h
theorem val7_main_v3 :
    val7 V0 (no_index (Proc.devRef .tc main_v3)) = (row V0) :=
  (keep c06_writes _ (by decide)).trans ((keep c05_writes _ (by decide)).trans ((keep c04_writes _ (by decide)).trans ((keep c03_writes _ (by decide)).trans (val3_main_v3 V0))))
theorem val7_main_v6 :
    val7 V0 (no_index (Proc.devRef .tc main_v6)) = (col V0) :=
  (keep c06_writes _ (by decide)).trans ((keep c05_writes _ (by decide)).trans ((keep c04_writes _ (by decide)).trans ((keep c03_writes _ (by decide)).trans (val3_main_v6 V0))))
theorem val7_main_v33 :
    val7 V0 (no_index (Proc.devRef .tc main_v33)) = (nrm V0) :=
  (keep c06_writes _ (by decide)).trans ((keep c05_writes _ (by decide)).trans ((keep c04_writes _ (by decide)).trans ((keep c03_writes _ (by decide)).trans (val3_main_v33 V0))))
set_option maxHeartbeats 1000000 in
theorem val7_main_v70 :
    val7 V0 (no_index (Proc.devRef .tc main_v70)) = (lay1 V0) := by
  unfold val7
  simp only [c06]
  after_results_simp
  simp (disch := decide) only [val6_main_v51, val6_arg] <;> rfl

def val8 : Valuation τ sig (Elt Ideal) := after (c07 (F := Ideal)) (val7 V0)
abbrev c07_W : List (Ref sig .tc) := [main_v71, main_c_14, main_v72, main_v73, main_c_15, main_v74, main_v75, main_v76, main_v77, main_v78, main_v79, main_v80, main_v81, main_cst_16, main_v82, main_v83, main_v84, main_v85, main_v86, main_v87]
abbrev W8 : List (Ref sig .tc) := W7 ++ c07_W
theorem c07_writes : List.Forall₂ Wr (c07 (F := Ideal)) c07_W := by repeat' constructor
theorem val8_arg {r : Ref sig .tc} (h : r ∉ W8) : val8 V0 (no_index (Proc.devRef .tc r)) = V0 (Proc.devRef .tc r) :=
  keep_arg c07_writes (val7_arg V0) h
theorem val8_main_v87 :
    val8 V0 (no_index (Proc.devRef .tc main_v87)) = (cnv2 V0) := by
  unfold val8
  simp only [c07]
  after_results_simp
  simp (disch := decide) only [val7_main_v33, val7_main_v3, val7_main_v70, val7_main_v6, val7_arg] <;> rfl

def val9 : Valuation τ sig (Elt Ideal) := after (c08 (F := Ideal)) (val8 V0)
abbrev c08_W : List (Ref sig .tc) := [main_call3_cst, main_call3_v0, main_v88]
abbrev W9 : List (Ref sig .tc) := W8 ++ c08_W
theorem c08_writes : List.Forall₂ Wr (c08 (F := Ideal)) c08_W := by repeat' constructor
theorem val9_arg {r : Ref sig .tc} (h : r ∉ W9) : val9 V0 (no_index (Proc.devRef .tc r)) = V0 (Proc.devRef .tc r) :=
  keep_arg c08_writes (val8_arg V0) h
theorem val9_main_v88 :
    val9 V0 (no_index (Proc.devRef .tc main_v88)) = (act2 V0) := by
  unfold val9
  simp only [c08]
  after_results_simp
  simp only [val8_main_v87] <;> rfl

def val10 : Valuation τ sig (Elt Ideal) := after (c09 (F := Ideal)) (val9 V0)
abbrev c09_W : List (Ref sig .tc) := [main_cst_17, main_v89, main_cst_18, main_v90, main_v91, main_c_19, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v92, main_v93, main_v94, main_v95, main_v96, main_v97]
abbrev W10 : List (Ref sig .tc) := W9 ++ c09_W
theorem c09_writes : List.Forall₂ Wr (c09 (F := Ideal)) c09_W := by repeat' constructor
theorem val10_arg {r : Ref sig .tc} (h : r ∉ W10) : val10 V0 (no_index (Proc.devRef .tc r)) = V0 (Proc.devRef .tc r) :=
  keep_arg c09_writes (val9_arg V0) h
theorem val10_main_v92 :
    val10 V0 (no_index (Proc.devRef .tc main_v92)) = Cert.Gnn.var32 (act2 V0) := by
  unfold val10
  simp only [c09]
  after_results_simp
  simp only [val9_main_v88] <;> rfl
theorem val10_main_v95 :
    val10 V0 (no_index (Proc.devRef .tc main_v95)) = subf (act2 V0) (Cert.Gnn.bcRow32 (Cert.Gnn.mean32 (act2 V0))) := by
  unfold val10
  simp only [c09]
  after_results_simp
  simp only [val9_main_v88] <;> rfl
theorem val10_main_v97 :
    val10 V0 (no_index (Proc.devRef .tc main_v97)) = Cert.Gnn.bcRow32 (V0 (Proc.devRef .tc main_arg10)) := by
  unfold val10
  simp only [c09]
  after_results_simp
  simp (disch := decide) only [val9_arg] <;> rfl

def val11 : Valuation τ sig (Elt Ideal) := after (c10 (F := Ideal)) (val10 V0)
abbrev c10_W : List (Ref sig .tc) := [main_v98, main_cst_20, main_v99, main_v100, main_v101, main_v102, main_v103, main_v104, main_v105, main_v106, main_v107]
abbrev W11 : List (Ref sig .tc) := W10 ++ c10_W
theorem c10_writes : List.Forall₂ Wr (c10 (F := Ideal)) c10_W := by repeat' constructor
theorem val11_arg {r : Ref sig .tc} (h : r ∉ W11) : val11 V0 (no_index (Proc.devRef .tc r)) = V0 (Proc.devRef .tc r) :=
  keep_arg c10_writes (val10_arg V0) h
theorem val11_main_v3 :
    val11 V0 (no_index (Proc.devRef .tc main_v3)) = (row V0) :=
  (keep c10_writes _ (by decide)).trans ((keep c09_writes _ (by decide)).trans ((keep c08_writes _ (by decide)).trans ((keep c07_writes _ (by decide)).trans (val7_main_v3 V0))))
theorem val11_main_v6 :
    val11 V0 (no_index (Proc.devRef .tc main_v6)) = (col V0) :=
  (keep c10_writes _ (by decide)).trans ((keep c09_writes _ (by decide)).trans ((keep c08_writes _ (by decide)).trans ((keep c07_writes _ (by decide)).trans (val7_main_v6 V0))))
theorem val11_main_v33 :
    val11 V0 (no_index (Proc.devRef .tc main_v33)) = (nrm V0) :=
  (keep c10_writes _ (by decide)).trans ((keep c09_writes _ (by decide)).trans ((keep c08_writes _ (by decide)).trans ((keep c07_writes _ (by decide)).trans (val7_main_v33 V0))))
theorem val11_main_v107 :
    val11 V0 (no_index (Proc.devRef .tc main_v107)) = (lay2 V0) := by
  unfold val11
  simp only [c10]
  after_results_simp
  simp (disch := decide) only [val10_main_v92, val10_main_v95, val10_main_v97, val10_arg] <;> rfl

def val12 : Valuation τ sig (Elt Ideal) := after (c11 (F := Ideal)) (val11 V0)
abbrev c11_W : List (Ref sig .tc) := [main_v108, main_c_21, main_v109, main_v110, main_c_22, main_v111, main_v112, main_v113, main_v114, main_v115, main_v116, main_v117, main_v118, main_cst_23, main_v119, main_v120, main_v121, main_v122, main_v123, main_v124]
abbrev W12 : List (Ref sig .tc) := W11 ++ c11_W
theorem c11_writes : List.Forall₂ Wr (c11 (F := Ideal)) c11_W := by repeat' constructor
theorem val12_arg {r : Ref sig .tc} (h : r ∉ W12) : val12 V0 (no_index (Proc.devRef .tc r)) = V0 (Proc.devRef .tc r) :=
  keep_arg c11_writes (val11_arg V0) h
theorem val12_main_v124 :
    val12 V0 (no_index (Proc.devRef .tc main_v124)) = (Cert.Gnn.conv64 (row V0) (col V0) (nrm V0) (Cert.Gnn.lin3 (lay2 V0) (V0 (Proc.devRef .tc main_arg12))) (V0 (Proc.devRef .tc main_arg13))) := by
  unfold val12
  simp only [c11]
  after_results_simp
  simp (disch := decide) only [val11_main_v33, val11_main_v3, val11_main_v107, val11_main_v6, val11_arg] <;> rfl

def val13 : Valuation τ sig (Elt Ideal) := after (c12 (F := Ideal)) (val12 V0)
abbrev c12_W : List (Ref sig .tc) := [main_call5_cst, main_call5_v0, main_v125]
abbrev W13 : List (Ref sig .tc) := W12 ++ c12_W
theorem c12_writes : List.Forall₂ Wr (c12 (F := Ideal)) c12_W := by repeat' constructor
theorem val13_arg {r : Ref sig .tc} (h : r ∉ W13) : val13 V0 (no_index (Proc.devRef .tc r)) = V0 (Proc.devRef .tc r) :=
  keep_arg c12_writes (val12_arg V0) h
theorem val13_main_v125 :
    val13 V0 (no_index (Proc.devRef .tc main_v125)) = (Cert.Gnn.relu64 (Cert.Gnn.conv64 (row V0) (col V0) (nrm V0) (Cert.Gnn.lin3 (lay2 V0) (V0 (Proc.devRef .tc main_arg12))) (V0 (Proc.devRef .tc main_arg13)))) := by
  unfold val13
  simp only [c12]
  after_results_simp
  simp only [val12_main_v124] <;> rfl

def val14 : Valuation τ sig (Elt Ideal) := after (c13 (F := Ideal)) (val13 V0)
abbrev c13_W : List (Ref sig .tc) := [main_cst_24, main_v126, main_cst_25, main_v127, main_v128, main_c_26, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v129, main_v130, main_v131, main_v132, main_v133, main_v134, main_v135, main_cst_27, main_v136, main_v137, main_v138, main_v139, main_v140, main_v141, main_v142, main_v143, main_v144]
abbrev W14 : List (Ref sig .tc) := W13 ++ c13_W
theorem c13_writes : List.Forall₂ Wr (c13 (F := Ideal)) c13_W := by repeat' constructor
theorem val14_arg {r : Ref sig .tc} (h : r ∉ W14) : val14 V0 (no_index (Proc.devRef .tc r)) = V0 (Proc.devRef .tc r) :=
  keep_arg c13_writes (val13_arg V0) h
theorem val14_main_v3 :
    val14 V0 (no_index (Proc.devRef .tc main_v3)) = (row V0) :=
  (keep c13_writes _ (by decide)).trans ((keep c12_writes _ (by decide)).trans ((keep c11_writes _ (by decide)).trans (val11_main_v3 V0)))
set_option maxHeartbeats 1000000 in
theorem val14_main_v144 :
    val14 V0 (no_index (Proc.devRef .tc main_v144)) = (lay3 V0) := by
  unfold val14
  simp only [c13]
  after_results_simp
  simp (disch := decide) only [val13_main_v125, val13_arg] <;> rfl

def val15 : Valuation τ sig (Elt Ideal) := after (c14 (F := Ideal)) (val14 V0)
abbrev c14_W : List (Ref sig .tc) := [main_v145, main_c_28, main_v146, main_v147, main_c_29]
abbrev W15 : List (Ref sig .tc) := W14 ++ c14_W
theorem c14_writes : List.Forall₂ Wr (c14 (F := Ideal)) c14_W := by repeat' constructor
theorem val15_arg {r : Ref sig .tc} (h : r ∉ W15) : val15 V0 (no_index (Proc.devRef .tc r)) = V0 (Proc.devRef .tc r) :=
  keep_arg c14_writes (val14_arg V0) h
theorem val15_main_v3 :
    val15 V0 (no_index (Proc.devRef .tc main_v3)) = (row V0) :=
  (keep c14_writes _ (by decide)).trans (val14_main_v3 V0)
theorem val15_main_v6 :
    val15 V0 (no_index (Proc.devRef .tc main_v6)) = (col V0) :=
  (keep c14_writes _ (by decide)).trans ((keep c13_writes _ (by decide)).trans ((keep c12_writes _ (by decide)).trans ((keep c11_writes _ (by decide)).trans (val11_main_v6 V0))))
theorem val15_main_v33 :
    val15 V0 (no_index (Proc.devRef .tc main_v33)) = (nrm V0) :=
  (keep c14_writes _ (by decide)).trans ((keep c13_writes _ (by decide)).trans ((keep c12_writes _ (by decide)).trans ((keep c11_writes _ (by decide)).trans (val11_main_v33 V0))))
theorem val15_main_v145 :
    val15 V0 (no_index (Proc.devRef .tc main_v145)) = (Cert.Gnn.lin4 (lay3 V0) (V0 (Proc.devRef .tc main_arg16))) := by
  unfold val15
  simp only [c14]
  after_results_simp
  simp (disch := decide) only [val14_main_v144, val14_arg] <;> rfl
theorem val15_main_v147 :
    val15 V0 (no_index (Proc.devRef .tc main_v147)) = (cmpi .slt (row V0) (broadcastInDim S850000 ![] bcast_S_S850000 (constantI S_ 32 0#32))) := by
  unfold val15
  simp only [c14]
  after_results_simp
  simp only [val14_main_v3] <;> rfl
theorem val15_main_c_29 :
    val15 V0 (no_index (Proc.devRef .tc main_c_29)) = (constantI S_ 32 50000#32) := by
  unfold val15
  simp only [c14]
  after_results_simp
  all_goals rfl

def val16 : Valuation τ sig (Elt Ideal) := after (c15 (F := Ideal)) (val15 V0)
abbrev c15_W : List (Ref sig .tc) := [main_v148, main_v149, main_v150, main_v151, main_v152, main_v153, main_v154, main_v155, main_cst_30, main_v156, main_v157, main_v158, main_v159, main_v160, main_v161]
abbrev W16 : List (Ref sig .tc) := W15 ++ c15_W
theorem c15_writes : List.Forall₂ Wr (c15 (F := Ideal)) c15_W := by repeat' constructor
theorem val16_arg {r : Ref sig .tc} (h : r ∉ W16) : val16 V0 (no_index (Proc.devRef .tc r)) = V0 (Proc.devRef .tc r) :=
  keep_arg c15_writes (val15_arg V0) h
theorem val16_main_v161 :
    val16 V0 (no_index (Proc.devRef .tc main_v161)) = (Cert.Gnn.conv64 (row V0) (col V0) (nrm V0) (Cert.Gnn.lin4 (lay3 V0) (V0 (Proc.devRef .tc main_arg16))) (V0 (Proc.devRef .tc main_arg17))) := by
  unfold val16
  simp only [c15]
  after_results_simp
  simp (disch := decide) only [val15_main_v33, val15_main_v3, val15_main_c_29, val15_main_v147, val15_main_v145, val15_main_v6, val15_arg] <;> rfl

def val17 : Valuation τ sig (Elt Ideal) := after (c16 (F := Ideal)) (val16 V0)
abbrev c16_W : List (Ref sig .tc) := [main_cst_31, main_v162, main_cst_32, main_v163, main_v164, main_c_33, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v165, main_v166, main_v167, main_v168, main_v169, main_v170, main_v171, main_cst_34, main_v172, main_v173, main_v174, main_v175, main_v176, main_v177, main_v178, main_v179, main_v180]
abbrev W17 : List (Ref sig .tc) := W16 ++ c16_W
theorem c16_writes : List.Forall₂ Wr (c16 (F := Ideal)) c16_W := by repeat' constructor
theorem val17_arg {r : Ref sig .tc} (h : r ∉ W17) : val17 V0 (no_index (Proc.devRef .tc r)) = V0 (Proc.devRef .tc r) :=
  keep_arg c16_writes (val16_arg V0) h
theorem val17_main_v180 :
    val17 V0 (no_index (Proc.devRef .tc main_v180)) = (Cert.Gnn.bn64 (Cert.Gnn.conv64 (row V0) (col V0) (nrm V0) (Cert.Gnn.lin4 (lay3 V0) (V0 (Proc.devRef .tc main_arg16))) (V0 (Proc.devRef .tc main_arg17))) (V0 (Proc.devRef .tc main_arg18)) (V0 (Proc.devRef .tc main_arg19))) := by
  unfold val17
  simp only [c16]
  after_results_simp
  simp (disch := decide) only [val16_main_v161, val16_arg] <;> rfl

def val18 : Valuation τ sig (Elt Ideal) := after (c17 (F := Ideal)) (val17 V0)
abbrev c17_W : List (Ref sig .tc) := [main_call8_cst, main_call8_v0, main_v181]
abbrev W18 : List (Ref sig .tc) := W17 ++ c17_W
theorem c17_writes : List.Forall₂ Wr (c17 (F := Ideal)) c17_W := by repeat' constructor
theorem val18_arg {r : Ref sig .tc} (h : r ∉ W18) : val18 V0 (no_index (Proc.devRef .tc r)) = V0 (Proc.devRef .tc r) :=
  keep_arg c17_writes (val17_arg V0) h
theorem val18_main_v3 :
    val18 V0 (no_index (Proc.devRef .tc main_v3)) = (row V0) :=
  (keep c17_writes _ (by decide)).trans ((keep c16_writes _ (by decide)).trans ((keep c15_writes _ (by decide)).trans (val15_main_v3 V0)))
theorem val18_main_v6 :
    val18 V0 (no_index (Proc.devRef .tc main_v6)) = (col V0) :=
  (keep c17_writes _ (by decide)).trans ((keep c16_writes _ (by decide)).trans ((keep c15_writes _ (by decide)).trans (val15_main_v6 V0)))
theorem val18_main_v33 :
    val18 V0 (no_index (Proc.devRef .tc main_v33)) = (nrm V0) :=
  (keep c17_writes _ (by decide)).trans ((keep c16_writes _ (by decide)).trans ((keep c15_writes _ (by decide)).trans (val15_main_v33 V0)))
theorem val18_main_v181 :
    val18 V0 (no_index (Proc.devRef .tc main_v181)) = (lay4 V0) := by
  unfold val18
  simp only [c17]
  after_results_simp
  simp only [val17_main_v180] <;> rfl

def val19 : Valuation τ sig (Elt Ideal) := after (c18 (F := Ideal)) (val18 V0)
abbrev c18_W : List (Ref sig .tc) := [main_v182, main_c_35, main_v183, main_v184, main_c_36, main_v185, main_v186, main_v187, main_v188, main_v189, main_v190, main_v191, main_v192, main_cst_37, main_v193, main_v194, main_v195, main_v196, main_v197, main_v198]
abbrev W19 : List (Ref sig .tc) := W18 ++ c18_W
theorem c18_writes : List.Forall₂ Wr (c18 (F := Ideal)) c18_W := by repeat' constructor
theorem val19_arg {r : Ref sig .tc} (h : r ∉ W19) : val19 V0 (no_index (Proc.devRef .tc r)) = V0 (Proc.devRef .tc r) :=
  keep_arg c18_writes (val18_arg V0) h
theorem val19_main_v198 :
    val19 V0 (no_index (Proc.devRef .tc main_v198)) = (Cert.Gnn.conv128 (row V0) (col V0) (nrm V0) (Cert.Gnn.lin5 (lay4 V0) (V0 (Proc.devRef .tc main_arg20))) (V0 (Proc.devRef .tc main_arg21))) := by
  unfold val19
  simp only [c18]
  after_results_simp
  simp (disch := decide) only [val18_main_v33, val18_main_v3, val18_main_v181, val18_main_v6, val18_arg] <;> rfl

def val20 : Valuation τ sig (Elt Ideal) := after (c19 (F := Ideal)) (val19 V0)
abbrev c19_W : List (Ref sig .tc) := [main_cst_38]
abbrev W20 : List (Ref sig .tc) := W19 ++ c19_W
theorem c19_writes : List.Forall₂ Wr (c19 (F := Ideal)) c19_W := by repeat' constructor
theorem val20_arg {r : Ref sig .tc} (h : r ∉ W20) : val20 V0 (no_index (Proc.devRef .tc r)) = V0 (Proc.devRef .tc r) :=
  keep_arg c19_writes (val19_arg V0) h
theorem val20_main_v198 :
    val20 V0 (no_index (Proc.devRef .tc main_v198)) = (Cert.Gnn.conv128 (row V0) (col V0) (nrm V0) (Cert.Gnn.lin5 (lay4 V0) (V0 (Proc.devRef .tc main_arg20))) (V0 (Proc.devRef .tc main_arg21))) :=
  (keep c19_writes _ (by decide)).trans (val19_main_v198 V0)
theorem val20_main_cst_38 :
    val20 V0 (no_index (Proc.devRef .tc main_cst_38)) = (constant (F := Ideal) S_ .f32 0x00000000#32) := by
  unfold val20
  simp only [c19]
  after_results_simp
  all_goals rfl

def val21 : Valuation τ sig (Elt Ideal) := after (c20 (F := Ideal)) (val20 V0)
abbrev c20_W : List (Ref sig .tc) := [main_v199, main_cst_39, main_v200, main_v201, main_c_40, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v202, main_v203, main_v204, main_v205, main_v206, main_v207, main_v208, main_cst_41, main_v209, main_v210, main_v211, main_v212, main_v213, main_v214, main_v215, main_v216, main_v217]
abbrev W21 : List (Ref sig .tc) := W20 ++ c20_W
theorem c20_writes : List.Forall₂ Wr (c20 (F := Ideal)) c20_W := by repeat' constructor
theorem val21_arg {r : Ref sig .tc} (h : r ∉ W21) : val21 V0 (no_index (Proc.devRef .tc r)) = V0 (Proc.devRef .tc r) :=
  keep_arg c20_writes (val20_arg V0) h
set_option maxHeartbeats 1000000 in
theorem val21_main_v217 :
    val21 V0 (no_index (Proc.devRef .tc main_v217)) = (lay5 V0) := by
  unfold val21
  simp only [c20]
  after_results_simp
  simp (disch := decide) only [val20_main_v198, val20_main_cst_38, val20_arg] <;> rfl

def val22 : Valuation τ sig (Elt Ideal) := after (c21 (F := Ideal)) (val21 V0)
abbrev c21_W : List (Ref sig .tc) := [main_cst_42, main_v218, main_v219, main_v220]
abbrev W22 : List (Ref sig .tc) := W21 ++ c21_W
theorem c21_writes : List.Forall₂ Wr (c21 (F := Ideal)) c21_W := by repeat' constructor
theorem val22_arg {r : Ref sig .tc} (h : r ∉ W22) : val22 V0 (no_index (Proc.devRef .tc r)) = V0 (Proc.devRef .tc r) :=
  keep_arg c21_writes (val21_arg V0) h
theorem val22_main_v220 :
    val22 V0 (no_index (Proc.devRef .tc main_v220)) = (Cert.Gnn.pool (lay5 V0) (V0 (Proc.devRef .tc main_arg3))) := by
  unfold val22
  simp only [c21]
  after_results_simp
  simp (disch := decide) only [val21_main_v217, val21_arg] <;> rfl

def val23 : Valuation τ sig (Elt Ideal) := after (c22 (F := Ideal)) (val22 V0)
abbrev c22_W : List (Ref sig .tc) := [main_call10_cst, main_call10_v0, main_v221, main_v222, main_v223, main_v224, main_v225, main_call11_cst, main_call11_v0, main_v226, main_v227, main_v228, main_v229, main_v230, main_v231]
abbrev W23 : List (Ref sig .tc) := W22 ++ c22_W
theorem c22_writes : List.Forall₂ Wr (c22 (F := Ideal)) c22_W := by repeat' constructor
theorem val23_arg {r : Ref sig .tc} (h : r ∉ W23) : val23 V0 (no_index (Proc.devRef .tc r)) = V0 (Proc.devRef .tc r) :=
  keep_arg c22_writes (val22_arg V0) h
theorem val23_main_v231 :
    val23 V0 (no_index (Proc.devRef .tc main_v231)) = (Cert.Gnn.net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27))) := by
  unfold val23
  simp only [c22]
  after_results_simp
  simp (disch := decide) only [val22_main_v220, val22_arg] <;> rfl

end Cert.ReferenceIdeal.RefRun

end
-- ==== Proof.RefRun.lean ====
import proofs.«424203_j57904749085258_1_alg».proof.Proof.RefRunVals

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

-- The fold over all the operations is the fold piece after piece.
theorem after_ops (V0 : Valuation τ sig (Elt Ideal)) : after (ops (F := Ideal)) V0 = val23 V0 := by
  simp only [ops, w0, w1, w2, w3, w4, after_app]
  rfl

theorem ops_fresh : ∀ op ∈ ops (F := Ideal), op.fresh = ∅ := List.forall_iff_forall_mem.mp <| by
  simp only [ops, w0, w1, w2, w3, w4, List.forall_append]
  exact ⟨⟨fresh_of c00_writes, fresh_of c01_writes, fresh_of c02_writes, fresh_of c03_writes⟩, ⟨fresh_of c04_writes, fresh_of c05_writes, fresh_of c06_writes, fresh_of c07_writes, fresh_of c08_writes, fresh_of c09_writes⟩, ⟨fresh_of c10_writes, fresh_of c11_writes, fresh_of c12_writes, fresh_of c13_writes, fresh_of c14_writes⟩, ⟨fresh_of c15_writes, fresh_of c16_writes, fresh_of c17_writes, fresh_of c18_writes, fresh_of c19_writes⟩, ⟨fresh_of c20_writes, fresh_of c21_writes, fresh_of c22_writes⟩⟩

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v231) = Cert.Gnn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run (defs (F := Ideal)) _ _).mono (fun s h c => by
      have e : ∀ r : Ref sig .tc, r ∉ W23 → s.2.mem ((c.tc : Thread nD τ).loc r) = m ((c.tc : Thread nD τ).loc r) :=
        fun r hr => (h c r).trans (by rw [after_ops]; exact val23_arg _ hr)
      refine ⟨(h c _).trans (by rw [after_ops]; exact val23_main_v231 _), ?_⟩
      iterate 27 refine ⟨e _ (by decide), ?_⟩
      exact e _ (by decide))
    (run_seq scopedRefs_eq scopedSems_eq (defs (F := Ideal)) (main (F := Ideal)) (fun _ => ops) main_eq (fun _ => ops_sub) m ρ (fun _ => ops_fresh))

end Cert.ReferenceIdeal.RefRun

end
-- ==== Proof.lean ====
import proofs.«424203_j57904749085258_1_alg».proof.Defs
import proofs.«424203_j57904749085258_1_alg».proof.Proof.Gen.Kernel
import proofs.«424203_j57904749085258_1_alg».proof.Proof.Gen.Kernel.Skeleton
import proofs.«424203_j57904749085258_1_alg».proof.Proof.Gen.Kernel.Launch
import proofs.«424203_j57904749085258_1_alg».proof.Proof.Gen.Kernel.Points
import proofs.«424203_j57904749085258_1_alg».proof.Proof.Gen.Kernel.Frame
import proofs.«424203_j57904749085258_1_alg».proof.Proof.Gen.KernelIdeal
import proofs.«424203_j57904749085258_1_alg».proof.Proof.Gen.KernelIdeal.Skeleton
import proofs.«424203_j57904749085258_1_alg».proof.Proof.Gen.KernelIdeal.Launch
import proofs.«424203_j57904749085258_1_alg».proof.Proof.Gen.KernelIdeal.Points
import proofs.«424203_j57904749085258_1_alg».proof.Proof.Gen.KernelIdeal.Frame
import proofs.«424203_j57904749085258_1_alg».proof.Proof.Gen.ReferenceIdeal
import proofs.«424203_j57904749085258_1_alg».proof.Proof.Gen.Pre_finite_inputs
import proofs.«424203_j57904749085258_1_alg».proof.Proof.KRun
import proofs.«424203_j57904749085258_1_alg».proof.Proof.KValue
import proofs.«424203_j57904749085258_1_alg».proof.Proof.RefRun
import proofs.«424203_j57904749085258_1_alg».proof.Proof.PreReal
import Idealize.ShloMosaic.Adequacy
import Idealize.ShloMosaic.Init

noncomputable section

namespace Cert.Proof

open Idealize.ShloMosaic Idealize.SL.Sem Cert.Kernel

theorem frame_ri : Cert.frame_ReferenceIdeal := fun m ρ _ =>
  (θ_run Cert.ReferenceIdeal.defs _ _).mono (fun _ h c => (h c).2) (Cert.ReferenceIdeal.RefRun.run m ρ)

theorem algebraic : Cert.algebraic_KernelIdeal_ReferenceIdeal := by
  intro m ρ m' ρ' hpre hagree
  refine ⟨fun c => Cert.KernelIdeal.KChain.netOf m c, ?_, ?_⟩
  · exact (θ_run Cert.KernelIdeal.defs _ _).mono
      (fun _ h c => ⟨(h c).1.trans (Cert.KernelIdeal.KChain.kernel_value m ρ hpre c), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.RefRun.run m' ρ')
    obtain ⟨a0, a1, a2, a3, a4, a5, a6, a7, a8, a9, a10, a11, a12, a13, a14, a15, a16, a17, a18, a19, a20, a21, a22, a23, a24, a25, a26, a27⟩ := hagree c
    simp only [a0, a1, a2, a3, a4, a5, a6, a7, a8, a9, a10, a11, a12, a13, a14, a15, a16, a17, a18, a19, a20, a21, a22, a23, a24, a25, a26, a27]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
